-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_v189) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x1024 : Shape := ⟨3, ![1, 2048, 1024]⟩
abbrev S2048 : Shape := ⟨1, ![2048]⟩
abbrev S2048x1024 : Shape := ⟨2, ![2048, 1024]⟩
abbrev S2048x2048 : Shape := ⟨2, ![2048, 2048]⟩
abbrev S8192x2048 : Shape := ⟨2, ![8192, 2048]⟩
abbrev S8192 : Shape := ⟨1, ![8192]⟩
abbrev S64x2048 : Shape := ⟨2, ![64, 2048]⟩
abbrev S64 : Shape := ⟨1, ![64]⟩
abbrev S1x2048 : Shape := ⟨2, ![1, 2048]⟩
abbrev S1 : Shape := ⟨1, ![1]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64 .f32) (main_arg12 : FVec F S1x2048 .f32) (main_arg13 : FVec F S1 .f32) (main_v48 : IVec S_ 1) (main_v49 : FVec F S64x2048 .f32) (main_v50 : FVec F S64x2048 .f32) : IVec S_ 1 :=
  let main_v51 : IVec S64x2048 1 := cmpf .olt main_v49 main_v50
  let main_c_19 : IVec S_ 1 := constantI S_ 1 1#1
  let main_v52 : IVec S_ 1 := (fun x v => Host.reduce IntOp.andi x v reducesTo_S64x2048_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S1x2048 .f32 := Host.absf main_arg12
  let main_cst_22 : FVec F S_ .f32 := constant S_ .f32 0x7F800000#32
  let main_v60 : FVec F S1x2048 .f32 := broadcastInDim S1x2048 ![] bcast_S_S1x2048 main_cst_22
  let main_v61 : IVec S1x2048 1 := cmpf .olt main_v59 main_v60
  let main_c_23 : IVec S_ 1 := constantI S_ 1 1#1
  let main_v62 : IVec S_ 1 := (fun x v => Host.reduce IntOp.andi x v reducesTo_S1x2048_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S8192x2048 .f32) (main_arg8 : FVec F S8192 .f32) (main_arg9 : FVec F S8192 .f32) (main_arg10 : FVec F S64x2048 .f32) (main_arg11 : FVec F S64 .f32) (main_arg12 : FVec F S1x2048 .f32) (main_arg13 : FVec F S1 .f32) (main_v33 : IVec S_ 1) : IVec S_ 1 :=
  let main_v34 : FVec F S8192x2048 .f32 := Host.absf main_arg7
  let main_cst_12 : FVec F S_ .f32 := constant S_ .f32 0x7F800000#32
  let main_v35 : FVec F S8192x2048 .f32 := broadcastInDim S8192x2048 ![] bcast_S_S8192x2048 main_cst_12
  let main_v36 : IVec S8192x2048 1 := cmpf .olt main_v34 main_v35
  let main_c_13 : IVec S_ 1 := constantI S_ 1 1#1
  let main_v37 : IVec S_ 1 := (fun x v => Host.reduce IntOp.andi x v reducesTo_S8192x2048_S_d0_1 h_S_) main_v36 main_c_13
  let main_v38 : IVec S_ 1 := andi main_v33 main_v37
  let main_v39 : FVec F S8192 .f32 := Host.absf main_arg8
  let main_cst_14 : FVec F S_ .f32 := constant S_ .f32 0x7F800000#32
  let main_v40 : FVec F S8192 .f32 := broadcastInDim S8192 ![] bcast_S_S8192 main_cst_14
  let main_v41 : IVec S8192 1 := cmpf .olt main_v39 main_v40
  let main_c_15 : IVec S_ 1 := constantI S_ 1 1#1
  let main_v42 : IVec S_ 1 := (fun x v => Host.reduce IntOp.andi x v reducesTo_S8192_S_d0 h_S_) main_v41 main_c_15
  let main_v43 : IVec S_ 1 := andi main_v38 main_v42
  let main_v44 : FVec F S8192 .f32 := Host.absf main_arg9
  let main_cst_16 : FVec F S_ .f32 := constant S_ .f32 0x7F800000#32
  let main_v45 : FVec F S8192 .f32 := broadcastInDim S8192 ![] bcast_S_S8192 main_cst_16
  let main_v46 : IVec S8192 1 := cmpf .olt main_v44 main_v45
  let main_c_17 : IVec S_ 1 := constantI S_ 1 1#1
  let main_v47 : IVec S_ 1 := (fun x v => Host.reduce IntOp.andi x v reducesTo_S8192_S_d0 h_S_) main_v46 main_c_17
  let main_v48 : IVec S_ 1 := andi main_v43 main_v47
  let main_v49 : FVec F S64x2048 .f32 := Host.absf main_arg10
  let main_cst_18 : FVec F S_ .f32 := constant S_ .f32 0x7F800000#32
  let main_v50 : FVec F S64x2048 .f32 := broadcastInDim S64x2048 ![] bcast_S_S64x2048 main_cst_18
  fn_part3 (F := F) main_arg11 main_arg12 main_arg13 main_v48 main_v49 main_v50

def fn_part1 {F : FTy → Type} [FloatOps F] (main_arg4 : FVec F S2048x2048 .f32) (main_arg5 : FVec F S2048 .f32) (main_arg6 : FVec F S8192x2048 .f32) (main_arg7 : FVec F S8192x2048 .f32) (main_arg8 : FVec F S8192 .f32) (main_arg9 : FVec F S8192 .f32) (main_arg10 : FVec F S64x2048 .f32) (main_arg11 : FVec F S64 .f32) (main_arg12 : FVec F S1x2048 .f32) (main_arg13 : FVec F S1 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S8192x2048 .f32 := Host.absf main_arg6
  let main_cst_10 : FVec F S_ .f32 := constant S_ .f32 0x7F800000#32
  let main_v30 : FVec F S8192x2048 .f32 := broadcastInDim S8192x2048 ![] bcast_S_S8192x2048 main_cst_10
  let main_v31 : IVec S8192x2048 1 := cmpf .olt main_v29 main_v30
  let main_c_11 : IVec S_ 1 := constantI S_ 1 1#1
  let main_v32 : IVec S_ 1 := (fun x v => Host.reduce IntOp.andi x v reducesTo_S8192x2048_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1x2048x1024 .f32) (main_arg1 : FVec F S2048 .f32) (main_arg2 : FVec F S2048x1024 .f32) (main_arg3 : FVec F S2048 .f32) (main_arg4 : FVec F S2048x2048 .f32) (main_arg5 : FVec F S2048 .f32) (main_arg6 : FVec F S8192x2048 .f32) (main_arg7 : FVec F S8192x2048 .f32) (main_arg8 : FVec F S8192 .f32) (main_arg9 : FVec F S8192 .f32) (main_arg10 : FVec F S64x2048 .f32) (main_arg11 : FVec F S64 .f32) (main_arg12 : FVec F S1x2048 .f32) (main_arg13 : FVec F S1 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_v13 main_v16
-- ==== Kernel.lean ====
abbrev S1x2048x1024 : Shape := ⟨3, ![1, 2048, 1024]⟩
abbrev S2048 : Shape := ⟨1, ![2048]⟩
abbrev S2048x1024 : Shape := ⟨2, ![2048, 1024]⟩
abbrev S2048x2048 : Shape := ⟨2, ![2048, 2048]⟩
abbrev S8192x2048 : Shape := ⟨2, ![8192, 2048]⟩
abbrev S8192 : Shape := ⟨1, ![8192]⟩
abbrev S64x2048 : Shape := ⟨2, ![64, 2048]⟩
abbrev S64 : Shape := ⟨1, ![64]⟩
abbrev S1x2048 : Shape := ⟨2, ![1, 2048]⟩
abbrev S1 : Shape := ⟨1, ![1]⟩
abbrev S4x4x512x2048 : Shape := ⟨4, ![4, 4, 512, 2048]⟩
abbrev S4x4x512 : Shape := ⟨3, ![4, 4, 512]⟩
abbrev S1x8192 : Shape := ⟨2, ![1, 8192]⟩
abbrev S256x512 : Shape := ⟨2, ![256, 512]⟩
abbrev S512x512 : Shape := ⟨2, ![512, 512]⟩
abbrev S1x512 : Shape := ⟨2, ![1, 512]⟩
abbrev S_ : Shape := ⟨0, ![]⟩
abbrev S2048x1 : Shape := ⟨2, ![2048, 1]⟩
abbrev S1x64 : Shape := ⟨2, ![1, 64]⟩
abbrev S1x1 : Shape := ⟨2, ![1, 1]⟩
abbrev S64x512 : Shape := ⟨2, ![64, 512]⟩
abbrev S1x256 : Shape := ⟨2, ![1, 256]⟩
abbrev S256x256 : Shape := ⟨2, ![256, 256]⟩
abbrev S512x256 : Shape := ⟨2, ![512, 256]⟩
abbrev S2048x64 : Shape := ⟨2, ![2048, 64]⟩
abbrev S256x64 : Shape := ⟨2, ![256, 64]⟩
abbrev S256x1 : Shape := ⟨2, ![256, 1]⟩
abbrev S256 : Shape := ⟨1, ![256]⟩
abbrev S1x2048x64 : Shape := ⟨3, ![1, 2048, 64]⟩
abbrev S1x2048x1 : Shape := ⟨3, ![1, 2048, 1]⟩

abbrev nBuf : Space → Nat
  | .hbm => 76
  | .vmem => 111
  | .smem => 0
  | _ => 0

abbrev bufTy : (tb : Table) → Fin (tcTables nBuf tb) → BufTy
  | .hbm, ⟨0, _⟩ => ⟨S1x2048x1024, .f32⟩
  | .hbm, ⟨1, _⟩ => ⟨S2048, .f32⟩
  | .hbm, ⟨2, _⟩ => ⟨S2048x1024, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S8192x2048, .f32⟩
  | .hbm, ⟨7, _⟩ => ⟨S8192x2048, .f32⟩
  | .hbm, ⟨8, _⟩ => ⟨S8192, .f32⟩
  | .hbm, ⟨9, _⟩ => ⟨S8192, .f32⟩
  | .hbm, ⟨10, _⟩ => ⟨S64x2048, .f32⟩
  | .hbm, ⟨11, _⟩ => ⟨S64, .f32⟩
  | .hbm, ⟨12, _⟩ => ⟨S1x2048, .f32⟩
  | .hbm, ⟨13, _⟩ => ⟨S1, .f32⟩
  | .hbm, ⟨14, _⟩ => ⟨S2048x1024, .f32⟩
  | .hbm, ⟨15, _⟩ => ⟨S2048x1024, .bf16⟩
  | .hbm, ⟨16, _⟩ => ⟨S2048x2048, .bf16⟩
  | .hbm, ⟨17, _⟩ => ⟨S64x2048, .bf16⟩
  | .hbm, ⟨18, _⟩ => ⟨S4x4x512x2048, .f32⟩
  | .hbm, ⟨19, _⟩ => ⟨S4x4x512x2048, .f32⟩
  | .hbm, ⟨20, _⟩ => ⟨S8192x2048, .f32⟩
  | .hbm, ⟨21, _⟩ => ⟨S8192x2048, .bf16⟩
  | .hbm, ⟨22, _⟩ => ⟨S4x4x512x2048, .f32⟩
  | .hbm, ⟨23, _⟩ => ⟨S4x4x512x2048, .f32⟩
  | .hbm, ⟨24, _⟩ => ⟨S8192x2048, .f32⟩
  | .hbm, ⟨25, _⟩ => ⟨S8192x2048, .bf16⟩
  | .hbm, ⟨26, _⟩ => ⟨S8192, .f32⟩
  | .hbm, ⟨27, _⟩ => ⟨S4x4x512, .f32⟩
  | .hbm, ⟨28, _⟩ => ⟨S4x4x512, .f32⟩
  | .hbm, ⟨29, _⟩ => ⟨S1x8192, .f32⟩
  | .hbm, ⟨30, _⟩ => ⟨S1x2048, .f32⟩
  | .hbm, ⟨31, _⟩ => ⟨S2048x2048, .f32⟩
  | .hbm, ⟨32, _⟩ => ⟨S2048x2048, .i32⟩
  | .hbm, ⟨33, _⟩ => ⟨S2048x2048, .i32⟩
  | .hbm, ⟨34, _⟩ => ⟨S_, .i32⟩
  | .hbm, ⟨35, _⟩ => ⟨S2048x2048, .i32⟩
  | .hbm, ⟨36, _⟩ => ⟨S2048x2048, .i32⟩
  | .hbm, ⟨37, _⟩ => ⟨S2048x2048, .i1⟩
  | .hbm, ⟨38, _⟩ => ⟨S2048x2048, .f32⟩
  | .hbm, ⟨39, _⟩ => ⟨S_, .f32⟩
  | .hbm, ⟨40, _⟩ => ⟨S2048x2048, .f32⟩
  | .hbm, ⟨41, _⟩ => ⟨S2048x2048, .f32⟩
  | .hbm, ⟨42, _⟩ => ⟨S_, .f32⟩
  | .hbm, ⟨43, _⟩ => ⟨S_, .f32⟩
  | .hbm, ⟨44, _⟩ => ⟨S2048x1, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S_, .f32⟩
  | .hbm, ⟨51, _⟩ => ⟨S_, .f32⟩
  | .hbm, ⟨52, _⟩ => ⟨S2048x2048, .f32⟩
  | .hbm, ⟨53, _⟩ => ⟨S2048x2048, .f32⟩
  | .hbm, ⟨54, _⟩ => ⟨S1x64, .f32⟩
  | .hbm, ⟨55, _⟩ => ⟨S1x1, .f32⟩
  | .hbm, ⟨56, _⟩ => ⟨S_, .f32⟩
  | .hbm, ⟨57, _⟩ => ⟨S2048x2048, .f32⟩
  | .hbm, ⟨58, _⟩ => ⟨S_, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S1x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .f32⟩
  | .hbm, ⟨67, _⟩ => ⟨S1x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S2048x2048, .f32⟩
  | .hbm, ⟨72, _⟩ => ⟨S2048x64, .f32⟩
  | .hbm, ⟨73, _⟩ => ⟨S2048x1, .f32⟩
  | .hbm, ⟨74, _⟩ => ⟨S1x2048x64, .f32⟩
  | .hbm, ⟨75, _⟩ => ⟨S1x2048x1, .f32⟩
  | .local _ .vmem, ⟨0, _⟩ => ⟨S256x512, .f32⟩
  | .local _ .vmem, ⟨1, _⟩ => ⟨S256x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S2048x2048, .bf16⟩
  | .local _ .vmem, ⟨14, _⟩ => ⟨S2048x2048, .bf16⟩
  | .local _ .vmem, ⟨15, _⟩ => ⟨S2048x2048, .bf16⟩
  | .local _ .vmem, ⟨16, _⟩ => ⟨S2048x2048, .bf16⟩
  | .local _ .vmem, ⟨17, _⟩ => ⟨S1x2048, .f32⟩
  | .local _ .vmem, ⟨18, _⟩ => ⟨S1x2048, .f32⟩
  | .local _ .vmem, ⟨19, _⟩ => ⟨S64x512, .f32⟩
  | .local _ .vmem, ⟨20, _⟩ => ⟨S64x512, .f32⟩
  | .local _ .vmem, ⟨21, _⟩ => ⟨S64x512, .f32⟩
  | .local _ .vmem, ⟨22, _⟩ => ⟨S64x512, .f32⟩
  | .local _ .vmem, ⟨23, _⟩ => ⟨S64x512, .f32⟩
  | .local _ .vmem, ⟨24, _⟩ => ⟨S64x512, .f32⟩
  | .local _ .vmem, ⟨25, _⟩ => ⟨S256x512, .f32⟩
  | .local _ .vmem, ⟨26, _⟩ => ⟨S256x512, .f32⟩
  | .local _ .vmem, ⟨27, _⟩ => ⟨S256x512, .bf16⟩
  | .local _ .vmem, ⟨28, _⟩ => ⟨S256x512, .bf16⟩
  | .local _ .vmem, ⟨29, _⟩ => ⟨S1x256, .f32⟩
  | .local _ .vmem, ⟨30, _⟩ => ⟨S1x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S256x256, .f32⟩
  | .local _ .vmem, ⟨35, _⟩ => ⟨S256x256, .f32⟩
  | .local _ .vmem, ⟨36, _⟩ => ⟨S512x256, .f32⟩
  | .local _ .vmem, ⟨37, _⟩ => ⟨S512x256, .f32⟩
  | .local _ .vmem, ⟨38, _⟩ => ⟨S512x512, .f32⟩
  | .local _ .vmem, ⟨39, _⟩ => ⟨S512x512, .f32⟩
  | .local _ .vmem, ⟨40, _⟩ => ⟨S256x512, .f32⟩
  | .local _ .vmem, ⟨41, _⟩ => ⟨S256x512, .f32⟩
  | .local _ .vmem, ⟨42, _⟩ => ⟨S256x512, .f32⟩
  | .local _ .vmem, ⟨43, _⟩ => ⟨S256x512, .f32⟩
  | .local _ .vmem, ⟨44, _⟩ => ⟨S256x512, .f32⟩
  | .local _ .vmem, ⟨45, _⟩ => ⟨S64x2048, .f32⟩
  | .local _ .vmem, ⟨46, _⟩ => ⟨S64x2048, .f32⟩
  | .local _ .vmem, ⟨47, _⟩ => ⟨S64x2048, .f32⟩
  | .local _ .vmem, ⟨48, _⟩ => ⟨S64x2048, .f32⟩
  | .local _ .vmem, ⟨49, _⟩ => ⟨S2048x2048, .bf16⟩
  | .local _ .vmem, ⟨50, _⟩ => ⟨S2048x2048, .bf16⟩
  | .local _ .vmem, ⟨51, _⟩ => ⟨S2048x2048, .bf16⟩
  | .local _ .vmem, ⟨52, _⟩ => ⟨S2048x2048, .bf16⟩
  | .local _ .vmem, ⟨53, _⟩ => ⟨S1x2048, .f32⟩
  | .local _ .vmem, ⟨54, _⟩ => ⟨S1x2048, .f32⟩
  | .local _ .vmem, ⟨55, _⟩ => ⟨S64x512, .f32⟩
  | .local _ .vmem, ⟨56, _⟩ => ⟨S64x512, .f32⟩
  | .local _ .vmem, ⟨57, _⟩ => ⟨S64x512, .f32⟩
  | .local _ .vmem, ⟨58, _⟩ => ⟨S64x512, .f32⟩
  | .local _ .vmem, ⟨59, _⟩ => ⟨S64x512, .f32⟩
  | .local _ .vmem, ⟨60, _⟩ => ⟨S64x512, .f32⟩
  | .local _ .vmem, ⟨61, _⟩ => ⟨S256x512, .f32⟩
  | .local _ .vmem, ⟨62, _⟩ => ⟨S256x512, .f32⟩
  | .local _ .vmem, ⟨63, _⟩ => ⟨S256x512, .bf16⟩
  | .local _ .vmem, ⟨64, _⟩ => ⟨S256x512, .bf16⟩
  | .local _ .vmem, ⟨65, _⟩ => ⟨S1x256, .f32⟩
  | .local _ .vmem, ⟨66, _⟩ => ⟨S1x256, .f32⟩
  | .local _ .vmem, ⟨67, _⟩ => ⟨S256x256, .f32⟩
  | .local _ .vmem, ⟨68, _⟩ => ⟨S256x256, .f32⟩
  | .local _ .vmem, ⟨69, _⟩ => ⟨S256x256, .f32⟩
  | .local _ .vmem, ⟨70, _⟩ => ⟨S256x256, .f32⟩
  | .local _ .vmem, ⟨71, _⟩ => ⟨S256x256, .f32⟩
  | .local _ .vmem, ⟨72, _⟩ => ⟨S512x256, .f32⟩
  | .local _ .vmem, ⟨73, _⟩ => ⟨S512x256, .f32⟩
  | .local _ .vmem, ⟨74, _⟩ => ⟨S512x512, .f32⟩
  | .local _ .vmem, ⟨75, _⟩ => ⟨S512x512, .f32⟩
  | .local _ .vmem, ⟨76, _⟩ => ⟨S256x512, .f32⟩
  | .local _ .vmem, ⟨77, _⟩ => ⟨S256x512, .f32⟩
  | .local _ .vmem, ⟨78, _⟩ => ⟨S256x512, .f32⟩
  | .local _ .vmem, ⟨79, _⟩ => ⟨S256x512, .f32⟩
  | .local _ .vmem, ⟨80, _⟩ => ⟨S256x512, .f32⟩
  | .local _ .vmem, ⟨81, _⟩ => ⟨S64x2048, .f32⟩
  | .local _ .vmem, ⟨82, _⟩ => ⟨S64x2048, .f32⟩
  | .local _ .vmem, ⟨83, _⟩ => ⟨S64x2048, .f32⟩
  | .local _ .vmem, ⟨84, _⟩ => ⟨S64x2048, .f32⟩
  | .local _ .vmem, ⟨85, _⟩ => ⟨S2048x2048, .bf16⟩
  | .local _ .vmem, ⟨86, _⟩ => ⟨S2048x2048, .bf16⟩
  | .local _ .vmem, ⟨87, _⟩ => ⟨S2048x2048, .bf16⟩
  | .local _ .vmem, ⟨88, _⟩ => ⟨S2048x2048, .bf16⟩
  | .local _ .vmem, ⟨89, _⟩ => ⟨S1x2048, .f32⟩
  | .local _ .vmem, ⟨90, _⟩ => ⟨S1x2048, .f32⟩
  | .local _ .vmem, ⟨91, _⟩ => ⟨S64x512, .f32⟩
  | .local _ .vmem, ⟨92, _⟩ => ⟨S64x512, .f32⟩
  | .local _ .vmem, ⟨93, _⟩ => ⟨S64x512, .f32⟩
  | .local _ .vmem, ⟨94, _⟩ => ⟨S64x512, .f32⟩
  | .local _ .vmem, ⟨95, _⟩ => ⟨S64x512, .f32⟩
  | .local _ .vmem, ⟨96, _⟩ => ⟨S64x512, .f32⟩
  | .local _ .vmem, ⟨97, _⟩ => ⟨S256x512, .f32⟩
  | .local _ .vmem, ⟨98, _⟩ => ⟨S256x512, .f32⟩
  | .local _ .vmem, ⟨99, _⟩ => ⟨S64x512, .bf16⟩
  | .local _ .vmem, ⟨100, _⟩ => ⟨S64x512, .bf16⟩
  | .local _ .vmem, ⟨101, _⟩ => ⟨S1x64, .f32⟩
  | .local _ .vmem, ⟨102, _⟩ => ⟨S1x512, .f32⟩
  | .local _ .vmem, ⟨103, _⟩ => ⟨S1x512, .f32⟩
  | .local _ .vmem, ⟨104, _⟩ => ⟨S1x1, .f32⟩
  | .local _ .vmem, ⟨105, _⟩ => ⟨S256x64, .f32⟩
  | .local _ .vmem, ⟨106, _⟩ => ⟨S256x64, .f32⟩
  | .local _ .vmem, ⟨107, _⟩ => ⟨S256x1, .f32⟩
  | .local _ .vmem, ⟨108, _⟩ => ⟨S256x1, .f32⟩
  | .local _ .vmem, ⟨109, _⟩ => ⟨S256x64, .f32⟩
  | .local _ .vmem, ⟨110, _⟩ => ⟨S256x1, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | _, _ => false

abbrev semScoped : Fin 0 → Bool
  | ⟨_, h⟩ => absurd h (Nat.not_lt_zero _)

abbrev dmaSemScoped : Fin 104 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | _ => false

abbrev sig : RefSig :=
  ofTc nBuf bufTy 0 104 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_cst_0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_1 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_2 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40_0 : Ref sig .tc := ⟨.hbm, 60, rfl⟩
abbrev main_v40_1 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44_0 : Ref sig .tc := ⟨.hbm, 65, rfl⟩
abbrev main_v44_1 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48_0 : Ref sig .tc := ⟨.hbm, 70, rfl⟩
abbrev main_v48_1 : Ref sig .tc := ⟨.hbm, 71, rfl⟩
abbrev main_v49_0 : Ref sig .tc := ⟨.hbm, 72, rfl⟩
abbrev main_v49_1 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg3_1 : Ref sig .tc := ⟨.vmem, 32, rfl⟩
abbrev cc2_stg4_0 : Ref sig .tc := ⟨.vmem, 33, rfl⟩
abbrev cc2_stg4_1 : Ref sig .tc := ⟨.vmem, 34, rfl⟩
abbrev cc2_scratch0 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg3_1 : Ref sig .tc := ⟨.vmem, 43, rfl⟩
abbrev cc3_scratch0 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg2_1 : Ref sig .tc := ⟨.vmem, 50, rfl⟩
abbrev cc4_stg3_0 : Ref sig .tc := ⟨.vmem, 51, rfl⟩
abbrev cc4_stg3_1 : Ref sig .tc := ⟨.vmem, 52, rfl⟩
abbrev cc4_stg4_0 : Ref sig .tc := ⟨.vmem, 53, rfl⟩
abbrev cc4_stg4_1 : Ref sig .tc := ⟨.vmem, 54, rfl⟩
abbrev cc4_stg5_0 : Ref sig .tc := ⟨.vmem, 55, rfl⟩
abbrev cc4_stg5_1 : Ref sig .tc := ⟨.vmem, 56, rfl⟩
abbrev cc4_stg6_0 : Ref sig .tc := ⟨.vmem, 57, rfl⟩
abbrev cc4_stg6_1 : Ref sig .tc := ⟨.vmem, 58, rfl⟩
abbrev cc4_stg7_0 : Ref sig .tc := ⟨.vmem, 59, rfl⟩
abbrev cc4_stg7_1 : Ref sig .tc := ⟨.vmem, 60, rfl⟩
abbrev cc5_stg0_0 : Ref sig .tc := ⟨.vmem, 61, rfl⟩
abbrev cc5_stg0_1 : Ref sig .tc := ⟨.vmem, 62, rfl⟩
abbrev cc5_stg1_0 : Ref sig .tc := ⟨.vmem, 63, rfl⟩
abbrev cc5_stg1_1 : Ref sig .tc := ⟨.vmem, 64, rfl⟩
abbrev cc5_stg2_0 : Ref sig .tc := ⟨.vmem, 65, rfl⟩
abbrev cc5_stg2_1 : Ref sig .tc := ⟨.vmem, 66, rfl⟩
abbrev cc5_stg3_0 : Ref sig .tc := ⟨.vmem, 67, rfl⟩
abbrev cc5_stg3_1 : Ref sig .tc := ⟨.vmem, 68, rfl⟩
abbrev cc5_stg4_0 : Ref sig .tc := ⟨.vmem, 69, rfl⟩
abbrev cc5_stg4_1 : Ref sig .tc := ⟨.vmem, 70, rfl⟩
abbrev cc5_scratch0 : Ref sig .tc := ⟨.vmem, 71, rfl⟩
abbrev cc6_stg0_0 : Ref sig .tc := ⟨.vmem, 72, rfl⟩
abbrev cc6_stg0_1 : Ref sig .tc := ⟨.vmem, 73, rfl⟩
abbrev cc6_stg1_0 : Ref sig .tc := ⟨.vmem, 74, rfl⟩
abbrev cc6_stg1_1 : Ref sig .tc := ⟨.vmem, 75, rfl⟩
abbrev cc6_stg2_0 : Ref sig .tc := ⟨.vmem, 76, rfl⟩
abbrev cc6_stg2_1 : Ref sig .tc := ⟨.vmem, 77, rfl⟩
abbrev cc6_stg3_0 : Ref sig .tc := ⟨.vmem, 78, rfl⟩
abbrev cc6_stg3_1 : Ref sig .tc := ⟨.vmem, 79, rfl⟩
abbrev cc6_scratch0 : Ref sig .tc := ⟨.vmem, 80, rfl⟩
abbrev cc7_stg0_0 : Ref sig .tc := ⟨.vmem, 81, rfl⟩
abbrev cc7_stg0_1 : Ref sig .tc := ⟨.vmem, 82, rfl⟩
abbrev cc7_stg1_0 : Ref sig .tc := ⟨.vmem, 83, rfl⟩
abbrev cc7_stg1_1 : Ref sig .tc := ⟨.vmem, 84, rfl⟩
abbrev cc7_stg2_0 : Ref sig .tc := ⟨.vmem, 85, rfl⟩
abbrev cc7_stg2_1 : Ref sig .tc := ⟨.vmem, 86, rfl⟩
abbrev cc7_stg3_0 : Ref sig .tc := ⟨.vmem, 87, rfl⟩
abbrev cc7_stg3_1 : Ref sig .tc := ⟨.vmem, 88, rfl⟩
abbrev cc7_stg4_0 : Ref sig .tc := ⟨.vmem, 89, rfl⟩
abbrev cc7_stg4_1 : Ref sig .tc := ⟨.vmem, 90, rfl⟩
abbrev cc7_stg5_0 : Ref sig .tc := ⟨.vmem, 91, rfl⟩
abbrev cc7_stg5_1 : Ref sig .tc := ⟨.vmem, 92, rfl⟩
abbrev cc7_stg6_0 : Ref sig .tc := ⟨.vmem, 93, rfl⟩
abbrev cc7_stg6_1 : Ref sig .tc := ⟨.vmem, 94, rfl⟩
abbrev cc7_stg7_0 : Ref sig .tc := ⟨.vmem, 95, rfl⟩
abbrev cc7_stg7_1 : Ref sig .tc := ⟨.vmem, 96, rfl⟩
abbrev cc8_stg0_0 : Ref sig .tc := ⟨.vmem, 97, rfl⟩
abbrev cc8_stg0_1 : Ref sig .tc := ⟨.vmem, 98, rfl⟩
abbrev cc8_stg1_0 : Ref sig .tc := ⟨.vmem, 99, rfl⟩
abbrev cc8_stg1_1 : Ref sig .tc := ⟨.vmem, 100, rfl⟩
abbrev cc8_stg2_0 : Ref sig .tc := ⟨.vmem, 101, rfl⟩
abbrev cc8_stg3_0 : Ref sig .tc := ⟨.vmem, 102, rfl⟩
abbrev cc8_stg3_1 : Ref sig .tc := ⟨.vmem, 103, rfl⟩
abbrev cc8_stg4_0 : Ref sig .tc := ⟨.vmem, 104, rfl⟩
abbrev cc8_stg5_0 : Ref sig .tc := ⟨.vmem, 105, rfl⟩
abbrev cc8_stg5_1 : Ref sig .tc := ⟨.vmem, 106, rfl⟩
abbrev cc8_stg6_0 : Ref sig .tc := ⟨.vmem, 107, rfl⟩
abbrev cc8_stg6_1 : Ref sig .tc := ⟨.vmem, 108, rfl⟩
abbrev cc8_scratch0 : Ref sig .tc := ⟨.vmem, 109, rfl⟩
abbrev cc8_scratch1 : Ref sig .tc := ⟨.vmem, 110, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc3_sem0_0 : DmaSem sig := 34
abbrev cc3_sem0_1 : DmaSem sig := 35
abbrev cc3_sem1_0 : DmaSem sig := 36
abbrev cc3_sem1_1 : DmaSem sig := 37
abbrev cc3_sem2_0 : DmaSem sig := 38
abbrev cc3_sem2_1 : DmaSem sig := 39
abbrev cc3_sem3_0 : DmaSem sig := 40
abbrev cc3_sem3_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem3_1 : DmaSem sig := 49
abbrev cc4_sem4_0 : DmaSem sig := 50
abbrev cc4_sem4_1 : DmaSem sig := 51
abbrev cc4_sem5_0 : DmaSem sig := 52
abbrev cc4_sem5_1 : DmaSem sig := 53
abbrev cc4_sem6_0 : DmaSem sig := 54
abbrev cc4_sem6_1 : DmaSem sig := 55
abbrev cc4_sem7_0 : DmaSem sig := 56
abbrev cc4_sem7_1 : DmaSem sig := 57
abbrev cc5_sem0_0 : DmaSem sig := 58
abbrev cc5_sem0_1 : DmaSem sig := 59
abbrev cc5_sem1_0 : DmaSem sig := 60
abbrev cc5_sem1_1 : DmaSem sig := 61
abbrev cc5_sem2_0 : DmaSem sig := 62
abbrev cc5_sem2_1 : DmaSem sig := 63
abbrev cc5_sem3_0 : DmaSem sig := 64
abbrev cc5_sem3_1 : DmaSem sig := 65
abbrev cc5_sem4_0 : DmaSem sig := 66
abbrev cc5_sem4_1 : DmaSem sig := 67
abbrev cc6_sem0_0 : DmaSem sig := 68
abbrev cc6_sem0_1 : DmaSem sig := 69
abbrev cc6_sem1_0 : DmaSem sig := 70
abbrev cc6_sem1_1 : DmaSem sig := 71
abbrev cc6_sem2_0 : DmaSem sig := 72
abbrev cc6_sem2_1 : DmaSem sig := 73
abbrev cc6_sem3_0 : DmaSem sig := 74
abbrev cc6_sem3_1 : DmaSem sig := 75
abbrev cc7_sem0_0 : DmaSem sig := 76
abbrev cc7_sem0_1 : DmaSem sig := 77
abbrev cc7_sem1_0 : DmaSem sig := 78
abbrev cc7_sem1_1 : DmaSem sig := 79
abbrev cc7_sem2_0 : DmaSem sig := 80
abbrev cc7_sem2_1 : DmaSem sig := 81
abbrev cc7_sem3_0 : DmaSem sig := 82
abbrev cc7_sem3_1 : DmaSem sig := 83
abbrev cc7_sem4_0 : DmaSem sig := 84
abbrev cc7_sem4_1 : DmaSem sig := 85
abbrev cc7_sem5_0 : DmaSem sig := 86
abbrev cc7_sem5_1 : DmaSem sig := 87
abbrev cc7_sem6_0 : DmaSem sig := 88
abbrev cc7_sem6_1 : DmaSem sig := 89
abbrev cc7_sem7_0 : DmaSem sig := 90
abbrev cc7_sem7_1 : DmaSem sig := 91
abbrev cc8_sem0_0 : DmaSem sig := 92
abbrev cc8_sem0_1 : DmaSem sig := 93
abbrev cc8_sem1_0 : DmaSem sig := 94
abbrev cc8_sem1_1 : DmaSem sig := 95
abbrev cc8_sem2_0 : DmaSem sig := 96
abbrev cc8_sem3_0 : DmaSem sig := 97
abbrev cc8_sem3_1 : DmaSem sig := 98
abbrev cc8_sem4_0 : DmaSem sig := 99
abbrev cc8_sem5_0 : DmaSem sig := 100
abbrev cc8_sem5_1 : DmaSem sig := 101
abbrev cc8_sem6_0 : DmaSem sig := 102
abbrev cc8_sem6_1 : DmaSem sig := 103

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v14 : BitVec 1 := Scalar.cmpi .eq arg2 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨2, ![4, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S64x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S64x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2048x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S64x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S64x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S64x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨3, ![8, 8, 4], ![false, false, false]⟩

def k2_cond2 (i : grid2.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S256x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S256x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S256x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S256x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev grid3 : Pipeline.Grid := ⟨3, ![8, 4, 4], ![false, false, false]⟩

def k3_cond2 (i : grid3.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S512x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S256x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S256x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev grid4 : Pipeline.Grid := ⟨2, ![4, 32], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage4_0 : Fin 2 → Memref sig .tc .vmem S64x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S64x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x2048 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S2048x2048 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev stage4_4 : Fin 2 → Memref sig .tc .vmem S1x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

abbrev stage4_5 : Fin 2 → Memref sig .tc .vmem S64x512 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S64x512 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 2 → Memref sig .tc .vmem S64x512 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev grid5 : Pipeline.Grid := ⟨3, ![8, 8, 4], ![false, false, false]⟩

def k5_cond2 (i : grid5.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_4 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S256x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 2 → Memref sig .tc .vmem S256x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true, true]

abbrev stage5_2 : Fin 2 → Memref sig .tc .vmem S1x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, false]

abbrev stage5_3 : Fin 2 → Memref sig .tc .vmem S256x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

abbrev stage5_4 : Fin 2 → Memref sig .tc .vmem S256x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true, true, false]

abbrev grid6 : Pipeline.Grid := ⟨3, ![8, 4, 4], ![false, false, false]⟩

def k6_cond2 (i : grid6.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_8 : BitVec 32 := 0#32
  let v17 : BitVec 1 := Scalar.cmpi .ne v16 c0_i32_8
  v17

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S512x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S512x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S256x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev stage6_3 : Fin 2 → Memref sig .tc .vmem S256x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev grid7 : Pipeline.Grid := ⟨2, ![4, 32], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_6 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc7_transform_7 (i : grid7.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage7_0 : Fin 2 → Memref sig .tc .vmem S64x2048 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![false, true]

abbrev stage7_1 : Fin 2 → Memref sig .tc .vmem S64x2048 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S2048x2048 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S2048x2048 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, false]

abbrev stage7_4 : Fin 2 → Memref sig .tc .vmem S1x2048 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, false]

abbrev stage7_5 : Fin 2 → Memref sig .tc .vmem S64x512 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, true]

abbrev stage7_6 : Fin 2 → Memref sig .tc .vmem S64x512 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true, true]

abbrev stage7_7 : Fin 2 → Memref sig .tc .vmem S64x512 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true, true]

abbrev grid8 : Pipeline.Grid := ⟨2, ![8, 4], ![false, false]⟩

def k8_cond2 (i : grid8.Coords) : BitVec 1 :=
  let arg1 : BitVec 32 := BitVec.ofNat 32 (i 1).val
  let c3_i32 : BitVec 32 := 3#32
  let v26 : BitVec 1 := Scalar.cmpi .eq arg1 c3_i32
  let v27 : BitVec 32 := Scalar.extui v26
  let c0_i32_17 : BitVec 32 := 0#32
  let v28 : BitVec 1 := Scalar.cmpi .ne v27 c0_i32_17
  v28

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S256x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S64x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, false]

abbrev stage8_3 : Fin 2 → Memref sig .tc .vmem S1x512 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![false, true]

abbrev stage8_4 : Fin 1 → Memref sig .tc .vmem S1x1 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false, false]

abbrev stage8_5 : Fin 2 → Memref sig .tc .vmem S256x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true, false]

abbrev stage8_6 : Fin 2 → Memref sig .tc .vmem S256x1 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true, false]

class Facts₀ : Prop where
  shapeCasts_S1x2048x1024_S2048x1024 : S1x2048x1024.ShapeCasts S2048x1024
  bitsLt_bf16_f32 : FTy.bits .bf16 < FTy.bits .f32
  shapeCasts_S8192x2048_S4x4x512x2048 : S8192x2048.ShapeCasts S4x4x512x2048
  transposes_S4x4x512x2048_S4x4x512x2048_1_0_2_3 : S4x4x512x2048.Transposes [1, 0, 2, 3] S4x4x512x2048
  shapeCasts_S4x4x512x2048_S8192x2048 : S4x4x512x2048.ShapeCasts S8192x2048
  shapeCasts_S8192_S4x4x512 : S8192.ShapeCasts S4x4x512
  transposes_S4x4x512_S4x4x512_1_0_2 : S4x4x512.Transposes [1, 0, 2] S4x4x512
  shapeCasts_S4x4x512_S1x8192 : S4x4x512.ShapeCasts S1x8192
  shapeCasts_S2048_S1x2048 : S2048.ShapeCasts S1x2048
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  bcast_S_S2048x2048 : S_.BroadcastsInDim S2048x2048 (![] : Fin 0 → Fin S2048x2048.rank)
  reducesTo_S2048_S_d0 : S2048.ReducesTo [0] S_
  h_S_ : 0 < S_.numel
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  shapeCasts_S64_S1x64 : S64.ShapeCasts S1x64
  shapeCasts_S1_S1x1 : S1.ShapeCasts S1x1
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S64x2048 : S1x2048.Broadcasts S64x2048
  slices_S64x2048_o0_0_S64x512 : S64x2048.Slices ![0, 0] S64x512
  slices_S64x2048_o0_512_S64x512 : S64x2048.Slices ![0, 512] S64x512
  slices_S64x2048_o0_1024_S64x512 : S64x2048.Slices ![0, 1024] S64x512
  slices_S64x2048_o0_1536_S64x512 : S64x2048.Slices ![0, 1536] S64x512
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  reduces_S256x512_S256 : S256x512.Reduces [1] S256
  shapeCasts_S256_S256x1 : S256.ShapeCasts S256x1
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  reduces_S256x64_S256 : S256x64.Reduces [1] S256
  broadcasts_S256x1_S256x64 : S256x1.Broadcasts S256x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S256x1 : S1x1.Broadcasts S256x1
  shapeCasts_S2048x64_S1x2048x64 : S2048x64.ShapeCasts S1x2048x64
  shapeCasts_S2048x1_S1x2048x1 : S2048x1.ShapeCasts S1x2048x1
  dot_S256x512_S512x512_S256x512_1_1_0_0_n_n_wf : DotDims.WF S256x512 S512x512 S256x512 [1] [1] [0] [0] [] []
  dot_S64x2048_S2048x2048_S64x2048_1_1_0_0_n_n_wf : DotDims.WF S64x2048 S2048x2048 S64x2048 [1] [1] [0] [0] [] []
  dot_S256x512_S256x512_S256x256_1_1_0_0_n_n_wf : DotDims.WF S256x512 S256x512 S256x256 [1] [1] [0] [0] [] []
  dot_S512x256_S512x512_S256x512_0_0_1_1_n_n_wf : DotDims.WF S512x256 S512x512 S256x512 [0] [0] [1] [1] [] []
  dot_S256x512_S64x512_S256x64_1_1_0_0_n_n_wf : DotDims.WF S256x512 S64x512 S256x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x1024.size a
  hwx0_0 : ∀ i : grid0.Coords, EltTy.bits .f32 = 32 ∨ (Rect.block (s := S2048x1024) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x1024.size a
  hwx0_1 : ∀ i : grid0.Coords, EltTy.bits .bf16 = 32 ∨ (Rect.block (s := S2048x1024) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S2048x2048.size a
  hwx0_3 : ∀ i : grid0.Coords, EltTy.bits .f32 = 32 ∨ (Rect.block (s := S2048x2048) S256x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x2048.size a ≤ S2048x2048.size a
  hwx1_0 : ∀ i : grid1.Coords, EltTy.bits .f32 = 32 ∨ (Rect.block (s := S2048x2048) S64x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x2048.size a ≤ S2048x2048.size a
  hwx1_1 : ∀ i : grid1.Coords, EltTy.bits .f32 = 32 ∨ (Rect.block (s := S2048x2048) S64x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x2048.size a ≤ S8192x2048.size a
  hwx1_2 : ∀ i : grid1.Coords, EltTy.bits .bf16 = 32 ∨ (Rect.block (s := S8192x2048) S2048x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x2048.size a ≤ S8192x2048.size a
  hwx1_3 : ∀ i : grid1.Coords, EltTy.bits .bf16 = 32 ∨ (Rect.block (s := S8192x2048) S2048x2048.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x8192.size a
  hwx1_4 : ∀ i : grid1.Coords, EltTy.bits .f32 = 32 ∨ (Rect.block (s := S1x8192) S1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S64x512.size a ≤ S2048x2048.size a
  hwx1_5 : ∀ i : grid1.Coords, EltTy.bits .f32 = 32 ∨ (Rect.block (s := S2048x2048) S64x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S64x512.size a ≤ S2048x2048.size a
  hwx1_6 : ∀ i : grid1.Coords, EltTy.bits .f32 = 32 ∨ (Rect.block (s := S2048x2048) S64x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S64x512.size a ≤ S2048x2048.size a
  hwx1_7 : ∀ i : grid1.Coords, EltTy.bits .f32 = 32 ∨ (Rect.block (s := S2048x2048) S64x512.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x512.size a ≤ S2048x2048.size a
  hwx2_0 : ∀ i : grid2.Coords, EltTy.bits .f32 = 32 ∨ (Rect.block (s := S2048x2048) S256x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x512.size a ≤ S2048x2048.size a
  hwx2_1 : ∀ i : grid2.Coords, EltTy.bits .bf16 = 32 ∨ (Rect.block (s := S2048x2048) S256x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x2048.size a
  hwx2_2 : ∀ i : grid2.Coords, EltTy.bits .f32 = 32 ∨ (Rect.block (s := S1x2048) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S2048x2048.size a
  hwx2_3 : ∀ i : grid2.Coords, EltTy.bits .f32 = 32 ∨ (Rect.block (s := S2048x2048) S256x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S256x256.size a ≤ S2048x2048.size a
  hwx2_4 : ∀ i : grid2.Coords, EltTy.bits .f32 = 32 ∨ (Rect.block (s := S2048x2048) S256x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x256.size a ≤ S2048x2048.size a
  hwx3_0 : ∀ i : grid3.Coords, EltTy.bits .f32 = 32 ∨ (Rect.block (s := S2048x2048) S512x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S2048x2048.size a
  hwx3_1 : ∀ i : grid3.Coords, EltTy.bits .f32 = 32 ∨ (Rect.block (s := S2048x2048) S512x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x512.size a ≤ S2048x2048.size a
  hwx3_2 : ∀ i : grid3.Coords, EltTy.bits .f32 = 32 ∨ (Rect.block (s := S2048x2048) S256x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x512.size a ≤ S2048x2048.size a
  hwx3_3 : ∀ i : grid3.Coords, EltTy.bits .f32 = 32 ∨ (Rect.block (s := S2048x2048) S256x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S64x2048.size a ≤ S2048x2048.size a
  hwx4_0 : ∀ i : grid4.Coords, EltTy.bits .f32 = 32 ∨ (Rect.block (s := S2048x2048) S64x2048.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S64x2048.size a ≤ S2048x2048.size a
  hwx4_1 : ∀ i : grid4.Coords, EltTy.bits .f32 = 32 ∨ (Rect.block (s := S2048x2048) S64x2048.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x2048.size a ≤ S8192x2048.size a
  hwx4_2 : ∀ i : grid4.Coords, EltTy.bits .bf16 = 32 ∨ (Rect.block (s := S8192x2048) S2048x2048.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2048x2048.size a ≤ S8192x2048.size a
  hwx4_3 : ∀ i : grid4.Coords, EltTy.bits .bf16 = 32 ∨ (Rect.block (s := S8192x2048) S2048x2048.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x2048.size a ≤ S1x8192.size a
  hwx4_4 : ∀ i : grid4.Coords, EltTy.bits .f32 = 32 ∨ (Rect.block (s := S1x8192) S1x2048.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S64x512.size a ≤ S2048x2048.size a
  hwx4_5 : ∀ i : grid4.Coords, EltTy.bits .f32 = 32 ∨ (Rect.block (s := S2048x2048) S64x512.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S64x512.size a ≤ S2048x2048.size a
  hwx4_6 : ∀ i : grid4.Coords, EltTy.bits .f32 = 32 ∨ (Rect.block (s := S2048x2048) S64x512.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S64x512.size a ≤ S2048x2048.size a
  hwx4_7 : ∀ i : grid4.Coords, EltTy.bits .f32 = 32 ∨ (Rect.block (s := S2048x2048) S64x512.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x512.size a ≤ S2048x2048.size a
  hwx5_0 : ∀ i : grid5.Coords, EltTy.bits .f32 = 32 ∨ (Rect.block (s := S2048x2048) S256x512.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S256x512.size a ≤ S2048x2048.size a
  hwx5_1 : ∀ i : grid5.Coords, EltTy.bits .bf16 = 32 ∨ (Rect.block (s := S2048x2048) S256x512.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x2048.size a
  hwx5_2 : ∀ i : grid5.Coords, EltTy.bits .f32 = 32 ∨ (Rect.block (s := S1x2048) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x256.size a ≤ S2048x2048.size a
  hwx5_3 : ∀ i : grid5.Coords, EltTy.bits .f32 = 32 ∨ (Rect.block (s := S2048x2048) S256x256.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S256x256.size a ≤ S2048x2048.size a
  hwx5_4 : ∀ i : grid5.Coords, EltTy.bits .f32 = 32 ∨ (Rect.block (s := S2048x2048) S256x256.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x256.size a ≤ S2048x2048.size a
  hwx6_0 : ∀ i : grid6.Coords, EltTy.bits .f32 = 32 ∨ (Rect.block (s := S2048x2048) S512x256.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S512x512.size a ≤ S2048x2048.size a
  hwx6_1 : ∀ i : grid6.Coords, EltTy.bits .f32 = 32 ∨ (Rect.block (s := S2048x2048) S512x512.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S256x512.size a ≤ S2048x2048.size a
  hwx6_2 : ∀ i : grid6.Coords, EltTy.bits .f32 = 32 ∨ (Rect.block (s := S2048x2048) S256x512.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S256x512.size a ≤ S2048x2048.size a
  hwx6_3 : ∀ i : grid6.Coords, EltTy.bits .f32 = 32 ∨ (Rect.block (s := S2048x2048) S256x512.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S64x2048.size a ≤ S2048x2048.size a
  hwx7_0 : ∀ i : grid7.Coords, EltTy.bits .f32 = 32 ∨ (Rect.block (s := S2048x2048) S64x2048.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S64x2048.size a ≤ S2048x2048.size a
  hwx7_1 : ∀ i : grid7.Coords, EltTy.bits .f32 = 32 ∨ (Rect.block (s := S2048x2048) S64x2048.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2048x2048.size a ≤ S8192x2048.size a
  hwx7_2 : ∀ i : grid7.Coords, EltTy.bits .bf16 = 32 ∨ (Rect.block (s := S8192x2048) S2048x2048.size (cc7_transform_2 i) (hinb7_2 i)).WholeWords (EltTy.packing .bf16)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2048x2048.size a ≤ S8192x2048.size a
  hwx7_3 : ∀ i : grid7.Coords, EltTy.bits .bf16 = 32 ∨ (Rect.block (s := S8192x2048) S2048x2048.size (cc7_transform_3 i) (hinb7_3 i)).WholeWords (EltTy.packing .bf16)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S1x2048.size a ≤ S1x8192.size a
  hwx7_4 : ∀ i : grid7.Coords, EltTy.bits .f32 = 32 ∨ (Rect.block (s := S1x8192) S1x2048.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S64x512.size a ≤ S2048x2048.size a
  hwx7_5 : ∀ i : grid7.Coords, EltTy.bits .f32 = 32 ∨ (Rect.block (s := S2048x2048) S64x512.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S64x512.size a ≤ S2048x2048.size a
  hwx7_6 : ∀ i : grid7.Coords, EltTy.bits .f32 = 32 ∨ (Rect.block (s := S2048x2048) S64x512.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S64x512.size a ≤ S2048x2048.size a
  hwx7_7 : ∀ i : grid7.Coords, EltTy.bits .f32 = 32 ∨ (Rect.block (s := S2048x2048) S64x512.size (cc7_transform_7 i) (hinb7_7 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S256x512.size a ≤ S2048x2048.size a
  hwx8_0 : ∀ i : grid8.Coords, EltTy.bits .f32 = 32 ∨ (Rect.block (s := S2048x2048) S256x512.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S64x512.size a ≤ S64x2048.size a
  hwx8_1 : ∀ i : grid8.Coords, EltTy.bits .bf16 = 32 ∨ (Rect.block (s := S64x2048) S64x512.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1x512.size a ≤ S1x2048.size a
  hwx8_3 : ∀ i : grid8.Coords, EltTy.bits .f32 = 32 ∨ (Rect.block (s := S1x2048) S1x512.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x1.size a ≤ S1x1.size a
  hwx8_4 : ∀ i : grid8.Coords, EltTy.bits .f32 = 32 ∨ (Rect.block (s := S1x1) S1x1.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S256x64.size a ≤ S2048x64.size a
  hwx8_5 : ∀ i : grid8.Coords, EltTy.bits .f32 = 32 ∨ (Rect.block (s := S2048x64) S256x64.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S256x1.size a ≤ S2048x1.size a
  hwx8_6 : ∀ i : grid8.Coords, EltTy.bits .f32 = 32 ∨ (Rect.block (s := S2048x1) S256x1.size (cc8_transform_6 i) (hinb8_6 i)).WholeWords (EltTy.packing .f32)

variable [Facts₀]

def dot_S256x512_S512x512_S256x512_1_1_0_0_n_n : DotDims S256x512 S512x512 S256x512 where
  lhsContracting := [1]
  rhsContracting := [1]
  lhsNonContracting := [0]
  rhsNonContracting := [0]
  lhsBatch := []
  rhsBatch := []
  wf := dot_S256x512_S512x512_S256x512_1_1_0_0_n_n_wf
def dot_S64x2048_S2048x2048_S64x2048_1_1_0_0_n_n : DotDims S64x2048 S2048x2048 S64x2048 where
  lhsContracting := [1]
  rhsContracting := [1]
  lhsNonContracting := [0]
  rhsNonContracting := [0]
  lhsBatch := []
  rhsBatch := []
  wf := dot_S64x2048_S2048x2048_S64x2048_1_1_0_0_n_n_wf
def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf
def dot_S512x256_S512x512_S256x512_0_0_1_1_n_n : DotDims S512x256 S512x512 S256x512 where
  lhsContracting := [0]
  rhsContracting := [0]
  lhsNonContracting := [1]
  rhsNonContracting := [1]
  lhsBatch := []
  rhsBatch := []
  wf := dot_S512x256_S512x512_S256x512_0_0_1_1_n_n_wf
def dot_S256x512_S64x512_S256x64_1_1_0_0_n_n : DotDims S256x512 S64x512 S256x64 where
  lhsContracting := [1]
  rhsContracting := [1]
  lhsNonContracting := [0]
  rhsNonContracting := [0]
  lhsBatch := []
  rhsBatch := []
  wf := dot_S256x512_S64x512_S256x64_1_1_0_0_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S256x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v17) S64x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S64x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S2048x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S2048x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v39) S64x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v40_0) S64x512.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v40_1) S64x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v40_0) S256x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S256x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S256x256.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v42) S256x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v42) S512x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40_0) S512x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S256x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v43) S256x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v43) S64x2048.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40_0) S64x2048.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v7) S2048x2048.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v11) S2048x2048.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v15) S1x2048.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v40_1) S64x512.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v44_0) S64x512.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v44_1) S64x512.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v44_0) S256x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v2) S256x512.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v45) S1x256.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v35) S256x256.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v46) S256x256.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

abbrev win6_0 : Pipeline.Window sig grid6 :=
  Pipeline.Window.ofSpec (Memref.whole main_v46) S512x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v44_0) S512x512.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v17) S256x512.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v47) S256x512.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v47) S64x2048.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v44_0) S64x2048.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v7) S2048x2048.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v11) S2048x2048.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v15) S1x2048.size cc7_transform_4 reads7_4 false false 2 stage7_4 sem7_4
    hrank7 hreads7_4 hinb7_4 nbuf7_4 (Memref.isWhole_whole _) hwx7_4 hstage7_4

abbrev win7_5 : Pipeline.Window sig grid7 :=
  Pipeline.Window.ofSpec (Memref.whole main_v44_1) S64x512.size cc7_transform_5 reads7_5 false false 2 stage7_5 sem7_5
    hrank7 hreads7_5 hinb7_5 nbuf7_5 (Memref.isWhole_whole _) hwx7_5 hstage7_5

abbrev win7_6 : Pipeline.Window sig grid7 :=
  Pipeline.Window.ofSpec (Memref.whole main_v48_0) S64x512.size cc7_transform_6 reads7_6 true false 2 stage7_6 sem7_6
    hrank7 hreads7_6 hinb7_6 nbuf7_6 (Memref.isWhole_whole _) hwx7_6 hstage7_6

abbrev win7_7 : Pipeline.Window sig grid7 :=
  Pipeline.Window.ofSpec (Memref.whole main_v48_1) S64x512.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_v48_0) S256x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v3) S64x512.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v36) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg12) S1x512.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v37) S1x1.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v49_0) S256x64.size cc8_transform_5 reads8_5 true false 2 stage8_5 sem8_5
    hrank8 hreads8_5 hinb8_5 nbuf8_5 (Memref.isWhole_whole _) hwx8_5 hstage8_5

abbrev win8_6 : Pipeline.Window sig grid8 :=
  Pipeline.Window.ofSpec (Memref.whole main_v49_1) S256x1.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev idle8 : Fin 7 → grid8.Coords → Bool := fun | 0 => fun _ => false | 1 => fun _ => false | 2 => fun _ => false | 3 => fun _ => false | 4 => fun _ => false | 5 => fun i => !(k8_cond2 i == 1#1) | 6 => fun i => !(k8_cond2 i == 1#1) | ⟨_ + 7, h⟩ => absurd h (Nat.not_lt.2 (Nat.le_add_left _ _))

class Facts : Prop extends Facts₀ where

variable [Facts]
-- ==== ReferenceIdeal.lean ====
abbrev S1x2048x1024 : Shape := ⟨3, ![1, 2048, 1024]⟩
abbrev S2048 : Shape := ⟨1, ![2048]⟩
abbrev S2048x1024 : Shape := ⟨2, ![2048, 1024]⟩
abbrev S2048x2048 : Shape := ⟨2, ![2048, 2048]⟩
abbrev S8192x2048 : Shape := ⟨2, ![8192, 2048]⟩
abbrev S8192 : Shape := ⟨1, ![8192]⟩
abbrev S64x2048 : Shape := ⟨2, ![64, 2048]⟩
abbrev S64 : Shape := ⟨1, ![64]⟩
abbrev S1x2048 : Shape := ⟨2, ![1, 2048]⟩
abbrev S1 : Shape := ⟨1, ![1]⟩
abbrev S1x2048x2048 : Shape := ⟨3, ![1, 2048, 2048]⟩
abbrev S1x1x2048 : Shape := ⟨3, ![1, 1, 2048]⟩
abbrev S_ : Shape := ⟨0, ![]⟩
abbrev S2048x1 : Shape := ⟨2, ![2048, 1]⟩
abbrev S1x2048x8192 : Shape := ⟨3, ![1, 2048, 8192]⟩
abbrev S1x1x8192 : Shape := ⟨3, ![1, 1, 8192]⟩
abbrev S1x2048x64 : Shape := ⟨3, ![1, 2048, 64]⟩
abbrev S1x1x64 : Shape := ⟨3, ![1, 1, 64]⟩
abbrev S1x2048x1 : Shape := ⟨3, ![1, 2048, 1]⟩
abbrev S1x1x1 : Shape := ⟨3, ![1, 1, 1]⟩

abbrev nBuf : Space → Nat
  | .hbm => 249
  | .vmem => 0
  | .smem => 0
  | _ => 0

abbrev hbmTy0_0 (i : Nat) : BufTy := match i % 128 with
  | 0 => ⟨S1x2048x1024, .f32⟩
  | 1 => ⟨S2048, .f32⟩
  | 2 => ⟨S2048x1024, .f32⟩
  | 3 => ⟨S2048, .f32⟩
  | 4 => ⟨S2048x2048, .f32⟩
  | 5 => ⟨S2048, .f32⟩
  | 6 => ⟨S8192x2048, .f32⟩
  | 7 => ⟨S8192x2048, .f32⟩
  | 8 => ⟨S8192, .f32⟩
  | 9 => ⟨S8192, .f32⟩
  | 10 => ⟨S64x2048, .f32⟩
  | 11 => ⟨S64, .f32⟩
  | 12 => ⟨S1x2048, .f32⟩
  | 13 => ⟨S1, .f32⟩
  | 14 => ⟨S1x2048x2048, .f32⟩
  | 15 => ⟨S1x1x2048, .f32⟩
  | 16 => ⟨S1x2048x2048, .f32⟩
  | 17 => ⟨S1x2048x2048, .f32⟩
  | 18 => ⟨S1x2048x2048, .f32⟩
  | 19 => ⟨S_, .f32⟩
  | 20 => ⟨S1x2048x2048, .f32⟩
  | 21 => ⟨S_, .f32⟩
  | 22 => ⟨S1x2048x2048, .f32⟩
  | 23 => ⟨S2048x2048, .i32⟩
  | 24 => ⟨S2048x2048, .i32⟩
  | 25 => ⟨S_, .i32⟩
  | 26 => ⟨S2048x2048, .i32⟩
  | 27 => ⟨S2048x2048, .i32⟩
  | 28 => ⟨S2048x2048, .i1⟩
  | 29 => ⟨S2048x2048, .f32⟩
  | 30 => ⟨S_, .f32⟩
  | 31 => ⟨S2048x2048, .f32⟩
  | 32 => ⟨S2048x2048, .f32⟩
  | 33 => ⟨S_, .f32⟩
  | 34 => ⟨S_, .f32⟩
  | 35 => ⟨S2048x1, .f32⟩
  | 36 => ⟨S1x2048, .f32⟩
  | 37 => ⟨S2048x2048, .f32⟩
  | 38 => ⟨S2048x2048, .f32⟩
  | 39 => ⟨S2048x2048, .f32⟩
  | 40 => ⟨S2048x2048, .f32⟩
  | 41 => ⟨S_, .f32⟩
  | 42 => ⟨S_, .f32⟩
  | 43 => ⟨S2048x2048, .f32⟩
  | 44 => ⟨S2048x2048, .f32⟩
  | 45 => ⟨S1x2048x2048, .f32⟩
  | 46 => ⟨S1x1x2048, .f32⟩
  | 47 => ⟨S1x2048x2048, .f32⟩
  | 48 => ⟨S1x2048x2048, .f32⟩
  | 49 => ⟨S1x2048x2048, .f32⟩
  | 50 => ⟨S1x2048x2048, .f32⟩
  | 51 => ⟨S_, .f32⟩
  | 52 => ⟨S1x2048x2048, .f32⟩
  | 53 => ⟨S1x2048x2048, .f32⟩
  | 54 => ⟨S_, .f32⟩
  | 55 => ⟨S1x2048x2048, .f32⟩
  | 56 => ⟨S1x2048x2048, .f32⟩
  | 57 => ⟨S1x2048x2048, .f32⟩
  | 58 => ⟨S1x2048x2048, .f32⟩
  | 59 => ⟨S1x2048x2048, .f32⟩
  | 60 => ⟨S_, .f32⟩
  | 61 => ⟨S1x2048x2048, .f32⟩
  | 62 => ⟨S1x2048x2048, .f32⟩
  | 63 => ⟨S1x2048x8192, .f32⟩
  | 64 => ⟨S1x2048x8192, .f32⟩
  | 65 => ⟨S1x2048x8192, .f32⟩
  | 66 => ⟨S1x1x8192, .f32⟩
  | 67 => ⟨S1x2048x8192, .f32⟩
  | 68 => ⟨S1x2048x8192, .f32⟩
  | 69 => ⟨S1x1x8192, .f32⟩
  | 70 => ⟨S1x2048x8192, .f32⟩
  | 71 => ⟨S1x2048x8192, .f32⟩
  | 72 => ⟨S1x2048x2048, .f32⟩
  | 73 => ⟨S1x2048x2048, .f32⟩
  | 74 => ⟨S1x2048x2048, .f32⟩
  | 75 => ⟨S1x2048x2048, .f32⟩
  | 76 => ⟨S1x2048x2048, .f32⟩
  | 77 => ⟨S1x2048x2048, .f32⟩
  | 78 => ⟨S_, .f32⟩
  | 79 => ⟨S1x2048x2048, .f32⟩
  | 80 => ⟨S1x2048x2048, .f32⟩
  | 81 => ⟨S_, .f32⟩
  | 82 => ⟨S1x2048x2048, .f32⟩
  | 83 => ⟨S1x2048x2048, .f32⟩
  | 84 => ⟨S1x2048x2048, .f32⟩
  | 85 => ⟨S1x2048x2048, .f32⟩
  | 86 => ⟨S1x2048x2048, .f32⟩
  | 87 => ⟨S_, .f32⟩
  | 88 => ⟨S1x2048x2048, .f32⟩
  | 89 => ⟨S1x2048x2048, .f32⟩
  | 90 => ⟨S_, .f32⟩
  | 91 => ⟨S1x2048x2048, .f32⟩
  | 92 => ⟨S1x2048x2048, .f32⟩
  | 93 => ⟨S1x2048x2048, .f32⟩
  | 94 => ⟨S1x2048x2048, .f32⟩
  | 95 => ⟨S1x2048x2048, .f32⟩
  | 96 => ⟨S1x2048x2048, .f32⟩
  | 97 => ⟨S1x2048x2048, .f32⟩
  | 98 => ⟨S_, .f32⟩
  | 99 => ⟨S1x2048x2048, .f32⟩
  | 100 => ⟨S1x2048x2048, .f32⟩
  | 101 => ⟨S_, .f32⟩
  | 102 => ⟨S1x2048x2048, .f32⟩
  | 103 => ⟨S1x2048x2048, .f32⟩
  | 104 => ⟨S1x2048x2048, .f32⟩
  | 105 => ⟨S1x2048x2048, .f32⟩
  | 106 => ⟨S1x2048x2048, .f32⟩
  | 107 => ⟨S1x1x2048, .f32⟩
  | 108 => ⟨S1x2048x2048, .f32⟩
  | 109 => ⟨S1x2048x2048, .f32⟩
  | 110 => ⟨S1x2048x2048, .f32⟩
  | 111 => ⟨S1x2048x2048, .f32⟩
  | 112 => ⟨S_, .f32⟩
  | 113 => ⟨S1x2048x2048, .f32⟩
  | 114 => ⟨S1x2048x2048, .f32⟩
  | 115 => ⟨S_, .f32⟩
  | 116 => ⟨S1x2048x2048, .f32⟩
  | 117 => ⟨S1x2048x2048, .f32⟩
  | 118 => ⟨S1x2048x2048, .f32⟩
  | 119 => ⟨S1x2048x2048, .f32⟩
  | 120 => ⟨S1x2048x2048, .f32⟩
  | 121 => ⟨S1x2048x2048, .f32⟩
  | 122 => ⟨S1x2048x2048, .f32⟩
  | 123 => ⟨S1x2048x8192, .f32⟩
  | 124 => ⟨S1x2048x8192, .f32⟩
  | 125 => ⟨S1x2048x8192, .f32⟩
  | 126 => ⟨S1x1x8192, .f32⟩
  | 127 => ⟨S1x2048x8192, .f32⟩
  | _ => ⟨S1x2048x1024, .f32⟩

abbrev hbmTy0_1 (i : Nat) : BufTy := match i % 128 with
  | 0 => ⟨S1x2048x8192, .f32⟩
  | 1 => ⟨S1x1x8192, .f32⟩
  | 2 => ⟨S1x2048x8192, .f32⟩
  | 3 => ⟨S1x2048x8192, .f32⟩
  | 4 => ⟨S1x2048x2048, .f32⟩
  | 5 => ⟨S1x2048x2048, .f32⟩
  | 6 => ⟨S1x2048x2048, .f32⟩
  | 7 => ⟨S1x2048x2048, .f32⟩
  | 8 => ⟨S1x2048x2048, .f32⟩
  | 9 => ⟨S1x2048x2048, .f32⟩
  | 10 => ⟨S_, .f32⟩
  | 11 => ⟨S1x2048x2048, .f32⟩
  | 12 => ⟨S1x2048x2048, .f32⟩
  | 13 => ⟨S_, .f32⟩
  | 14 => ⟨S1x2048x2048, .f32⟩
  | 15 => ⟨S1x2048x2048, .f32⟩
  | 16 => ⟨S1x2048x2048, .f32⟩
  | 17 => ⟨S1x2048x2048, .f32⟩
  | 18 => ⟨S1x2048x2048, .f32⟩
  | 19 => ⟨S_, .f32⟩
  | 20 => ⟨S1x2048x2048, .f32⟩
  | 21 => ⟨S1x2048x2048, .f32⟩
  | 22 => ⟨S_, .f32⟩
  | 23 => ⟨S1x2048x2048, .f32⟩
  | 24 => ⟨S1x2048x2048, .f32⟩
  | 25 => ⟨S1x2048x2048, .f32⟩
  | 26 => ⟨S1x2048x2048, .f32⟩
  | 27 => ⟨S1x2048x2048, .f32⟩
  | 28 => ⟨S1x2048x2048, .f32⟩
  | 29 => ⟨S1x2048x2048, .f32⟩
  | 30 => ⟨S_, .f32⟩
  | 31 => ⟨S1x2048x2048, .f32⟩
  | 32 => ⟨S1x2048x2048, .f32⟩
  | 33 => ⟨S_, .f32⟩
  | 34 => ⟨S1x2048x2048, .f32⟩
  | 35 => ⟨S1x2048x2048, .f32⟩
  | 36 => ⟨S1x2048x2048, .f32⟩
  | 37 => ⟨S1x2048x2048, .f32⟩
  | 38 => ⟨S1x2048x2048, .f32⟩
  | 39 => ⟨S1x1x2048, .f32⟩
  | 40 => ⟨S1x2048x2048, .f32⟩
  | 41 => ⟨S1x2048x2048, .f32⟩
  | 42 => ⟨S1x2048x2048, .f32⟩
  | 43 => ⟨S1x2048x2048, .f32⟩
  | 44 => ⟨S_, .f32⟩
  | 45 => ⟨S1x2048x2048, .f32⟩
  | 46 => ⟨S1x2048x2048, .f32⟩
  | 47 => ⟨S_, .f32⟩
  | 48 => ⟨S1x2048x2048, .f32⟩
  | 49 => ⟨S1x2048x2048, .f32⟩
  | 50 => ⟨S1x2048x2048, .f32⟩
  | 51 => ⟨S1x2048x2048, .f32⟩
  | 52 => ⟨S1x2048x2048, .f32⟩
  | 53 => ⟨S1x2048x2048, .f32⟩
  | 54 => ⟨S1x2048x2048, .f32⟩
  | 55 => ⟨S1x2048x8192, .f32⟩
  | 56 => ⟨S1x2048x8192, .f32⟩
  | 57 => ⟨S1x2048x8192, .f32⟩
  | 58 => ⟨S1x1x8192, .f32⟩
  | 59 => ⟨S1x2048x8192, .f32⟩
  | 60 => ⟨S1x2048x8192, .f32⟩
  | 61 => ⟨S1x1x8192, .f32⟩
  | 62 => ⟨S1x2048x8192, .f32⟩
  | 63 => ⟨S1x2048x8192, .f32⟩
  | 64 => ⟨S1x2048x2048, .f32⟩
  | 65 => ⟨S1x2048x2048, .f32⟩
  | 66 => ⟨S1x2048x2048, .f32⟩
  | 67 => ⟨S1x2048x2048, .f32⟩
  | 68 => ⟨S1x2048x2048, .f32⟩
  | 69 => ⟨S1x2048x2048, .f32⟩
  | 70 => ⟨S_, .f32⟩
  | 71 => ⟨S1x2048x2048, .f32⟩
  | 72 => ⟨S1x2048x2048, .f32⟩
  | 73 => ⟨S_, .f32⟩
  | 74 => ⟨S1x2048x2048, .f32⟩
  | 75 => ⟨S1x2048x2048, .f32⟩
  | 76 => ⟨S1x2048x2048, .f32⟩
  | 77 => ⟨S1x2048x2048, .f32⟩
  | 78 => ⟨S1x2048x2048, .f32⟩
  | 79 => ⟨S_, .f32⟩
  | 80 => ⟨S1x2048x2048, .f32⟩
  | 81 => ⟨S1x2048x2048, .f32⟩
  | 82 => ⟨S_, .f32⟩
  | 83 => ⟨S1x2048x2048, .f32⟩
  | 84 => ⟨S1x2048x2048, .f32⟩
  | 85 => ⟨S1x2048x2048, .f32⟩
  | 86 => ⟨S1x2048x2048, .f32⟩
  | 87 => ⟨S1x2048x2048, .f32⟩
  | 88 => ⟨S1x2048x2048, .f32⟩
  | 89 => ⟨S1x2048x2048, .f32⟩
  | 90 => ⟨S_, .f32⟩
  | 91 => ⟨S1x2048x2048, .f32⟩
  | 92 => ⟨S1x2048x2048, .f32⟩
  | 93 => ⟨S_, .f32⟩
  | 94 => ⟨S1x2048x2048, .f32⟩
  | 95 => ⟨S1x2048x2048, .f32⟩
  | 96 => ⟨S1x2048x2048, .f32⟩
  | 97 => ⟨S1x2048x2048, .f32⟩
  | 98 => ⟨S1x2048x64, .f32⟩
  | 99 => ⟨S1x1x64, .f32⟩
  | 100 => ⟨S1x2048x64, .f32⟩
  | 101 => ⟨S1x2048x64, .f32⟩
  | 102 => ⟨S_, .f32⟩
  | 103 => ⟨S1x2048, .f32⟩
  | 104 => ⟨S_, .f32⟩
  | 105 => ⟨S1x2048, .f32⟩
  | 106 => ⟨S1x2048, .f32⟩
  | 107 => ⟨S1x2048x1, .f32⟩
  | 108 => ⟨S1x2048x64, .f32⟩
  | 109 => ⟨S1x2048x64, .f32⟩
  | 110 => ⟨S1x2048x64, .f32⟩
  | 111 => ⟨S_, .f32⟩
  | 112 => ⟨S1x2048, .f32⟩
  | 113 => ⟨S1x2048x1, .f32⟩
  | 114 => ⟨S1x2048x1, .f32⟩
  | 115 => ⟨S1x2048x64, .f32⟩
  | 116 => ⟨S1x2048x64, .f32⟩
  | 117 => ⟨S1x2048x1, .f32⟩
  | 118 => ⟨S1x1x1, .f32⟩
  | 119 => ⟨S1x2048x1, .f32⟩
  | 120 => ⟨S1x2048x1, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_9 : Ref sig .tc := ⟨.hbm, 87, rfl⟩
abbrev main_v62 : Ref sig .tc := ⟨.hbm, 88, rfl⟩
abbrev main_v63 : Ref sig .tc := ⟨.hbm, 89, rfl⟩
abbrev main_cst_10 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_11 : Ref sig .tc := ⟨.hbm, 98, rfl⟩
abbrev main_v71 : Ref sig .tc := ⟨.hbm, 99, rfl⟩
abbrev main_v72 : Ref sig .tc := ⟨.hbm, 100, rfl⟩
abbrev main_cst_12 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_13 : Ref sig .tc := ⟨.hbm, 112, rfl⟩
abbrev main_v83 : Ref sig .tc := ⟨.hbm, 113, rfl⟩
abbrev main_v84 : Ref sig .tc := ⟨.hbm, 114, rfl⟩
abbrev main_cst_14 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_cst_15 : Ref sig .tc := ⟨.hbm, 138, rfl⟩
abbrev main_v107 : Ref sig .tc := ⟨.hbm, 139, rfl⟩
abbrev main_v108 : Ref sig .tc := ⟨.hbm, 140, rfl⟩
abbrev main_cst_16 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_cst_17 : Ref sig .tc := ⟨.hbm, 147, rfl⟩
abbrev main_v114 : Ref sig .tc := ⟨.hbm, 148, rfl⟩
abbrev main_v115 : Ref sig .tc := ⟨.hbm, 149, rfl⟩
abbrev main_cst_18 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_19 : Ref sig .tc := ⟨.hbm, 158, rfl⟩
abbrev main_v123 : Ref sig .tc := ⟨.hbm, 159, rfl⟩
abbrev main_v124 : Ref sig .tc := ⟨.hbm, 160, rfl⟩
abbrev main_cst_20 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_cst_21 : Ref sig .tc := ⟨.hbm, 172, rfl⟩
abbrev main_v135 : Ref sig .tc := ⟨.hbm, 173, rfl⟩
abbrev main_v136 : Ref sig .tc := ⟨.hbm, 174, rfl⟩
abbrev main_cst_22 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_cst_23 : Ref sig .tc := ⟨.hbm, 198, rfl⟩
abbrev main_v159 : Ref sig .tc := ⟨.hbm, 199, rfl⟩
abbrev main_v160 : Ref sig .tc := ⟨.hbm, 200, rfl⟩
abbrev main_cst_24 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_cst_25 : Ref sig .tc := ⟨.hbm, 207, rfl⟩
abbrev main_v166 : Ref sig .tc := ⟨.hbm, 208, rfl⟩
abbrev main_v167 : Ref sig .tc := ⟨.hbm, 209, rfl⟩
abbrev main_cst_26 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_cst_27 : Ref sig .tc := ⟨.hbm, 218, rfl⟩
abbrev main_v175 : Ref sig .tc := ⟨.hbm, 219, rfl⟩
abbrev main_v176 : Ref sig .tc := ⟨.hbm, 220, rfl⟩
abbrev main_cst_28 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_call0_cst : Ref sig .tc := ⟨.hbm, 230, rfl⟩
abbrev main_call0_v0 : Ref sig .tc := ⟨.hbm, 231, rfl⟩
abbrev main_call0_cst_0 : Ref sig .tc := ⟨.hbm, 232, rfl⟩
abbrev main_call0_v1 : Ref sig .tc := ⟨.hbm, 233, rfl⟩
abbrev main_call0_v2 : Ref sig .tc := ⟨.hbm, 234, rfl⟩
abbrev main_call0_v3 : Ref sig .tc := ⟨.hbm, 235, rfl⟩
abbrev main_call0_v4 : Ref sig .tc := ⟨.hbm, 236, rfl⟩
abbrev main_call0_v5 : Ref sig .tc := ⟨.hbm, 237, rfl⟩
abbrev main_call0_v6 : Ref sig .tc := ⟨.hbm, 238, rfl⟩
abbrev main_call0_cst_1 : Ref sig .tc := ⟨.hbm, 239, rfl⟩
abbrev main_call0_v7 : Ref sig .tc := ⟨.hbm, 240, rfl⟩
abbrev main_call0_v8 : Ref sig .tc := ⟨.hbm, 241, rfl⟩
abbrev main_call0_v9 : Ref sig .tc := ⟨.hbm, 242, rfl⟩
abbrev main_call0_v10 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_v188 : Ref sig .tc := ⟨.hbm, 247, rfl⟩
abbrev main_v189 : Ref sig .tc := ⟨.hbm, 248, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S1x2048x2048_0_1_2 : S1x1x2048.BroadcastsInDim S1x2048x2048 (![0, 1, 2] : Fin 3 → Fin S1x2048x2048.rank)
  bcast_S_S1x2048x2048 : S_.BroadcastsInDim S1x2048x2048 (![] : Fin 0 → Fin S1x2048x2048.rank)
  bcast_S_S2048x2048 : S_.BroadcastsInDim S2048x2048 (![] : Fin 0 → Fin S2048x2048.rank)
  reducesTo_S2048_S_d0 : S2048.ReducesTo [0] S_
  h_S_ : 0 < S_.numel
  bcast_S2048_S2048x1_0 : S2048.BroadcastsInDim S2048x1 (![0] : Fin 1 → Fin S2048x1.rank)
  bcast_S2048_S1x2048_1 : S2048.BroadcastsInDim S1x2048 (![1] : Fin 1 → Fin S1x2048.rank)
  bcast_S2048x1_S2048x2048_0_1 : S2048x1.BroadcastsInDim S2048x2048 (![0, 1] : Fin 2 → Fin S2048x2048.rank)
  bcast_S1x2048_S2048x2048_0_1 : S1x2048.BroadcastsInDim S2048x2048 (![0, 1] : Fin 2 → Fin S2048x2048.rank)
  bcast_S2048x2048_S1x2048x2048_1_2 : S2048x2048.BroadcastsInDim S1x2048x2048 (![1, 2] : Fin 2 → Fin S1x2048x2048.rank)
  bcast_S8192_S1x1x8192_2 : S8192.BroadcastsInDim S1x1x8192 (![2] : Fin 1 → Fin S1x1x8192.rank)
  bcast_S1x1x8192_S1x2048x8192_0_1_2 : S1x1x8192.BroadcastsInDim S1x2048x8192 (![0, 1, 2] : Fin 3 → Fin S1x2048x8192.rank)
  slices_S1x2048x8192_S1x2048x2048_0_0_0 : S1x2048x8192.Slices ![0, 0, 0] S1x2048x2048
  slices_S1x2048x8192_S1x2048x2048_0_0_2048 : S1x2048x8192.Slices ![0, 0, 2048] S1x2048x2048
  slices_S1x2048x8192_S1x2048x2048_0_0_4096 : S1x2048x8192.Slices ![0, 0, 4096] S1x2048x2048
  slices_S1x2048x8192_S1x2048x2048_0_0_6144 : S1x2048x8192.Slices ![0, 0, 6144] S1x2048x2048
  bcast_S64_S1x1x64_2 : S64.BroadcastsInDim S1x1x64 (![2] : Fin 1 → Fin S1x1x64.rank)
  bcast_S1x1x64_S1x2048x64_0_1_2 : S1x1x64.BroadcastsInDim S1x2048x64 (![0, 1, 2] : Fin 3 → Fin S1x2048x64.rank)
  reducesTo_S1x2048x64_S1x2048_d2 : S1x2048x64.ReducesTo [2] S1x2048
  bcast_S_S1x2048 : S_.BroadcastsInDim S1x2048 (![] : Fin 0 → Fin S1x2048.rank)
  bcast_S1x2048_S1x2048x1_0_1 : S1x2048.BroadcastsInDim S1x2048x1 (![0, 1] : Fin 2 → Fin S1x2048x1.rank)
  bcast_S1x2048x1_S1x2048x64_0_1_2 : S1x2048x1.BroadcastsInDim S1x2048x64 (![0, 1, 2] : Fin 3 → Fin S1x2048x64.rank)
  bcast_S1_S1x1x1_2 : S1.BroadcastsInDim S1x1x1 (![2] : Fin 1 → Fin S1x1x1.rank)
  bcast_S1x1x1_S1x2048x1_0_1_2 : S1x1x1.BroadcastsInDim S1x2048x1 (![0, 1, 2] : Fin 3 → Fin S1x2048x1.rank)
  dot_S1x2048x1024_S2048x1024_S1x2048x2048_2_1_01_0_n_n_wf : DotDims.WF S1x2048x1024 S2048x1024 S1x2048x2048 [2] [1] [0, 1] [0] [] []
  dot_S1x2048x2048_S2048x2048_S1x2048x2048_2_1_01_0_n_n_wf : DotDims.WF S1x2048x2048 S2048x2048 S1x2048x2048 [2] [1] [0, 1] [0] [] []
  dot_S1x2048x2048_S8192x2048_S1x2048x8192_2_1_01_0_n_n_wf : DotDims.WF S1x2048x2048 S8192x2048 S1x2048x8192 [2] [1] [0, 1] [0] [] []
  dot_S1x2048x2048_S1x2048x2048_S1x2048x2048_1_1_2_2_0_0_wf : DotDims.WF S1x2048x2048 S1x2048x2048 S1x2048x2048 [1] [1] [2] [2] [0] [0]
  dot_S1x2048x2048_S64x2048_S1x2048x64_2_1_01_0_n_n_wf : DotDims.WF S1x2048x2048 S64x2048 S1x2048x64 [2] [1] [0, 1] [0] [] []
  dot_S1x2048x2048_S1x2048_S1x2048x1_2_1_01_0_n_n_wf : DotDims.WF S1x2048x2048 S1x2048 S1x2048x1 [2] [1] [0, 1] [0] [] []

variable [Facts₀]

def dot_S1x2048x1024_S2048x1024_S1x2048x2048_2_1_01_0_n_n : DotDims S1x2048x1024 S2048x1024 S1x2048x2048 where
  lhsContracting := [2]
  rhsContracting := [1]
  lhsNonContracting := [0, 1]
  rhsNonContracting := [0]
  lhsBatch := []
  rhsBatch := []
  wf := dot_S1x2048x1024_S2048x1024_S1x2048x2048_2_1_01_0_n_n_wf
def dot_S1x2048x2048_S2048x2048_S1x2048x2048_2_1_01_0_n_n : DotDims S1x2048x2048 S2048x2048 S1x2048x2048 where
  lhsContracting := [2]
  rhsContracting := [1]
  lhsNonContracting := [0, 1]
  rhsNonContracting := [0]
  lhsBatch := []
  rhsBatch := []
  wf := dot_S1x2048x2048_S2048x2048_S1x2048x2048_2_1_01_0_n_n_wf
def dot_S1x2048x2048_S8192x2048_S1x2048x8192_2_1_01_0_n_n : DotDims S1x2048x2048 S8192x2048 S1x2048x8192 where
  lhsContracting := [2]
  rhsContracting := [1]
  lhsNonContracting := [0, 1]
  rhsNonContracting := [0]
  lhsBatch := []
  rhsBatch := []
  wf := dot_S1x2048x2048_S8192x2048_S1x2048x8192_2_1_01_0_n_n_wf
def dot_S1x2048x2048_S1x2048x2048_S1x2048x2048_1_1_2_2_0_0 : DotDims S1x2048x2048 S1x2048x2048 S1x2048x2048 where
  lhsContracting := [1]
  rhsContracting := [1]
  lhsNonContracting := [2]
  rhsNonContracting := [2]
  lhsBatch := [0]
  rhsBatch := [0]
  wf := dot_S1x2048x2048_S1x2048x2048_S1x2048x2048_1_1_2_2_0_0_wf
def dot_S1x2048x2048_S64x2048_S1x2048x64_2_1_01_0_n_n : DotDims S1x2048x2048 S64x2048 S1x2048x64 where
  lhsContracting := [2]
  rhsContracting := [1]
  lhsNonContracting := [0, 1]
  rhsNonContracting := [0]
  lhsBatch := []
  rhsBatch := []
  wf := dot_S1x2048x2048_S64x2048_S1x2048x64_2_1_01_0_n_n_wf
def dot_S1x2048x2048_S1x2048_S1x2048x1_2_1_01_0_n_n : DotDims S1x2048x2048 S1x2048 S1x2048x1 where
  lhsContracting := [2]
  rhsContracting := [1]
  lhsNonContracting := [0, 1]
  rhsNonContracting := [0]
  lhsBatch := []
  rhsBatch := []
  wf := dot_S1x2048x2048_S1x2048_S1x2048x1_2_1_01_0_n_n_wf

class Facts : Prop extends Facts₀ where

variable [Facts]
-- ==== Proof.K.Enc0.lean ====
import proofs.«412769_j28716151341139_3_alg».proof.Proof.Gen.Kernel.Launch
import proofs.«412769_j28716151341139_3_alg».proof.Proof.Gen.Kernel.Skeleton
import proofs.«412769_j28716151341139_3_alg».proof.Proof.Gen.Kernel.Points
import proofs.«412769_j28716151341139_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 2).val) 0#32)) 0#32) = 1#1
abbrev cond0_1 (i : grid0.Coords) : Prop := k0_cond2 i = 1#1

theorem hcond0 : ∀ t : Fin cfg0.N, (cond0_0 (grid0.coords t) ↔ t.val % 2 = 0) ∧ (cond0_1 (grid0.coords t) ↔ t.val % 2 = 1) :=
  (by decide +kernel : ∀ t : Fin grid0.N, _)

theorem live0 : ∀ (w : Fin cfg0.W) (t : Fin cfg0.N), w ≠ 3 ∨ t.val % 2 = 1 → cfg0.idle w (grid0.coords t) = false := by decide +kernel
theorem idle0 : ∀ t : Fin cfg0.N, t.val % 2 = 0 → cfg0.idle 3 (grid0.coords t) = true ∧ (cfg0.win 3).flush t = false := by decide +kernel

theorem off00 : (![0, 0] : Fin 2 → ℕ) = fun _ => 0 := by funext a; fin_cases a <;> rfl

theorem read_writes_whole0 {sg : RefSig} {κ : Kind} {sp : Space} {d : Fin 2 → ℕ} {e : EltTy} (v : View sg κ sp ⟨2, d⟩ e) (f : v.ty.Contents (Elt F))
    (inb : ∀ a, (![0, 0] : Fin 2 → ℕ) a + d a ≤ d a) (w : Shape.Idx ⟨2, d⟩ → Elt F e) (L : List (View.Piece (Elt F) ⟨2, d⟩ e)) :
    v.read (Elt F) (v.writes (Elt F) f ((⟨Rect.unit ![0, 0] d inb, w⟩ : View.Piece (Elt F) ⟨2, d⟩ e) :: L)) = w := by
  rw [View.read_writes_eq_canon _ _ _ (fun y => ⟨_, List.mem_cons_self, View.mem_set_unit_zero off00 inb y⟩), View.canon_cons_unit_zero off00]

theorem readAt_whole0 {sg : RefSig} {κ : Kind} {sp : Space} {d : Fin 2 → ℕ} {e : EltTy} (v : View sg κ sp ⟨2, d⟩ e) (f : v.ty.Contents (Elt F))
    (inb : ∀ a, (![0, 0] : Fin 2 → ℕ) a + d a ≤ d a) :
    v.readAt (Elt F) (Rect.unit ![0, 0] d inb).toLoadRect f = v.read (Elt F) f :=
  View.ld_unit_zero off00 inb _

-- The body at one point: the blocks' product is added to the accumulator (to zero when k = 0); when k = 1 the output block takes tanh of that plus the bias row.
theorem sound_kernel0 (c : Dev nD) (E : Set ℕ) (i : grid0.Coords) {arg3 : Memref sig .tc .vmem S256x512 .f32} {harg3 : arg3.IsWhole} {arg4 : Memref sig .tc .vmem S512x512 .bf16} {harg4 : arg4.IsWhole} {arg5 : Memref sig .tc .vmem S1x512 .f32} {harg5 : arg5.IsWhole} {arg6 arg7 : Memref sig .tc .vmem S256x512 .f32} {harg6 : arg6.IsWhole} {harg7 : arg7.IsWhole}
    (hc : cond0_0 i ∧ ¬cond0_1 i ∨ ¬cond0_0 i ∧ cond0_1 i)
    (x0 : Vec F S256x512 .f32) (x1 : Vec F S512x512 .bf16) (x2 : Vec F S1x512 .f32) (x3 xs : Vec F S256x512 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (if cond0_1 i then k0_pay3 (k0_pay2 x0 x1 xs) x2 else x3)
            ∗ owns (c : Thread nD τ) arg7 fullShare (k0_pay2 x0 x1 (if cond0_0 i then k0_pay1 (F := F) else xs))) -∗ K ⟨⟩))
      ⊢ wp frame (wpE (defs₀ (F := F)) Variants.none c none) E (cc0__enc_kernel i arg3 harg3 arg4 harg4 arg5 harg5 arg6 harg6 arg7 harg7) K := by
  rcases hc with ⟨hc0, hc1⟩ | ⟨hc0, hc1⟩ <;>
  · first | rw [if_pos hc0, if_neg hc1] | rw [if_neg hc0, if_pos hc1]
    simp only [cc0__enc_kernel_eq_skeleton]; unfold cc0__enc_kernel_skel owns
    iintro ⟨⟨%f0, %hf0, H0⟩, ⟨%f1, %hf1, H1⟩, ⟨%f2, %hf2, H2⟩, ⟨%f3, %hf3, H3⟩, ⟨%fs, %hfs, HS⟩, Hk⟩
    subst hf0 hf1 hf2 hf3 hfs
    sl_exec (disch := first | exact hc0 | exact hc1)
    sl_step
    iapply Hk
    isplitl [H0]; rotate_left; isplitl [H1]; rotate_left; isplitl [H2]; rotate_left; isplitl [H3]; rotate_left
    all_goals
      iexists _; isplitr; swap; iassumption
      ipureintro; sl_unfold_run_names
      simp only [read_writes_whole0, View.readCov_unit_zero (S := ⟨2, _⟩) _ off00, readAt_whole0]

-- The accumulator after the body at position n: the blocks' product added to zero at an even point, to the previous point's value at an odd one.
def scAt0 (c : Dev nD) : (n : ℕ) → n < cfg0.N → Vec F S256x512 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩)
      (if (n + 1) % 2 = 0 then k0_pay1 (F := F) else scAt0 c n (Nat.lt_of_succ_lt hn))

theorem scAt0_eq (c : Dev nD) (t : Fin cfg0.N) : scAt0 V c t.val t.isLt = k0_pay2 (iblk0 V c 0 t) (iblk0 V c 1 t)
    (if t.val % 2 = 0 then k0_pay1 (F := F) else scAt0 V c (t.val - 1) (Nat.lt_of_le_of_lt (Nat.sub_le _ _) t.isLt)) := by
  obtain ⟨_ | n, hn⟩ := t <;> rfl

abbrev scM0 : Memref sig .tc .vmem S256x512 .f32 := Memref.whole cc0_scratch0

abbrev rest0 (c : Dev nD) : sProp 𝕄 :=
  iprop(Pipeline.scopedRestBut (Ix := Unit) (Name := ℕ) (U := UR sig nD τ) (Lvl := ℕ) (Val := Elt F) spec0 c [cc0_scratch0] ∗ (∃ r, prngReg c r))

-- Before position n the accumulator holds anything when n = 0, and otherwise the value scAt0 of the point before.
def PhiS0 (c : Dev nD) (n : ℕ) (h : n ≤ cfg0.N) : sProp 𝕄 :=
  if hz : n = 0 then iprop(iprop(∃ d, owns (c : Thread nD τ) scM0 fullShare d) ∗ rest0 (F := F) c)
  else iprop(owns (c : Thread nD τ) scM0 fullShare (scAt0 V c (n - 1) (by omega)) ∗ rest0 c)

theorem PhiS0_succ (c : Dev nD) (n : ℕ) (hn : n < cfg0.N) :
    PhiS0 V c (n + 1) hn = iprop(owns (c : Thread nD τ) scM0 fullShare (scAt0 V c n hn) ∗ rest0 c) := dif_neg (Nat.add_one_ne_zero n)

theorem PhiS0_any (c : Dev nD) (n : ℕ) (h : n ≤ cfg0.N) :
    PhiS0 V c n h ⊢ iprop(iprop(∃ d, owns (c : Thread nD τ) scM0 fullShare d) ∗ rest0 c) := by
  by_cases hz : n = 0
  · rw [PhiS0, dif_pos hz]
  · rw [PhiS0, dif_neg hz]
    iintro ⟨HS, Hr⟩
    iframe Hr
    iexists _; iexact HS

def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (scAt0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := rfl
theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl

theorem after0 (c : Dev nD) (t : Fin cfg0.N) :
    (dat0 V c).after 0 t = iblk0 V c 0 t ∧ (dat0 V c).after 1 t = iblk0 V c 1 t ∧ (dat0 V c).after 2 t = iblk0 V c 2 t := ⟨rfl, rfl, rfl⟩
theorem after0_3 (c : Dev nD) (t : Fin cfg0.N) : (dat0 V c).after 3 t = k0_pay3 (scAt0 V c t.val t.isLt) (iblk0 V c 2 t) := rfl

theorem before0 (c : Dev nD) (w : Fin cfg0.W) (hw : w ≠ 3) (t : Fin cfg0.N) (d) : (dat0 V c).before w t d = (dat0 V c).after w t :=
  match w, hw with
  | ⟨0, _⟩, _ | ⟨1, _⟩, _ | ⟨2, _⟩, _ => ((dat0 V c).before_in_eq_fetched _ rfl (fun _ => rfl) (fun _ _ _ => rfl) (fun _ => rfl) t d).trans rfl
  | ⟨3, _⟩, h => absurd rfl h

theorem leaves0 (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

-- By the parity of the point: the accumulator goes from the previous point's value (from anything at an even point) to this point's.
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t ∗ (dat0 V c).leavesExact 3 t)) := by
  unfold bodyAt0
  simp only [before0 V c 0 (by decide), before0 V c 1 (by decide), before0 V c 2 (by decide)]
  rw [show (dat0 V c).owesAt () t.succ = (dat0 V c).owesAt () t.castSucc from rfl,
    show (dat0 V c).Φ t.succ = _ from PhiS0_succ V c _ t.isLt,
    show (dat0 V c).Φ t.castSucc = PhiS0 V c t.val (Nat.le_of_lt t.isLt) from rfl,
    leaves0 V c 0 t (live0 0 t (.inl (by decide))), leaves0 V c 1 t (live0 1 t (.inl (by decide))), leaves0 V c 2 t (live0 2 t (.inl (by decide))),
    (after0 V c t).1, (after0 V c t).2.1, (after0 V c t).2.2]
  by_cases h0 : t.val % 2 = 0
  · have hc0 := (hcond0 t).1.mpr h0
    have hc1 : ¬cond0_1 (grid0.coords t) := fun h => by have := (hcond0 t).2.mp h; omega
    rw [Dat.leavesExact_idle (dat0 V c) 3 t (idle0 t h0).1 (idle0 t h0).2, scAt0_eq V c t, if_pos h0]
    iintro ⟨HΦ, Ho, ⟨%d0, H0⟩, ⟨%d1, H1⟩, ⟨%d2, H2⟩, ⟨%d3, H3⟩⟩
    ihave HΦ' := (PhiS0_any V c _ _) $$ HΦ
    icases HΦ' with ⟨⟨%ds, HS⟩, Hrest⟩
    iapply (sound_kernel0 c Set.univ (grid0.coords t) (.inl ⟨hc0, hc1⟩) (iblk0 V c 0 t) (iblk0 V c 1 t) (iblk0 V c 2 t) ((dat0 V c).before 3 t d3) ds _)
    rw [if_pos hc0, if_neg hc1]
    iframe
    iintro ⟨H0, H1, H2, H3, HS⟩
    iframe
    iexists _; iexact H3
  · have h1 : t.val % 2 = 1 := by omega
    have hc0 : ¬cond0_0 (grid0.coords t) := fun h => h0 ((hcond0 t).1.mp h)
    have hc1 := (hcond0 t).2.mpr h1
    rw [leaves0 V c 3 t (live0 3 t (.inr h1)), after0_3, scAt0_eq V c t, if_neg h0, PhiS0, dif_neg (show t.val ≠ 0 by omega)]
    iintro ⟨⟨HS, Hrest⟩, Ho, ⟨%d0, H0⟩, ⟨%d1, H1⟩, ⟨%d2, H2⟩, ⟨%d3, H3⟩⟩
    iapply (sound_kernel0 c Set.univ (grid0.coords t) (.inr ⟨hc0, hc1⟩) (iblk0 V c 0 t) (iblk0 V c 1 t) (iblk0 V c 2 t) ((dat0 V c).before 3 t d3) (scAt0 V c (t.val - 1) (by omega)) _)
    rw [if_neg hc0, if_pos hc1]
    iframe
    iintro ⟨H0, H1, H2, H3, HS⟩
    iframe

theorem body_obligation0 (c : Dev nD) : BodyObligation (dat0 (F := F) V c) (defs₀ (F := F)) Variants.none () Set.univ := fun t => by
  rw [bigSep_W0, bigSep_W0]
  exact sound_body0 V c t

theorem hin0 (c : Dev nD) : (iprop((∃ r, prngReg c r) ∗ Pipeline.scopedRest spec0 c) : sProp 𝕄) ⊢ (dat0 V c).Φ 0 := by
  rw [show (dat0 V c).Φ 0 = PhiS0 V c 0 (Nat.zero_le _) from rfl, PhiS0, dif_pos rfl, scopedRest0_split]
  simp only [scM0, rest0, owns_whole]
  iintro ⟨Hr, HS, Hrest⟩
  iframe

theorem hout0 (c : Dev nD) : (dat0 V c).Φ (Fin.last cfg0.N) ⊢ (iprop((∃ r, prngReg c r) ∗ Pipeline.scopedRest spec0 c) : sProp 𝕄) := by
  rw [show (dat0 V c).Φ (Fin.last cfg0.N) = PhiS0 V c (Fin.last cfg0.N).val (Nat.le_of_lt_succ (Fin.last cfg0.N).isLt) from rfl, scopedRest0_split]
  refine (PhiS0_any V c _ _).trans ?_
  simp only [scM0, rest0, owns_whole]
  iintro ⟨HS, Hrest, Hr⟩
  iframe

end Cert.Kernel.Hand

end
-- ==== Proof.K.Lstm1.lean ====
import proofs.«412769_j28716151341139_3_alg».proof.Proof.Gen.Kernel.Launch
import proofs.«412769_j28716151341139_3_alg».proof.Proof.Gen.Kernel.Skeleton
import proofs.«412769_j28716151341139_3_alg».proof.Proof.Gen.Kernel.Points
import proofs.«412769_j28716151341139_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- window `w`'s block of its array at point `t`
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S64x2048 := Rect.unit (s := S64x2048) ![0, 0] S64x2048.size inb_S64x2048_S64x2048_0_0

abbrev r1_w : Rect S2048x2048 := Rect.unit (s := S2048x2048) ![0, 0] S2048x2048.size inb_S2048x2048_S2048x2048_0_0

abbrev r1_b : Rect S1x2048 := Rect.unit (s := S1x2048) ![0, 0] S1x2048.size inb_S1x2048_S1x2048_0_0

abbrev r1_o : Rect S64x512 := Rect.unit (s := S64x512) ![0, 0] S64x512.size inb_S64x512_S64x512_0_0

def out1_6 (xa xb : Vec F S64x2048 .f32) (xc xd : Vec F S2048x2048 .bf16) (xe : Vec F S1x2048 .f32) (xf : Vec F S64x512 .f32) : Vec F S64x512 .f32 :=
  View.canon [⟨r1_o, k1_pay3 (View.ld xa r1_x) (View.ld xb r1_x) (View.ld xc r1_w) (View.ld xd r1_w) (View.ld xe r1_b) (View.ld xf r1_o)⟩]

def out1_7 (xa xb : Vec F S64x2048 .f32) (xc xd : Vec F S2048x2048 .bf16) (xe : Vec F S1x2048 .f32) (xf : Vec F S64x512 .f32) : Vec F S64x512 .f32 :=
  View.canon [⟨r1_o, k1_pay2 (View.ld xa r1_x) (View.ld xb r1_x) (View.ld xc r1_w) (View.ld xd r1_w) (View.ld xe r1_b) (View.ld xf r1_o)⟩]

-- a single piece that is the whole shape covers every index
theorem cover1_o (p : Vec F S64x512 .f32) (y : S64x512.Idx) :
    ∃ pc ∈ ([⟨r1_o, p⟩] : List (View.Piece (Elt F) S64x512 .f32)), y ∈ pc.1.set :=
  View.cover_of_tiled [⟨r1_o, p⟩] S64x512.size (by rfl) y

-- the body's triple: the six inputs unchanged, the two outputs hold `out1_6` and `out1_7` of them
set_option maxHeartbeats 1000000 in
theorem sound_kernel1 (c : Dev nD) (E : Set ℕ) (i : grid1.Coords)
    (arga : Memref sig .tc .vmem S64x2048 .f32) (harga : arga.IsWhole) (argb : Memref sig .tc .vmem S64x2048 .f32) (hargb : argb.IsWhole)
    (argc : Memref sig .tc .vmem S2048x2048 .bf16) (hargc : argc.IsWhole) (argd : Memref sig .tc .vmem S2048x2048 .bf16) (hargd : argd.IsWhole)
    (arge : Memref sig .tc .vmem S1x2048 .f32) (harge : arge.IsWhole) (argf : Memref sig .tc .vmem S64x512 .f32) (hargf : argf.IsWhole)
    (argg : Memref sig .tc .vmem S64x512 .f32) (hargg : argg.IsWhole) (argh : Memref sig .tc .vmem S64x512 .f32) (hargh : argh.IsWhole)
    (xa xb : Vec F S64x2048 .f32) (xc xd : Vec F S2048x2048 .bf16) (xe : Vec F S1x2048 .f32) (xf : Vec F S64x512 .f32) (K : PUnit → sProp 𝕄) :
    iprop(owns c arga fullShare xa ∗ owns c argb fullShare xb ∗ owns c argc fullShare xc
        ∗ owns c argd fullShare xd ∗ owns c arge fullShare xe ∗ owns c argf fullShare xf
        ∗ (∃ d, owns c argg fullShare d) ∗ (∃ d, owns c argh fullShare d)
        ∗ (iprop(owns c arga fullShare xa ∗ owns c argb fullShare xb ∗ owns c argc fullShare xc
            ∗ owns c argd fullShare xd ∗ owns c arge fullShare xe ∗ owns c argf fullShare xf
            ∗ owns c argg fullShare (out1_6 xa xb xc xd xe xf) ∗ owns c argh fullShare (out1_7 xa xb xc xd xe xf)) -∗ K ⟨⟩))
      ⊢ wp frame (wpE (defs₀ (F := F)) Variants.none c none) E (cc1__lstm_kernel i arga harga argb hargb argc hargc argd hargd arge harge argf hargf argg hargg argh hargh) K := by
  simp only [cc1__lstm_kernel_eq_skeleton]; unfold cc1__lstm_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dg, %fg, -, Hg⟩, ⟨%dh, %fh, -, Hh⟩, Hk⟩
  subst hfa hfb hfc hfd hfe hff
  sl_exec
  sl_step
  iapply Hk
  isplitl [Ha]; · iexists _; isplitr; swap; iexact Ha; ipureintro; rfl
  isplitl [Hb]; · iexists _; isplitr; swap; iexact Hb; ipureintro; rfl
  isplitl [Hc]; · iexists _; isplitr; swap; iexact Hc; ipureintro; rfl
  isplitl [Hd]; · iexists _; isplitr; swap; iexact Hd; ipureintro; rfl
  isplitl [He]; · iexists _; isplitr; swap; iexact He; ipureintro; rfl
  isplitl [Hf]; · iexists _; isplitr; swap; iexact Hf; ipureintro; rfl
  isplitl [Hg]; · iexists _; isplitr; swap; iexact Hg; ipureintro; exact View.read_writes_eq_canon _ _ _ (cover1_o _)
  iexists _; isplitr; swap; iexact Hh; ipureintro; exact View.read_writes_eq_canon _ _ _ (cover1_o _)

def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem recorded_eq1 (c : Dev nD) (t : Fin (cfg1.N + 1)) : (dat1 V c).recorded t = Set.univ := by
  dsimp only [dat1]

-- each input window holds its block of the array at every point
theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t) := by
  refine ⟨?_, ?_, ?_, ?_, ?_, ?_⟩ <;>
    exact fun d => ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns c (st1_0 t) fullShare ((dat1 V c).before 0 t d))
    ∗ (∃ d, owns c (st1_1 t) fullShare ((dat1 V c).before 1 t d))
    ∗ (∃ d, owns c (st1_2 t) fullShare ((dat1 V c).before 2 t d))
    ∗ (∃ d, owns c (st1_3 t) fullShare ((dat1 V c).before 3 t d))
    ∗ (∃ d, owns c (st1_4 t) fullShare ((dat1 V c).before 4 t d))
    ∗ (∃ d, owns c (st1_5 t) fullShare ((dat1 V c).before 5 t d))
    ∗ (∃ d, owns c (st1_6 t) fullShare ((dat1 V c).before 6 t d))
    ∗ (∃ d, owns c (st1_7 t) fullShare ((dat1 V c).before 7 t d)))

def bodyPost1 (c : Dev nD) (t : Fin cfg1.N) : sProp 𝕄 :=
  iprop((dat1 V c).Φ t.succ ∗ (dat1 V c).owesAt () t.succ
    ∗ owns c (st1_0 t) fullShare ((dat1 V c).after 0 t)
    ∗ owns c (st1_1 t) fullShare ((dat1 V c).after 1 t)
    ∗ owns c (st1_2 t) fullShare ((dat1 V c).after 2 t)
    ∗ owns c (st1_3 t) fullShare ((dat1 V c).after 3 t)
    ∗ owns c (st1_4 t) fullShare ((dat1 V c).after 4 t)
    ∗ owns c (st1_5 t) fullShare ((dat1 V c).after 5 t)
    ∗ owns c (st1_6 t) fullShare ((dat1 V c).after 6 t)
    ∗ owns c (st1_7 t) fullShare ((dat1 V c).after 7 t))

-- the body at a point: its triple at the input blocks; invariant and debt pass through
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl]
  simp only [before1 V c t]
  dsimp only [dat1]
  iintro ⟨HΦ, Ho, ⟨%da, Ha⟩, ⟨%db, Hb⟩, ⟨%dc, Hc⟩, ⟨%dd, Hd⟩, ⟨%de, He⟩, ⟨%df, Hf⟩, Hg, Hh⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) _)
  iframe Ha Hb Hc Hd He Hf
  isplitl [Hg]; · icases Hg with ⟨%d, Hg⟩; iexists _; iexact Hg
  isplitl [Hh]; · icases Hh with ⟨%d, Hh⟩; iexists _; iexact Hh
  iintro ⟨Ha, Hb, Hc, Hd, He, Hf, Hg, Hh⟩
  iframe

theorem body_obligation1 (c : Dev nD) : BodyObligation (dat1 (F := F) V c) (defs₀ (F := F)) Variants.none () Set.univ := fun t => by
  rw [bigSep_W1, bigSep_W1]
  exact sound_body1 V c t

-- the invariant at the region's ends is the two given resources in the other order
theorem hin1 (c : Dev nD) : (iprop((∃ r, prngReg c r) ∗ Pipeline.scopedRest spec1 c) : sProp 𝕄) ⊢ (dat1 V c).Φ 0 :=
  sep_comm.1

theorem hout1 (c : Dev nD) : (dat1 V c).Φ (Fin.last cfg1.N) ⊢ (iprop((∃ r, prngReg c r) ∗ Pipeline.scopedRest spec1 c) : sProp 𝕄) :=
  sep_comm.1

end Cert.Kernel.Hand

end
-- ==== Proof.K.Gate2.lean ====
import proofs.«412769_j28716151341139_3_alg».proof.Proof.Gen.Kernel.Launch
import proofs.«412769_j28716151341139_3_alg».proof.Proof.Gen.Kernel.Skeleton
import proofs.«412769_j28716151341139_3_alg».proof.Proof.Gen.Kernel.Points
import proofs.«412769_j28716151341139_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 2).val) 0#32)) 0#32) = 1#1
abbrev cond2_1 (i : grid2.Coords) : Prop := k2_cond2 i = 1#1

theorem zeros2 : (![0, 0] : Fin 2 → ℕ) = fun _ => 0 := by funext a; fin_cases a <;> rfl

-- The newest write covers the whole shape, so reading back gives its payload.
theorem read_writes_cons_unit_zero2 {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

-- One call of the body: the accumulator restarts from zero at a first contraction step, and the gate is stored at a last one.
set_option maxHeartbeats 1000000 in
theorem kernel2 (c : Dev nD) (E : Set ℕ) (i : grid2.Coords) (hx : cond2_0 i → ¬cond2_1 i)
    (arg3 : Memref sig .tc .vmem S256x512 .f32) (harg3 : arg3.IsWhole) (arg4 : Memref sig .tc .vmem S256x512 .bf16) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S256x256 .f32) (harg7 : arg7.IsWhole) (arg8 : Memref sig .tc .vmem S256x256 .f32) (harg8 : arg8.IsWhole)
    (x0 : Vec F S256x512 .f32) (x1 : Vec F S256x512 .bf16) (x2 : Vec F S1x256 .f32) (x3 x4 xs : Vec F S256x256 .f32)
    (K : PUnit → sProp 𝕄) :
    iprop(owns c arg3 fullShare x0 ∗ owns c arg4 fullShare x1 ∗ owns c arg5 fullShare x2
        ∗ owns c arg6 fullShare x3 ∗ owns c arg7 fullShare x4 ∗ owns c arg8 fullShare xs
        ∗ (owns c arg3 fullShare x0 -∗ owns c arg4 fullShare x1 -∗ owns c arg5 fullShare x2 -∗ owns c arg6 fullShare x3
        -∗ owns c arg7 fullShare (if cond2_1 i then k2_pay3 (k2_pay2 x0 x1 (if cond2_0 i then k2_pay1 else xs)) x2 x3 else x4)
        -∗ owns c arg8 fullShare (k2_pay2 x0 x1 (if cond2_0 i then k2_pay1 else xs)) -∗ K ⟨⟩))
      ⊢ wp frame (wpE (defs₀ (F := F)) Variants.none c none) E (cc2__gate_kernel i arg3 harg3 arg4 harg4 arg5 harg5 arg6 harg6 arg7 harg7 arg8 harg8) K := by
  by_cases hc0 : cond2_0 i <;> by_cases hc1 : cond2_1 i
  · exact absurd hc1 (hx hc0)
  all_goals
    first | rw [if_pos hc0] | rw [if_neg hc0]
    first | rw [if_pos hc1] | rw [if_neg hc1]
    simp only [cc2__gate_kernel_eq_skeleton]; unfold cc2__gate_kernel_skel owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    subst hf0 hf1 hf2 hf3 hf4 hfs
    sl_exec (disch := first | exact hc0 | exact hc1)
    sl_step
    iapply Hk $$ [H0] [H1] [H2] [H3] [H4] [HS]
    all_goals
      iexists _; isplitr; swap; · iassumption
      ipureintro
      first
        | (sl_unfold_run_names; rw [read_writes_cons_unit_zero2 _ _ zeros2]; try rw [View.readCov_unit_zero _ zeros2]
           repeat rw [View.readAt_eq_ld]
           repeat rw [View.ld_unit_zero zeros2])
        | rfl

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hcond2_0 : ∀ t : Fin cfg2.N, cond2_0 (grid2.coords t) ↔ t.val % 4 = 0 :=
  (by decide +kernel : ∀ t : Fin grid2.N, cond2_0 (grid2.coords t) ↔ t.val % 4 = 0)
theorem hcond2_1 : ∀ t : Fin cfg2.N, cond2_1 (grid2.coords t) ↔ t.val % 4 = 3 :=
  (by decide +kernel : ∀ t : Fin grid2.N, cond2_1 (grid2.coords t) ↔ t.val % 4 = 3)

theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

-- The accumulator after the body at position n: the block product added to zero at a first contraction step, else to what the point before left.
def acc2 (c : Dev nD) : (n : ℕ) → n < cfg2.N → Vec F S256x256 .f32
  | 0, hn => k2_pay2 (iblk2 V c 0 ⟨0, hn⟩) (iblk2 V c 1 ⟨0, hn⟩) (k2_pay1 (F := F))
  | n + 1, hn => k2_pay2 (iblk2 V c 0 ⟨n + 1, hn⟩) (iblk2 V c 1 ⟨n + 1, hn⟩)
      (if (n + 1) % 4 = 0 then k2_pay1 (F := F) else acc2 c n (Nat.lt_of_succ_lt hn))

theorem acc2_def (c : Dev nD) (t : Fin cfg2.N) :
    acc2 V c t.val t.isLt = k2_pay2 (iblk2 V c 0 t) (iblk2 V c 1 t)
      (if t.val % 4 = 0 then k2_pay1 (F := F) else acc2 V c (t.val - 1) (Nat.lt_of_le_of_lt (Nat.sub_le _ _) t.isLt)) := by
  obtain ⟨_ | n, hn⟩ := t <;> rfl

-- One body call maps what the point before left (anything, at a first contraction step) to the accumulator after this point.
theorem acc2_eq (c : Dev nD) (t : Fin cfg2.N) (xs : Vec F S256x256 .f32) (h : ∀ m (hm : m < cfg2.N), t.val = m + 1 → xs = acc2 V c m hm) :
    k2_pay2 (iblk2 V c 0 t) (iblk2 V c 1 t) (if cond2_0 (grid2.coords t) then k2_pay1 else xs) = acc2 V c t.val t.isLt := by
  rw [acc2_def V c t]
  by_cases h0 : t.val % 4 = 0
  · rw [if_pos h0, if_pos ((hcond2_0 t).mpr h0)]
  · rw [if_neg h0, if_neg (mt (hcond2_0 t).mp h0), h (t.val - 1) (Nat.lt_of_le_of_lt (Nat.sub_le _ _) t.isLt) (by omega)]

def out2 (c : Dev nD) (t : Fin cfg2.N) : Vec F S256x256 .f32 :=
  k2_pay3 (acc2 V c t.val t.isLt) (iblk2 V c 2 t) (iblk2 V c 3 t)

abbrev scM2 : Memref sig .tc .vmem S256x256 .f32 := Memref.whole cc2_scratch0

-- Between points the accumulator holds what the point before left (anything, before the first point).
def Phi2 (c : Dev nD) (n : ℕ) : sProp 𝕄 :=
  iprop(∃ xs, ⌜∀ m (hm : m < cfg2.N), n = m + 1 → xs = acc2 V c m hm⌝ ∗ owns c scM2 fullShare xs
    ∗ (∃ r, prngReg c r) ∗ Pipeline.scopedRestBut spec2 c [cc2_scratch0])

theorem scopedRest2_eq (c : Dev nD) :
    (Pipeline.scopedRest spec2 c : sProp 𝕄)
      = iprop(iprop(∃ d, owns c scM2 fullShare d) ∗ Pipeline.scopedRestBut spec2 c [cc2_scratch0]) := by
  rw [scopedRest2_split]; simp only [scM2, owns_whole]; try rfl

def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ t := Phi2 V c t.val
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) (t : Fin (cfg2.N + 1)) : (dat2 V c).owed t = 0 := by
  dsimp only [dat2]
theorem recorded_eq2 (c : Dev nD) (t : Fin (cfg2.N + 1)) : (dat2 V c).recorded t = Set.univ := by
  dsimp only [dat2]

theorem after2_4 (c : Dev nD) (t : Fin cfg2.N) : (dat2 V c).after 4 t = out2 V c t := by dsimp only [dat2]

theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ (∀ d, (dat2 V c).before 3 t d = iblk2 V c 3 t) := by
  refine ⟨?_, ?_, ?_, ?_⟩ <;>
    exact fun d => ((dat2 V c).before_in_eq_fetched _ rfl (fun _ => rfl) (fun _ _ _ => rfl) (fun _ => rfl) t d).trans rfl

theorem leaves2 (c : Dev nD) (t : Fin cfg2.N) :
    (dat2 V c).leavesExact 0 t = owns c (st2_0 t) fullShare (iblk2 V c 0 t)
      ∧ (dat2 V c).leavesExact 1 t = owns c (st2_1 t) fullShare (iblk2 V c 1 t)
      ∧ (dat2 V c).leavesExact 2 t = owns c (st2_2 t) fullShare (iblk2 V c 2 t)
      ∧ (dat2 V c).leavesExact 3 t = owns c (st2_3 t) fullShare (iblk2 V c 3 t) :=
  ⟨rfl, rfl, rfl, rfl⟩

def bodyPre2 (c : Dev nD) (t : Fin cfg2.N) : sProp 𝕄 :=
  iprop((dat2 V c).Φ t.castSucc ∗ (dat2 V c).owesAt () t.castSucc
    ∗ (∃ d, owns c (st2_0 t) fullShare ((dat2 V c).before 0 t d))
    ∗ (∃ d, owns c (st2_1 t) fullShare ((dat2 V c).before 1 t d))
    ∗ (∃ d, owns c (st2_2 t) fullShare ((dat2 V c).before 2 t d))
    ∗ (∃ d, owns c (st2_3 t) fullShare ((dat2 V c).before 3 t d))
    ∗ (∃ d, owns c (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

-- At any point the body is one call of kernel2 on that point's blocks.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨ba, bb, bc, bd⟩ := before2 V c t
  obtain ⟨la, lb, lc, ld⟩ := leaves2 V c t
  rw [la, lb, lc, ld]; simp only [ba, bb, bc, bd]
  rw [show (dat2 V c).owesAt () t.succ = (dat2 V c).owesAt () t.castSucc from rfl,
    show (dat2 V c).Φ t.succ = Phi2 V c (t.val + 1) from rfl,
    show (dat2 V c).Φ t.castSucc = Phi2 V c t.val from rfl]
  unfold Phi2
  have h0 := hcond2_0 t
  have h1 := hcond2_1 t
  iintro ⟨⟨%xs, %hxs, HS, Hg, Hr⟩, Ho, ⟨%d0, H0⟩, ⟨%d1, H1⟩, ⟨%d2, H2⟩, ⟨%d3, H3⟩, ⟨%d4, H4⟩⟩
  iapply (kernel2 c Set.univ (grid2.coords t) (fun a b => absurd ((h0.mp a).symm.trans (h1.mp b)) (by decide)) _ _ _ _ _ _ _ _ _ _ scM2 (Memref.isWhole_whole _)
    (iblk2 V c 0 t) (iblk2 V c 1 t) (iblk2 V c 2 t) (iblk2 V c 3 t) ((dat2 V c).before 4 t d4) xs _)
  iframe H0 H1 H2 H3 H4 HS
  iintro H0 H1 H2 H3 H4 HS
  rw [acc2_eq V c t xs hxs]
  isplitl [HS Hg Hr]
  · iexists _; iframe HS Hg Hr
    ipureintro; intro m hm e; cases Nat.succ.inj e; rfl
  iframe Ho H0 H1 H2 H3
  by_cases h3 : cond2_1 (grid2.coords t)
  · rw [if_pos h3]; unfold Dat.leavesExact; rw [liveAt2_4 t h3, after2_4]; iexact H4
  · rw [if_neg h3, Dat.leavesExact_idle (dat2 V c) 4 t (idleAt2_4 t h3) (noFlush2_4 t h3)]; iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : (iprop((∃ r, prngReg c r) ∗ Pipeline.scopedRest spec2 c) : sProp 𝕄) ⊢ (dat2 V c).Φ 0 := by
  rw [show (dat2 V c).Φ 0 = Phi2 V c 0 from rfl, scopedRest2_eq]; unfold Phi2
  iintro ⟨Hg, ⟨%d, HS⟩, Hr⟩
  iexists d; iframe HS Hg Hr
  ipureintro; exact fun _ _ e => nomatch e

-- After the last point the accumulator's contents are forgotten.
theorem hout2 (c : Dev nD) : (dat2 V c).Φ (Fin.last cfg2.N) ⊢ (iprop((∃ r, prngReg c r) ∗ Pipeline.scopedRest spec2 c) : sProp 𝕄) := by
  rw [show (dat2 V c).Φ (Fin.last cfg2.N) = Phi2 V c cfg2.N from rfl, scopedRest2_eq]; unfold Phi2
  iintro ⟨%xs, -, HS, Hg, Hr⟩
  isplitl [Hg]; · iexact Hg
  isplitl [HS]; · iexists _; iexact HS
  iexact Hr

end Cert.Kernel.Hand

end
-- ==== Proof.K.Bsum3.lean ====
import proofs.«412769_j28716151341139_3_alg».proof.Proof.Gen.Kernel.Launch
import proofs.«412769_j28716151341139_3_alg».proof.Proof.Gen.Kernel.Skeleton
import proofs.«412769_j28716151341139_3_alg».proof.Proof.Gen.Kernel.Points
import proofs.«412769_j28716151341139_3_alg».proof.Proof.Gen.Kernel.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem idleAt3_3 : ∀ t : Fin cfg3.N, ¬t.val % 4 = 3 → cfg3.idle 3 (grid3.coords t) = true := by decide +kernel
theorem noFlush3_3 : ∀ t : Fin cfg3.N, ¬t.val % 4 = 3 → (cfg3.win 3).flush t = false := by decide +kernel
theorem liveAt3_3 : ∀ t : Fin cfg3.N, t.val % 4 = 3 → cfg3.idle 3 (grid3.coords t) = false := by decide +kernel

abbrev scM3_0 : Memref sig .tc .vmem S256x512 .f32 := Memref.whole cc3_scratch0

theorem zero3 : (![0, 0] : Fin 2 → ℕ) = fun _ => 0 := by funext a; fin_cases a <;> rfl

set_option maxHeartbeats 750000 in
-- The body at a point: the accumulator, reset to zero where the first condition holds, gains the block product; where the second holds the output is the sum plus the third block.
theorem kernel3 (c : Dev nD) (E : Set ℕ) (i : grid3.Coords)
    (arg3 : Memref sig .tc .vmem S512x256 .f32) (harg3 : arg3.IsWhole) (arg4 : Memref sig .tc .vmem S512x512 .f32) (harg4 : arg4.IsWhole)
    (arg5 : Memref sig .tc .vmem S256x512 .f32) (harg5 : arg5.IsWhole) (arg6 : Memref sig .tc .vmem S256x512 .f32) (harg6 : arg6.IsWhole)
    (arg7 : Memref sig .tc .vmem S256x512 .f32) (harg7 : arg7.IsWhole) (hne : ¬(cond3_0 i ∧ cond3_1 i))
    (x0 : Vec F S512x256 .f32) (x1 : Vec F S512x512 .f32) (x2 d xs : Vec F S256x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (if cond3_1 i then k3_pay3 (k3_pay2 x0 x1 (if cond3_0 i then k3_pay1 else xs)) x2 else d)
            ∗ owns (c : Thread nD τ) arg7 fullShare (k3_pay2 x0 x1 (if cond3_0 i then k3_pay1 else xs))) -∗ K ⟨⟩))
      ⊢ wp frame (wpE (defs₀ (F := F)) Variants.none c none) E (cc3__atb_kernel i arg3 harg3 arg4 harg4 arg5 harg5 arg6 harg6 arg7 harg7) K := by
  by_cases hc0 : cond3_0 i <;> by_cases hc1 : cond3_1 i
  · exact absurd ⟨hc0, hc1⟩ hne
  all_goals
    ((first | rw [if_pos hc0] | rw [if_neg hc0])
     (first | rw [if_pos hc1] | rw [if_neg hc1])
     simp only [cc3__atb_kernel_eq_skeleton]; unfold cc3__atb_kernel_skel owns
     iintro ⟨⟨%f0, %hf0, H0⟩, ⟨%f1, %hf1, H1⟩, ⟨%f2, %hf2, H2⟩, ⟨%f3, %hf3, H3⟩, ⟨%fs, %hfs, HS⟩, Hk⟩
     subst hf0 hf1 hf2 hf3 hfs
     sl_exec (disch := first | exact hc0 | exact hc1)
     sl_step
     iapply Hk
     isplitl [H0]; swap; isplitl [H1]; swap; isplitl [H2]; swap; isplitl [H3]
     all_goals
       iexists _; isplitr; swap; · iassumption
       ipureintro
       first
       | with_reducible rfl
       | sl_unfold_run_names
         rw [View.read_writes_eq_canon _ _ _ (fun y => ⟨_, List.mem_cons_self, View.mem_set_unit_zero zero3 inb_S256x512_S256x512_0_0 y⟩),
           View.canon_cons_unit_zero zero3]
         try rw [View.readCov_unit_zero _ zero3]
         simp only [View.readAt_eq_ld, View.ld_unit_zero (S := S512x256) zero3, View.ld_unit_zero (S := S512x512) zero3, View.ld_unit_zero (S := S256x512) zero3])

-- What the accumulator holds after point n: the point's block product added to zero at the first point of a reduction, to what the point before left at the others.
def acc3 (c : Dev nD) (n : ℕ) (hn : n < cfg3.N) : Vec F S256x512 .f32 :=
  k3_pay2 (iblk3 V c 0 ⟨n, hn⟩) (iblk3 V c 1 ⟨n, hn⟩) (if h : n % 4 = 0 then k3_pay1 else acc3 c (n - 1) (by omega))
termination_by n
decreasing_by omega

theorem acc3_A (c : Dev nD) (t : Fin cfg3.N) (h0 : t.val % 4 = 0) :
    acc3 V c t.val t.isLt = k3_pay2 (iblk3 V c 0 t) (iblk3 V c 1 t) k3_pay1 :=
  (acc3.eq_1 V c t.val t.isLt).trans (by rw [dif_pos h0])

theorem acc3_B (c : Dev nD) (t : Fin cfg3.N) (h0 : ¬t.val % 4 = 0) :
    acc3 V c t.val t.isLt = k3_pay2 (iblk3 V c 0 t) (iblk3 V c 1 t) (acc3 V c (t.val - 1) (Nat.lt_of_le_of_lt (Nat.sub_le _ _) t.isLt)) :=
  (acc3.eq_1 V c t.val t.isLt).trans (by rw [dif_neg h0])

-- Before point n the accumulator holds what point n - 1 left (anything when n = 0).
def PhiS3 (c : Dev nD) (n : ℕ) (hn : n ≤ cfg3.N) : sProp 𝕄 :=
  iprop((∃ r, prngReg c r) ∗ (∃ xs, ⌜∀ h : n ≠ 0, xs = acc3 V c (n - 1) (by omega)⌝ ∗ owns (c : Thread nD τ) scM3_0 fullShare xs)
    ∗ Pipeline.scopedRestBut spec3 c [cc3_scratch0])

def dat3 (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := PhiS3 V c t.val (Nat.le_of_lt_succ t.isLt)
  q _ := fullShare
  owed _ := 0

theorem A_eq3 (c : Dev nD) (w : Fin cfg3.W) : (dat3 V c).A w = V c (Pipeline.arrRef spec3 w) := rfl
theorem q_eq3 (c : Dev nD) (w : Fin cfg3.W) : (dat3 V c).q w = fullShare := rfl
theorem owed_eq3 (c : Dev nD) (t : Fin (cfg3.N + 1)) : (dat3 V c).owed t = 0 := rfl
theorem recorded_eq3 (c : Dev nD) (t : Fin (cfg3.N + 1)) : (dat3 V c).recorded t = Set.univ := rfl

-- The inputs the body sees at a point are the blocks of the arrays as the region found them.
theorem before3 (c : Dev nD) (t : Fin cfg3.N) : (∀ d, (dat3 V c).before 0 t d = iblk3 V c 0 t)
    ∧ (∀ d, (dat3 V c).before 1 t d = iblk3 V c 1 t) ∧ (∀ d, (dat3 V c).before 2 t d = iblk3 V c 2 t) := by
  refine ⟨?_, ?_, ?_⟩ <;> exact fun d =>
    ((dat3 V c).before_in_eq_fetched _ rfl (fun _ => rfl) (fun _ _ _ => rfl) (fun _ => rfl) t d).trans rfl

-- The output block is the sum plus the third block at the last point of a reduction and unchanged elsewhere.
theorem leaves3_3 (c : Dev nD) (t : Fin cfg3.N) (d) :
    owns (c : Thread nD τ) (st3_3 t) fullShare (if cond3_1 (grid3.coords t) then k3_pay3 (acc3 V c t.val t.isLt) (iblk3 V c 2 t) else (dat3 V c).before 3 t d)
      ⊢ (dat3 V c).leavesExact 3 t := by
  by_cases h3 : t.val % 4 = 3
  · rw [if_pos ((hcond3_1 t).mpr h3)]; unfold Dat.leavesExact; rw [liveAt3_3 t h3]; exact .rfl
  · rw [if_neg (mt (hcond3_1 t).mp h3), Dat.leavesExact_idle (dat3 V c) 3 t (idleAt3_3 t h3) (noFlush3_3 t h3)]
    iintro H; iexists d; iexact H

theorem body_obligation3 (c : Dev nD) : BodyObligation (dat3 (F := F) V c) (defs₀ (F := F)) Variants.none () Set.univ := fun t => by
  rw [bigSep_W3, bigSep_W3]
  change iprop(PhiS3 V c t.val (Nat.le_of_lt t.isLt) ∗ _) ⊢ wp _ _ _ (bodyAt3 t) fun _ =>
    iprop(PhiS3 V c (t.val + 1) t.isLt ∗ (dat3 V c).owesAt () t.castSucc ∗ _ ∗ _ ∗ _ ∗ (dat3 V c).leavesExact 3 t)
  simp only [(before3 V c t).1, (before3 V c t).2.1, (before3 V c t).2.2]
  unfold PhiS3 bodyAt3
  iintro ⟨⟨Hg, ⟨%xs, %hxs, HS⟩, Hr⟩, Ho, ⟨%d0, H0⟩, ⟨%d1, H1⟩, ⟨%d2, H2⟩, ⟨%d3, H3⟩⟩
  have hacc : k3_pay2 (iblk3 V c 0 t) (iblk3 V c 1 t) (if cond3_0 (grid3.coords t) then k3_pay1 else xs) = acc3 V c t.val t.isLt := by
    refine (congrArg _ ?_).trans (acc3.eq_1 V c t.val t.isLt).symm
    by_cases h0 : t.val % 4 = 0
    · rw [if_pos ((hcond3_0 t).mpr h0), dif_pos h0]
    · rw [if_neg (mt (hcond3_0 t).mp h0), dif_neg h0, hxs fun e => h0 (by rw [e])]
  iapply (kernel3 c Set.univ (grid3.coords t) _ _ _ _ _ _ _ _ _ _
    (fun h => by have h0 := (hcond3_0 t).mp h.1; have h1 := (hcond3_1 t).mp h.2; omega) (iblk3 V c 0 t) (iblk3 V c 1 t) (iblk3 V c 2 t) ((dat3 V c).before 3 t d3) xs _)
  rw [hacc]
  iframe H0 H1 H2 H3 HS
  iintro ⟨H0, H1, H2, H3, HS⟩
  iframe Hg Hr Ho
  isplitl [HS]
  · iexists _; isplitr; swap; · iexact HS
    ipureintro; exact fun _ => rfl
  isplitl [H0]; · iexact H0
  isplitl [H1]; · iexact H1
  isplitl [H2]; · iexact H2
  iapply (leaves3_3 V c t d3); iexact H3

theorem hin3 (c : Dev nD) : (iprop((∃ r, prngReg c r) ∗ Pipeline.scopedRest spec3 c) : sProp 𝕄) ⊢ (dat3 V c).Φ 0 := by
  rw [scopedRest3_split, show (dat3 V c).Φ 0 = PhiS3 V c 0 (Nat.zero_le _) from rfl]
  unfold PhiS3; simp only [owns_whole]
  iintro ⟨Hg, ⟨%d, HS⟩, Hr⟩
  iframe Hg Hr
  iexists d; isplitr; swap; · iexact HS
  ipureintro; exact fun h => absurd rfl h

theorem hout3 (c : Dev nD) : (dat3 V c).Φ (Fin.last cfg3.N) ⊢ (iprop((∃ r, prngReg c r) ∗ Pipeline.scopedRest spec3 c) : sProp 𝕄) := by
  rw [scopedRest3_split, show (dat3 V c).Φ (Fin.last cfg3.N) = PhiS3 V c _ (Nat.le_of_lt_succ (Fin.last cfg3.N).isLt) from rfl]
  unfold PhiS3; simp only [owns_whole]
  iintro ⟨Hg, ⟨%d, -, HS⟩, Hr⟩
  iframe Hg Hr
  iexists d; iexact HS

end Cert.Kernel.Hand

end
-- ==== Proof.K.Lstm4.lean ====
import proofs.«412769_j28716151341139_3_alg».proof.Proof.Gen.Kernel.Launch
import proofs.«412769_j28716151341139_3_alg».proof.Proof.Gen.Kernel.Skeleton
import proofs.«412769_j28716151341139_3_alg».proof.Proof.Gen.Kernel.Points
import proofs.«412769_j28716151341139_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- window `w`'s block of its array at point `t`
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_x : Rect S64x2048 := Rect.unit (s := S64x2048) ![0, 0] S64x2048.size inb_S64x2048_S64x2048_0_0

abbrev r4_w : Rect S2048x2048 := Rect.unit (s := S2048x2048) ![0, 0] S2048x2048.size inb_S2048x2048_S2048x2048_0_0

abbrev r4_b : Rect S1x2048 := Rect.unit (s := S1x2048) ![0, 0] S1x2048.size inb_S1x2048_S1x2048_0_0

abbrev r4_o : Rect S64x512 := Rect.unit (s := S64x512) ![0, 0] S64x512.size inb_S64x512_S64x512_0_0

def out4_6 (xa xb : Vec F S64x2048 .f32) (xc xd : Vec F S2048x2048 .bf16) (xe : Vec F S1x2048 .f32) (xf : Vec F S64x512 .f32) : Vec F S64x512 .f32 :=
  View.canon [⟨r4_o, k4_pay3 (View.ld xa r4_x) (View.ld xb r4_x) (View.ld xc r4_w) (View.ld xd r4_w) (View.ld xe r4_b) (View.ld xf r4_o)⟩]

def out4_7 (xa xb : Vec F S64x2048 .f32) (xc xd : Vec F S2048x2048 .bf16) (xe : Vec F S1x2048 .f32) (xf : Vec F S64x512 .f32) : Vec F S64x512 .f32 :=
  View.canon [⟨r4_o, k4_pay2 (View.ld xa r4_x) (View.ld xb r4_x) (View.ld xc r4_w) (View.ld xd r4_w) (View.ld xe r4_b) (View.ld xf r4_o)⟩]

-- a single piece that is the whole shape covers every index
theorem cover4_o (p : Vec F S64x512 .f32) (y : S64x512.Idx) :
    ∃ pc ∈ ([⟨r4_o, p⟩] : List (View.Piece (Elt F) S64x512 .f32)), y ∈ pc.1.set :=
  View.cover_of_tiled [⟨r4_o, p⟩] S64x512.size (by rfl) y

-- the body's triple: the six inputs unchanged, the two outputs hold `out4_6` and `out4_7` of them
set_option maxHeartbeats 1000000 in
theorem sound_kernel4 (c : Dev nD) (E : Set ℕ) (i : grid4.Coords)
    (arga : Memref sig .tc .vmem S64x2048 .f32) (harga : arga.IsWhole) (argb : Memref sig .tc .vmem S64x2048 .f32) (hargb : argb.IsWhole)
    (argc : Memref sig .tc .vmem S2048x2048 .bf16) (hargc : argc.IsWhole) (argd : Memref sig .tc .vmem S2048x2048 .bf16) (hargd : argd.IsWhole)
    (arge : Memref sig .tc .vmem S1x2048 .f32) (harge : arge.IsWhole) (argf : Memref sig .tc .vmem S64x512 .f32) (hargf : argf.IsWhole)
    (argg : Memref sig .tc .vmem S64x512 .f32) (hargg : argg.IsWhole) (argh : Memref sig .tc .vmem S64x512 .f32) (hargh : argh.IsWhole)
    (xa xb : Vec F S64x2048 .f32) (xc xd : Vec F S2048x2048 .bf16) (xe : Vec F S1x2048 .f32) (xf : Vec F S64x512 .f32) (K : PUnit → sProp 𝕄) :
    iprop(owns c arga fullShare xa ∗ owns c argb fullShare xb ∗ owns c argc fullShare xc
        ∗ owns c argd fullShare xd ∗ owns c arge fullShare xe ∗ owns c argf fullShare xf
        ∗ (∃ d, owns c argg fullShare d) ∗ (∃ d, owns c argh fullShare d)
        ∗ (iprop(owns c arga fullShare xa ∗ owns c argb fullShare xb ∗ owns c argc fullShare xc
            ∗ owns c argd fullShare xd ∗ owns c arge fullShare xe ∗ owns c argf fullShare xf
            ∗ owns c argg fullShare (out4_6 xa xb xc xd xe xf) ∗ owns c argh fullShare (out4_7 xa xb xc xd xe xf)) -∗ K ⟨⟩))
      ⊢ wp frame (wpE (defs₀ (F := F)) Variants.none c none) E (cc4__lstm_kernel i arga harga argb hargb argc hargc argd hargd arge harge argf hargf argg hargg argh hargh) K := by
  simp only [cc4__lstm_kernel_eq_skeleton]; unfold cc4__lstm_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dg, %fg, -, Hg⟩, ⟨%dh, %fh, -, Hh⟩, Hk⟩
  subst hfa hfb hfc hfd hfe hff
  sl_exec
  sl_step
  iapply Hk
  isplitl [Ha]; · iexists _; isplitr; swap; iexact Ha; ipureintro; rfl
  isplitl [Hb]; · iexists _; isplitr; swap; iexact Hb; ipureintro; rfl
  isplitl [Hc]; · iexists _; isplitr; swap; iexact Hc; ipureintro; rfl
  isplitl [Hd]; · iexists _; isplitr; swap; iexact Hd; ipureintro; rfl
  isplitl [He]; · iexists _; isplitr; swap; iexact He; ipureintro; rfl
  isplitl [Hf]; · iexists _; isplitr; swap; iexact Hf; ipureintro; rfl
  isplitl [Hg]; · iexists _; isplitr; swap; iexact Hg; ipureintro; exact View.read_writes_eq_canon _ _ _ (cover4_o _)
  iexists _; isplitr; swap; iexact Hh; ipureintro; exact View.read_writes_eq_canon _ _ _ (cover4_o _)

def dat4 (V : (c : Dev nD) → (b : Ref sig .tc) → Buf (Elt F) ((c : Thread nD τ).loc b)) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
    | ⟨7, _⟩ => out4_7 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem q_eq4 (c : Dev nD) (w : Fin cfg4.W) : (dat4 V c).q w = fullShare := by
  dsimp only [dat4]

theorem owed_eq4 (c : Dev nD) (t : Fin (cfg4.N + 1)) : (dat4 V c).owed t = 0 := by
  dsimp only [dat4]

theorem recorded_eq4 (c : Dev nD) (t : Fin (cfg4.N + 1)) : (dat4 V c).recorded t = Set.univ := by
  dsimp only [dat4]

-- each input window holds its block of the array at every point
theorem before4 (c : Dev nD) (t : Fin cfg4.N) :
    (∀ d, (dat4 V c).before 0 t d = iblk4 V c 0 t) ∧ (∀ d, (dat4 V c).before 1 t d = iblk4 V c 1 t)
    ∧ (∀ d, (dat4 V c).before 2 t d = iblk4 V c 2 t) ∧ (∀ d, (dat4 V c).before 3 t d = iblk4 V c 3 t)
    ∧ (∀ d, (dat4 V c).before 4 t d = iblk4 V c 4 t) ∧ (∀ d, (dat4 V c).before 5 t d = iblk4 V c 5 t) := by
  refine ⟨?_, ?_, ?_, ?_, ?_, ?_⟩ <;>
    exact fun d => ((dat4 V c).before_in_eq_fetched _ rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns c (st4_0 t) fullShare ((dat4 V c).before 0 t d))
    ∗ (∃ d, owns c (st4_1 t) fullShare ((dat4 V c).before 1 t d))
    ∗ (∃ d, owns c (st4_2 t) fullShare ((dat4 V c).before 2 t d))
    ∗ (∃ d, owns c (st4_3 t) fullShare ((dat4 V c).before 3 t d))
    ∗ (∃ d, owns c (st4_4 t) fullShare ((dat4 V c).before 4 t d))
    ∗ (∃ d, owns c (st4_5 t) fullShare ((dat4 V c).before 5 t d))
    ∗ (∃ d, owns c (st4_6 t) fullShare ((dat4 V c).before 6 t d))
    ∗ (∃ d, owns c (st4_7 t) fullShare ((dat4 V c).before 7 t d)))

def bodyPost4 (c : Dev nD) (t : Fin cfg4.N) : sProp 𝕄 :=
  iprop((dat4 V c).Φ t.succ ∗ (dat4 V c).owesAt () t.succ
    ∗ owns c (st4_0 t) fullShare ((dat4 V c).after 0 t)
    ∗ owns c (st4_1 t) fullShare ((dat4 V c).after 1 t)
    ∗ owns c (st4_2 t) fullShare ((dat4 V c).after 2 t)
    ∗ owns c (st4_3 t) fullShare ((dat4 V c).after 3 t)
    ∗ owns c (st4_4 t) fullShare ((dat4 V c).after 4 t)
    ∗ owns c (st4_5 t) fullShare ((dat4 V c).after 5 t)
    ∗ owns c (st4_6 t) fullShare ((dat4 V c).after 6 t)
    ∗ owns c (st4_7 t) fullShare ((dat4 V c).after 7 t))

-- the body at a point: its triple at the input blocks; invariant and debt pass through
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [show (dat4 V c).owesAt () t.succ = (dat4 V c).owesAt () t.castSucc from rfl]
  simp only [before4 V c t]
  dsimp only [dat4]
  iintro ⟨HΦ, Ho, ⟨%da, Ha⟩, ⟨%db, Hb⟩, ⟨%dc, Hc⟩, ⟨%dd, Hd⟩, ⟨%de, He⟩, ⟨%df, Hf⟩, Hg, Hh⟩
  iapply (sound_kernel4 c Set.univ _ _ _ _ _ _ _ _ _ _ _ _ _ _ _ _ _
    (iblk4 V c 0 t) (iblk4 V c 1 t) (iblk4 V c 2 t) (iblk4 V c 3 t) (iblk4 V c 4 t) (iblk4 V c 5 t) _)
  iframe Ha Hb Hc Hd He Hf
  isplitl [Hg]; · icases Hg with ⟨%d, Hg⟩; iexists _; iexact Hg
  isplitl [Hh]; · icases Hh with ⟨%d, Hh⟩; iexists _; iexact Hh
  iintro ⟨Ha, Hb, Hc, Hd, He, Hf, Hg, Hh⟩
  iframe

theorem body_obligation4 (c : Dev nD) : BodyObligation (dat4 (F := F) V c) (defs₀ (F := F)) Variants.none () Set.univ := fun t => by
  rw [bigSep_W4, bigSep_W4]
  exact sound_body4 V c t

-- the invariant at the region's ends is the two given resources in the other order
theorem hin4 (c : Dev nD) : (iprop((∃ r, prngReg c r) ∗ Pipeline.scopedRest spec4 c) : sProp 𝕄) ⊢ (dat4 V c).Φ 0 :=
  sep_comm.1

theorem hout4 (c : Dev nD) : (dat4 V c).Φ (Fin.last cfg4.N) ⊢ (iprop((∃ r, prngReg c r) ∗ Pipeline.scopedRest spec4 c) : sProp 𝕄) :=
  sep_comm.1

end Cert.Kernel.Hand

end
-- ==== Proof.K.Gate5.lean ====
import proofs.«412769_j28716151341139_3_alg».proof.Proof.Gen.Kernel.Launch
import proofs.«412769_j28716151341139_3_alg».proof.Proof.Gen.Kernel.Skeleton
import proofs.«412769_j28716151341139_3_alg».proof.Proof.Gen.Kernel.Points
import proofs.«412769_j28716151341139_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond5_0 (i : grid5.Coords) : Prop := (Scalar.cmpi .ne (Scalar.extui (Scalar.cmpi .eq (BitVec.ofNat 32 (i 2).val) 0#32)) 0#32) = 1#1
abbrev cond5_1 (i : grid5.Coords) : Prop := k5_cond2 i = 1#1

theorem zeros5 : (![0, 0] : Fin 2 → ℕ) = fun _ => 0 := by funext a; fin_cases a <;> rfl

-- The newest write covers the whole shape, so reading back gives its payload.
theorem read_writes_cons_unit_zero5 {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

-- One call of the body: the accumulator restarts from zero at a first contraction step, and the gate is stored at a last one.
set_option maxHeartbeats 1000000 in
theorem kernel5 (c : Dev nD) (E : Set ℕ) (i : grid5.Coords) (hx : cond5_0 i → ¬cond5_1 i)
    (arg3 : Memref sig .tc .vmem S256x512 .f32) (harg3 : arg3.IsWhole) (arg4 : Memref sig .tc .vmem S256x512 .bf16) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S256x256 .f32) (harg7 : arg7.IsWhole) (arg8 : Memref sig .tc .vmem S256x256 .f32) (harg8 : arg8.IsWhole)
    (x0 : Vec F S256x512 .f32) (x1 : Vec F S256x512 .bf16) (x2 : Vec F S1x256 .f32) (x3 x4 xs : Vec F S256x256 .f32)
    (K : PUnit → sProp 𝕄) :
    iprop(owns c arg3 fullShare x0 ∗ owns c arg4 fullShare x1 ∗ owns c arg5 fullShare x2
        ∗ owns c arg6 fullShare x3 ∗ owns c arg7 fullShare x4 ∗ owns c arg8 fullShare xs
        ∗ (owns c arg3 fullShare x0 -∗ owns c arg4 fullShare x1 -∗ owns c arg5 fullShare x2 -∗ owns c arg6 fullShare x3
        -∗ owns c arg7 fullShare (if cond5_1 i then k5_pay3 (k5_pay2 x0 x1 (if cond5_0 i then k5_pay1 else xs)) x2 x3 else x4)
        -∗ owns c arg8 fullShare (k5_pay2 x0 x1 (if cond5_0 i then k5_pay1 else xs)) -∗ K ⟨⟩))
      ⊢ wp frame (wpE (defs₀ (F := F)) Variants.none c none) E (cc5__gate_kernel i arg3 harg3 arg4 harg4 arg5 harg5 arg6 harg6 arg7 harg7 arg8 harg8) K := by
  by_cases hc0 : cond5_0 i <;> by_cases hc1 : cond5_1 i
  · exact absurd hc1 (hx hc0)
  all_goals
    first | rw [if_pos hc0] | rw [if_neg hc0]
    first | rw [if_pos hc1] | rw [if_neg hc1]
    simp only [cc5__gate_kernel_eq_skeleton]; unfold cc5__gate_kernel_skel owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    subst hf0 hf1 hf2 hf3 hf4 hfs
    sl_exec (disch := first | exact hc0 | exact hc1)
    sl_step
    iapply Hk $$ [H0] [H1] [H2] [H3] [H4] [HS]
    all_goals
      iexists _; isplitr; swap; · iassumption
      ipureintro
      first
        | (sl_unfold_run_names; rw [read_writes_cons_unit_zero5 _ _ zeros5]; try rw [View.readCov_unit_zero _ zeros5]
           repeat rw [View.readAt_eq_ld]
           repeat rw [View.ld_unit_zero zeros5])
        | rfl

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem hcond5_0 : ∀ t : Fin cfg5.N, cond5_0 (grid5.coords t) ↔ t.val % 4 = 0 :=
  (by decide +kernel : ∀ t : Fin grid5.N, cond5_0 (grid5.coords t) ↔ t.val % 4 = 0)
theorem hcond5_1 : ∀ t : Fin cfg5.N, cond5_1 (grid5.coords t) ↔ t.val % 4 = 3 :=
  (by decide +kernel : ∀ t : Fin grid5.N, cond5_1 (grid5.coords t) ↔ t.val % 4 = 3)

theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel
theorem liveAt5_4 : ∀ t : Fin cfg5.N, cond5_1 (grid5.coords t) → cfg5.idle 4 (grid5.coords t) = false := by decide +kernel

-- The accumulator after the body at position n: the block product added to zero at a first contraction step, else to what the point before left.
def acc5 (c : Dev nD) : (n : ℕ) → n < cfg5.N → Vec F S256x256 .f32
  | 0, hn => k5_pay2 (iblk5 V c 0 ⟨0, hn⟩) (iblk5 V c 1 ⟨0, hn⟩) (k5_pay1 (F := F))
  | n + 1, hn => k5_pay2 (iblk5 V c 0 ⟨n + 1, hn⟩) (iblk5 V c 1 ⟨n + 1, hn⟩)
      (if (n + 1) % 4 = 0 then k5_pay1 (F := F) else acc5 c n (Nat.lt_of_succ_lt hn))

theorem acc5_def (c : Dev nD) (t : Fin cfg5.N) :
    acc5 V c t.val t.isLt = k5_pay2 (iblk5 V c 0 t) (iblk5 V c 1 t)
      (if t.val % 4 = 0 then k5_pay1 (F := F) else acc5 V c (t.val - 1) (Nat.lt_of_le_of_lt (Nat.sub_le _ _) t.isLt)) := by
  obtain ⟨_ | n, hn⟩ := t <;> rfl

-- One body call maps what the point before left (anything, at a first contraction step) to the accumulator after this point.
theorem acc5_eq (c : Dev nD) (t : Fin cfg5.N) (xs : Vec F S256x256 .f32) (h : ∀ m (hm : m < cfg5.N), t.val = m + 1 → xs = acc5 V c m hm) :
    k5_pay2 (iblk5 V c 0 t) (iblk5 V c 1 t) (if cond5_0 (grid5.coords t) then k5_pay1 else xs) = acc5 V c t.val t.isLt := by
  rw [acc5_def V c t]
  by_cases h0 : t.val % 4 = 0
  · rw [if_pos h0, if_pos ((hcond5_0 t).mpr h0)]
  · rw [if_neg h0, if_neg (mt (hcond5_0 t).mp h0), h (t.val - 1) (Nat.lt_of_le_of_lt (Nat.sub_le _ _) t.isLt) (by omega)]

def out5 (c : Dev nD) (t : Fin cfg5.N) : Vec F S256x256 .f32 :=
  k5_pay3 (acc5 V c t.val t.isLt) (iblk5 V c 2 t) (iblk5 V c 3 t)

abbrev scM5 : Memref sig .tc .vmem S256x256 .f32 := Memref.whole cc5_scratch0

-- Between points the accumulator holds what the point before left (anything, before the first point).
def Phi5 (c : Dev nD) (n : ℕ) : sProp 𝕄 :=
  iprop(∃ xs, ⌜∀ m (hm : m < cfg5.N), n = m + 1 → xs = acc5 V c m hm⌝ ∗ owns c scM5 fullShare xs
    ∗ (∃ r, prngReg c r) ∗ Pipeline.scopedRestBut spec5 c [cc5_scratch0])

theorem scopedRest5_eq (c : Dev nD) :
    (Pipeline.scopedRest spec5 c : sProp 𝕄)
      = iprop(iprop(∃ d, owns c scM5 fullShare d) ∗ Pipeline.scopedRestBut spec5 c [cc5_scratch0]) := by
  rw [scopedRest5_split]; simp only [scM5, owns_whole]; try rfl

def dat5 (V : (c : Dev nD) → (b : Ref sig .tc) → Buf (Elt F) ((c : Thread nD τ).loc b)) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5 V c t
  Φ t := Phi5 V c t.val
  q _ := fullShare
  owed _ := 0

theorem A_eq5 (c : Dev nD) (w : Fin cfg5.W) : (dat5 V c).A w = V c (Pipeline.arrRef spec5 w) := by
  dsimp only [dat5]
theorem q_eq5 (c : Dev nD) (w : Fin cfg5.W) : (dat5 V c).q w = fullShare := by
  dsimp only [dat5]
theorem owed_eq5 (c : Dev nD) (t : Fin (cfg5.N + 1)) : (dat5 V c).owed t = 0 := by
  dsimp only [dat5]
theorem recorded_eq5 (c : Dev nD) (t : Fin (cfg5.N + 1)) : (dat5 V c).recorded t = Set.univ := by
  dsimp only [dat5]

theorem after5_4 (c : Dev nD) (t : Fin cfg5.N) : (dat5 V c).after 4 t = out5 V c t := by dsimp only [dat5]

theorem before5 (c : Dev nD) (t : Fin cfg5.N) :
    (∀ d, (dat5 V c).before 0 t d = iblk5 V c 0 t) ∧ (∀ d, (dat5 V c).before 1 t d = iblk5 V c 1 t)
      ∧ (∀ d, (dat5 V c).before 2 t d = iblk5 V c 2 t) ∧ (∀ d, (dat5 V c).before 3 t d = iblk5 V c 3 t) := by
  refine ⟨?_, ?_, ?_, ?_⟩ <;>
    exact fun d => ((dat5 V c).before_in_eq_fetched _ rfl (fun _ => rfl) (fun _ _ _ => rfl) (fun _ => rfl) t d).trans rfl

theorem leaves5 (c : Dev nD) (t : Fin cfg5.N) :
    (dat5 V c).leavesExact 0 t = owns c (st5_0 t) fullShare (iblk5 V c 0 t)
      ∧ (dat5 V c).leavesExact 1 t = owns c (st5_1 t) fullShare (iblk5 V c 1 t)
      ∧ (dat5 V c).leavesExact 2 t = owns c (st5_2 t) fullShare (iblk5 V c 2 t)
      ∧ (dat5 V c).leavesExact 3 t = owns c (st5_3 t) fullShare (iblk5 V c 3 t) :=
  ⟨rfl, rfl, rfl, rfl⟩

def bodyPre5 (c : Dev nD) (t : Fin cfg5.N) : sProp 𝕄 :=
  iprop((dat5 V c).Φ t.castSucc ∗ (dat5 V c).owesAt () t.castSucc
    ∗ (∃ d, owns c (st5_0 t) fullShare ((dat5 V c).before 0 t d))
    ∗ (∃ d, owns c (st5_1 t) fullShare ((dat5 V c).before 1 t d))
    ∗ (∃ d, owns c (st5_2 t) fullShare ((dat5 V c).before 2 t d))
    ∗ (∃ d, owns c (st5_3 t) fullShare ((dat5 V c).before 3 t d))
    ∗ (∃ d, owns c (st5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

-- At any point the body is one call of kernel5 on that point's blocks.
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  obtain ⟨ba, bb, bc, bd⟩ := before5 V c t
  obtain ⟨la, lb, lc, ld⟩ := leaves5 V c t
  rw [la, lb, lc, ld]; simp only [ba, bb, bc, bd]
  rw [show (dat5 V c).owesAt () t.succ = (dat5 V c).owesAt () t.castSucc from rfl,
    show (dat5 V c).Φ t.succ = Phi5 V c (t.val + 1) from rfl,
    show (dat5 V c).Φ t.castSucc = Phi5 V c t.val from rfl]
  unfold Phi5
  have h0 := hcond5_0 t
  have h1 := hcond5_1 t
  iintro ⟨⟨%xs, %hxs, HS, Hg, Hr⟩, Ho, ⟨%d0, H0⟩, ⟨%d1, H1⟩, ⟨%d2, H2⟩, ⟨%d3, H3⟩, ⟨%d4, H4⟩⟩
  iapply (kernel5 c Set.univ (grid5.coords t) (fun a b => absurd ((h0.mp a).symm.trans (h1.mp b)) (by decide)) _ _ _ _ _ _ _ _ _ _ scM5 (Memref.isWhole_whole _)
    (iblk5 V c 0 t) (iblk5 V c 1 t) (iblk5 V c 2 t) (iblk5 V c 3 t) ((dat5 V c).before 4 t d4) xs _)
  iframe H0 H1 H2 H3 H4 HS
  iintro H0 H1 H2 H3 H4 HS
  rw [acc5_eq V c t xs hxs]
  isplitl [HS Hg Hr]
  · iexists _; iframe HS Hg Hr
    ipureintro; intro m hm e; cases Nat.succ.inj e; rfl
  iframe Ho H0 H1 H2 H3
  by_cases h3 : cond5_1 (grid5.coords t)
  · rw [if_pos h3]; unfold Dat.leavesExact; rw [liveAt5_4 t h3, after5_4]; iexact H4
  · rw [if_neg h3, Dat.leavesExact_idle (dat5 V c) 4 t (idleAt5_4 t h3) (noFlush5_4 t h3)]; iexists _; iexact H4

theorem body_obligation5 (c : Dev nD) : BodyObligation (dat5 (F := F) V c) (defs₀ (F := F)) Variants.none () Set.univ := fun t => by
  rw [bigSep_W5, bigSep_W5]
  exact sound_body5 V c t

theorem hin5 (c : Dev nD) : (iprop((∃ r, prngReg c r) ∗ Pipeline.scopedRest spec5 c) : sProp 𝕄) ⊢ (dat5 V c).Φ 0 := by
  rw [show (dat5 V c).Φ 0 = Phi5 V c 0 from rfl, scopedRest5_eq]; unfold Phi5
  iintro ⟨Hg, ⟨%d, HS⟩, Hr⟩
  iexists d; iframe HS Hg Hr
  ipureintro; exact fun _ _ e => nomatch e

-- After the last point the accumulator's contents are forgotten.
theorem hout5 (c : Dev nD) : (dat5 V c).Φ (Fin.last cfg5.N) ⊢ (iprop((∃ r, prngReg c r) ∗ Pipeline.scopedRest spec5 c) : sProp 𝕄) := by
  rw [show (dat5 V c).Φ (Fin.last cfg5.N) = Phi5 V c cfg5.N from rfl, scopedRest5_eq]; unfold Phi5
  iintro ⟨%xs, -, HS, Hg, Hr⟩
  isplitl [Hg]; · iexact Hg
  isplitl [HS]; · iexists _; iexact HS
  iexact Hr

end Cert.Kernel.Hand

end
-- ==== Proof.K.Bsum6.lean ====
import proofs.«412769_j28716151341139_3_alg».proof.Proof.Gen.Kernel.Launch
import proofs.«412769_j28716151341139_3_alg».proof.Proof.Gen.Kernel.Skeleton
import proofs.«412769_j28716151341139_3_alg».proof.Proof.Gen.Kernel.Points
import proofs.«412769_j28716151341139_3_alg».proof.Proof.Gen.Kernel.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 2).val) 0#32)) 0#32) = 1#1
theorem hcond6_0 : ∀ t : Fin cfg6.N, cond6_0 (grid6.coords t) ↔ t.val % 4 = 0 :=
  (by decide +kernel : ∀ t : Fin grid6.N, cond6_0 (grid6.coords t) ↔ t.val % 4 = 0)
abbrev cond6_1 (i : grid6.Coords) : Prop := k6_cond2 i = 1#1
theorem hcond6_1 : ∀ t : Fin cfg6.N, cond6_1 (grid6.coords t) ↔ t.val % 4 = 3 :=
  (by decide +kernel : ∀ t : Fin grid6.N, cond6_1 (grid6.coords t) ↔ t.val % 4 = 3)

theorem idleAt6_3 : ∀ t : Fin cfg6.N, ¬t.val % 4 = 3 → cfg6.idle 3 (grid6.coords t) = true := by decide +kernel
theorem noFlush6_3 : ∀ t : Fin cfg6.N, ¬t.val % 4 = 3 → (cfg6.win 3).flush t = false := by decide +kernel
theorem liveAt6_3 : ∀ t : Fin cfg6.N, t.val % 4 = 3 → cfg6.idle 3 (grid6.coords t) = false := by decide +kernel

abbrev scM6_0 : Memref sig .tc .vmem S256x512 .f32 := Memref.whole cc6_scratch0

theorem zero6 : (![0, 0] : Fin 2 → ℕ) = fun _ => 0 := by funext a; fin_cases a <;> rfl

set_option maxHeartbeats 750000 in
-- The body at a point: the accumulator, reset to zero where the first condition holds, gains the block product; where the second holds the output is the sum plus the third block.
theorem kernel6 (c : Dev nD) (E : Set ℕ) (i : grid6.Coords)
    (arg3 : Memref sig .tc .vmem S512x256 .f32) (harg3 : arg3.IsWhole) (arg4 : Memref sig .tc .vmem S512x512 .f32) (harg4 : arg4.IsWhole)
    (arg5 : Memref sig .tc .vmem S256x512 .f32) (harg5 : arg5.IsWhole) (arg6 : Memref sig .tc .vmem S256x512 .f32) (harg6 : arg6.IsWhole)
    (arg7 : Memref sig .tc .vmem S256x512 .f32) (harg7 : arg7.IsWhole) (hne : ¬(cond6_0 i ∧ cond6_1 i))
    (x0 : Vec F S512x256 .f32) (x1 : Vec F S512x512 .f32) (x2 d xs : Vec F S256x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (if cond6_1 i then k6_pay3 (k6_pay2 x0 x1 (if cond6_0 i then k6_pay1 else xs)) x2 else d)
            ∗ owns (c : Thread nD τ) arg7 fullShare (k6_pay2 x0 x1 (if cond6_0 i then k6_pay1 else xs))) -∗ K ⟨⟩))
      ⊢ wp frame (wpE (defs₀ (F := F)) Variants.none c none) E (cc6__atb_kernel i arg3 harg3 arg4 harg4 arg5 harg5 arg6 harg6 arg7 harg7) K := by
  by_cases hc0 : cond6_0 i <;> by_cases hc1 : cond6_1 i
  · exact absurd ⟨hc0, hc1⟩ hne
  all_goals
    ((first | rw [if_pos hc0] | rw [if_neg hc0])
     (first | rw [if_pos hc1] | rw [if_neg hc1])
     simp only [cc6__atb_kernel_eq_skeleton]; unfold cc6__atb_kernel_skel owns
     iintro ⟨⟨%f0, %hf0, H0⟩, ⟨%f1, %hf1, H1⟩, ⟨%f2, %hf2, H2⟩, ⟨%f3, %hf3, H3⟩, ⟨%fs, %hfs, HS⟩, Hk⟩
     subst hf0 hf1 hf2 hf3 hfs
     sl_exec (disch := first | exact hc0 | exact hc1)
     sl_step
     iapply Hk
     isplitl [H0]; swap; isplitl [H1]; swap; isplitl [H2]; swap; isplitl [H3]
     all_goals
       iexists _; isplitr; swap; · iassumption
       ipureintro
       first
       | with_reducible rfl
       | sl_unfold_run_names
         rw [View.read_writes_eq_canon _ _ _ (fun y => ⟨_, List.mem_cons_self, View.mem_set_unit_zero zero6 inb_S256x512_S256x512_0_0 y⟩),
           View.canon_cons_unit_zero zero6]
         try rw [View.readCov_unit_zero _ zero6]
         simp only [View.readAt_eq_ld, View.ld_unit_zero (S := S512x256) zero6, View.ld_unit_zero (S := S512x512) zero6, View.ld_unit_zero (S := S256x512) zero6])

-- What the accumulator holds after point n: the point's block product added to zero at the first point of a reduction, to what the point before left at the others.
def acc6 (c : Dev nD) (n : ℕ) (hn : n < cfg6.N) : Vec F S256x512 .f32 :=
  k6_pay2 (iblk6 V c 0 ⟨n, hn⟩) (iblk6 V c 1 ⟨n, hn⟩) (if h : n % 4 = 0 then k6_pay1 else acc6 c (n - 1) (by omega))
termination_by n
decreasing_by omega

theorem acc6_A (c : Dev nD) (t : Fin cfg6.N) (h0 : t.val % 4 = 0) :
    acc6 V c t.val t.isLt = k6_pay2 (iblk6 V c 0 t) (iblk6 V c 1 t) k6_pay1 :=
  (acc6.eq_1 V c t.val t.isLt).trans (by rw [dif_pos h0])

theorem acc6_B (c : Dev nD) (t : Fin cfg6.N) (h0 : ¬t.val % 4 = 0) :
    acc6 V c t.val t.isLt = k6_pay2 (iblk6 V c 0 t) (iblk6 V c 1 t) (acc6 V c (t.val - 1) (Nat.lt_of_le_of_lt (Nat.sub_le _ _) t.isLt)) :=
  (acc6.eq_1 V c t.val t.isLt).trans (by rw [dif_neg h0])

-- Before point n the accumulator holds what point n - 1 left (anything when n = 0).
def PhiS6 (c : Dev nD) (n : ℕ) (hn : n ≤ cfg6.N) : sProp 𝕄 :=
  iprop((∃ r, prngReg c r) ∗ (∃ xs, ⌜∀ h : n ≠ 0, xs = acc6 V c (n - 1) (by omega)⌝ ∗ owns (c : Thread nD τ) scM6_0 fullShare xs)
    ∗ Pipeline.scopedRestBut spec6 c [cc6_scratch0])

def dat6 (V : (c : Dev nD) → (b : Ref sig .tc) → Buf (Elt F) ((c : Thread nD τ).loc b)) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k6_pay3 (acc6 V c t.val t.isLt) (iblk6 V c 2 t)
  Φ t := PhiS6 V c t.val (Nat.le_of_lt_succ t.isLt)
  q _ := fullShare
  owed _ := 0

theorem A_eq6 (c : Dev nD) (w : Fin cfg6.W) : (dat6 V c).A w = V c (Pipeline.arrRef spec6 w) := rfl
theorem q_eq6 (c : Dev nD) (w : Fin cfg6.W) : (dat6 V c).q w = fullShare := rfl
theorem owed_eq6 (c : Dev nD) (t : Fin (cfg6.N + 1)) : (dat6 V c).owed t = 0 := rfl
theorem recorded_eq6 (c : Dev nD) (t : Fin (cfg6.N + 1)) : (dat6 V c).recorded t = Set.univ := rfl

-- The inputs the body sees at a point are the blocks of the arrays as the region found them.
theorem before6 (c : Dev nD) (t : Fin cfg6.N) : (∀ d, (dat6 V c).before 0 t d = iblk6 V c 0 t)
    ∧ (∀ d, (dat6 V c).before 1 t d = iblk6 V c 1 t) ∧ (∀ d, (dat6 V c).before 2 t d = iblk6 V c 2 t) := by
  refine ⟨?_, ?_, ?_⟩ <;> exact fun d =>
    ((dat6 V c).before_in_eq_fetched _ rfl (fun _ => rfl) (fun _ _ _ => rfl) (fun _ => rfl) t d).trans rfl

-- The output block is the sum plus the third block at the last point of a reduction and unchanged elsewhere.
theorem leaves6_3 (c : Dev nD) (t : Fin cfg6.N) (d) :
    owns (c : Thread nD τ) (st6_3 t) fullShare (if cond6_1 (grid6.coords t) then k6_pay3 (acc6 V c t.val t.isLt) (iblk6 V c 2 t) else (dat6 V c).before 3 t d)
      ⊢ (dat6 V c).leavesExact 3 t := by
  by_cases h3 : t.val % 4 = 3
  · rw [if_pos ((hcond6_1 t).mpr h3)]; unfold Dat.leavesExact; rw [liveAt6_3 t h3]; exact .rfl
  · rw [if_neg (mt (hcond6_1 t).mp h3), Dat.leavesExact_idle (dat6 V c) 3 t (idleAt6_3 t h3) (noFlush6_3 t h3)]
    iintro H; iexists d; iexact H

theorem body_obligation6 (c : Dev nD) : BodyObligation (dat6 (F := F) V c) (defs₀ (F := F)) Variants.none () Set.univ := fun t => by
  rw [bigSep_W6, bigSep_W6]
  change iprop(PhiS6 V c t.val (Nat.le_of_lt t.isLt) ∗ _) ⊢ wp _ _ _ (bodyAt6 t) fun _ =>
    iprop(PhiS6 V c (t.val + 1) t.isLt ∗ (dat6 V c).owesAt () t.castSucc ∗ _ ∗ _ ∗ _ ∗ (dat6 V c).leavesExact 3 t)
  simp only [(before6 V c t).1, (before6 V c t).2.1, (before6 V c t).2.2]
  unfold PhiS6 bodyAt6
  iintro ⟨⟨Hg, ⟨%xs, %hxs, HS⟩, Hr⟩, Ho, ⟨%d0, H0⟩, ⟨%d1, H1⟩, ⟨%d2, H2⟩, ⟨%d3, H3⟩⟩
  have hacc : k6_pay2 (iblk6 V c 0 t) (iblk6 V c 1 t) (if cond6_0 (grid6.coords t) then k6_pay1 else xs) = acc6 V c t.val t.isLt := by
    refine (congrArg _ ?_).trans (acc6.eq_1 V c t.val t.isLt).symm
    by_cases h0 : t.val % 4 = 0
    · rw [if_pos ((hcond6_0 t).mpr h0), dif_pos h0]
    · rw [if_neg (mt (hcond6_0 t).mp h0), dif_neg h0, hxs fun e => h0 (by rw [e])]
  iapply (kernel6 c Set.univ (grid6.coords t) _ _ _ _ _ _ _ _ _ _
    (fun h => by have h0 := (hcond6_0 t).mp h.1; have h1 := (hcond6_1 t).mp h.2; omega) (iblk6 V c 0 t) (iblk6 V c 1 t) (iblk6 V c 2 t) ((dat6 V c).before 3 t d3) xs _)
  rw [hacc]
  iframe H0 H1 H2 H3 HS
  iintro ⟨H0, H1, H2, H3, HS⟩
  iframe Hg Hr Ho
  isplitl [HS]
  · iexists _; isplitr; swap; · iexact HS
    ipureintro; exact fun _ => rfl
  isplitl [H0]; · iexact H0
  isplitl [H1]; · iexact H1
  isplitl [H2]; · iexact H2
  iapply (leaves6_3 V c t d3); iexact H3

theorem hin6 (c : Dev nD) : (iprop((∃ r, prngReg c r) ∗ Pipeline.scopedRest spec6 c) : sProp 𝕄) ⊢ (dat6 V c).Φ 0 := by
  rw [scopedRest6_split, show (dat6 V c).Φ 0 = PhiS6 V c 0 (Nat.zero_le _) from rfl]
  unfold PhiS6; simp only [owns_whole]
  iintro ⟨Hg, ⟨%d, HS⟩, Hr⟩
  iframe Hg Hr
  iexists d; isplitr; swap; · iexact HS
  ipureintro; exact fun h => absurd rfl h

theorem hout6 (c : Dev nD) : (dat6 V c).Φ (Fin.last cfg6.N) ⊢ (iprop((∃ r, prngReg c r) ∗ Pipeline.scopedRest spec6 c) : sProp 𝕄) := by
  rw [scopedRest6_split, show (dat6 V c).Φ (Fin.last cfg6.N) = PhiS6 V c _ (Nat.le_of_lt_succ (Fin.last cfg6.N).isLt) from rfl]
  unfold PhiS6; simp only [owns_whole]
  iintro ⟨Hg, ⟨%d, -, HS⟩, Hr⟩
  iframe Hg Hr
  iexists d; iexact HS

end Cert.Kernel.Hand

end
-- ==== Proof.K.Lstm7.lean ====
import proofs.«412769_j28716151341139_3_alg».proof.Proof.Gen.Kernel.Launch
import proofs.«412769_j28716151341139_3_alg».proof.Proof.Gen.Kernel.Skeleton
import proofs.«412769_j28716151341139_3_alg».proof.Proof.Gen.Kernel.Points
import proofs.«412769_j28716151341139_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- window `w`'s block of its array at point `t`
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_x : Rect S64x2048 := Rect.unit (s := S64x2048) ![0, 0] S64x2048.size inb_S64x2048_S64x2048_0_0

abbrev r7_w : Rect S2048x2048 := Rect.unit (s := S2048x2048) ![0, 0] S2048x2048.size inb_S2048x2048_S2048x2048_0_0

abbrev r7_b : Rect S1x2048 := Rect.unit (s := S1x2048) ![0, 0] S1x2048.size inb_S1x2048_S1x2048_0_0

abbrev r7_o : Rect S64x512 := Rect.unit (s := S64x512) ![0, 0] S64x512.size inb_S64x512_S64x512_0_0

def out7_6 (xa xb : Vec F S64x2048 .f32) (xc xd : Vec F S2048x2048 .bf16) (xe : Vec F S1x2048 .f32) (xf : Vec F S64x512 .f32) : Vec F S64x512 .f32 :=
  View.canon [⟨r7_o, k7_pay3 (View.ld xa r7_x) (View.ld xb r7_x) (View.ld xc r7_w) (View.ld xd r7_w) (View.ld xe r7_b) (View.ld xf r7_o)⟩]

def out7_7 (xa xb : Vec F S64x2048 .f32) (xc xd : Vec F S2048x2048 .bf16) (xe : Vec F S1x2048 .f32) (xf : Vec F S64x512 .f32) : Vec F S64x512 .f32 :=
  View.canon [⟨r7_o, k7_pay2 (View.ld xa r7_x) (View.ld xb r7_x) (View.ld xc r7_w) (View.ld xd r7_w) (View.ld xe r7_b) (View.ld xf r7_o)⟩]

-- a single piece that is the whole shape covers every index
theorem cover7_o (p : Vec F S64x512 .f32) (y : S64x512.Idx) :
    ∃ pc ∈ ([⟨r7_o, p⟩] : List (View.Piece (Elt F) S64x512 .f32)), y ∈ pc.1.set :=
  View.cover_of_tiled [⟨r7_o, p⟩] S64x512.size (by rfl) y

-- the body's triple: the six inputs unchanged, the two outputs hold `out7_6` and `out7_7` of them
set_option maxHeartbeats 1000000 in
theorem sound_kernel7 (c : Dev nD) (E : Set ℕ) (i : grid7.Coords)
    (arga : Memref sig .tc .vmem S64x2048 .f32) (harga : arga.IsWhole) (argb : Memref sig .tc .vmem S64x2048 .f32) (hargb : argb.IsWhole)
    (argc : Memref sig .tc .vmem S2048x2048 .bf16) (hargc : argc.IsWhole) (argd : Memref sig .tc .vmem S2048x2048 .bf16) (hargd : argd.IsWhole)
    (arge : Memref sig .tc .vmem S1x2048 .f32) (harge : arge.IsWhole) (argf : Memref sig .tc .vmem S64x512 .f32) (hargf : argf.IsWhole)
    (argg : Memref sig .tc .vmem S64x512 .f32) (hargg : argg.IsWhole) (argh : Memref sig .tc .vmem S64x512 .f32) (hargh : argh.IsWhole)
    (xa xb : Vec F S64x2048 .f32) (xc xd : Vec F S2048x2048 .bf16) (xe : Vec F S1x2048 .f32) (xf : Vec F S64x512 .f32) (K : PUnit → sProp 𝕄) :
    iprop(owns c arga fullShare xa ∗ owns c argb fullShare xb ∗ owns c argc fullShare xc
        ∗ owns c argd fullShare xd ∗ owns c arge fullShare xe ∗ owns c argf fullShare xf
        ∗ (∃ d, owns c argg fullShare d) ∗ (∃ d, owns c argh fullShare d)
        ∗ (iprop(owns c arga fullShare xa ∗ owns c argb fullShare xb ∗ owns c argc fullShare xc
            ∗ owns c argd fullShare xd ∗ owns c arge fullShare xe ∗ owns c argf fullShare xf
            ∗ owns c argg fullShare (out7_6 xa xb xc xd xe xf) ∗ owns c argh fullShare (out7_7 xa xb xc xd xe xf)) -∗ K ⟨⟩))
      ⊢ wp frame (wpE (defs₀ (F := F)) Variants.none c none) E (cc7__lstm_kernel i arga harga argb hargb argc hargc argd hargd arge harge argf hargf argg hargg argh hargh) K := by
  simp only [cc7__lstm_kernel_eq_skeleton]; unfold cc7__lstm_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dg, %fg, -, Hg⟩, ⟨%dh, %fh, -, Hh⟩, Hk⟩
  subst hfa hfb hfc hfd hfe hff
  sl_exec
  sl_step
  iapply Hk
  isplitl [Ha]; · iexists _; isplitr; swap; iexact Ha; ipureintro; rfl
  isplitl [Hb]; · iexists _; isplitr; swap; iexact Hb; ipureintro; rfl
  isplitl [Hc]; · iexists _; isplitr; swap; iexact Hc; ipureintro; rfl
  isplitl [Hd]; · iexists _; isplitr; swap; iexact Hd; ipureintro; rfl
  isplitl [He]; · iexists _; isplitr; swap; iexact He; ipureintro; rfl
  isplitl [Hf]; · iexists _; isplitr; swap; iexact Hf; ipureintro; rfl
  isplitl [Hg]; · iexists _; isplitr; swap; iexact Hg; ipureintro; exact View.read_writes_eq_canon _ _ _ (cover7_o _)
  iexists _; isplitr; swap; iexact Hh; ipureintro; exact View.read_writes_eq_canon _ _ _ (cover7_o _)

def dat7 (V : (c : Dev nD) → (b : Ref sig .tc) → Buf (Elt F) ((c : Thread nD τ).loc b)) (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
    | ⟨7, _⟩ => out7_7 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem q_eq7 (c : Dev nD) (w : Fin cfg7.W) : (dat7 V c).q w = fullShare := by
  dsimp only [dat7]

theorem owed_eq7 (c : Dev nD) (t : Fin (cfg7.N + 1)) : (dat7 V c).owed t = 0 := by
  dsimp only [dat7]

theorem recorded_eq7 (c : Dev nD) (t : Fin (cfg7.N + 1)) : (dat7 V c).recorded t = Set.univ := by
  dsimp only [dat7]

-- each input window holds its block of the array at every point
theorem before7 (c : Dev nD) (t : Fin cfg7.N) :
    (∀ d, (dat7 V c).before 0 t d = iblk7 V c 0 t) ∧ (∀ d, (dat7 V c).before 1 t d = iblk7 V c 1 t)
    ∧ (∀ d, (dat7 V c).before 2 t d = iblk7 V c 2 t) ∧ (∀ d, (dat7 V c).before 3 t d = iblk7 V c 3 t)
    ∧ (∀ d, (dat7 V c).before 4 t d = iblk7 V c 4 t) ∧ (∀ d, (dat7 V c).before 5 t d = iblk7 V c 5 t) := by
  refine ⟨?_, ?_, ?_, ?_, ?_, ?_⟩ <;>
    exact fun d => ((dat7 V c).before_in_eq_fetched _ rfl (fun _ => rfl) (fun _ _ _ => rfl) (fun _ => rfl) t d).trans rfl

def bodyPre7 (c : Dev nD) (t : Fin cfg7.N) : sProp 𝕄 :=
  iprop((dat7 V c).Φ t.castSucc ∗ (dat7 V c).owesAt () t.castSucc
    ∗ (∃ d, owns c (st7_0 t) fullShare ((dat7 V c).before 0 t d))
    ∗ (∃ d, owns c (st7_1 t) fullShare ((dat7 V c).before 1 t d))
    ∗ (∃ d, owns c (st7_2 t) fullShare ((dat7 V c).before 2 t d))
    ∗ (∃ d, owns c (st7_3 t) fullShare ((dat7 V c).before 3 t d))
    ∗ (∃ d, owns c (st7_4 t) fullShare ((dat7 V c).before 4 t d))
    ∗ (∃ d, owns c (st7_5 t) fullShare ((dat7 V c).before 5 t d))
    ∗ (∃ d, owns c (st7_6 t) fullShare ((dat7 V c).before 6 t d))
    ∗ (∃ d, owns c (st7_7 t) fullShare ((dat7 V c).before 7 t d)))

def bodyPost7 (c : Dev nD) (t : Fin cfg7.N) : sProp 𝕄 :=
  iprop((dat7 V c).Φ t.succ ∗ (dat7 V c).owesAt () t.succ
    ∗ owns c (st7_0 t) fullShare ((dat7 V c).after 0 t)
    ∗ owns c (st7_1 t) fullShare ((dat7 V c).after 1 t)
    ∗ owns c (st7_2 t) fullShare ((dat7 V c).after 2 t)
    ∗ owns c (st7_3 t) fullShare ((dat7 V c).after 3 t)
    ∗ owns c (st7_4 t) fullShare ((dat7 V c).after 4 t)
    ∗ owns c (st7_5 t) fullShare ((dat7 V c).after 5 t)
    ∗ owns c (st7_6 t) fullShare ((dat7 V c).after 6 t)
    ∗ owns c (st7_7 t) fullShare ((dat7 V c).after 7 t))

-- the body at a point: its triple at the input blocks; invariant and debt pass through
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [show (dat7 V c).owesAt () t.succ = (dat7 V c).owesAt () t.castSucc from rfl]
  simp only [before7 V c t]
  dsimp only [dat7]
  iintro ⟨HΦ, Ho, ⟨%da, Ha⟩, ⟨%db, Hb⟩, ⟨%dc, Hc⟩, ⟨%dd, Hd⟩, ⟨%de, He⟩, ⟨%df, Hf⟩, Hg, Hh⟩
  iapply (sound_kernel7 c Set.univ _ _ _ _ _ _ _ _ _ _ _ _ _ _ _ _ _
    (iblk7 V c 0 t) (iblk7 V c 1 t) (iblk7 V c 2 t) (iblk7 V c 3 t) (iblk7 V c 4 t) (iblk7 V c 5 t) _)
  iframe Ha Hb Hc Hd He Hf
  isplitl [Hg]; · icases Hg with ⟨%d, Hg⟩; iexists _; iexact Hg
  isplitl [Hh]; · icases Hh with ⟨%d, Hh⟩; iexists _; iexact Hh
  iintro ⟨Ha, Hb, Hc, Hd, He, Hf, Hg, Hh⟩
  iframe

theorem body_obligation7 (c : Dev nD) : BodyObligation (dat7 (F := F) V c) (defs₀ (F := F)) Variants.none () Set.univ := fun t => by
  rw [bigSep_W7, bigSep_W7]
  exact sound_body7 V c t

-- the invariant at the region's ends is the two given resources in the other order
theorem hin7 (c : Dev nD) : (iprop((∃ r, prngReg c r) ∗ Pipeline.scopedRest spec7 c) : sProp 𝕄) ⊢ (dat7 V c).Φ 0 :=
  sep_comm.1

theorem hout7 (c : Dev nD) : (dat7 V c).Φ (Fin.last cfg7.N) ⊢ (iprop((∃ r, prngReg c r) ∗ Pipeline.scopedRest spec7 c) : sProp 𝕄) :=
  sep_comm.1

end Cert.Kernel.Hand

end
-- ==== Proof.K.Head8.lean ====
import proofs.«412769_j28716151341139_3_alg».proof.Proof.Gen.Kernel.Launch
import proofs.«412769_j28716151341139_3_alg».proof.Proof.Gen.Kernel.Skeleton
import proofs.«412769_j28716151341139_3_alg».proof.Proof.Gen.Kernel.Points
import proofs.«412769_j28716151341139_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz8 : (![0, 0] : Fin 2 → Nat) = fun _ => 0 := funext fun a => by fin_cases a <;> rfl

-- A store through the whole-shape rectangle, made last, overwrites every entry: a read or a whole load returns its payload.
theorem unit_zero8 {Val : EltTy → Type} [∀ e, Nonempty (Val e)] {S : Shape} {e : EltTy} {κ : Kind} {sp : Space}
    (v : View sig κ sp S e) {off : Fin S.rank → Nat} (h : off = fun _ => 0)
    (inb : ∀ a, off a + S.size a ≤ S.size a) (w : S.Idx → Val e) (L : List (View.Piece Val S e)) :
    (∀ f : v.ty.Contents Val, v.read Val (v.writes Val f ((⟨Rect.unit off S.size inb, w⟩ : View.Piece Val S e) :: L)) = w)
      ∧ v.readCov ((⟨Rect.unit off S.size inb, w⟩ : View.Piece Val S e) :: L) (Rect.unit off S.size inb).toLoadRect = w := by
  have hc : ∀ y : S.Idx, ∃ p ∈ (⟨Rect.unit off S.size inb, w⟩ : View.Piece Val S e) :: L, y ∈ p.1.set :=
    fun y => ⟨_, List.mem_cons_self, View.mem_set_unit_zero h inb y⟩
  exact ⟨fun f => by rw [View.read_writes_eq_canon _ _ _ hc, View.canon_cons_unit_zero h],
    by rw [View.readCov_eq_canon_ld _ _ _ hc, View.canon_cons_unit_zero h, View.ld_unit_zero h]⟩

abbrev cond8_1 (i : grid8.Coords) : Prop := (Scalar.cmpi .ne (Scalar.extui (Scalar.cmpi .eq (BitVec.ofNat 32 (i 1).val) 0#32)) 0#32) = 1#1
abbrev cond8_2 (i : grid8.Coords) : Prop := k8_cond2 i = 1#1

theorem hcond8_1 : ∀ t : Fin cfg8.N, cond8_1 (grid8.coords t) ↔ t.val % 4 = 0 :=
  (by decide +kernel : ∀ t : Fin grid8.N, cond8_1 (grid8.coords t) ↔ t.val % 4 = 0)
theorem hcond8_2 : ∀ t : Fin cfg8.N, cond8_2 (grid8.coords t) ↔ t.val % 4 = 3 :=
  (by decide +kernel : ∀ t : Fin grid8.N, cond8_2 (grid8.coords t) ↔ t.val % 4 = 3)

theorem liveAt8 : ∀ (t : Fin cfg8.N) (w : Fin cfg8.W), w.val < 5 → cfg8.idle w (grid8.coords t) = false := by decide +kernel
theorem idleAt8 : ∀ (t : Fin cfg8.N) (w : Fin cfg8.W), 5 ≤ w.val →
    (cond8_2 (grid8.coords t) → cfg8.idle w (grid8.coords t) = false)
      ∧ (¬cond8_2 (grid8.coords t) → cfg8.idle w (grid8.coords t) = true ∧ (cfg8.win w).flush t = false) := by decide +kernel

-- One point of the body: the accumulators restart from zero under the first condition and take the point's terms; under the second the outputs are written from them.
set_option maxHeartbeats 4000000 in
theorem sound_kernel8 (c : Dev nD) (E : Set ℕ) (i : grid8.Coords)
    (arg2 : Memref sig .tc .vmem S256x512 .f32) (harg2 : arg2.IsWhole) (arg3 : Memref sig .tc .vmem S64x512 .bf16) (harg3 : arg3.IsWhole)
    (arg4 : Memref sig .tc .vmem S1x64 .f32) (harg4 : arg4.IsWhole) (arg5 : Memref sig .tc .vmem S1x512 .f32) (harg5 : arg5.IsWhole)
    (arg6 : Memref sig .tc .vmem S1x1 .f32) (harg6 : arg6.IsWhole) (arg7 : Memref sig .tc .vmem S256x64 .f32) (harg7 : arg7.IsWhole)
    (arg8 : Memref sig .tc .vmem S256x1 .f32) (harg8 : arg8.IsWhole) (arg9 : Memref sig .tc .vmem S256x64 .f32) (harg9 : arg9.IsWhole)
    (arg10 : Memref sig .tc .vmem S256x1 .f32) (harg10 : arg10.IsWhole)
    (x0 : Vec F S256x512 .f32) (x1 : Vec F S64x512 .bf16) (x2 : Vec F S1x64 .f32) (x3 : Vec F S1x512 .f32) (x4 : Vec F S1x1 .f32)
    (p0 d7 : Vec F S256x64 .f32) (p1 d8 : Vec F S256x1 .f32) (K : PUnit → sProp 𝕄) (h12 : cond8_1 i → ¬cond8_2 i) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare d7 ∗ owns (c : Thread nD τ) arg8 fullShare d8 ∗ owns (c : Thread nD τ) arg9 fullShare p0 ∗ owns (c : Thread nD τ) arg10 fullShare p1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (if cond8_2 i then k8_pay5 (k8_pay3 x0 x1 (if cond8_1 i then k8_pay1 else p0)) x2 else d7)
            ∗ owns (c : Thread nD τ) arg8 fullShare (if cond8_2 i then k8_pay6 (k8_pay4 (if cond8_1 i then k8_pay2 else p1) x0 x3) x4 else d8)
            ∗ owns (c : Thread nD τ) arg9 fullShare (k8_pay3 x0 x1 (if cond8_1 i then k8_pay1 else p0))
            ∗ owns (c : Thread nD τ) arg10 fullShare (k8_pay4 (if cond8_1 i then k8_pay2 else p1) x0 x3)) -∗ K ⟨⟩))
      ⊢ wp frame (wpE (defs₀ (F := F)) Variants.none c none) E (cc8__head_kernel i arg2 harg2 arg3 harg3 arg4 harg4 arg5 harg5 arg6 harg6 arg7 harg7 arg8 harg8 arg9 harg9 arg10 harg10) K := by
  simp only [cc8__head_kernel_eq_skeleton]; unfold cc8__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  by_cases hc1 : cond8_1 i <;> by_cases hc2 : cond8_2 i
  · exact absurd hc2 (h12 hc1)
  all_goals
    first | rw [if_pos hc1, if_pos hc1] | rw [if_neg hc1, if_neg hc1]
    first | rw [if_pos hc2, if_pos hc2] | rw [if_neg hc2, if_neg hc2]
    sl_exec (disch := first | exact hc1 | exact hc2)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    isplitl [H7]; iexists _; isplitr; swap; iexact H7; rotate_left
    iexists _; isplitr; swap; iexact H8
    all_goals ipureintro; try sl_unfold_words
    all_goals simp only [View.readAt_eq_ld, View.ld_unit_zero (S := S256x512) hz8, View.ld_unit_zero (S := S64x512) hz8, View.ld_unit_zero (S := S1x64) hz8,
      View.ld_unit_zero (S := S1x512) hz8, View.ld_unit_zero (S := S1x1) hz8, View.ld_unit_zero (S := S256x64) hz8, View.ld_unit_zero (S := S256x1) hz8,
      unit_zero8 (S := S256x64) _ hz8, unit_zero8 (S := S256x1) _ hz8]

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev scM8_0 : Memref sig .tc .vmem S256x64 .f32 := Memref.whole cc8_scratch0
abbrev scM8_1 : Memref sig .tc .vmem S256x1 .f32 := Memref.whole cc8_scratch1

def step8 (c : Dev nD) (t : Fin cfg8.N) (p : Vec F S256x64 .f32 × Vec F S256x1 .f32) : Vec F S256x64 .f32 × Vec F S256x1 .f32 :=
  (k8_pay3 (iblk8 V c 0 t) (iblk8 V c 1 t) p.1, k8_pay4 p.2 (iblk8 V c 0 t) (iblk8 V c 3 t))

-- The two accumulators after point n: restarted where n % 4 = 0, else carried on from point n - 1.
def sc8 (c : Dev nD) : (n : ℕ) → n < cfg8.N → Vec F S256x64 .f32 × Vec F S256x1 .f32
  | 0, hn => step8 V c ⟨0, hn⟩ (k8_pay1, k8_pay2)
  | n + 1, hn => step8 V c ⟨n + 1, hn⟩ (if (n + 1) % 4 = 0 then (k8_pay1, k8_pay2) else sc8 c n (Nat.lt_of_succ_lt hn))

theorem sc8_step (c : Dev nD) (n : ℕ) (hn : n < cfg8.N) :
    sc8 V c n hn = step8 V c ⟨n, hn⟩ (if n % 4 = 0 then (k8_pay1, k8_pay2) else sc8 V c (n - 1) (by omega)) := by
  cases n with
  | zero => rfl
  | succ n => rfl

theorem sc8_congr (c : Dev nD) {n n' : ℕ} (e : n = n') (h : n < cfg8.N) (h' : n' < cfg8.N) :
    sc8 V c n h = sc8 V c n' h' := by
  subst e; rfl

-- Between points the accumulators hold what the point before left; before the first point, anything.
def Phi8 (c : Dev nD) (n : ℕ) (hn : n ≤ cfg8.N) : sProp 𝕄 :=
  iprop(∃ p : Vec F S256x64 .f32 × Vec F S256x1 .f32, ⌜∀ h : n ≠ 0, p = sc8 V c (n - 1) (by omega)⌝
    ∗ (owns (c : Thread nD τ) scM8_0 fullShare p.1 ∗ owns (c : Thread nD τ) scM8_1 fullShare p.2)
    ∗ (∃ r, prngReg c r) ∗ Pipeline.scopedRestBut spec8 c [cc8_scratch0, cc8_scratch1])

theorem Phi8_entry_eq (c : Dev nD) :
    (iprop((∃ r, prngReg c r) ∗ Pipeline.scopedRest spec8 c) : sProp 𝕄)
      = iprop((∃ r, prngReg c r) ∗ ((∃ d, owns (c : Thread nD τ) scM8_0 fullShare d) ∗ (∃ d, owns (c : Thread nD τ) scM8_1 fullShare d))
          ∗ Pipeline.scopedRestBut spec8 c [cc8_scratch0, cc8_scratch1]) := by
  rw [scopedRest8_split]; simp only [scM8_0, scM8_1, owns_whole]; try rfl

def dat8 (V : (c : Dev nD) → (b : Ref sig .tc) → Buf (Elt F) ((c : Thread nD τ).loc b)) (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => k8_pay5 (sc8 V c t.val t.isLt).1 (iblk8 V c 2 t)
    | ⟨6, _⟩ => k8_pay6 (sc8 V c t.val t.isLt).2 (iblk8 V c 4 t)
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem q_eq8 (c : Dev nD) (w : Fin cfg8.W) : (dat8 V c).q w = fullShare := by
  dsimp only [dat8]
theorem owed_eq8 (c : Dev nD) (t : Fin (cfg8.N + 1)) : (dat8 V c).owed t = 0 := by
  dsimp only [dat8]
theorem recorded_eq8 (c : Dev nD) (t : Fin (cfg8.N + 1)) : (dat8 V c).recorded t = Set.univ := by
  dsimp only [dat8]

theorem after8_5 (c : Dev nD) (t : Fin cfg8.N) : (dat8 V c).after 5 t = k8_pay5 (sc8 V c t.val t.isLt).1 (iblk8 V c 2 t) := by dsimp only [dat8]
theorem after8_6 (c : Dev nD) (t : Fin cfg8.N) : (dat8 V c).after 6 t = k8_pay6 (sc8 V c t.val t.isLt).2 (iblk8 V c 4 t) := by dsimp only [dat8]

theorem before8 (c : Dev nD) (w : Fin cfg8.W) (hw : w.val < 5) (t : Fin cfg8.N) (d) : (dat8 V c).before w t d = (dat8 V c).after w t := by
  obtain ⟨_ | _ | _ | _ | _ | n, h⟩ := w
  all_goals first
    | exact ((dat8 V c).before_in_eq_fetched _ rfl (fun _ => rfl) (fun _ _ _ => rfl) (fun _ => rfl) t d).trans rfl
    | exact absurd hw (Nat.not_lt.mpr (Nat.le_add_left 5 n))

theorem live8 (c : Dev nD) (w : Fin cfg8.W) (t : Fin cfg8.N) (hw : w.val < 5) :
    owns (c : Thread nD τ) ((cfg8.win w).stage (cfg8.slots t w)) fullShare ((dat8 V c).after w t) ⊢ (dat8 V c).leavesExact w t := by
  unfold Dat.leavesExact; rw [liveAt8 t w hw]

def bodyPre8 (c : Dev nD) (t : Fin cfg8.N) : sProp 𝕄 :=
  iprop((dat8 V c).Φ t.castSucc ∗ (dat8 V c).owesAt () t.castSucc
    ∗ (∃ d, owns (c : Thread nD τ) (win8_0.stage (cfg8.slots t 0)) fullShare ((dat8 V c).before 0 t d))
    ∗ (∃ d, owns (c : Thread nD τ) (win8_1.stage (cfg8.slots t 1)) fullShare ((dat8 V c).before 1 t d))
    ∗ (∃ d, owns (c : Thread nD τ) (win8_2.stage (cfg8.slots t 2)) fullShare ((dat8 V c).before 2 t d))
    ∗ (∃ d, owns (c : Thread nD τ) (win8_3.stage (cfg8.slots t 3)) fullShare ((dat8 V c).before 3 t d))
    ∗ (∃ d, owns (c : Thread nD τ) (win8_4.stage (cfg8.slots t 4)) fullShare ((dat8 V c).before 4 t d))
    ∗ (∃ d, owns (c : Thread nD τ) (win8_5.stage (cfg8.slots t 5)) fullShare ((dat8 V c).before 5 t d))
    ∗ (∃ d, owns (c : Thread nD τ) (win8_6.stage (cfg8.slots t 6)) fullShare ((dat8 V c).before 6 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t)

-- The body's update of the accumulators is sc8's step, the first condition being n % 4 = 0 in closed form.
theorem sc8_eq (c : Dev nD) (t : Fin cfg8.N) (p : Vec F S256x64 .f32 × Vec F S256x1 .f32)
    (hp : ∀ h : t.val ≠ 0, p = sc8 V c (t.val - 1) (by omega)) :
    k8_pay3 ((dat8 V c).after 0 t) ((dat8 V c).after 1 t) (if cond8_1 (grid8.coords t) then k8_pay1 else p.1) = (sc8 V c t.val t.isLt).1
      ∧ k8_pay4 (if cond8_1 (grid8.coords t) then k8_pay2 else p.2) ((dat8 V c).after 0 t) ((dat8 V c).after 3 t) = (sc8 V c t.val t.isLt).2 := by
  rw [sc8_step V c t.val t.isLt]
  by_cases h0 : t.val % 4 = 0
  · rw [if_pos ((hcond8_1 t).mpr h0), if_pos ((hcond8_1 t).mpr h0), if_pos h0]; exact ⟨rfl, rfl⟩
  · rw [if_neg (mt (hcond8_1 t).mp h0), if_neg (mt (hcond8_1 t).mp h0), if_neg h0, hp fun e => h0 (by rw [e])]; exact ⟨rfl, rfl⟩

-- Under the second condition an output block holds the epilogue's value; otherwise what it held before.
theorem leaves8 (c : Dev nD) (w : Fin cfg8.W) (t : Fin cfg8.N) (d) (hw : 5 ≤ w.val) :
    owns (c : Thread nD τ) ((cfg8.win w).stage (cfg8.slots t w)) fullShare
        (if cond8_2 (grid8.coords t) then (dat8 V c).after w t else (dat8 V c).before w t d) ⊢ (dat8 V c).leavesExact w t := by
  by_cases h : cond8_2 (grid8.coords t)
  · rw [if_pos h]; unfold Dat.leavesExact; rw [(idleAt8 t w hw).1 h]
  · rw [if_neg h, Dat.leavesExact_idle _ w t ((idleAt8 t w hw).2 h).1 ((idleAt8 t w hw).2 h).2]; iintro H; iexists d; iexact H

set_option maxHeartbeats 4800000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8 V c 0 (by decide), before8 V c 1 (by decide), before8 V c 2 (by decide), before8 V c 3 (by decide), before8 V c 4 (by decide)]
  rw [show (dat8 V c).owesAt () t.succ = (dat8 V c).owesAt () t.castSucc from rfl,
    show (dat8 V c).Φ t.succ = Phi8 V c (t.val + 1) t.isLt from rfl,
    show (dat8 V c).Φ t.castSucc = Phi8 V c t.val (Nat.le_of_lt t.isLt) from rfl]
  unfold Phi8
  iintro ⟨⟨%p, %hp, ⟨HS0, HS1⟩, Hg, HR⟩, Ho, ⟨%d0, H0⟩, ⟨%d1, H1⟩, ⟨%d2, H2⟩, ⟨%d3, H3⟩, ⟨%d4, H4⟩, ⟨%d5, H5⟩, ⟨%d6, H6⟩⟩
  iapply sound_kernel8 c Set.univ (grid8.coords t) _ _ _ _ _ _ _ _ _ _ _ _ _ _ _ _ _ _ ((dat8 V c).after 0 t) ((dat8 V c).after 1 t) ((dat8 V c).after 2 t) ((dat8 V c).after 3 t) ((dat8 V c).after 4 t) p.1 ((dat8 V c).before 5 t d5) p.2 ((dat8 V c).before 6 t d6) _ fun h1 h2 => by
    have := (hcond8_1 t).mp h1; have := (hcond8_2 t).mp h2; omega
  irw [(sc8_eq V c t p hp).1, (sc8_eq V c t p hp).2]
  iframe
  iintro ⟨H0, H1, H2, H3, H4, H5, H6, HS0, HS1⟩
  isplitl [HS0 HS1 Hg HR]
  · iexists (sc8 V c t.val t.isLt); iframe; ipureintro; exact fun _ => rfl
  isplitl [H0]; · iapply (live8 V c 0 t (by decide)); iexact H0
  isplitl [H1]; · iapply (live8 V c 1 t (by decide)); iexact H1
  isplitl [H2]; · iapply (live8 V c 2 t (by decide)); iexact H2
  isplitl [H3]; · iapply (live8 V c 3 t (by decide)); iexact H3
  isplitl [H4]; · iapply (live8 V c 4 t (by decide)); iexact H4
  isplitl [H5]; · iapply (leaves8 V c 5 t d5 (by decide)); iexact H5
  iapply (leaves8 V c 6 t d6 (by decide)); iexact H6

theorem body_obligation8 (c : Dev nD) : BodyObligation (dat8 (F := F) V c) (defs₀ (F := F)) Variants.none () Set.univ := fun t => by
  rw [bigSep_W8, bigSep_W8]
  exact sound_body8 V c t

theorem hin8 (c : Dev nD) : (iprop((∃ r, prngReg c r) ∗ Pipeline.scopedRest spec8 c) : sProp 𝕄) ⊢ (dat8 V c).Φ 0 := by
  rw [show (dat8 V c).Φ 0 = Phi8 V c 0 (Nat.zero_le _) from rfl, Phi8_entry_eq]; unfold Phi8
  iintro ⟨Hg, ⟨⟨%d0, HS0⟩, ⟨%d1, HS1⟩⟩, HR⟩
  iexists (d0, d1); iframe; ipureintro; exact fun h => absurd rfl h

theorem hout8 (c : Dev nD) : (dat8 V c).Φ (Fin.last cfg8.N) ⊢ (iprop((∃ r, prngReg c r) ∗ Pipeline.scopedRest spec8 c) : sProp 𝕄) := by
  rw [show (dat8 V c).Φ (Fin.last cfg8.N) = Phi8 V c cfg8.N (Nat.le_refl _) from rfl, Phi8_entry_eq]; unfold Phi8
  iintro ⟨%p, -, ⟨HS0, HS1⟩, Hg, HR⟩
  iframe Hg HR
  isplitl [HS0] <;> iexists _ <;> iassumption

end Cert.Kernel.Hand

end
-- ==== Proof.K.Vals.lean ====
import proofs.«412769_j28716151341139_3_alg».proof.Proof.K.Enc0
import proofs.«412769_j28716151341139_3_alg».proof.Proof.K.Lstm1
import proofs.«412769_j28716151341139_3_alg».proof.Proof.K.Gate2
import proofs.«412769_j28716151341139_3_alg».proof.Proof.K.Bsum3
import proofs.«412769_j28716151341139_3_alg».proof.Proof.K.Lstm4
import proofs.«412769_j28716151341139_3_alg».proof.Proof.K.Gate5
import proofs.«412769_j28716151341139_3_alg».proof.Proof.K.Bsum6
import proofs.«412769_j28716151341139_3_alg».proof.Proof.K.Lstm7
import proofs.«412769_j28716151341139_3_alg».proof.Proof.K.Head8

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]
variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

abbrev U0 (c : Dev nD) : Valuation τ sig (Elt F) := fun b => m (c, b)
abbrev U1 (c : Dev nD) : Valuation τ sig (Elt F) := StableHlo.after hostOps0 (U0 m c)
def U2 (c : Dev nD) : Valuation τ sig (Elt F) :=
  Function.update (U1 m c) main_v17 ((dat0 (atRefs (U1 m)) c).arrAt 3 cfg0.N)
abbrev U3 (c : Dev nD) : Valuation τ sig (Elt F) := StableHlo.after hostOps1 (U2 m c)
def U4 (c : Dev nD) : Valuation τ sig (Elt F) :=
  Function.update (Function.update (U3 m c) main_v40_0 ((dat1 (atRefs (U3 m)) c).arrAt 6 cfg1.N)) main_v40_1 ((dat1 (atRefs (U3 m)) c).arrAt 7 cfg1.N)
abbrev U5 (c : Dev nD) : Valuation τ sig (Elt F) := StableHlo.after hostOps2 (U4 m c)
def U6 (c : Dev nD) : Valuation τ sig (Elt F) :=
  Function.update (U5 m c) main_v42 ((dat2 (atRefs (U5 m)) c).arrAt 4 cfg2.N)
def U7 (c : Dev nD) : Valuation τ sig (Elt F) :=
  Function.update (U6 m c) main_v43 ((dat3 (atRefs (U6 m)) c).arrAt 3 cfg3.N)
def U8 (c : Dev nD) : Valuation τ sig (Elt F) :=
  Function.update (Function.update (U7 m c) main_v44_0 ((dat4 (atRefs (U7 m)) c).arrAt 6 cfg4.N)) main_v44_1 ((dat4 (atRefs (U7 m)) c).arrAt 7 cfg4.N)
abbrev U9 (c : Dev nD) : Valuation τ sig (Elt F) := StableHlo.after hostOps5 (U8 m c)
def U10 (c : Dev nD) : Valuation τ sig (Elt F) :=
  Function.update (U9 m c) main_v46 ((dat5 (atRefs (U9 m)) c).arrAt 4 cfg5.N)
def U11 (c : Dev nD) : Valuation τ sig (Elt F) :=
  Function.update (U10 m c) main_v47 ((dat6 (atRefs (U10 m)) c).arrAt 3 cfg6.N)
def U12 (c : Dev nD) : Valuation τ sig (Elt F) :=
  Function.update (Function.update (U11 m c) main_v48_0 ((dat7 (atRefs (U11 m)) c).arrAt 6 cfg7.N)) main_v48_1 ((dat7 (atRefs (U11 m)) c).arrAt 7 cfg7.N)
def U13 (c : Dev nD) : Valuation τ sig (Elt F) :=
  Function.update (Function.update (U12 m c) main_v49_0 ((dat8 (atRefs (U12 m)) c).arrAt 5 cfg8.N)) main_v49_1 ((dat8 (atRefs (U12 m)) c).arrAt 6 cfg8.N)
abbrev U14 (c : Dev nD) : Valuation τ sig (Elt F) := StableHlo.after hostOps9 (U13 m c)

end Cert.Kernel.Hand

end
-- ==== Proof.K.Run.lean ====
import proofs.«412769_j28716151341139_3_alg».proof.Proof.K.Vals

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

-- a function updated at a point to g's value there is g, when g agrees with it everywhere else
theorem update_fix {α : Type} [DecidableEq α] {β : α → Type} {f f' : (a : α) → β a} (g : (a : α) → β a) {a : α}
    (e : f' = f) (h : ∀ b, b ≠ a → g b = f b) : Function.update f' a (g a) = g := by
  subst e; funext b
  by_cases hb : b = a
  · subst hb; rw [Function.update_self]
  · rw [Function.update_of_ne hb, h b hb]

-- the same at two points
theorem update_fix₂ {α : Type} [DecidableEq α] {β : α → Type} {f f' : (a : α) → β a} (g : (a : α) → β a) {a₀ a₁ : α}
    (e : f' = f) (h : ∀ b, b ≠ a₀ → b ≠ a₁ → g b = f b) : Function.update (Function.update f' a₀ (g a₀)) a₁ (g a₁) = g := by
  subst e; funext b
  by_cases h₁ : b = a₁
  · subst h₁; rw [Function.update_self]
  · rw [Function.update_of_ne h₁]
    by_cases h₀ : b = a₀
    · subst h₀; rw [Function.update_self]
    · rw [Function.update_of_ne h₀, h b h₀ h₁]

def outs : Gen.Outs (F := F) := fun J r c =>
  match J with
  | 2 => atRefs (U2 m) c r
  | 4 => atRefs (U4 m) c r
  | 6 => atRefs (U6 m) c r
  | 7 => atRefs (U7 m) c r
  | 8 => atRefs (U8 m) c r
  | 10 => atRefs (U10 m) c r
  | 11 => atRefs (U11 m) c r
  | 12 => atRefs (U12 m) c r
  | _ => atRefs (U13 m) c r

-- the generated valuations at these contents are the boundary contents, item by item
theorem V_eq2 (c : Dev nD) : Gen.V2 m (outs m) c = U2 m c :=
  update_fix (U2 m c) rfl fun b hb => Function.update_of_ne hb ..
theorem V_eq3 (c : Dev nD) : Gen.V3 m (outs m) c = U3 m c :=
  congrArg (StableHlo.after hostOps1) (V_eq2 m c)
theorem V_eq4 (c : Dev nD) : Gen.V4 m (outs m) c = U4 m c :=
  update_fix₂ (U4 m c) (V_eq3 m c) fun b h₀ h₁ => (Function.update_of_ne h₁ ..).trans (Function.update_of_ne h₀ ..)
theorem V_eq5 (c : Dev nD) : Gen.V5 m (outs m) c = U5 m c :=
  congrArg (StableHlo.after hostOps2) (V_eq4 m c)
theorem V_eq6 (c : Dev nD) : Gen.V6 m (outs m) c = U6 m c :=
  update_fix (U6 m c) (V_eq5 m c) fun b hb => Function.update_of_ne hb ..
theorem V_eq7 (c : Dev nD) : Gen.V7 m (outs m) c = U7 m c :=
  update_fix (U7 m c) (V_eq6 m c) fun b hb => Function.update_of_ne hb ..
theorem V_eq8 (c : Dev nD) : Gen.V8 m (outs m) c = U8 m c :=
  update_fix₂ (U8 m c) (V_eq7 m c) fun b h₀ h₁ => (Function.update_of_ne h₁ ..).trans (Function.update_of_ne h₀ ..)
theorem V_eq9 (c : Dev nD) : Gen.V9 m (outs m) c = U9 m c :=
  congrArg (StableHlo.after hostOps5) (V_eq8 m c)
theorem V_eq10 (c : Dev nD) : Gen.V10 m (outs m) c = U10 m c :=
  update_fix (U10 m c) (V_eq9 m c) fun b hb => Function.update_of_ne hb ..
theorem V_eq11 (c : Dev nD) : Gen.V11 m (outs m) c = U11 m c :=
  update_fix (U11 m c) (V_eq10 m c) fun b hb => Function.update_of_ne hb ..
theorem V_eq12 (c : Dev nD) : Gen.V12 m (outs m) c = U12 m c :=
  update_fix₂ (U12 m c) (V_eq11 m c) fun b h₀ h₁ => (Function.update_of_ne h₁ ..).trans (Function.update_of_ne h₀ ..)
theorem V_eq13 (c : Dev nD) : Gen.V13 m (outs m) c = U13 m c :=
  update_fix₂ (U13 m c) (V_eq12 m c) fun b h₀ h₁ => (Function.update_of_ne h₁ ..).trans (Function.update_of_ne h₀ ..)
theorem V_eq14 (c : Dev nD) : Gen.V14 m (outs m) c = U14 m c :=
  congrArg (StableHlo.after hostOps9) (V_eq13 m c)

def pdats : (p : Fin 9) → (c : Dev nD) → Dat τ (Elt F) Unit ℕ (UR sig nD τ) ℕ (cfgs p) c
  | ⟨0, _⟩ => fun c => dat0 (atRefs (U1 m)) c
  | ⟨1, _⟩ => fun c => dat1 (atRefs (U3 m)) c
  | ⟨2, _⟩ => fun c => dat2 (atRefs (U5 m)) c
  | ⟨3, _⟩ => fun c => dat3 (atRefs (U6 m)) c
  | ⟨4, _⟩ => fun c => dat4 (atRefs (U7 m)) c
  | ⟨5, _⟩ => fun c => dat5 (atRefs (U9 m)) c
  | ⟨6, _⟩ => fun c => dat6 (atRefs (U10 m)) c
  | ⟨7, _⟩ => fun c => dat7 (atRefs (U11 m)) c
  | ⟨8, _⟩ => fun c => dat8 (atRefs (U12 m)) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem owesAt_of_zero {cfg : Cfg sig Λ₀} {c : Dev nD} (dat : Dat τ (Elt F) Unit ℕ (UR sig nD τ) ℕ cfg c) (t : Fin (cfg.N + 1))
    (howed : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [howed, hrec]
  iintro ⟨%W, HO⟩; iexists W; isplitr; · ipureintro; exact fun _ _ => Or.inl trivial
  iexact HO

theorem zero_of_owesAt {cfg : Cfg sig Λ₀} {c : Dev nD} (dat : Dat τ (Elt F) Unit ℕ (UR sig nD τ) ℕ cfg c) (t : Fin (cfg.N + 1))
    (howed : dat.owed t = 0) :
    dat.owesAt () t ⊢ (iprop(∃ W, owes (c : Thread nD τ) (0 : CellTallies nD τ sig Unit) W) : sProp 𝕄) := by
  unfold Pipeline.Dat.owesAt Pipeline.owesWithin
  rw [howed]
  iintro ⟨%W, -, HO⟩; iexists W; iexact HO

-- V updated at o's array alone holds every array's last contents: the other arrays keep their first contents and arrRef is injective
theorem exit₁ {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Pipeline.arrRef cfg.spec w)) (o : Fin cfg.W) (hio : ∀ w, w ≠ o → (cfg.win w).isOut = false) :
    (∀ w, dat.arrAt w cfg.N = Function.update V (Pipeline.arrRef cfg.spec o) (dat.arrAt o cfg.N) (Pipeline.arrRef cfg.spec w)) ∧
    ∀ b : Ref sig .tc, b ∉ Finset.univ.image (Pipeline.arrRef cfg.spec) →
      Function.update V (Pipeline.arrRef cfg.spec o) (dat.arrAt o cfg.N) b = V b := by
  refine ⟨fun w => ?_, fun b hb => Function.update_of_ne (StableHlo.devRef_ne_of_ne fun e => hb (Finset.mem_image.mpr ⟨o, Finset.mem_univ _, e.symm⟩)) _ _⟩
  by_cases h : w = o
  · subst h; rw [Function.update_self]
  · rw [Pipeline.Dat.arrAt_in _ w (hio w h), hA, Function.update_of_ne (StableHlo.devRef_ne_of_ne fun e => h (hinj e))]

-- the same with two result arrays
theorem exit₂ {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Pipeline.arrRef cfg.spec w)) (o₀ o₁ : Fin cfg.W)
    (hio : ∀ w, w ≠ o₀ → w ≠ o₁ → (cfg.win w).isOut = false) :
    (∀ w, dat.arrAt w cfg.N = Function.update (Function.update V (Pipeline.arrRef cfg.spec o₀) (dat.arrAt o₀ cfg.N))
      (Pipeline.arrRef cfg.spec o₁) (dat.arrAt o₁ cfg.N) (Pipeline.arrRef cfg.spec w)) ∧
    ∀ b : Ref sig .tc, b ∉ Finset.univ.image (Pipeline.arrRef cfg.spec) →
      Function.update (Function.update V (Pipeline.arrRef cfg.spec o₀) (dat.arrAt o₀ cfg.N))
        (Pipeline.arrRef cfg.spec o₁) (dat.arrAt o₁ cfg.N) b = V b := by
  have hne (b : Ref sig .tc) (hb : b ∉ Finset.univ.image (Pipeline.arrRef cfg.spec)) (o : Fin cfg.W) :
      (Proc.devRef .tc b : DevRef τ sig) ≠ Proc.devRef .tc (Pipeline.arrRef cfg.spec o) :=
    StableHlo.devRef_ne_of_ne fun e => hb (Finset.mem_image.mpr ⟨o, Finset.mem_univ _, e.symm⟩)
  refine ⟨fun w => ?_, fun b hb => by rw [Function.update_of_ne (hne b hb o₁), Function.update_of_ne (hne b hb o₀)]⟩
  by_cases h₁ : w = o₁
  · subst h₁; rw [Function.update_self]
  rw [Function.update_of_ne (StableHlo.devRef_ne_of_ne fun e => h₁ (hinj e))]
  by_cases h₀ : w = o₀
  · subst h₀; rw [Function.update_self]
  · rw [Pipeline.Dat.arrAt_in _ w (hio w h₀ h₁), hA, Function.update_of_ne (StableHlo.devRef_ne_of_ne fun e => h₀ (hinj e))]

-- a region as a segment that takes every array from its contents at V to its contents at V'
set_option backward.isDefEq.respectTransparency.types false in
def reg (p : Fin 9) (lf : Pipeline.LaunchFacts (nD := nD) (τ := τ) cfgs p) (V V' : Dev nD → Valuation τ sig (Elt F))
    (hb : ∀ c, BodyObligation (pdats m p c) defs₀ Variants.none () Set.univ)
    (ho : ∀ c t, (pdats m p c).owed t = 0) (hr : ∀ c t, (pdats m p c).recorded t = Set.univ)
    (hq : ∀ c w, (pdats m p c).q w = fullShare)
    (hA : ∀ c w, (pdats m p c).A w = atRefs V c (Pipeline.arrRef (cfgs p).spec w))
    (hi : ∀ c, iprop((∃ r, prngReg c r) ∗ Pipeline.scopedRest (cfgs p).spec c) ⊢ (pdats m p c).Φ 0)
    (hou : ∀ c, (pdats m p c).Φ (Fin.last (cfgs p).N) ⊢ iprop((∃ r, prngReg c r) ∗ Pipeline.scopedRest (cfgs p).spec c))
    (hx : ∀ c, (∀ w, (pdats m p c).arrAt w (cfgs p).N = atRefs V' c (Pipeline.arrRef (cfgs p).spec w)) ∧
      ∀ b, b ∉ Finset.univ.image (Pipeline.arrRef (cfgs p).spec) → atRefs V' c b = atRefs V c b) :
    RegionSeg (pcfgs (F := F)) Gen.adm (pdats m) () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (atRefs V c)
  hentry c := by
    rw [Pipeline.ownSems0_none]
    have hsplit := Pipeline.arrays_of_unscopedBufs (p := p) (pcfgs (F := F)) Gen.adm (pdats m) lf.win lf.arr_whole c
      ((pdats m p c).share_full (hq c)) (atRefs V c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m p c) 0 (ho c 0) (hr c 0)); iexact HO
    isplitl [Hp]; · iexact Hp
    iexact Hrest
  hin c := by
    refine .trans ?_ (hi c)
    iintro ⟨Hp, -, Hr⟩
    isplitl [Hp] <;> iassumption
  hout c := by
    rw [Pipeline.ownSems0_none]
    refine (hou c).trans ?_
    iintro ⟨Hp, Hr⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (atRefs V c) (atRefs V' c) ((pdats m p c).arrAt · (cfgs p).N) (hx c).1 (hx c).2
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m p c) (Fin.last (cfgs p).N) (ho c _)); iexact HO

def reg0 := reg m 0 launch0 (U1 m) (U2 m) (body_obligation0 _) (owed_eq0 _) (recorded_eq0 _) (q_eq0 _) (A_eq0 _) (hin0 _) (hout0 _)
  fun c => exit₁ _ launch0.win.arr_inj _ (A_eq0 _ c) 3 (by decide)
def reg1 := reg m 1 launch1 (U3 m) (U4 m) (body_obligation1 _) (owed_eq1 _) (recorded_eq1 _) (q_eq1 _) (A_eq1 _) (hin1 _) (hout1 _)
  fun c => exit₂ _ launch1.win.arr_inj _ (A_eq1 _ c) 6 7 (by decide)
def reg2 := reg m 2 launch2 (U5 m) (U6 m) (body_obligation2 _) (owed_eq2 _) (recorded_eq2 _) (q_eq2 _) (A_eq2 _) (hin2 _) (hout2 _)
  fun c => exit₁ _ launch2.win.arr_inj _ (A_eq2 _ c) 4 (by decide)
def reg3 := reg m 3 launch3 (U6 m) (U7 m) (body_obligation3 _) (owed_eq3 _) (recorded_eq3 _) (q_eq3 _) (A_eq3 _) (hin3 _) (hout3 _)
  fun c => exit₁ _ launch3.win.arr_inj _ (A_eq3 _ c) 3 (by decide)
def reg4 := reg m 4 launch4 (U7 m) (U8 m) (body_obligation4 _) (owed_eq4 _) (recorded_eq4 _) (q_eq4 _) (A_eq4 _) (hin4 _) (hout4 _)
  fun c => exit₂ _ launch4.win.arr_inj _ (A_eq4 _ c) 6 7 (by decide)
def reg5 := reg m 5 launch5 (U9 m) (U10 m) (body_obligation5 _) (owed_eq5 _) (recorded_eq5 _) (q_eq5 _) (A_eq5 _) (hin5 _) (hout5 _)
  fun c => exit₁ _ launch5.win.arr_inj _ (A_eq5 _ c) 4 (by decide)
def reg6 := reg m 6 launch6 (U10 m) (U11 m) (body_obligation6 _) (owed_eq6 _) (recorded_eq6 _) (q_eq6 _) (A_eq6 _) (hin6 _) (hout6 _)
  fun c => exit₁ _ launch6.win.arr_inj _ (A_eq6 _ c) 3 (by decide)
def reg7 := reg m 7 launch7 (U11 m) (U12 m) (body_obligation7 _) (owed_eq7 _) (recorded_eq7 _) (q_eq7 _) (A_eq7 _) (hin7 _) (hout7 _)
  fun c => exit₂ _ launch7.win.arr_inj _ (A_eq7 _ c) 6 7 (by decide)
def reg8 := reg m 8 launch8 (U12 m) (U13 m) (body_obligation8 _) (owed_eq8 _) (recorded_eq8 _) (q_eq8 _) (A_eq8 _) (hin8 _) (hout8 _)
  fun c => exit₂ _ launch8.win.arr_inj _ (A_eq8 _ c) 5 6 (by decide)

-- the run over the nine records: every final memory holds each array at the last valuation
set_option backward.isDefEq.respectTransparency.types false in
theorem run_V14 (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = Gen.V14 m (outs m) c b) := by
  have e {V W : Valuation τ sig (Elt F)} (h : V = W) (c : Dev nD) :
      (iprop(StableHlo.held (c : Thread nD τ) (Pipeline.ucRefs τ sig) V ∗ R c) : sProp 𝕄)
        ⊢ iprop(StableHlo.held (c : Thread nD τ) (Pipeline.ucRefs τ sig) W ∗ R c) := by subst h; exact .rfl
  refine Pipeline.θ_run_regions_kit_dev (pcfgs (F := F)) adm (pdats m) () cellOf_inj (emb₁ (A := UR sig nD τ)) defs₀ Variants.none L lv m ρ main
    (segs m (outs m) Variants.none L lv (fun _ c => R c) () (pdats m) (reg0 m) (reg1 m) (reg2 m) (reg3 m) (reg4 m) (reg5 m) (reg6 m) (reg7 m) (reg8 m))
    (fun c Q => by rewrite [main_chain c, Seg.run_eq_chain]; exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (V14 m (outs m) c))
    (hch := fun c => ⟨.rfl, .rfl, e (V_eq2 m c).symm c, e (V_eq3 m c) c, e (V_eq4 m c).symm c, e (V_eq5 m c) c, .rfl, .rfl,
      e (V_eq8 m c).symm c, e (V_eq9 m c) c, .rfl, .rfl, .rfl, e (V_eq13 m c).symm c, sep_mono .rfl sep_elim_right⟩)
    (hinit := Pipeline.initEach L lv fun c => ?_)
    (QY := fun c s => ∀ b ∈ Pipeline.ucRefs τ sig, s.mem ((c : Thread nD τ).1, b) = V14 m (outs m) c b)
    (hfin := fun c s' => ?_) (hQ := fun _ h => h)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  · unfold StableHlo.held
    exact (pointsTo_read_all (Pipeline.ucRefs τ sig) (fun b => ((c : Thread nD τ).1, b)) (V14 m (outs m) c) s').trans fupd_intro

theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = U14 m c b) :=
  (θ_run defs _ _).mono (fun r h c b hb => (h c b hb).trans (congrFun (V_eq14 m c) b)) (run_V14 m ρ)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the last valuation at an argument array walks back to the launch memory
theorem args_kept (c : Dev nD) (mem : (ℓ : Loc nD τ sig) → Buf (Elt F) ℓ)
    (h : ∀ b ∈ Pipeline.ucRefs τ sig, mem ((c : Thread nD τ).1, b) = Gen.V14 m (outs m) c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13) :=
  have k (b : Ref sig .tc) (hb : ¬ (Proc.devRef .tc b : DevRef τ sig).isScoped) {x} (e : Gen.V14 m (outs m) c b = x) :
      mem ((c.tc : Thread nD τ).loc b) = x := (h _ (mem_uc b hb)).trans e
  ⟨k _ (by decide) (Gen.V14_main_arg0 m (outs m) c),
   k _ (by decide) (Gen.V14_main_arg1 m (outs m) c),
   k _ (by decide) (Gen.V14_main_arg2 m (outs m) c),
   k _ (by decide) (Gen.V14_main_arg3 m (outs m) c),
   k _ (by decide) (Gen.V14_main_arg4 m (outs m) c),
   k _ (by decide) (Gen.V14_main_arg5 m (outs m) c),
   k _ (by decide) (Gen.V14_main_arg6 m (outs m) c),
   k _ (by decide) (Gen.V14_main_arg7 m (outs m) c),
   k _ (by decide) (Gen.V14_main_arg8 m (outs m) c),
   k _ (by decide) (Gen.V14_main_arg9 m (outs m) c),
   k _ (by decide) (Gen.V14_main_arg10 m (outs m) c),
   k _ (by decide) (Gen.V14_main_arg11 m (outs m) c),
   k _ (by decide) (Gen.V14_main_arg12 m (outs m) c),
   k _ (by decide) (Gen.V14_main_arg13 m (outs m) c)⟩

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => args_kept m c r.2.mem (h c)) (run_V14 m ρ)

end Cert.Kernel.Hand

end
-- ==== Proof.KI.Enc0.lean ====
import proofs.«412769_j28716151341139_3_alg».proof.Proof.Gen.KernelIdeal.Launch
import proofs.«412769_j28716151341139_3_alg».proof.Proof.Gen.KernelIdeal.Skeleton
import proofs.«412769_j28716151341139_3_alg».proof.Proof.Gen.KernelIdeal.Points
import proofs.«412769_j28716151341139_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev cond0_0 (i : grid0.Coords) : Prop := (Scalar.cmpi .ne (Scalar.extui (Scalar.cmpi .eq (BitVec.ofNat 32 (i 2).val) 0#32)) 0#32) = 1#1
abbrev cond0_1 (i : grid0.Coords) : Prop := k0_cond2 i = 1#1

theorem hcond0 : ∀ t : Fin cfg0.N, (cond0_0 (grid0.coords t) ↔ t.val % 2 = 0) ∧ (cond0_1 (grid0.coords t) ↔ t.val % 2 = 1) :=
  (by decide +kernel : ∀ t : Fin grid0.N, _)

theorem live0 : ∀ (w : Fin cfg0.W) (t : Fin cfg0.N), w ≠ 3 ∨ t.val % 2 = 1 → cfg0.idle w (grid0.coords t) = false := by decide +kernel
theorem idle0 : ∀ t : Fin cfg0.N, t.val % 2 = 0 → cfg0.idle 3 (grid0.coords t) = true ∧ (cfg0.win 3).flush t = false := by decide +kernel

theorem off00 : (![0, 0] : Fin 2 → ℕ) = fun _ => 0 := by funext a; fin_cases a <;> rfl

theorem read_writes_whole0 {sg : RefSig} {κ : Kind} {sp : Space} {d : Fin 2 → ℕ} {e : EltTy} (v : View sg κ sp ⟨2, d⟩ e) (f : v.ty.Contents (Elt F))
    (inb : ∀ a, (![0, 0] : Fin 2 → ℕ) a + d a ≤ d a) (w : Shape.Idx ⟨2, d⟩ → Elt F e) (L : List (View.Piece (Elt F) ⟨2, d⟩ e)) :
    v.read (Elt F) (v.writes (Elt F) f ((⟨Rect.unit ![0, 0] d inb, w⟩ : View.Piece (Elt F) ⟨2, d⟩ e) :: L)) = w := by
  rw [View.read_writes_eq_canon _ _ _ (fun y => ⟨_, List.mem_cons_self, View.mem_set_unit_zero off00 inb y⟩), View.canon_cons_unit_zero off00]

theorem readAt_whole0 {sg : RefSig} {κ : Kind} {sp : Space} {d : Fin 2 → ℕ} {e : EltTy} (v : View sg κ sp ⟨2, d⟩ e) (f : v.ty.Contents (Elt F))
    (inb : ∀ a, (![0, 0] : Fin 2 → ℕ) a + d a ≤ d a) :
    v.readAt (Elt F) (Rect.unit ![0, 0] d inb).toLoadRect f = v.read (Elt F) f :=
  View.ld_unit_zero off00 inb _

-- The body at one point: the blocks' product is added to the accumulator (to zero when k = 0); when k = 1 the output block takes tanh of that plus the bias row.
theorem sound_kernel0 (c : Dev nD) (E : Set ℕ) (i : grid0.Coords) {arg3 : Memref sig .tc .vmem S256x512 .f32} {harg3 : arg3.IsWhole} {arg4 : Memref sig .tc .vmem S512x512 .bf16} {harg4 : arg4.IsWhole} {arg5 : Memref sig .tc .vmem S1x512 .f32} {harg5 : arg5.IsWhole} {arg6 arg7 : Memref sig .tc .vmem S256x512 .f32} {harg6 : arg6.IsWhole} {harg7 : arg7.IsWhole}
    (hc : cond0_0 i ∧ ¬cond0_1 i ∨ ¬cond0_0 i ∧ cond0_1 i)
    (x0 : Vec F S256x512 .f32) (x1 : Vec F S512x512 .bf16) (x2 : Vec F S1x512 .f32) (x3 xs : Vec F S256x512 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (if cond0_1 i then k0_pay3 (k0_pay2 x0 x1 xs) x2 else x3)
            ∗ owns (c : Thread nD τ) arg7 fullShare (k0_pay2 x0 x1 (if cond0_0 i then k0_pay1 (F := F) else xs))) -∗ K ⟨⟩))
      ⊢ wp frame (wpE (defs₀ (F := F)) Variants.none c none) E (cc0__enc_kernel i arg3 harg3 arg4 harg4 arg5 harg5 arg6 harg6 arg7 harg7) K := by
  rcases hc with ⟨hc0, hc1⟩ | ⟨hc0, hc1⟩ <;>
  · first | rw [if_pos hc0, if_neg hc1] | rw [if_neg hc0, if_pos hc1]
    simp only [cc0__enc_kernel_eq_skeleton]; unfold cc0__enc_kernel_skel owns
    iintro ⟨⟨%f0, %hf0, H0⟩, ⟨%f1, %hf1, H1⟩, ⟨%f2, %hf2, H2⟩, ⟨%f3, %hf3, H3⟩, ⟨%fs, %hfs, HS⟩, Hk⟩
    subst hf0 hf1 hf2 hf3 hfs
    sl_exec (disch := first | exact hc0 | exact hc1)
    sl_step
    iapply Hk
    isplitl [H0]; rotate_left; isplitl [H1]; rotate_left; isplitl [H2]; rotate_left; isplitl [H3]; rotate_left
    all_goals
      iexists _; isplitr; swap; iassumption
      ipureintro; sl_unfold_run_names
      simp only [read_writes_whole0, View.readCov_unit_zero (S := ⟨2, _⟩) _ off00, readAt_whole0]

-- The accumulator after the body at position n: the blocks' product added to zero at an even point, to the previous point's value at an odd one.
def scAt0 (c : Dev nD) : (n : ℕ) → n < cfg0.N → Vec F S256x512 .f32
  | 0, hn => k0_pay2 (iblk0 V c 0 ⟨0, hn⟩) (iblk0 V c 1 ⟨0, hn⟩) (k0_pay1 (F := F))
  | n + 1, hn => k0_pay2 (iblk0 V c 0 ⟨n + 1, hn⟩) (iblk0 V c 1 ⟨n + 1, hn⟩)
      (if (n + 1) % 2 = 0 then k0_pay1 (F := F) else scAt0 c n (Nat.lt_of_succ_lt hn))

theorem scAt0_eq (c : Dev nD) (t : Fin cfg0.N) : scAt0 V c t.val t.isLt = k0_pay2 (iblk0 V c 0 t) (iblk0 V c 1 t)
    (if t.val % 2 = 0 then k0_pay1 (F := F) else scAt0 V c (t.val - 1) (Nat.lt_of_le_of_lt (Nat.sub_le _ _) t.isLt)) := by
  obtain ⟨_ | n, hn⟩ := t <;> rfl

abbrev scM0 : Memref sig .tc .vmem S256x512 .f32 := Memref.whole cc0_scratch0

abbrev rest0 (c : Dev nD) : sProp 𝕄 :=
  iprop(Pipeline.scopedRestBut (Ix := Unit) (Name := ℕ) (U := UR sig nD τ) (Lvl := ℕ) (Val := Elt F) spec0 c [cc0_scratch0] ∗ (∃ r, prngReg c r))

-- Before position n the accumulator holds anything when n = 0, and otherwise the value scAt0 of the point before.
def PhiS0 (c : Dev nD) (n : ℕ) (h : n ≤ cfg0.N) : sProp 𝕄 :=
  if hz : n = 0 then iprop(iprop(∃ d, owns (c : Thread nD τ) scM0 fullShare d) ∗ rest0 (F := F) c)
  else iprop(owns (c : Thread nD τ) scM0 fullShare (scAt0 V c (n - 1) (by omega)) ∗ rest0 c)

theorem PhiS0_succ (c : Dev nD) (n : ℕ) (hn : n < cfg0.N) :
    PhiS0 V c (n + 1) hn = iprop(owns (c : Thread nD τ) scM0 fullShare (scAt0 V c n hn) ∗ rest0 c) := dif_neg (Nat.add_one_ne_zero n)

theorem PhiS0_any (c : Dev nD) (n : ℕ) (h : n ≤ cfg0.N) :
    PhiS0 V c n h ⊢ iprop(iprop(∃ d, owns (c : Thread nD τ) scM0 fullShare d) ∗ rest0 c) := by
  by_cases hz : n = 0
  · rw [PhiS0, dif_pos hz]
  · rw [PhiS0, dif_neg hz]
    iintro ⟨HS, Hr⟩
    iframe Hr
    iexists _; iexact HS

def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (scAt0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := rfl
theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl

theorem after0 (c : Dev nD) (t : Fin cfg0.N) :
    (dat0 V c).after 0 t = iblk0 V c 0 t ∧ (dat0 V c).after 1 t = iblk0 V c 1 t ∧ (dat0 V c).after 2 t = iblk0 V c 2 t := ⟨rfl, rfl, rfl⟩
theorem after0_3 (c : Dev nD) (t : Fin cfg0.N) : (dat0 V c).after 3 t = k0_pay3 (scAt0 V c t.val t.isLt) (iblk0 V c 2 t) := rfl

theorem before0 (c : Dev nD) (w : Fin cfg0.W) (hw : w ≠ 3) (t : Fin cfg0.N) (d) : (dat0 V c).before w t d = (dat0 V c).after w t :=
  match w, hw with
  | ⟨0, _⟩, _ | ⟨1, _⟩, _ | ⟨2, _⟩, _ => ((dat0 V c).before_in_eq_fetched _ rfl (fun _ => rfl) (fun _ _ _ => rfl) (fun _ => rfl) t d).trans rfl
  | ⟨3, _⟩, h => absurd rfl h

theorem leaves0 (c : Dev nD) (w : Fin cfg0.W) (t : Fin cfg0.N) (h : cfg0.idle w (grid0.coords t) = false) :
    (dat0 V c).leavesExact w t = owns (c : Thread nD τ) ((cfg0.win w).stage (cfg0.slots t w)) fullShare ((dat0 V c).after w t) := by
  unfold Dat.leavesExact; rw [h]

-- By the parity of the point: the accumulator goes from the previous point's value (from anything at an even point) to this point's.
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d)))
    ⊢ wp frame (wpE (defs₀ (F := F)) Variants.none c none) Set.univ (bodyAt0 t) (fun _ =>
      iprop((dat0 V c).Φ t.succ ∗ (dat0 V c).owesAt () t.succ
        ∗ (dat0 V c).leavesExact 0 t ∗ (dat0 V c).leavesExact 1 t ∗ (dat0 V c).leavesExact 2 t ∗ (dat0 V c).leavesExact 3 t)) := by
  unfold bodyAt0
  simp only [before0 V c 0 (by decide), before0 V c 1 (by decide), before0 V c 2 (by decide)]
  rw [show (dat0 V c).owesAt () t.succ = (dat0 V c).owesAt () t.castSucc from rfl,
    show (dat0 V c).Φ t.succ = _ from PhiS0_succ V c _ t.isLt,
    show (dat0 V c).Φ t.castSucc = PhiS0 V c t.val (Nat.le_of_lt t.isLt) from rfl,
    leaves0 V c 0 t (live0 0 t (.inl (by decide))), leaves0 V c 1 t (live0 1 t (.inl (by decide))), leaves0 V c 2 t (live0 2 t (.inl (by decide))),
    (after0 V c t).1, (after0 V c t).2.1, (after0 V c t).2.2]
  by_cases h0 : t.val % 2 = 0
  · have hc0 := (hcond0 t).1.mpr h0
    have hc1 : ¬cond0_1 (grid0.coords t) := fun h => by have := (hcond0 t).2.mp h; omega
    rw [Dat.leavesExact_idle (dat0 V c) 3 t (idle0 t h0).1 (idle0 t h0).2, scAt0_eq V c t, if_pos h0]
    iintro ⟨HΦ, Ho, ⟨%d0, H0⟩, ⟨%d1, H1⟩, ⟨%d2, H2⟩, ⟨%d3, H3⟩⟩
    ihave HΦ' := (PhiS0_any V c _ _) $$ HΦ
    icases HΦ' with ⟨⟨%ds, HS⟩, Hrest⟩
    iapply (sound_kernel0 c Set.univ (grid0.coords t) (.inl ⟨hc0, hc1⟩) (iblk0 V c 0 t) (iblk0 V c 1 t) (iblk0 V c 2 t) ((dat0 V c).before 3 t d3) ds _)
    rw [if_pos hc0, if_neg hc1]
    iframe
    iintro ⟨H0, H1, H2, H3, HS⟩
    iframe
    iexists _; iexact H3
  · have h1 : t.val % 2 = 1 := by omega
    have hc0 : ¬cond0_0 (grid0.coords t) := fun h => h0 ((hcond0 t).1.mp h)
    have hc1 := (hcond0 t).2.mpr h1
    rw [leaves0 V c 3 t (live0 3 t (.inr h1)), after0_3, scAt0_eq V c t, if_neg h0, PhiS0, dif_neg (show t.val ≠ 0 by omega)]
    iintro ⟨⟨HS, Hrest⟩, Ho, ⟨%d0, H0⟩, ⟨%d1, H1⟩, ⟨%d2, H2⟩, ⟨%d3, H3⟩⟩
    iapply (sound_kernel0 c Set.univ (grid0.coords t) (.inr ⟨hc0, hc1⟩) (iblk0 V c 0 t) (iblk0 V c 1 t) (iblk0 V c 2 t) ((dat0 V c).before 3 t d3) (scAt0 V c (t.val - 1) (by omega)) _)
    rw [if_neg hc0, if_pos hc1]
    iframe
    iintro ⟨H0, H1, H2, H3, HS⟩
    iframe

theorem body_obligation0 (c : Dev nD) : BodyObligation (dat0 (F := F) V c) (defs₀ (F := F)) Variants.none () Set.univ := fun t => by
  rw [bigSep_W0, bigSep_W0]
  exact sound_body0 V c t

theorem hin0 (c : Dev nD) : (iprop((∃ r, prngReg c r) ∗ Pipeline.scopedRest spec0 c) : sProp 𝕄) ⊢ (dat0 V c).Φ 0 := by
  rw [show (dat0 V c).Φ 0 = PhiS0 V c 0 (Nat.zero_le _) from rfl, PhiS0, dif_pos rfl, scopedRest0_split]
  simp only [scM0, rest0, owns_whole]
  iintro ⟨Hr, HS, Hrest⟩
  iframe

theorem hout0 (c : Dev nD) : (dat0 V c).Φ (Fin.last cfg0.N) ⊢ (iprop((∃ r, prngReg c r) ∗ Pipeline.scopedRest spec0 c) : sProp 𝕄) := by
  rw [show (dat0 V c).Φ (Fin.last cfg0.N) = PhiS0 V c (Fin.last cfg0.N).val (Nat.le_of_lt_succ (Fin.last cfg0.N).isLt) from rfl, scopedRest0_split]
  refine (PhiS0_any V c _ _).trans ?_
  simp only [scM0, rest0, owns_whole]
  iintro ⟨HS, Hrest, Hr⟩
  iframe

end Cert.KernelIdeal.Hand

end
-- ==== Proof.KI.Lstm1.lean ====
import proofs.«412769_j28716151341139_3_alg».proof.Proof.Gen.KernelIdeal.Launch
import proofs.«412769_j28716151341139_3_alg».proof.Proof.Gen.KernelIdeal.Skeleton
import proofs.«412769_j28716151341139_3_alg».proof.Proof.Gen.KernelIdeal.Points
import proofs.«412769_j28716151341139_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- window `w`'s block of its array at point `t`
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S64x2048 := Rect.unit (s := S64x2048) ![0, 0] S64x2048.size inb_S64x2048_S64x2048_0_0

abbrev r1_w : Rect S2048x2048 := Rect.unit (s := S2048x2048) ![0, 0] S2048x2048.size inb_S2048x2048_S2048x2048_0_0

abbrev r1_b : Rect S1x2048 := Rect.unit (s := S1x2048) ![0, 0] S1x2048.size inb_S1x2048_S1x2048_0_0

abbrev r1_o : Rect S64x512 := Rect.unit (s := S64x512) ![0, 0] S64x512.size inb_S64x512_S64x512_0_0

def out1_6 (xa xb : Vec F S64x2048 .f32) (xc xd : Vec F S2048x2048 .bf16) (xe : Vec F S1x2048 .f32) (xf : Vec F S64x512 .f32) : Vec F S64x512 .f32 :=
  View.canon [⟨r1_o, k1_pay3 (View.ld xa r1_x) (View.ld xb r1_x) (View.ld xc r1_w) (View.ld xd r1_w) (View.ld xe r1_b) (View.ld xf r1_o)⟩]

def out1_7 (xa xb : Vec F S64x2048 .f32) (xc xd : Vec F S2048x2048 .bf16) (xe : Vec F S1x2048 .f32) (xf : Vec F S64x512 .f32) : Vec F S64x512 .f32 :=
  View.canon [⟨r1_o, k1_pay2 (View.ld xa r1_x) (View.ld xb r1_x) (View.ld xc r1_w) (View.ld xd r1_w) (View.ld xe r1_b) (View.ld xf r1_o)⟩]

-- a single piece that is the whole shape covers every index
theorem cover1_o (p : Vec F S64x512 .f32) (y : S64x512.Idx) :
    ∃ pc ∈ ([⟨r1_o, p⟩] : List (View.Piece (Elt F) S64x512 .f32)), y ∈ pc.1.set :=
  View.cover_of_tiled [⟨r1_o, p⟩] S64x512.size (by rfl) y

-- the body's triple: the six inputs unchanged, the two outputs hold `out1_6` and `out1_7` of them
set_option maxHeartbeats 1000000 in
theorem sound_kernel1 (c : Dev nD) (E : Set ℕ) (i : grid1.Coords)
    (arga : Memref sig .tc .vmem S64x2048 .f32) (harga : arga.IsWhole) (argb : Memref sig .tc .vmem S64x2048 .f32) (hargb : argb.IsWhole)
    (argc : Memref sig .tc .vmem S2048x2048 .bf16) (hargc : argc.IsWhole) (argd : Memref sig .tc .vmem S2048x2048 .bf16) (hargd : argd.IsWhole)
    (arge : Memref sig .tc .vmem S1x2048 .f32) (harge : arge.IsWhole) (argf : Memref sig .tc .vmem S64x512 .f32) (hargf : argf.IsWhole)
    (argg : Memref sig .tc .vmem S64x512 .f32) (hargg : argg.IsWhole) (argh : Memref sig .tc .vmem S64x512 .f32) (hargh : argh.IsWhole)
    (xa xb : Vec F S64x2048 .f32) (xc xd : Vec F S2048x2048 .bf16) (xe : Vec F S1x2048 .f32) (xf : Vec F S64x512 .f32) (K : PUnit → sProp 𝕄) :
    iprop(owns c arga fullShare xa ∗ owns c argb fullShare xb ∗ owns c argc fullShare xc
        ∗ owns c argd fullShare xd ∗ owns c arge fullShare xe ∗ owns c argf fullShare xf
        ∗ (∃ d, owns c argg fullShare d) ∗ (∃ d, owns c argh fullShare d)
        ∗ (iprop(owns c arga fullShare xa ∗ owns c argb fullShare xb ∗ owns c argc fullShare xc
            ∗ owns c argd fullShare xd ∗ owns c arge fullShare xe ∗ owns c argf fullShare xf
            ∗ owns c argg fullShare (out1_6 xa xb xc xd xe xf) ∗ owns c argh fullShare (out1_7 xa xb xc xd xe xf)) -∗ K ⟨⟩))
      ⊢ wp frame (wpE (defs₀ (F := F)) Variants.none c none) E (cc1__lstm_kernel i arga harga argb hargb argc hargc argd hargd arge harge argf hargf argg hargg argh hargh) K := by
  simp only [cc1__lstm_kernel_eq_skeleton]; unfold cc1__lstm_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dg, %fg, -, Hg⟩, ⟨%dh, %fh, -, Hh⟩, Hk⟩
  subst hfa hfb hfc hfd hfe hff
  sl_exec
  sl_step
  iapply Hk
  isplitl [Ha]; · iexists _; isplitr; swap; iexact Ha; ipureintro; rfl
  isplitl [Hb]; · iexists _; isplitr; swap; iexact Hb; ipureintro; rfl
  isplitl [Hc]; · iexists _; isplitr; swap; iexact Hc; ipureintro; rfl
  isplitl [Hd]; · iexists _; isplitr; swap; iexact Hd; ipureintro; rfl
  isplitl [He]; · iexists _; isplitr; swap; iexact He; ipureintro; rfl
  isplitl [Hf]; · iexists _; isplitr; swap; iexact Hf; ipureintro; rfl
  isplitl [Hg]; · iexists _; isplitr; swap; iexact Hg; ipureintro; exact View.read_writes_eq_canon _ _ _ (cover1_o _)
  iexists _; isplitr; swap; iexact Hh; ipureintro; exact View.read_writes_eq_canon _ _ _ (cover1_o _)

def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
    | ⟨7, _⟩ => out1_7 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := by
  dsimp only [dat1]

theorem owed_eq1 (c : Dev nD) (t : Fin (cfg1.N + 1)) : (dat1 V c).owed t = 0 := by
  dsimp only [dat1]

theorem recorded_eq1 (c : Dev nD) (t : Fin (cfg1.N + 1)) : (dat1 V c).recorded t = Set.univ := by
  dsimp only [dat1]

-- each input window holds its block of the array at every point
theorem before1 (c : Dev nD) (t : Fin cfg1.N) :
    (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ (∀ d, (dat1 V c).before 5 t d = iblk1 V c 5 t) := by
  refine ⟨?_, ?_, ?_, ?_, ?_, ?_⟩ <;>
    exact fun d => ((dat1 V c).before_in_eq_fetched _ rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns c (st1_0 t) fullShare ((dat1 V c).before 0 t d))
    ∗ (∃ d, owns c (st1_1 t) fullShare ((dat1 V c).before 1 t d))
    ∗ (∃ d, owns c (st1_2 t) fullShare ((dat1 V c).before 2 t d))
    ∗ (∃ d, owns c (st1_3 t) fullShare ((dat1 V c).before 3 t d))
    ∗ (∃ d, owns c (st1_4 t) fullShare ((dat1 V c).before 4 t d))
    ∗ (∃ d, owns c (st1_5 t) fullShare ((dat1 V c).before 5 t d))
    ∗ (∃ d, owns c (st1_6 t) fullShare ((dat1 V c).before 6 t d))
    ∗ (∃ d, owns c (st1_7 t) fullShare ((dat1 V c).before 7 t d)))

def bodyPost1 (c : Dev nD) (t : Fin cfg1.N) : sProp 𝕄 :=
  iprop((dat1 V c).Φ t.succ ∗ (dat1 V c).owesAt () t.succ
    ∗ owns c (st1_0 t) fullShare ((dat1 V c).after 0 t)
    ∗ owns c (st1_1 t) fullShare ((dat1 V c).after 1 t)
    ∗ owns c (st1_2 t) fullShare ((dat1 V c).after 2 t)
    ∗ owns c (st1_3 t) fullShare ((dat1 V c).after 3 t)
    ∗ owns c (st1_4 t) fullShare ((dat1 V c).after 4 t)
    ∗ owns c (st1_5 t) fullShare ((dat1 V c).after 5 t)
    ∗ owns c (st1_6 t) fullShare ((dat1 V c).after 6 t)
    ∗ owns c (st1_7 t) fullShare ((dat1 V c).after 7 t))

-- the body at a point: its triple at the input blocks; invariant and debt pass through
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  rw [show (dat1 V c).owesAt () t.succ = (dat1 V c).owesAt () t.castSucc from rfl]
  simp only [before1 V c t]
  dsimp only [dat1]
  iintro ⟨HΦ, Ho, ⟨%da, Ha⟩, ⟨%db, Hb⟩, ⟨%dc, Hc⟩, ⟨%dd, Hd⟩, ⟨%de, He⟩, ⟨%df, Hf⟩, Hg, Hh⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) _)
  iframe Ha Hb Hc Hd He Hf
  isplitl [Hg]; · icases Hg with ⟨%d, Hg⟩; iexists _; iexact Hg
  isplitl [Hh]; · icases Hh with ⟨%d, Hh⟩; iexists _; iexact Hh
  iintro ⟨Ha, Hb, Hc, Hd, He, Hf, Hg, Hh⟩
  iframe

theorem body_obligation1 (c : Dev nD) : BodyObligation (dat1 (F := F) V c) (defs₀ (F := F)) Variants.none () Set.univ := fun t => by
  rw [bigSep_W1, bigSep_W1]
  exact sound_body1 V c t

-- the invariant at the region's ends is the two given resources in the other order
theorem hin1 (c : Dev nD) : (iprop((∃ r, prngReg c r) ∗ Pipeline.scopedRest spec1 c) : sProp 𝕄) ⊢ (dat1 V c).Φ 0 :=
  sep_comm.1

theorem hout1 (c : Dev nD) : (dat1 V c).Φ (Fin.last cfg1.N) ⊢ (iprop((∃ r, prngReg c r) ∗ Pipeline.scopedRest spec1 c) : sProp 𝕄) :=
  sep_comm.1

end Cert.KernelIdeal.Hand

end
-- ==== Proof.KI.Gate2.lean ====
import proofs.«412769_j28716151341139_3_alg».proof.Proof.Gen.KernelIdeal.Launch
import proofs.«412769_j28716151341139_3_alg».proof.Proof.Gen.KernelIdeal.Skeleton
import proofs.«412769_j28716151341139_3_alg».proof.Proof.Gen.KernelIdeal.Points
import proofs.«412769_j28716151341139_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond2_0 (i : grid2.Coords) : Prop := (Scalar.cmpi .ne (Scalar.extui (Scalar.cmpi .eq (BitVec.ofNat 32 (i 2).val) 0#32)) 0#32) = 1#1
abbrev cond2_1 (i : grid2.Coords) : Prop := k2_cond2 i = 1#1

theorem zeros2 : (![0, 0] : Fin 2 → ℕ) = fun _ => 0 := by funext a; fin_cases a <;> rfl

-- The newest write covers the whole shape, so reading back gives its payload.
theorem read_writes_cons_unit_zero2 {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

-- One call of the body: the accumulator restarts from zero at a first contraction step, and the gate is stored at a last one.
set_option maxHeartbeats 1000000 in
theorem kernel2 (c : Dev nD) (E : Set ℕ) (i : grid2.Coords) (hx : cond2_0 i → ¬cond2_1 i)
    (arg3 : Memref sig .tc .vmem S256x512 .f32) (harg3 : arg3.IsWhole) (arg4 : Memref sig .tc .vmem S256x512 .bf16) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S256x256 .f32) (harg7 : arg7.IsWhole) (arg8 : Memref sig .tc .vmem S256x256 .f32) (harg8 : arg8.IsWhole)
    (x0 : Vec F S256x512 .f32) (x1 : Vec F S256x512 .bf16) (x2 : Vec F S1x256 .f32) (x3 x4 xs : Vec F S256x256 .f32)
    (K : PUnit → sProp 𝕄) :
    iprop(owns c arg3 fullShare x0 ∗ owns c arg4 fullShare x1 ∗ owns c arg5 fullShare x2
        ∗ owns c arg6 fullShare x3 ∗ owns c arg7 fullShare x4 ∗ owns c arg8 fullShare xs
        ∗ (owns c arg3 fullShare x0 -∗ owns c arg4 fullShare x1 -∗ owns c arg5 fullShare x2 -∗ owns c arg6 fullShare x3
        -∗ owns c arg7 fullShare (if cond2_1 i then k2_pay3 (k2_pay2 x0 x1 (if cond2_0 i then k2_pay1 else xs)) x2 x3 else x4)
        -∗ owns c arg8 fullShare (k2_pay2 x0 x1 (if cond2_0 i then k2_pay1 else xs)) -∗ K ⟨⟩))
      ⊢ wp frame (wpE (defs₀ (F := F)) Variants.none c none) E (cc2__gate_kernel i arg3 harg3 arg4 harg4 arg5 harg5 arg6 harg6 arg7 harg7 arg8 harg8) K := by
  by_cases hc0 : cond2_0 i <;> by_cases hc1 : cond2_1 i
  · exact absurd hc1 (hx hc0)
  all_goals
    first | rw [if_pos hc0] | rw [if_neg hc0]
    first | rw [if_pos hc1] | rw [if_neg hc1]
    simp only [cc2__gate_kernel_eq_skeleton]; unfold cc2__gate_kernel_skel owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    subst hf0 hf1 hf2 hf3 hf4 hfs
    sl_exec (disch := first | exact hc0 | exact hc1)
    sl_step
    iapply Hk $$ [H0] [H1] [H2] [H3] [H4] [HS]
    all_goals
      iexists _; isplitr; swap; · iassumption
      ipureintro
      first
        | (sl_unfold_run_names; rw [read_writes_cons_unit_zero2 _ _ zeros2]; try rw [View.readCov_unit_zero _ zeros2]
           repeat rw [View.readAt_eq_ld]
           repeat rw [View.ld_unit_zero zeros2])
        | rfl

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hcond2_0 : ∀ t : Fin cfg2.N, cond2_0 (grid2.coords t) ↔ t.val % 4 = 0 :=
  (by decide +kernel : ∀ t : Fin grid2.N, cond2_0 (grid2.coords t) ↔ t.val % 4 = 0)
theorem hcond2_1 : ∀ t : Fin cfg2.N, cond2_1 (grid2.coords t) ↔ t.val % 4 = 3 :=
  (by decide +kernel : ∀ t : Fin grid2.N, cond2_1 (grid2.coords t) ↔ t.val % 4 = 3)

theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

-- The accumulator after the body at position n: the block product added to zero at a first contraction step, else to what the point before left.
def acc2 (c : Dev nD) : (n : ℕ) → n < cfg2.N → Vec F S256x256 .f32
  | 0, hn => k2_pay2 (iblk2 V c 0 ⟨0, hn⟩) (iblk2 V c 1 ⟨0, hn⟩) (k2_pay1 (F := F))
  | n + 1, hn => k2_pay2 (iblk2 V c 0 ⟨n + 1, hn⟩) (iblk2 V c 1 ⟨n + 1, hn⟩)
      (if (n + 1) % 4 = 0 then k2_pay1 (F := F) else acc2 c n (Nat.lt_of_succ_lt hn))

theorem acc2_def (c : Dev nD) (t : Fin cfg2.N) :
    acc2 V c t.val t.isLt = k2_pay2 (iblk2 V c 0 t) (iblk2 V c 1 t)
      (if t.val % 4 = 0 then k2_pay1 (F := F) else acc2 V c (t.val - 1) (Nat.lt_of_le_of_lt (Nat.sub_le _ _) t.isLt)) := by
  obtain ⟨_ | n, hn⟩ := t <;> rfl

-- One body call maps what the point before left (anything, at a first contraction step) to the accumulator after this point.
theorem acc2_eq (c : Dev nD) (t : Fin cfg2.N) (xs : Vec F S256x256 .f32) (h : ∀ m (hm : m < cfg2.N), t.val = m + 1 → xs = acc2 V c m hm) :
    k2_pay2 (iblk2 V c 0 t) (iblk2 V c 1 t) (if cond2_0 (grid2.coords t) then k2_pay1 else xs) = acc2 V c t.val t.isLt := by
  rw [acc2_def V c t]
  by_cases h0 : t.val % 4 = 0
  · rw [if_pos h0, if_pos ((hcond2_0 t).mpr h0)]
  · rw [if_neg h0, if_neg (mt (hcond2_0 t).mp h0), h (t.val - 1) (Nat.lt_of_le_of_lt (Nat.sub_le _ _) t.isLt) (by omega)]

def out2 (c : Dev nD) (t : Fin cfg2.N) : Vec F S256x256 .f32 :=
  k2_pay3 (acc2 V c t.val t.isLt) (iblk2 V c 2 t) (iblk2 V c 3 t)

abbrev scM2 : Memref sig .tc .vmem S256x256 .f32 := Memref.whole cc2_scratch0

-- Between points the accumulator holds what the point before left (anything, before the first point).
def Phi2 (c : Dev nD) (n : ℕ) : sProp 𝕄 :=
  iprop(∃ xs, ⌜∀ m (hm : m < cfg2.N), n = m + 1 → xs = acc2 V c m hm⌝ ∗ owns c scM2 fullShare xs
    ∗ (∃ r, prngReg c r) ∗ Pipeline.scopedRestBut spec2 c [cc2_scratch0])

theorem scopedRest2_eq (c : Dev nD) :
    (Pipeline.scopedRest spec2 c : sProp 𝕄)
      = iprop(iprop(∃ d, owns c scM2 fullShare d) ∗ Pipeline.scopedRestBut spec2 c [cc2_scratch0]) := by
  rw [scopedRest2_split]; simp only [scM2, owns_whole]; try rfl

def dat2 (V : (c : Dev nD) → (b : Ref sig .tc) → Buf (Elt F) ((c : Thread nD τ).loc b)) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ t := Phi2 V c t.val
  q _ := fullShare
  owed _ := 0

theorem A_eq2 (c : Dev nD) (w : Fin cfg2.W) : (dat2 V c).A w = V c (Pipeline.arrRef spec2 w) := by
  dsimp only [dat2]
theorem q_eq2 (c : Dev nD) (w : Fin cfg2.W) : (dat2 V c).q w = fullShare := by
  dsimp only [dat2]
theorem owed_eq2 (c : Dev nD) (t : Fin (cfg2.N + 1)) : (dat2 V c).owed t = 0 := by
  dsimp only [dat2]
theorem recorded_eq2 (c : Dev nD) (t : Fin (cfg2.N + 1)) : (dat2 V c).recorded t = Set.univ := by
  dsimp only [dat2]

theorem after2_4 (c : Dev nD) (t : Fin cfg2.N) : (dat2 V c).after 4 t = out2 V c t := by dsimp only [dat2]

theorem before2 (c : Dev nD) (t : Fin cfg2.N) :
    (∀ d, (dat2 V c).before 0 t d = iblk2 V c 0 t) ∧ (∀ d, (dat2 V c).before 1 t d = iblk2 V c 1 t)
      ∧ (∀ d, (dat2 V c).before 2 t d = iblk2 V c 2 t) ∧ (∀ d, (dat2 V c).before 3 t d = iblk2 V c 3 t) := by
  refine ⟨?_, ?_, ?_, ?_⟩ <;>
    exact fun d => ((dat2 V c).before_in_eq_fetched _ rfl (fun _ => rfl) (fun _ _ _ => rfl) (fun _ => rfl) t d).trans rfl

theorem leaves2 (c : Dev nD) (t : Fin cfg2.N) :
    (dat2 V c).leavesExact 0 t = owns c (st2_0 t) fullShare (iblk2 V c 0 t)
      ∧ (dat2 V c).leavesExact 1 t = owns c (st2_1 t) fullShare (iblk2 V c 1 t)
      ∧ (dat2 V c).leavesExact 2 t = owns c (st2_2 t) fullShare (iblk2 V c 2 t)
      ∧ (dat2 V c).leavesExact 3 t = owns c (st2_3 t) fullShare (iblk2 V c 3 t) :=
  ⟨rfl, rfl, rfl, rfl⟩

def bodyPre2 (c : Dev nD) (t : Fin cfg2.N) : sProp 𝕄 :=
  iprop((dat2 V c).Φ t.castSucc ∗ (dat2 V c).owesAt () t.castSucc
    ∗ (∃ d, owns c (st2_0 t) fullShare ((dat2 V c).before 0 t d))
    ∗ (∃ d, owns c (st2_1 t) fullShare ((dat2 V c).before 1 t d))
    ∗ (∃ d, owns c (st2_2 t) fullShare ((dat2 V c).before 2 t d))
    ∗ (∃ d, owns c (st2_3 t) fullShare ((dat2 V c).before 3 t d))
    ∗ (∃ d, owns c (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

-- At any point the body is one call of kernel2 on that point's blocks.
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  obtain ⟨ba, bb, bc, bd⟩ := before2 V c t
  obtain ⟨la, lb, lc, ld⟩ := leaves2 V c t
  rw [la, lb, lc, ld]; simp only [ba, bb, bc, bd]
  rw [show (dat2 V c).owesAt () t.succ = (dat2 V c).owesAt () t.castSucc from rfl,
    show (dat2 V c).Φ t.succ = Phi2 V c (t.val + 1) from rfl,
    show (dat2 V c).Φ t.castSucc = Phi2 V c t.val from rfl]
  unfold Phi2
  have h0 := hcond2_0 t
  have h1 := hcond2_1 t
  iintro ⟨⟨%xs, %hxs, HS, Hg, Hr⟩, Ho, ⟨%d0, H0⟩, ⟨%d1, H1⟩, ⟨%d2, H2⟩, ⟨%d3, H3⟩, ⟨%d4, H4⟩⟩
  iapply (kernel2 c Set.univ (grid2.coords t) (fun a b => absurd ((h0.mp a).symm.trans (h1.mp b)) (by decide)) _ _ _ _ _ _ _ _ _ _ scM2 (Memref.isWhole_whole _)
    (iblk2 V c 0 t) (iblk2 V c 1 t) (iblk2 V c 2 t) (iblk2 V c 3 t) ((dat2 V c).before 4 t d4) xs _)
  iframe H0 H1 H2 H3 H4 HS
  iintro H0 H1 H2 H3 H4 HS
  rw [acc2_eq V c t xs hxs]
  isplitl [HS Hg Hr]
  · iexists _; iframe HS Hg Hr
    ipureintro; intro m hm e; cases Nat.succ.inj e; rfl
  iframe Ho H0 H1 H2 H3
  by_cases h3 : cond2_1 (grid2.coords t)
  · rw [if_pos h3]; unfold Dat.leavesExact; rw [liveAt2_4 t h3, after2_4]; iexact H4
  · rw [if_neg h3, Dat.leavesExact_idle (dat2 V c) 4 t (idleAt2_4 t h3) (noFlush2_4 t h3)]; iexists _; iexact H4

theorem body_obligation2 (c : Dev nD) : BodyObligation (dat2 (F := F) V c) (defs₀ (F := F)) Variants.none () Set.univ := fun t => by
  rw [bigSep_W2, bigSep_W2]
  exact sound_body2 V c t

theorem hin2 (c : Dev nD) : (iprop((∃ r, prngReg c r) ∗ Pipeline.scopedRest spec2 c) : sProp 𝕄) ⊢ (dat2 V c).Φ 0 := by
  rw [show (dat2 V c).Φ 0 = Phi2 V c 0 from rfl, scopedRest2_eq]; unfold Phi2
  iintro ⟨Hg, ⟨%d, HS⟩, Hr⟩
  iexists d; iframe HS Hg Hr
  ipureintro; exact fun _ _ e => nomatch e

-- After the last point the accumulator's contents are forgotten.
theorem hout2 (c : Dev nD) : (dat2 V c).Φ (Fin.last cfg2.N) ⊢ (iprop((∃ r, prngReg c r) ∗ Pipeline.scopedRest spec2 c) : sProp 𝕄) := by
  rw [show (dat2 V c).Φ (Fin.last cfg2.N) = Phi2 V c cfg2.N from rfl, scopedRest2_eq]; unfold Phi2
  iintro ⟨%xs, -, HS, Hg, Hr⟩
  isplitl [Hg]; · iexact Hg
  isplitl [HS]; · iexists _; iexact HS
  iexact Hr

end Cert.KernelIdeal.Hand

end
-- ==== Proof.KI.Bsum3.lean ====
import proofs.«412769_j28716151341139_3_alg».proof.Proof.Gen.KernelIdeal.Launch
import proofs.«412769_j28716151341139_3_alg».proof.Proof.Gen.KernelIdeal.Skeleton
import proofs.«412769_j28716151341139_3_alg».proof.Proof.Gen.KernelIdeal.Points
import proofs.«412769_j28716151341139_3_alg».proof.Proof.Gen.KernelIdeal.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) ↔ t.val % 4 = 0 :=
  (by decide +kernel : ∀ t : Fin grid3.N, cond3_0 (grid3.coords t) ↔ t.val % 4 = 0)
abbrev cond3_1 (i : grid3.Coords) : Prop := k3_cond2 i = 1#1
theorem hcond3_1 : ∀ t : Fin cfg3.N, cond3_1 (grid3.coords t) ↔ t.val % 4 = 3 :=
  (by decide +kernel : ∀ t : Fin grid3.N, cond3_1 (grid3.coords t) ↔ t.val % 4 = 3)

theorem idleAt3_3 : ∀ t : Fin cfg3.N, ¬t.val % 4 = 3 → cfg3.idle 3 (grid3.coords t) = true := by decide +kernel
theorem noFlush3_3 : ∀ t : Fin cfg3.N, ¬t.val % 4 = 3 → (cfg3.win 3).flush t = false := by decide +kernel
theorem liveAt3_3 : ∀ t : Fin cfg3.N, t.val % 4 = 3 → cfg3.idle 3 (grid3.coords t) = false := by decide +kernel

abbrev scM3_0 : Memref sig .tc .vmem S256x512 .f32 := Memref.whole cc3_scratch0

theorem zero3 : (![0, 0] : Fin 2 → ℕ) = fun _ => 0 := by funext a; fin_cases a <;> rfl

set_option maxHeartbeats 750000 in
-- The body at a point: the accumulator, reset to zero where the first condition holds, gains the block product; where the second holds the output is the sum plus the third block.
theorem kernel3 (c : Dev nD) (E : Set ℕ) (i : grid3.Coords)
    (arg3 : Memref sig .tc .vmem S512x256 .f32) (harg3 : arg3.IsWhole) (arg4 : Memref sig .tc .vmem S512x512 .f32) (harg4 : arg4.IsWhole)
    (arg5 : Memref sig .tc .vmem S256x512 .f32) (harg5 : arg5.IsWhole) (arg6 : Memref sig .tc .vmem S256x512 .f32) (harg6 : arg6.IsWhole)
    (arg7 : Memref sig .tc .vmem S256x512 .f32) (harg7 : arg7.IsWhole) (hne : ¬(cond3_0 i ∧ cond3_1 i))
    (x0 : Vec F S512x256 .f32) (x1 : Vec F S512x512 .f32) (x2 d xs : Vec F S256x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (if cond3_1 i then k3_pay3 (k3_pay2 x0 x1 (if cond3_0 i then k3_pay1 else xs)) x2 else d)
            ∗ owns (c : Thread nD τ) arg7 fullShare (k3_pay2 x0 x1 (if cond3_0 i then k3_pay1 else xs))) -∗ K ⟨⟩))
      ⊢ wp frame (wpE (defs₀ (F := F)) Variants.none c none) E (cc3__atb_kernel i arg3 harg3 arg4 harg4 arg5 harg5 arg6 harg6 arg7 harg7) K := by
  by_cases hc0 : cond3_0 i <;> by_cases hc1 : cond3_1 i
  · exact absurd ⟨hc0, hc1⟩ hne
  all_goals
    ((first | rw [if_pos hc0] | rw [if_neg hc0])
     (first | rw [if_pos hc1] | rw [if_neg hc1])
     simp only [cc3__atb_kernel_eq_skeleton]; unfold cc3__atb_kernel_skel owns
     iintro ⟨⟨%f0, %hf0, H0⟩, ⟨%f1, %hf1, H1⟩, ⟨%f2, %hf2, H2⟩, ⟨%f3, %hf3, H3⟩, ⟨%fs, %hfs, HS⟩, Hk⟩
     subst hf0 hf1 hf2 hf3 hfs
     sl_exec (disch := first | exact hc0 | exact hc1)
     sl_step
     iapply Hk
     isplitl [H0]; swap; isplitl [H1]; swap; isplitl [H2]; swap; isplitl [H3]
     all_goals
       iexists _; isplitr; swap; · iassumption
       ipureintro
       first
       | with_reducible rfl
       | sl_unfold_run_names
         rw [View.read_writes_eq_canon _ _ _ (fun y => ⟨_, List.mem_cons_self, View.mem_set_unit_zero zero3 inb_S256x512_S256x512_0_0 y⟩),
           View.canon_cons_unit_zero zero3]
         try rw [View.readCov_unit_zero _ zero3]
         simp only [View.readAt_eq_ld, View.ld_unit_zero (S := S512x256) zero3, View.ld_unit_zero (S := S512x512) zero3, View.ld_unit_zero (S := S256x512) zero3])

-- What the accumulator holds after point n: the point's block product added to zero at the first point of a reduction, to what the point before left at the others.
def acc3 (c : Dev nD) (n : ℕ) (hn : n < cfg3.N) : Vec F S256x512 .f32 :=
  k3_pay2 (iblk3 V c 0 ⟨n, hn⟩) (iblk3 V c 1 ⟨n, hn⟩) (if h : n % 4 = 0 then k3_pay1 else acc3 c (n - 1) (by omega))
termination_by n
decreasing_by omega

theorem acc3_A (c : Dev nD) (t : Fin cfg3.N) (h0 : t.val % 4 = 0) :
    acc3 V c t.val t.isLt = k3_pay2 (iblk3 V c 0 t) (iblk3 V c 1 t) k3_pay1 :=
  (acc3.eq_1 V c t.val t.isLt).trans (by rw [dif_pos h0])

theorem acc3_B (c : Dev nD) (t : Fin cfg3.N) (h0 : ¬t.val % 4 = 0) :
    acc3 V c t.val t.isLt = k3_pay2 (iblk3 V c 0 t) (iblk3 V c 1 t) (acc3 V c (t.val - 1) (Nat.lt_of_le_of_lt (Nat.sub_le _ _) t.isLt)) :=
  (acc3.eq_1 V c t.val t.isLt).trans (by rw [dif_neg h0])

-- Before point n the accumulator holds what point n - 1 left (anything when n = 0).
def PhiS3 (c : Dev nD) (n : ℕ) (hn : n ≤ cfg3.N) : sProp 𝕄 :=
  iprop((∃ r, prngReg c r) ∗ (∃ xs, ⌜∀ h : n ≠ 0, xs = acc3 V c (n - 1) (by omega)⌝ ∗ owns (c : Thread nD τ) scM3_0 fullShare xs)
    ∗ Pipeline.scopedRestBut spec3 c [cc3_scratch0])

def dat3 (V : (c : Dev nD) → (b : Ref sig .tc) → Buf (Elt F) ((c : Thread nD τ).loc b)) (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay3 (acc3 V c t.val t.isLt) (iblk3 V c 2 t)
  Φ t := PhiS3 V c t.val (Nat.le_of_lt_succ t.isLt)
  q _ := fullShare
  owed _ := 0

theorem A_eq3 (c : Dev nD) (w : Fin cfg3.W) : (dat3 V c).A w = V c (Pipeline.arrRef spec3 w) := rfl
theorem q_eq3 (c : Dev nD) (w : Fin cfg3.W) : (dat3 V c).q w = fullShare := rfl
theorem owed_eq3 (c : Dev nD) (t : Fin (cfg3.N + 1)) : (dat3 V c).owed t = 0 := rfl
theorem recorded_eq3 (c : Dev nD) (t : Fin (cfg3.N + 1)) : (dat3 V c).recorded t = Set.univ := rfl

-- The inputs the body sees at a point are the blocks of the arrays as the region found them.
theorem before3 (c : Dev nD) (t : Fin cfg3.N) : (∀ d, (dat3 V c).before 0 t d = iblk3 V c 0 t)
    ∧ (∀ d, (dat3 V c).before 1 t d = iblk3 V c 1 t) ∧ (∀ d, (dat3 V c).before 2 t d = iblk3 V c 2 t) := by
  refine ⟨?_, ?_, ?_⟩ <;> exact fun d =>
    ((dat3 V c).before_in_eq_fetched _ rfl (fun _ => rfl) (fun _ _ _ => rfl) (fun _ => rfl) t d).trans rfl

-- The output block is the sum plus the third block at the last point of a reduction and unchanged elsewhere.
theorem leaves3_3 (c : Dev nD) (t : Fin cfg3.N) (d) :
    owns (c : Thread nD τ) (st3_3 t) fullShare (if cond3_1 (grid3.coords t) then k3_pay3 (acc3 V c t.val t.isLt) (iblk3 V c 2 t) else (dat3 V c).before 3 t d)
      ⊢ (dat3 V c).leavesExact 3 t := by
  by_cases h3 : t.val % 4 = 3
  · rw [if_pos ((hcond3_1 t).mpr h3)]; unfold Dat.leavesExact; rw [liveAt3_3 t h3]; exact .rfl
  · rw [if_neg (mt (hcond3_1 t).mp h3), Dat.leavesExact_idle (dat3 V c) 3 t (idleAt3_3 t h3) (noFlush3_3 t h3)]
    iintro H; iexists d; iexact H

theorem body_obligation3 (c : Dev nD) : BodyObligation (dat3 (F := F) V c) (defs₀ (F := F)) Variants.none () Set.univ := fun t => by
  rw [bigSep_W3, bigSep_W3]
  change iprop(PhiS3 V c t.val (Nat.le_of_lt t.isLt) ∗ _) ⊢ wp _ _ _ (bodyAt3 t) fun _ =>
    iprop(PhiS3 V c (t.val + 1) t.isLt ∗ (dat3 V c).owesAt () t.castSucc ∗ _ ∗ _ ∗ _ ∗ (dat3 V c).leavesExact 3 t)
  simp only [(before3 V c t).1, (before3 V c t).2.1, (before3 V c t).2.2]
  unfold PhiS3 bodyAt3
  iintro ⟨⟨Hg, ⟨%xs, %hxs, HS⟩, Hr⟩, Ho, ⟨%d0, H0⟩, ⟨%d1, H1⟩, ⟨%d2, H2⟩, ⟨%d3, H3⟩⟩
  have hacc : k3_pay2 (iblk3 V c 0 t) (iblk3 V c 1 t) (if cond3_0 (grid3.coords t) then k3_pay1 else xs) = acc3 V c t.val t.isLt := by
    refine (congrArg _ ?_).trans (acc3.eq_1 V c t.val t.isLt).symm
    by_cases h0 : t.val % 4 = 0
    · rw [if_pos ((hcond3_0 t).mpr h0), dif_pos h0]
    · rw [if_neg (mt (hcond3_0 t).mp h0), dif_neg h0, hxs fun e => h0 (by rw [e])]
  iapply (kernel3 c Set.univ (grid3.coords t) _ _ _ _ _ _ _ _ _ _
    (fun h => by have h0 := (hcond3_0 t).mp h.1; have h1 := (hcond3_1 t).mp h.2; omega) (iblk3 V c 0 t) (iblk3 V c 1 t) (iblk3 V c 2 t) ((dat3 V c).before 3 t d3) xs _)
  rw [hacc]
  iframe H0 H1 H2 H3 HS
  iintro ⟨H0, H1, H2, H3, HS⟩
  iframe Hg Hr Ho
  isplitl [HS]
  · iexists _; isplitr; swap; · iexact HS
    ipureintro; exact fun _ => rfl
  isplitl [H0]; · iexact H0
  isplitl [H1]; · iexact H1
  isplitl [H2]; · iexact H2
  iapply (leaves3_3 V c t d3); iexact H3

theorem hin3 (c : Dev nD) : (iprop((∃ r, prngReg c r) ∗ Pipeline.scopedRest spec3 c) : sProp 𝕄) ⊢ (dat3 V c).Φ 0 := by
  rw [scopedRest3_split, show (dat3 V c).Φ 0 = PhiS3 V c 0 (Nat.zero_le _) from rfl]
  unfold PhiS3; simp only [owns_whole]
  iintro ⟨Hg, ⟨%d, HS⟩, Hr⟩
  iframe Hg Hr
  iexists d; isplitr; swap; · iexact HS
  ipureintro; exact fun h => absurd rfl h

theorem hout3 (c : Dev nD) : (dat3 V c).Φ (Fin.last cfg3.N) ⊢ (iprop((∃ r, prngReg c r) ∗ Pipeline.scopedRest spec3 c) : sProp 𝕄) := by
  rw [scopedRest3_split, show (dat3 V c).Φ (Fin.last cfg3.N) = PhiS3 V c _ (Nat.le_of_lt_succ (Fin.last cfg3.N).isLt) from rfl]
  unfold PhiS3; simp only [owns_whole]
  iintro ⟨Hg, ⟨%d, -, HS⟩, Hr⟩
  iframe Hg Hr
  iexists d; iexact HS

end Cert.KernelIdeal.Hand

end
-- ==== Proof.KI.Lstm4.lean ====
import proofs.«412769_j28716151341139_3_alg».proof.Proof.Gen.KernelIdeal.Launch
import proofs.«412769_j28716151341139_3_alg».proof.Proof.Gen.KernelIdeal.Skeleton
import proofs.«412769_j28716151341139_3_alg».proof.Proof.Gen.KernelIdeal.Points
import proofs.«412769_j28716151341139_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- window `w`'s block of its array at point `t`
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_x : Rect S64x2048 := Rect.unit (s := S64x2048) ![0, 0] S64x2048.size inb_S64x2048_S64x2048_0_0

abbrev r4_w : Rect S2048x2048 := Rect.unit (s := S2048x2048) ![0, 0] S2048x2048.size inb_S2048x2048_S2048x2048_0_0

abbrev r4_b : Rect S1x2048 := Rect.unit (s := S1x2048) ![0, 0] S1x2048.size inb_S1x2048_S1x2048_0_0

abbrev r4_o : Rect S64x512 := Rect.unit (s := S64x512) ![0, 0] S64x512.size inb_S64x512_S64x512_0_0

def out4_6 (xa xb : Vec F S64x2048 .f32) (xc xd : Vec F S2048x2048 .bf16) (xe : Vec F S1x2048 .f32) (xf : Vec F S64x512 .f32) : Vec F S64x512 .f32 :=
  View.canon [⟨r4_o, k4_pay3 (View.ld xa r4_x) (View.ld xb r4_x) (View.ld xc r4_w) (View.ld xd r4_w) (View.ld xe r4_b) (View.ld xf r4_o)⟩]

def out4_7 (xa xb : Vec F S64x2048 .f32) (xc xd : Vec F S2048x2048 .bf16) (xe : Vec F S1x2048 .f32) (xf : Vec F S64x512 .f32) : Vec F S64x512 .f32 :=
  View.canon [⟨r4_o, k4_pay2 (View.ld xa r4_x) (View.ld xb r4_x) (View.ld xc r4_w) (View.ld xd r4_w) (View.ld xe r4_b) (View.ld xf r4_o)⟩]

-- a single piece that is the whole shape covers every index
theorem cover4_o (p : Vec F S64x512 .f32) (y : S64x512.Idx) :
    ∃ pc ∈ ([⟨r4_o, p⟩] : List (View.Piece (Elt F) S64x512 .f32)), y ∈ pc.1.set :=
  View.cover_of_tiled [⟨r4_o, p⟩] S64x512.size (by rfl) y

-- the body's triple: the six inputs unchanged, the two outputs hold `out4_6` and `out4_7` of them
set_option maxHeartbeats 1000000 in
theorem sound_kernel4 (c : Dev nD) (E : Set ℕ) (i : grid4.Coords)
    (arga : Memref sig .tc .vmem S64x2048 .f32) (harga : arga.IsWhole) (argb : Memref sig .tc .vmem S64x2048 .f32) (hargb : argb.IsWhole)
    (argc : Memref sig .tc .vmem S2048x2048 .bf16) (hargc : argc.IsWhole) (argd : Memref sig .tc .vmem S2048x2048 .bf16) (hargd : argd.IsWhole)
    (arge : Memref sig .tc .vmem S1x2048 .f32) (harge : arge.IsWhole) (argf : Memref sig .tc .vmem S64x512 .f32) (hargf : argf.IsWhole)
    (argg : Memref sig .tc .vmem S64x512 .f32) (hargg : argg.IsWhole) (argh : Memref sig .tc .vmem S64x512 .f32) (hargh : argh.IsWhole)
    (xa xb : Vec F S64x2048 .f32) (xc xd : Vec F S2048x2048 .bf16) (xe : Vec F S1x2048 .f32) (xf : Vec F S64x512 .f32) (K : PUnit → sProp 𝕄) :
    iprop(owns c arga fullShare xa ∗ owns c argb fullShare xb ∗ owns c argc fullShare xc
        ∗ owns c argd fullShare xd ∗ owns c arge fullShare xe ∗ owns c argf fullShare xf
        ∗ (∃ d, owns c argg fullShare d) ∗ (∃ d, owns c argh fullShare d)
        ∗ (iprop(owns c arga fullShare xa ∗ owns c argb fullShare xb ∗ owns c argc fullShare xc
            ∗ owns c argd fullShare xd ∗ owns c arge fullShare xe ∗ owns c argf fullShare xf
            ∗ owns c argg fullShare (out4_6 xa xb xc xd xe xf) ∗ owns c argh fullShare (out4_7 xa xb xc xd xe xf)) -∗ K ⟨⟩))
      ⊢ wp frame (wpE (defs₀ (F := F)) Variants.none c none) E (cc4__lstm_kernel i arga harga argb hargb argc hargc argd hargd arge harge argf hargf argg hargg argh hargh) K := by
  simp only [cc4__lstm_kernel_eq_skeleton]; unfold cc4__lstm_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dg, %fg, -, Hg⟩, ⟨%dh, %fh, -, Hh⟩, Hk⟩
  subst hfa hfb hfc hfd hfe hff
  sl_exec
  sl_step
  iapply Hk
  isplitl [Ha]; · iexists _; isplitr; swap; iexact Ha; ipureintro; rfl
  isplitl [Hb]; · iexists _; isplitr; swap; iexact Hb; ipureintro; rfl
  isplitl [Hc]; · iexists _; isplitr; swap; iexact Hc; ipureintro; rfl
  isplitl [Hd]; · iexists _; isplitr; swap; iexact Hd; ipureintro; rfl
  isplitl [He]; · iexists _; isplitr; swap; iexact He; ipureintro; rfl
  isplitl [Hf]; · iexists _; isplitr; swap; iexact Hf; ipureintro; rfl
  isplitl [Hg]; · iexists _; isplitr; swap; iexact Hg; ipureintro; exact View.read_writes_eq_canon _ _ _ (cover4_o _)
  iexists _; isplitr; swap; iexact Hh; ipureintro; exact View.read_writes_eq_canon _ _ _ (cover4_o _)

def dat4 (V : (c : Dev nD) → (b : Ref sig .tc) → Buf (Elt F) ((c : Thread nD τ).loc b)) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
    | ⟨7, _⟩ => out4_7 (iblk4 V c 0 t) (iblk4 V c 1 t) (iblk4 V c 2 t) (iblk4 V c 3 t) (iblk4 V c 4 t) (iblk4 V c 5 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem q_eq4 (c : Dev nD) (w : Fin cfg4.W) : (dat4 V c).q w = fullShare := by
  dsimp only [dat4]

theorem owed_eq4 (c : Dev nD) (t : Fin (cfg4.N + 1)) : (dat4 V c).owed t = 0 := by
  dsimp only [dat4]

theorem recorded_eq4 (c : Dev nD) (t : Fin (cfg4.N + 1)) : (dat4 V c).recorded t = Set.univ := by
  dsimp only [dat4]

-- each input window holds its block of the array at every point
theorem before4 (c : Dev nD) (t : Fin cfg4.N) :
    (∀ d, (dat4 V c).before 0 t d = iblk4 V c 0 t) ∧ (∀ d, (dat4 V c).before 1 t d = iblk4 V c 1 t)
    ∧ (∀ d, (dat4 V c).before 2 t d = iblk4 V c 2 t) ∧ (∀ d, (dat4 V c).before 3 t d = iblk4 V c 3 t)
    ∧ (∀ d, (dat4 V c).before 4 t d = iblk4 V c 4 t) ∧ (∀ d, (dat4 V c).before 5 t d = iblk4 V c 5 t) := by
  refine ⟨?_, ?_, ?_, ?_, ?_, ?_⟩ <;>
    exact fun d => ((dat4 V c).before_in_eq_fetched _ rfl (fun _ => rfl) (fun _ _ _ => rfl) (fun _ => rfl) t d).trans rfl

def bodyPre4 (c : Dev nD) (t : Fin cfg4.N) : sProp 𝕄 :=
  iprop((dat4 V c).Φ t.castSucc ∗ (dat4 V c).owesAt () t.castSucc
    ∗ (∃ d, owns c (st4_0 t) fullShare ((dat4 V c).before 0 t d))
    ∗ (∃ d, owns c (st4_1 t) fullShare ((dat4 V c).before 1 t d))
    ∗ (∃ d, owns c (st4_2 t) fullShare ((dat4 V c).before 2 t d))
    ∗ (∃ d, owns c (st4_3 t) fullShare ((dat4 V c).before 3 t d))
    ∗ (∃ d, owns c (st4_4 t) fullShare ((dat4 V c).before 4 t d))
    ∗ (∃ d, owns c (st4_5 t) fullShare ((dat4 V c).before 5 t d))
    ∗ (∃ d, owns c (st4_6 t) fullShare ((dat4 V c).before 6 t d))
    ∗ (∃ d, owns c (st4_7 t) fullShare ((dat4 V c).before 7 t d)))

def bodyPost4 (c : Dev nD) (t : Fin cfg4.N) : sProp 𝕄 :=
  iprop((dat4 V c).Φ t.succ ∗ (dat4 V c).owesAt () t.succ
    ∗ owns c (st4_0 t) fullShare ((dat4 V c).after 0 t)
    ∗ owns c (st4_1 t) fullShare ((dat4 V c).after 1 t)
    ∗ owns c (st4_2 t) fullShare ((dat4 V c).after 2 t)
    ∗ owns c (st4_3 t) fullShare ((dat4 V c).after 3 t)
    ∗ owns c (st4_4 t) fullShare ((dat4 V c).after 4 t)
    ∗ owns c (st4_5 t) fullShare ((dat4 V c).after 5 t)
    ∗ owns c (st4_6 t) fullShare ((dat4 V c).after 6 t)
    ∗ owns c (st4_7 t) fullShare ((dat4 V c).after 7 t))

-- the body at a point: its triple at the input blocks; invariant and debt pass through
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  rw [show (dat4 V c).owesAt () t.succ = (dat4 V c).owesAt () t.castSucc from rfl]
  simp only [before4 V c t]
  dsimp only [dat4]
  iintro ⟨HΦ, Ho, ⟨%da, Ha⟩, ⟨%db, Hb⟩, ⟨%dc, Hc⟩, ⟨%dd, Hd⟩, ⟨%de, He⟩, ⟨%df, Hf⟩, Hg, Hh⟩
  iapply (sound_kernel4 c Set.univ _ _ _ _ _ _ _ _ _ _ _ _ _ _ _ _ _
    (iblk4 V c 0 t) (iblk4 V c 1 t) (iblk4 V c 2 t) (iblk4 V c 3 t) (iblk4 V c 4 t) (iblk4 V c 5 t) _)
  iframe Ha Hb Hc Hd He Hf
  isplitl [Hg]; · icases Hg with ⟨%d, Hg⟩; iexists _; iexact Hg
  isplitl [Hh]; · icases Hh with ⟨%d, Hh⟩; iexists _; iexact Hh
  iintro ⟨Ha, Hb, Hc, Hd, He, Hf, Hg, Hh⟩
  iframe

theorem body_obligation4 (c : Dev nD) : BodyObligation (dat4 (F := F) V c) (defs₀ (F := F)) Variants.none () Set.univ := fun t => by
  rw [bigSep_W4, bigSep_W4]
  exact sound_body4 V c t

-- the invariant at the region's ends is the two given resources in the other order
theorem hin4 (c : Dev nD) : (iprop((∃ r, prngReg c r) ∗ Pipeline.scopedRest spec4 c) : sProp 𝕄) ⊢ (dat4 V c).Φ 0 :=
  sep_comm.1

theorem hout4 (c : Dev nD) : (dat4 V c).Φ (Fin.last cfg4.N) ⊢ (iprop((∃ r, prngReg c r) ∗ Pipeline.scopedRest spec4 c) : sProp 𝕄) :=
  sep_comm.1

end Cert.KernelIdeal.Hand

end
-- ==== Proof.KI.Gate5.lean ====
import proofs.«412769_j28716151341139_3_alg».proof.Proof.Gen.KernelIdeal.Launch
import proofs.«412769_j28716151341139_3_alg».proof.Proof.Gen.KernelIdeal.Skeleton
import proofs.«412769_j28716151341139_3_alg».proof.Proof.Gen.KernelIdeal.Points
import proofs.«412769_j28716151341139_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond5_0 (i : grid5.Coords) : Prop := (Scalar.cmpi .ne (Scalar.extui (Scalar.cmpi .eq (BitVec.ofNat 32 (i 2).val) 0#32)) 0#32) = 1#1
abbrev cond5_1 (i : grid5.Coords) : Prop := k5_cond2 i = 1#1

theorem zeros5 : (![0, 0] : Fin 2 → ℕ) = fun _ => 0 := by funext a; fin_cases a <;> rfl

-- The newest write covers the whole shape, so reading back gives its payload.
theorem read_writes_cons_unit_zero5 {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

-- One call of the body: the accumulator restarts from zero at a first contraction step, and the gate is stored at a last one.
set_option maxHeartbeats 1000000 in
theorem kernel5 (c : Dev nD) (E : Set ℕ) (i : grid5.Coords) (hx : cond5_0 i → ¬cond5_1 i)
    (arg3 : Memref sig .tc .vmem S256x512 .f32) (harg3 : arg3.IsWhole) (arg4 : Memref sig .tc .vmem S256x512 .bf16) (harg4 : arg4.IsWhole)
    (arg5 : Memref sig .tc .vmem S1x256 .f32) (harg5 : arg5.IsWhole) (arg6 : Memref sig .tc .vmem S256x256 .f32) (harg6 : arg6.IsWhole)
    (arg7 : Memref sig .tc .vmem S256x256 .f32) (harg7 : arg7.IsWhole) (arg8 : Memref sig .tc .vmem S256x256 .f32) (harg8 : arg8.IsWhole)
    (x0 : Vec F S256x512 .f32) (x1 : Vec F S256x512 .bf16) (x2 : Vec F S1x256 .f32) (x3 x4 xs : Vec F S256x256 .f32)
    (K : PUnit → sProp 𝕄) :
    iprop(owns c arg3 fullShare x0 ∗ owns c arg4 fullShare x1 ∗ owns c arg5 fullShare x2
        ∗ owns c arg6 fullShare x3 ∗ owns c arg7 fullShare x4 ∗ owns c arg8 fullShare xs
        ∗ (owns c arg3 fullShare x0 -∗ owns c arg4 fullShare x1 -∗ owns c arg5 fullShare x2 -∗ owns c arg6 fullShare x3
        -∗ owns c arg7 fullShare (if cond5_1 i then k5_pay3 (k5_pay2 x0 x1 (if cond5_0 i then k5_pay1 else xs)) x2 x3 else x4)
        -∗ owns c arg8 fullShare (k5_pay2 x0 x1 (if cond5_0 i then k5_pay1 else xs)) -∗ K ⟨⟩))
      ⊢ wp frame (wpE (defs₀ (F := F)) Variants.none c none) E (cc5__gate_kernel i arg3 harg3 arg4 harg4 arg5 harg5 arg6 harg6 arg7 harg7 arg8 harg8) K := by
  by_cases hc0 : cond5_0 i <;> by_cases hc1 : cond5_1 i
  · exact absurd hc1 (hx hc0)
  all_goals
    first | rw [if_pos hc0] | rw [if_neg hc0]
    first | rw [if_pos hc1] | rw [if_neg hc1]
    simp only [cc5__gate_kernel_eq_skeleton]; unfold cc5__gate_kernel_skel owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    subst hf0 hf1 hf2 hf3 hf4 hfs
    sl_exec (disch := first | exact hc0 | exact hc1)
    sl_step
    iapply Hk $$ [H0] [H1] [H2] [H3] [H4] [HS]
    all_goals
      iexists _; isplitr; swap; · iassumption
      ipureintro
      first
        | (sl_unfold_run_names; rw [read_writes_cons_unit_zero5 _ _ zeros5]; try rw [View.readCov_unit_zero _ zeros5]
           repeat rw [View.readAt_eq_ld]
           repeat rw [View.ld_unit_zero zeros5])
        | rfl

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem hcond5_0 : ∀ t : Fin cfg5.N, cond5_0 (grid5.coords t) ↔ t.val % 4 = 0 :=
  (by decide +kernel : ∀ t : Fin grid5.N, cond5_0 (grid5.coords t) ↔ t.val % 4 = 0)
theorem hcond5_1 : ∀ t : Fin cfg5.N, cond5_1 (grid5.coords t) ↔ t.val % 4 = 3 :=
  (by decide +kernel : ∀ t : Fin grid5.N, cond5_1 (grid5.coords t) ↔ t.val % 4 = 3)

theorem idleAt5_4 : ∀ t : Fin cfg5.N, ¬cond5_1 (grid5.coords t) → cfg5.idle 4 (grid5.coords t) = true := by decide +kernel
theorem noFlush5_4 : ∀ t : Fin cfg5.N, ¬cond5_1 (grid5.coords t) → (cfg5.win 4).flush t = false := by decide +kernel
theorem liveAt5_4 : ∀ t : Fin cfg5.N, cond5_1 (grid5.coords t) → cfg5.idle 4 (grid5.coords t) = false := by decide +kernel

-- The accumulator after the body at position n: the block product added to zero at a first contraction step, else to what the point before left.
def acc5 (c : Dev nD) : (n : ℕ) → n < cfg5.N → Vec F S256x256 .f32
  | 0, hn => k5_pay2 (iblk5 V c 0 ⟨0, hn⟩) (iblk5 V c 1 ⟨0, hn⟩) (k5_pay1 (F := F))
  | n + 1, hn => k5_pay2 (iblk5 V c 0 ⟨n + 1, hn⟩) (iblk5 V c 1 ⟨n + 1, hn⟩)
      (if (n + 1) % 4 = 0 then k5_pay1 (F := F) else acc5 c n (Nat.lt_of_succ_lt hn))

theorem acc5_def (c : Dev nD) (t : Fin cfg5.N) :
    acc5 V c t.val t.isLt = k5_pay2 (iblk5 V c 0 t) (iblk5 V c 1 t)
      (if t.val % 4 = 0 then k5_pay1 (F := F) else acc5 V c (t.val - 1) (Nat.lt_of_le_of_lt (Nat.sub_le _ _) t.isLt)) := by
  obtain ⟨_ | n, hn⟩ := t <;> rfl

-- One body call maps what the point before left (anything, at a first contraction step) to the accumulator after this point.
theorem acc5_eq (c : Dev nD) (t : Fin cfg5.N) (xs : Vec F S256x256 .f32) (h : ∀ m (hm : m < cfg5.N), t.val = m + 1 → xs = acc5 V c m hm) :
    k5_pay2 (iblk5 V c 0 t) (iblk5 V c 1 t) (if cond5_0 (grid5.coords t) then k5_pay1 else xs) = acc5 V c t.val t.isLt := by
  rw [acc5_def V c t]
  by_cases h0 : t.val % 4 = 0
  · rw [if_pos h0, if_pos ((hcond5_0 t).mpr h0)]
  · rw [if_neg h0, if_neg (mt (hcond5_0 t).mp h0), h (t.val - 1) (Nat.lt_of_le_of_lt (Nat.sub_le _ _) t.isLt) (by omega)]

def out5 (c : Dev nD) (t : Fin cfg5.N) : Vec F S256x256 .f32 :=
  k5_pay3 (acc5 V c t.val t.isLt) (iblk5 V c 2 t) (iblk5 V c 3 t)

abbrev scM5 : Memref sig .tc .vmem S256x256 .f32 := Memref.whole cc5_scratch0

-- Between points the accumulator holds what the point before left (anything, before the first point).
def Phi5 (c : Dev nD) (n : ℕ) : sProp 𝕄 :=
  iprop(∃ xs, ⌜∀ m (hm : m < cfg5.N), n = m + 1 → xs = acc5 V c m hm⌝ ∗ owns c scM5 fullShare xs
    ∗ (∃ r, prngReg c r) ∗ Pipeline.scopedRestBut spec5 c [cc5_scratch0])

theorem scopedRest5_eq (c : Dev nD) :
    (Pipeline.scopedRest spec5 c : sProp 𝕄)
      = iprop(iprop(∃ d, owns c scM5 fullShare d) ∗ Pipeline.scopedRestBut spec5 c [cc5_scratch0]) := by
  rw [scopedRest5_split]; simp only [scM5, owns_whole]; try rfl

def dat5 (V : (c : Dev nD) → (b : Ref sig .tc) → Buf (Elt F) ((c : Thread nD τ).loc b)) (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5 V c t
  Φ t := Phi5 V c t.val
  q _ := fullShare
  owed _ := 0

theorem A_eq5 (c : Dev nD) (w : Fin cfg5.W) : (dat5 V c).A w = V c (Pipeline.arrRef spec5 w) := by
  dsimp only [dat5]
theorem q_eq5 (c : Dev nD) (w : Fin cfg5.W) : (dat5 V c).q w = fullShare := by
  dsimp only [dat5]
theorem owed_eq5 (c : Dev nD) (t : Fin (cfg5.N + 1)) : (dat5 V c).owed t = 0 := by
  dsimp only [dat5]
theorem recorded_eq5 (c : Dev nD) (t : Fin (cfg5.N + 1)) : (dat5 V c).recorded t = Set.univ := by
  dsimp only [dat5]

theorem after5_4 (c : Dev nD) (t : Fin cfg5.N) : (dat5 V c).after 4 t = out5 V c t := by dsimp only [dat5]

theorem before5 (c : Dev nD) (t : Fin cfg5.N) :
    (∀ d, (dat5 V c).before 0 t d = iblk5 V c 0 t) ∧ (∀ d, (dat5 V c).before 1 t d = iblk5 V c 1 t)
      ∧ (∀ d, (dat5 V c).before 2 t d = iblk5 V c 2 t) ∧ (∀ d, (dat5 V c).before 3 t d = iblk5 V c 3 t) := by
  refine ⟨?_, ?_, ?_, ?_⟩ <;>
    exact fun d => ((dat5 V c).before_in_eq_fetched _ rfl (fun _ => rfl) (fun _ _ _ => rfl) (fun _ => rfl) t d).trans rfl

theorem leaves5 (c : Dev nD) (t : Fin cfg5.N) :
    (dat5 V c).leavesExact 0 t = owns c (st5_0 t) fullShare (iblk5 V c 0 t)
      ∧ (dat5 V c).leavesExact 1 t = owns c (st5_1 t) fullShare (iblk5 V c 1 t)
      ∧ (dat5 V c).leavesExact 2 t = owns c (st5_2 t) fullShare (iblk5 V c 2 t)
      ∧ (dat5 V c).leavesExact 3 t = owns c (st5_3 t) fullShare (iblk5 V c 3 t) :=
  ⟨rfl, rfl, rfl, rfl⟩

def bodyPre5 (c : Dev nD) (t : Fin cfg5.N) : sProp 𝕄 :=
  iprop((dat5 V c).Φ t.castSucc ∗ (dat5 V c).owesAt () t.castSucc
    ∗ (∃ d, owns c (st5_0 t) fullShare ((dat5 V c).before 0 t d))
    ∗ (∃ d, owns c (st5_1 t) fullShare ((dat5 V c).before 1 t d))
    ∗ (∃ d, owns c (st5_2 t) fullShare ((dat5 V c).before 2 t d))
    ∗ (∃ d, owns c (st5_3 t) fullShare ((dat5 V c).before 3 t d))
    ∗ (∃ d, owns c (st5_4 t) fullShare ((dat5 V c).before 4 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

-- At any point the body is one call of kernel5 on that point's blocks.
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  obtain ⟨ba, bb, bc, bd⟩ := before5 V c t
  obtain ⟨la, lb, lc, ld⟩ := leaves5 V c t
  rw [la, lb, lc, ld]; simp only [ba, bb, bc, bd]
  rw [show (dat5 V c).owesAt () t.succ = (dat5 V c).owesAt () t.castSucc from rfl,
    show (dat5 V c).Φ t.succ = Phi5 V c (t.val + 1) from rfl,
    show (dat5 V c).Φ t.castSucc = Phi5 V c t.val from rfl]
  unfold Phi5
  have h0 := hcond5_0 t
  have h1 := hcond5_1 t
  iintro ⟨⟨%xs, %hxs, HS, Hg, Hr⟩, Ho, ⟨%d0, H0⟩, ⟨%d1, H1⟩, ⟨%d2, H2⟩, ⟨%d3, H3⟩, ⟨%d4, H4⟩⟩
  iapply (kernel5 c Set.univ (grid5.coords t) (fun a b => absurd ((h0.mp a).symm.trans (h1.mp b)) (by decide)) _ _ _ _ _ _ _ _ _ _ scM5 (Memref.isWhole_whole _)
    (iblk5 V c 0 t) (iblk5 V c 1 t) (iblk5 V c 2 t) (iblk5 V c 3 t) ((dat5 V c).before 4 t d4) xs _)
  iframe H0 H1 H2 H3 H4 HS
  iintro H0 H1 H2 H3 H4 HS
  rw [acc5_eq V c t xs hxs]
  isplitl [HS Hg Hr]
  · iexists _; iframe HS Hg Hr
    ipureintro; intro m hm e; cases Nat.succ.inj e; rfl
  iframe Ho H0 H1 H2 H3
  by_cases h3 : cond5_1 (grid5.coords t)
  · rw [if_pos h3]; unfold Dat.leavesExact; rw [liveAt5_4 t h3, after5_4]; iexact H4
  · rw [if_neg h3, Dat.leavesExact_idle (dat5 V c) 4 t (idleAt5_4 t h3) (noFlush5_4 t h3)]; iexists _; iexact H4

theorem body_obligation5 (c : Dev nD) : BodyObligation (dat5 (F := F) V c) (defs₀ (F := F)) Variants.none () Set.univ := fun t => by
  rw [bigSep_W5, bigSep_W5]
  exact sound_body5 V c t

theorem hin5 (c : Dev nD) : (iprop((∃ r, prngReg c r) ∗ Pipeline.scopedRest spec5 c) : sProp 𝕄) ⊢ (dat5 V c).Φ 0 := by
  rw [show (dat5 V c).Φ 0 = Phi5 V c 0 from rfl, scopedRest5_eq]; unfold Phi5
  iintro ⟨Hg, ⟨%d, HS⟩, Hr⟩
  iexists d; iframe HS Hg Hr
  ipureintro; exact fun _ _ e => nomatch e

-- After the last point the accumulator's contents are forgotten.
theorem hout5 (c : Dev nD) : (dat5 V c).Φ (Fin.last cfg5.N) ⊢ (iprop((∃ r, prngReg c r) ∗ Pipeline.scopedRest spec5 c) : sProp 𝕄) := by
  rw [show (dat5 V c).Φ (Fin.last cfg5.N) = Phi5 V c cfg5.N from rfl, scopedRest5_eq]; unfold Phi5
  iintro ⟨%xs, -, HS, Hg, Hr⟩
  isplitl [Hg]; · iexact Hg
  isplitl [HS]; · iexists _; iexact HS
  iexact Hr

end Cert.KernelIdeal.Hand

end
-- ==== Proof.KI.Bsum6.lean ====
import proofs.«412769_j28716151341139_3_alg».proof.Proof.Gen.KernelIdeal.Launch
import proofs.«412769_j28716151341139_3_alg».proof.Proof.Gen.KernelIdeal.Skeleton
import proofs.«412769_j28716151341139_3_alg».proof.Proof.Gen.KernelIdeal.Points
import proofs.«412769_j28716151341139_3_alg».proof.Proof.Gen.KernelIdeal.Regions
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev cond6_0 (i : grid6.Coords) : Prop := (Scalar.cmpi .ne (Scalar.extui (Scalar.cmpi .eq (BitVec.ofNat 32 (i 2).val) 0#32)) 0#32) = 1#1
theorem hcond6_0 : ∀ t : Fin cfg6.N, cond6_0 (grid6.coords t) ↔ t.val % 4 = 0 :=
  (by decide +kernel : ∀ t : Fin grid6.N, cond6_0 (grid6.coords t) ↔ t.val % 4 = 0)
abbrev cond6_1 (i : grid6.Coords) : Prop := k6_cond2 i = 1#1
theorem hcond6_1 : ∀ t : Fin cfg6.N, cond6_1 (grid6.coords t) ↔ t.val % 4 = 3 :=
  (by decide +kernel : ∀ t : Fin grid6.N, cond6_1 (grid6.coords t) ↔ t.val % 4 = 3)

theorem idleAt6_3 : ∀ t : Fin cfg6.N, ¬t.val % 4 = 3 → cfg6.idle 3 (grid6.coords t) = true := by decide +kernel
theorem noFlush6_3 : ∀ t : Fin cfg6.N, ¬t.val % 4 = 3 → (cfg6.win 3).flush t = false := by decide +kernel
theorem liveAt6_3 : ∀ t : Fin cfg6.N, t.val % 4 = 3 → cfg6.idle 3 (grid6.coords t) = false := by decide +kernel

abbrev scM6_0 : Memref sig .tc .vmem S256x512 .f32 := Memref.whole cc6_scratch0

theorem zero6 : (![0, 0] : Fin 2 → ℕ) = fun _ => 0 := by funext a; fin_cases a <;> rfl

set_option maxHeartbeats 750000 in
-- The body at a point: the accumulator, reset to zero where the first condition holds, gains the block product; where the second holds the output is the sum plus the third block.
theorem kernel6 (c : Dev nD) (E : Set ℕ) (i : grid6.Coords)
    (arg3 : Memref sig .tc .vmem S512x256 .f32) (harg3 : arg3.IsWhole) (arg4 : Memref sig .tc .vmem S512x512 .f32) (harg4 : arg4.IsWhole)
    (arg5 : Memref sig .tc .vmem S256x512 .f32) (harg5 : arg5.IsWhole) (arg6 : Memref sig .tc .vmem S256x512 .f32) (harg6 : arg6.IsWhole)
    (arg7 : Memref sig .tc .vmem S256x512 .f32) (harg7 : arg7.IsWhole) (hne : ¬(cond6_0 i ∧ cond6_1 i))
    (x0 : Vec F S512x256 .f32) (x1 : Vec F S512x512 .f32) (x2 d xs : Vec F S256x512 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (if cond6_1 i then k6_pay3 (k6_pay2 x0 x1 (if cond6_0 i then k6_pay1 else xs)) x2 else d)
            ∗ owns (c : Thread nD τ) arg7 fullShare (k6_pay2 x0 x1 (if cond6_0 i then k6_pay1 else xs))) -∗ K ⟨⟩))
      ⊢ wp frame (wpE (defs₀ (F := F)) Variants.none c none) E (cc6__atb_kernel i arg3 harg3 arg4 harg4 arg5 harg5 arg6 harg6 arg7 harg7) K := by
  by_cases hc0 : cond6_0 i <;> by_cases hc1 : cond6_1 i
  · exact absurd ⟨hc0, hc1⟩ hne
  all_goals
    ((first | rw [if_pos hc0] | rw [if_neg hc0])
     (first | rw [if_pos hc1] | rw [if_neg hc1])
     simp only [cc6__atb_kernel_eq_skeleton]; unfold cc6__atb_kernel_skel owns
     iintro ⟨⟨%f0, %hf0, H0⟩, ⟨%f1, %hf1, H1⟩, ⟨%f2, %hf2, H2⟩, ⟨%f3, %hf3, H3⟩, ⟨%fs, %hfs, HS⟩, Hk⟩
     subst hf0 hf1 hf2 hf3 hfs
     sl_exec (disch := first | exact hc0 | exact hc1)
     sl_step
     iapply Hk
     isplitl [H0]; swap; isplitl [H1]; swap; isplitl [H2]; swap; isplitl [H3]
     all_goals
       iexists _; isplitr; swap; · iassumption
       ipureintro
       first
       | with_reducible rfl
       | sl_unfold_run_names
         rw [View.read_writes_eq_canon _ _ _ (fun y => ⟨_, List.mem_cons_self, View.mem_set_unit_zero zero6 inb_S256x512_S256x512_0_0 y⟩),
           View.canon_cons_unit_zero zero6]
         try rw [View.readCov_unit_zero _ zero6]
         simp only [View.readAt_eq_ld, View.ld_unit_zero (S := S512x256) zero6, View.ld_unit_zero (S := S512x512) zero6, View.ld_unit_zero (S := S256x512) zero6])

-- What the accumulator holds after point n: the point's block product added to zero at the first point of a reduction, to what the point before left at the others.
def acc6 (c : Dev nD) (n : ℕ) (hn : n < cfg6.N) : Vec F S256x512 .f32 :=
  k6_pay2 (iblk6 V c 0 ⟨n, hn⟩) (iblk6 V c 1 ⟨n, hn⟩) (if h : n % 4 = 0 then k6_pay1 else acc6 c (n - 1) (by omega))
termination_by n
decreasing_by omega

theorem acc6_A (c : Dev nD) (t : Fin cfg6.N) (h0 : t.val % 4 = 0) :
    acc6 V c t.val t.isLt = k6_pay2 (iblk6 V c 0 t) (iblk6 V c 1 t) k6_pay1 :=
  (acc6.eq_1 V c t.val t.isLt).trans (by rw [dif_pos h0])

theorem acc6_B (c : Dev nD) (t : Fin cfg6.N) (h0 : ¬t.val % 4 = 0) :
    acc6 V c t.val t.isLt = k6_pay2 (iblk6 V c 0 t) (iblk6 V c 1 t) (acc6 V c (t.val - 1) (Nat.lt_of_le_of_lt (Nat.sub_le _ _) t.isLt)) :=
  (acc6.eq_1 V c t.val t.isLt).trans (by rw [dif_neg h0])

-- Before point n the accumulator holds what point n - 1 left (anything when n = 0).
def PhiS6 (c : Dev nD) (n : ℕ) (hn : n ≤ cfg6.N) : sProp 𝕄 :=
  iprop((∃ r, prngReg c r) ∗ (∃ xs, ⌜∀ h : n ≠ 0, xs = acc6 V c (n - 1) (by omega)⌝ ∗ owns (c : Thread nD τ) scM6_0 fullShare xs)
    ∗ Pipeline.scopedRestBut spec6 c [cc6_scratch0])

def dat6 (V : (c : Dev nD) → (b : Ref sig .tc) → Buf (Elt F) ((c : Thread nD τ).loc b)) (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => k6_pay3 (acc6 V c t.val t.isLt) (iblk6 V c 2 t)
  Φ t := PhiS6 V c t.val (Nat.le_of_lt_succ t.isLt)
  q _ := fullShare
  owed _ := 0

theorem A_eq6 (c : Dev nD) (w : Fin cfg6.W) : (dat6 V c).A w = V c (Pipeline.arrRef spec6 w) := rfl
theorem q_eq6 (c : Dev nD) (w : Fin cfg6.W) : (dat6 V c).q w = fullShare := rfl
theorem owed_eq6 (c : Dev nD) (t : Fin (cfg6.N + 1)) : (dat6 V c).owed t = 0 := rfl
theorem recorded_eq6 (c : Dev nD) (t : Fin (cfg6.N + 1)) : (dat6 V c).recorded t = Set.univ := rfl

-- The inputs the body sees at a point are the blocks of the arrays as the region found them.
theorem before6 (c : Dev nD) (t : Fin cfg6.N) : (∀ d, (dat6 V c).before 0 t d = iblk6 V c 0 t)
    ∧ (∀ d, (dat6 V c).before 1 t d = iblk6 V c 1 t) ∧ (∀ d, (dat6 V c).before 2 t d = iblk6 V c 2 t) := by
  refine ⟨?_, ?_, ?_⟩ <;> exact fun d =>
    ((dat6 V c).before_in_eq_fetched _ rfl (fun _ => rfl) (fun _ _ _ => rfl) (fun _ => rfl) t d).trans rfl

-- The output block is the sum plus the third block at the last point of a reduction and unchanged elsewhere.
theorem leaves6_3 (c : Dev nD) (t : Fin cfg6.N) (d) :
    owns (c : Thread nD τ) (st6_3 t) fullShare (if cond6_1 (grid6.coords t) then k6_pay3 (acc6 V c t.val t.isLt) (iblk6 V c 2 t) else (dat6 V c).before 3 t d)
      ⊢ (dat6 V c).leavesExact 3 t := by
  by_cases h3 : t.val % 4 = 3
  · rw [if_pos ((hcond6_1 t).mpr h3)]; unfold Dat.leavesExact; rw [liveAt6_3 t h3]; exact .rfl
  · rw [if_neg (mt (hcond6_1 t).mp h3), Dat.leavesExact_idle (dat6 V c) 3 t (idleAt6_3 t h3) (noFlush6_3 t h3)]
    iintro H; iexists d; iexact H

theorem body_obligation6 (c : Dev nD) : BodyObligation (dat6 (F := F) V c) (defs₀ (F := F)) Variants.none () Set.univ := fun t => by
  rw [bigSep_W6, bigSep_W6]
  change iprop(PhiS6 V c t.val (Nat.le_of_lt t.isLt) ∗ _) ⊢ wp _ _ _ (bodyAt6 t) fun _ =>
    iprop(PhiS6 V c (t.val + 1) t.isLt ∗ (dat6 V c).owesAt () t.castSucc ∗ _ ∗ _ ∗ _ ∗ (dat6 V c).leavesExact 3 t)
  simp only [(before6 V c t).1, (before6 V c t).2.1, (before6 V c t).2.2]
  unfold PhiS6 bodyAt6
  iintro ⟨⟨Hg, ⟨%xs, %hxs, HS⟩, Hr⟩, Ho, ⟨%d0, H0⟩, ⟨%d1, H1⟩, ⟨%d2, H2⟩, ⟨%d3, H3⟩⟩
  have hacc : k6_pay2 (iblk6 V c 0 t) (iblk6 V c 1 t) (if cond6_0 (grid6.coords t) then k6_pay1 else xs) = acc6 V c t.val t.isLt := by
    refine (congrArg _ ?_).trans (acc6.eq_1 V c t.val t.isLt).symm
    by_cases h0 : t.val % 4 = 0
    · rw [if_pos ((hcond6_0 t).mpr h0), dif_pos h0]
    · rw [if_neg (mt (hcond6_0 t).mp h0), dif_neg h0, hxs fun e => h0 (by rw [e])]
  iapply (kernel6 c Set.univ (grid6.coords t) _ _ _ _ _ _ _ _ _ _
    (fun h => by have h0 := (hcond6_0 t).mp h.1; have h1 := (hcond6_1 t).mp h.2; omega) (iblk6 V c 0 t) (iblk6 V c 1 t) (iblk6 V c 2 t) ((dat6 V c).before 3 t d3) xs _)
  rw [hacc]
  iframe H0 H1 H2 H3 HS
  iintro ⟨H0, H1, H2, H3, HS⟩
  iframe Hg Hr Ho
  isplitl [HS]
  · iexists _; isplitr; swap; · iexact HS
    ipureintro; exact fun _ => rfl
  isplitl [H0]; · iexact H0
  isplitl [H1]; · iexact H1
  isplitl [H2]; · iexact H2
  iapply (leaves6_3 V c t d3); iexact H3

theorem hin6 (c : Dev nD) : (iprop((∃ r, prngReg c r) ∗ Pipeline.scopedRest spec6 c) : sProp 𝕄) ⊢ (dat6 V c).Φ 0 := by
  rw [scopedRest6_split, show (dat6 V c).Φ 0 = PhiS6 V c 0 (Nat.zero_le _) from rfl]
  unfold PhiS6; simp only [owns_whole]
  iintro ⟨Hg, ⟨%d, HS⟩, Hr⟩
  iframe Hg Hr
  iexists d; isplitr; swap; · iexact HS
  ipureintro; exact fun h => absurd rfl h

theorem hout6 (c : Dev nD) : (dat6 V c).Φ (Fin.last cfg6.N) ⊢ (iprop((∃ r, prngReg c r) ∗ Pipeline.scopedRest spec6 c) : sProp 𝕄) := by
  rw [scopedRest6_split, show (dat6 V c).Φ (Fin.last cfg6.N) = PhiS6 V c _ (Nat.le_of_lt_succ (Fin.last cfg6.N).isLt) from rfl]
  unfold PhiS6; simp only [owns_whole]
  iintro ⟨Hg, ⟨%d, -, HS⟩, Hr⟩
  iframe Hg Hr
  iexists d; iexact HS

end Cert.KernelIdeal.Hand

end
-- ==== Proof.KI.Lstm7.lean ====
import proofs.«412769_j28716151341139_3_alg».proof.Proof.Gen.KernelIdeal.Launch
import proofs.«412769_j28716151341139_3_alg».proof.Proof.Gen.KernelIdeal.Skeleton
import proofs.«412769_j28716151341139_3_alg».proof.Proof.Gen.KernelIdeal.Points
import proofs.«412769_j28716151341139_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

-- window `w`'s block of its array at point `t`
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_x : Rect S64x2048 := Rect.unit (s := S64x2048) ![0, 0] S64x2048.size inb_S64x2048_S64x2048_0_0

abbrev r7_w : Rect S2048x2048 := Rect.unit (s := S2048x2048) ![0, 0] S2048x2048.size inb_S2048x2048_S2048x2048_0_0

abbrev r7_b : Rect S1x2048 := Rect.unit (s := S1x2048) ![0, 0] S1x2048.size inb_S1x2048_S1x2048_0_0

abbrev r7_o : Rect S64x512 := Rect.unit (s := S64x512) ![0, 0] S64x512.size inb_S64x512_S64x512_0_0

def out7_6 (xa xb : Vec F S64x2048 .f32) (xc xd : Vec F S2048x2048 .bf16) (xe : Vec F S1x2048 .f32) (xf : Vec F S64x512 .f32) : Vec F S64x512 .f32 :=
  View.canon [⟨r7_o, k7_pay3 (View.ld xa r7_x) (View.ld xb r7_x) (View.ld xc r7_w) (View.ld xd r7_w) (View.ld xe r7_b) (View.ld xf r7_o)⟩]

def out7_7 (xa xb : Vec F S64x2048 .f32) (xc xd : Vec F S2048x2048 .bf16) (xe : Vec F S1x2048 .f32) (xf : Vec F S64x512 .f32) : Vec F S64x512 .f32 :=
  View.canon [⟨r7_o, k7_pay2 (View.ld xa r7_x) (View.ld xb r7_x) (View.ld xc r7_w) (View.ld xd r7_w) (View.ld xe r7_b) (View.ld xf r7_o)⟩]

-- a single piece that is the whole shape covers every index
theorem cover7_o (p : Vec F S64x512 .f32) (y : S64x512.Idx) :
    ∃ pc ∈ ([⟨r7_o, p⟩] : List (View.Piece (Elt F) S64x512 .f32)), y ∈ pc.1.set :=
  View.cover_of_tiled [⟨r7_o, p⟩] S64x512.size (by rfl) y

-- the body's triple: the six inputs unchanged, the two outputs hold `out7_6` and `out7_7` of them
set_option maxHeartbeats 1000000 in
theorem sound_kernel7 (c : Dev nD) (E : Set ℕ) (i : grid7.Coords)
    (arga : Memref sig .tc .vmem S64x2048 .f32) (harga : arga.IsWhole) (argb : Memref sig .tc .vmem S64x2048 .f32) (hargb : argb.IsWhole)
    (argc : Memref sig .tc .vmem S2048x2048 .bf16) (hargc : argc.IsWhole) (argd : Memref sig .tc .vmem S2048x2048 .bf16) (hargd : argd.IsWhole)
    (arge : Memref sig .tc .vmem S1x2048 .f32) (harge : arge.IsWhole) (argf : Memref sig .tc .vmem S64x512 .f32) (hargf : argf.IsWhole)
    (argg : Memref sig .tc .vmem S64x512 .f32) (hargg : argg.IsWhole) (argh : Memref sig .tc .vmem S64x512 .f32) (hargh : argh.IsWhole)
    (xa xb : Vec F S64x2048 .f32) (xc xd : Vec F S2048x2048 .bf16) (xe : Vec F S1x2048 .f32) (xf : Vec F S64x512 .f32) (K : PUnit → sProp 𝕄) :
    iprop(owns c arga fullShare xa ∗ owns c argb fullShare xb ∗ owns c argc fullShare xc
        ∗ owns c argd fullShare xd ∗ owns c arge fullShare xe ∗ owns c argf fullShare xf
        ∗ (∃ d, owns c argg fullShare d) ∗ (∃ d, owns c argh fullShare d)
        ∗ (iprop(owns c arga fullShare xa ∗ owns c argb fullShare xb ∗ owns c argc fullShare xc
            ∗ owns c argd fullShare xd ∗ owns c arge fullShare xe ∗ owns c argf fullShare xf
            ∗ owns c argg fullShare (out7_6 xa xb xc xd xe xf) ∗ owns c argh fullShare (out7_7 xa xb xc xd xe xf)) -∗ K ⟨⟩))
      ⊢ wp frame (wpE (defs₀ (F := F)) Variants.none c none) E (cc7__lstm_kernel i arga harga argb hargb argc hargc argd hargd arge harge argf hargf argg hargg argh hargh) K := by
  simp only [cc7__lstm_kernel_eq_skeleton]; unfold cc7__lstm_kernel_skel
  unfold owns
  iintro ⟨⟨%fa, %hfa, Ha⟩, ⟨%fb, %hfb, Hb⟩, ⟨%fc, %hfc, Hc⟩, ⟨%fd, %hfd, Hd⟩, ⟨%fe, %hfe, He⟩, ⟨%ff, %hff, Hf⟩, ⟨%dg, %fg, -, Hg⟩, ⟨%dh, %fh, -, Hh⟩, Hk⟩
  subst hfa hfb hfc hfd hfe hff
  sl_exec
  sl_step
  iapply Hk
  isplitl [Ha]; · iexists _; isplitr; swap; iexact Ha; ipureintro; rfl
  isplitl [Hb]; · iexists _; isplitr; swap; iexact Hb; ipureintro; rfl
  isplitl [Hc]; · iexists _; isplitr; swap; iexact Hc; ipureintro; rfl
  isplitl [Hd]; · iexists _; isplitr; swap; iexact Hd; ipureintro; rfl
  isplitl [He]; · iexists _; isplitr; swap; iexact He; ipureintro; rfl
  isplitl [Hf]; · iexists _; isplitr; swap; iexact Hf; ipureintro; rfl
  isplitl [Hg]; · iexists _; isplitr; swap; iexact Hg; ipureintro; exact View.read_writes_eq_canon _ _ _ (cover7_o _)
  iexists _; isplitr; swap; iexact Hh; ipureintro; exact View.read_writes_eq_canon _ _ _ (cover7_o _)

def dat7 (V : (c : Dev nD) → (b : Ref sig .tc) → Buf (Elt F) ((c : Thread nD τ).loc b)) (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => out7_6 (iblk7 V c 0 t) (iblk7 V c 1 t) (iblk7 V c 2 t) (iblk7 V c 3 t) (iblk7 V c 4 t) (iblk7 V c 5 t)
    | ⟨7, _⟩ => out7_7 (iblk7 V c 0 t) (iblk7 V c 1 t) (iblk7 V c 2 t) (iblk7 V c 3 t) (iblk7 V c 4 t) (iblk7 V c 5 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem q_eq7 (c : Dev nD) (w : Fin cfg7.W) : (dat7 V c).q w = fullShare := by
  dsimp only [dat7]

theorem owed_eq7 (c : Dev nD) (t : Fin (cfg7.N + 1)) : (dat7 V c).owed t = 0 := by
  dsimp only [dat7]

theorem recorded_eq7 (c : Dev nD) (t : Fin (cfg7.N + 1)) : (dat7 V c).recorded t = Set.univ := by
  dsimp only [dat7]

-- each input window holds its block of the array at every point
theorem before7 (c : Dev nD) (t : Fin cfg7.N) :
    (∀ d, (dat7 V c).before 0 t d = iblk7 V c 0 t) ∧ (∀ d, (dat7 V c).before 1 t d = iblk7 V c 1 t)
    ∧ (∀ d, (dat7 V c).before 2 t d = iblk7 V c 2 t) ∧ (∀ d, (dat7 V c).before 3 t d = iblk7 V c 3 t)
    ∧ (∀ d, (dat7 V c).before 4 t d = iblk7 V c 4 t) ∧ (∀ d, (dat7 V c).before 5 t d = iblk7 V c 5 t) := by
  refine ⟨?_, ?_, ?_, ?_, ?_, ?_⟩ <;>
    exact fun d => ((dat7 V c).before_in_eq_fetched _ rfl (fun _ => rfl) (fun _ _ _ => rfl) (fun _ => rfl) t d).trans rfl

def bodyPre7 (c : Dev nD) (t : Fin cfg7.N) : sProp 𝕄 :=
  iprop((dat7 V c).Φ t.castSucc ∗ (dat7 V c).owesAt () t.castSucc
    ∗ (∃ d, owns c (st7_0 t) fullShare ((dat7 V c).before 0 t d))
    ∗ (∃ d, owns c (st7_1 t) fullShare ((dat7 V c).before 1 t d))
    ∗ (∃ d, owns c (st7_2 t) fullShare ((dat7 V c).before 2 t d))
    ∗ (∃ d, owns c (st7_3 t) fullShare ((dat7 V c).before 3 t d))
    ∗ (∃ d, owns c (st7_4 t) fullShare ((dat7 V c).before 4 t d))
    ∗ (∃ d, owns c (st7_5 t) fullShare ((dat7 V c).before 5 t d))
    ∗ (∃ d, owns c (st7_6 t) fullShare ((dat7 V c).before 6 t d))
    ∗ (∃ d, owns c (st7_7 t) fullShare ((dat7 V c).before 7 t d)))

def bodyPost7 (c : Dev nD) (t : Fin cfg7.N) : sProp 𝕄 :=
  iprop((dat7 V c).Φ t.succ ∗ (dat7 V c).owesAt () t.succ
    ∗ owns c (st7_0 t) fullShare ((dat7 V c).after 0 t)
    ∗ owns c (st7_1 t) fullShare ((dat7 V c).after 1 t)
    ∗ owns c (st7_2 t) fullShare ((dat7 V c).after 2 t)
    ∗ owns c (st7_3 t) fullShare ((dat7 V c).after 3 t)
    ∗ owns c (st7_4 t) fullShare ((dat7 V c).after 4 t)
    ∗ owns c (st7_5 t) fullShare ((dat7 V c).after 5 t)
    ∗ owns c (st7_6 t) fullShare ((dat7 V c).after 6 t)
    ∗ owns c (st7_7 t) fullShare ((dat7 V c).after 7 t))

-- the body at a point: its triple at the input blocks; invariant and debt pass through
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  rw [show (dat7 V c).owesAt () t.succ = (dat7 V c).owesAt () t.castSucc from rfl]
  simp only [before7 V c t]
  dsimp only [dat7]
  iintro ⟨HΦ, Ho, ⟨%da, Ha⟩, ⟨%db, Hb⟩, ⟨%dc, Hc⟩, ⟨%dd, Hd⟩, ⟨%de, He⟩, ⟨%df, Hf⟩, Hg, Hh⟩
  iapply (sound_kernel7 c Set.univ _ _ _ _ _ _ _ _ _ _ _ _ _ _ _ _ _
    (iblk7 V c 0 t) (iblk7 V c 1 t) (iblk7 V c 2 t) (iblk7 V c 3 t) (iblk7 V c 4 t) (iblk7 V c 5 t) _)
  iframe Ha Hb Hc Hd He Hf
  isplitl [Hg]; · icases Hg with ⟨%d, Hg⟩; iexists _; iexact Hg
  isplitl [Hh]; · icases Hh with ⟨%d, Hh⟩; iexists _; iexact Hh
  iintro ⟨Ha, Hb, Hc, Hd, He, Hf, Hg, Hh⟩
  iframe

theorem body_obligation7 (c : Dev nD) : BodyObligation (dat7 (F := F) V c) (defs₀ (F := F)) Variants.none () Set.univ := fun t => by
  rw [bigSep_W7, bigSep_W7]
  exact sound_body7 V c t

-- the invariant at the region's ends is the two given resources in the other order
theorem hin7 (c : Dev nD) : (iprop((∃ r, prngReg c r) ∗ Pipeline.scopedRest spec7 c) : sProp 𝕄) ⊢ (dat7 V c).Φ 0 :=
  sep_comm.1

theorem hout7 (c : Dev nD) : (dat7 V c).Φ (Fin.last cfg7.N) ⊢ (iprop((∃ r, prngReg c r) ∗ Pipeline.scopedRest spec7 c) : sProp 𝕄) :=
  sep_comm.1

end Cert.KernelIdeal.Hand

end
-- ==== Proof.KI.Head8.lean ====
import proofs.«412769_j28716151341139_3_alg».proof.Proof.Gen.KernelIdeal.Launch
import proofs.«412769_j28716151341139_3_alg».proof.Proof.Gen.KernelIdeal.Skeleton
import proofs.«412769_j28716151341139_3_alg».proof.Proof.Gen.KernelIdeal.Points
import proofs.«412769_j28716151341139_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz8 : (![0, 0] : Fin 2 → Nat) = fun _ => 0 := funext fun a => by fin_cases a <;> rfl

-- A store through the whole-shape rectangle, made last, overwrites every entry: a read or a whole load returns its payload.
theorem unit_zero8 {Val : EltTy → Type} [∀ e, Nonempty (Val e)] {S : Shape} {e : EltTy} {κ : Kind} {sp : Space}
    (v : View sig κ sp S e) {off : Fin S.rank → Nat} (h : off = fun _ => 0)
    (inb : ∀ a, off a + S.size a ≤ S.size a) (w : S.Idx → Val e) (L : List (View.Piece Val S e)) :
    (∀ f : v.ty.Contents Val, v.read Val (v.writes Val f ((⟨Rect.unit off S.size inb, w⟩ : View.Piece Val S e) :: L)) = w)
      ∧ v.readCov ((⟨Rect.unit off S.size inb, w⟩ : View.Piece Val S e) :: L) (Rect.unit off S.size inb).toLoadRect = w := by
  have hc : ∀ y : S.Idx, ∃ p ∈ (⟨Rect.unit off S.size inb, w⟩ : View.Piece Val S e) :: L, y ∈ p.1.set :=
    fun y => ⟨_, List.mem_cons_self, View.mem_set_unit_zero h inb y⟩
  exact ⟨fun f => by rw [View.read_writes_eq_canon _ _ _ hc, View.canon_cons_unit_zero h],
    by rw [View.readCov_eq_canon_ld _ _ _ hc, View.canon_cons_unit_zero h, View.ld_unit_zero h]⟩

abbrev cond8_1 (i : grid8.Coords) : Prop := (Scalar.cmpi .ne (Scalar.extui (Scalar.cmpi .eq (BitVec.ofNat 32 (i 1).val) 0#32)) 0#32) = 1#1
abbrev cond8_2 (i : grid8.Coords) : Prop := k8_cond2 i = 1#1

theorem hcond8_1 : ∀ t : Fin cfg8.N, cond8_1 (grid8.coords t) ↔ t.val % 4 = 0 :=
  (by decide +kernel : ∀ t : Fin grid8.N, cond8_1 (grid8.coords t) ↔ t.val % 4 = 0)
theorem hcond8_2 : ∀ t : Fin cfg8.N, cond8_2 (grid8.coords t) ↔ t.val % 4 = 3 :=
  (by decide +kernel : ∀ t : Fin grid8.N, cond8_2 (grid8.coords t) ↔ t.val % 4 = 3)

theorem liveAt8 : ∀ (t : Fin cfg8.N) (w : Fin cfg8.W), w.val < 5 → cfg8.idle w (grid8.coords t) = false := by decide +kernel
theorem idleAt8 : ∀ (t : Fin cfg8.N) (w : Fin cfg8.W), 5 ≤ w.val →
    (cond8_2 (grid8.coords t) → cfg8.idle w (grid8.coords t) = false)
      ∧ (¬cond8_2 (grid8.coords t) → cfg8.idle w (grid8.coords t) = true ∧ (cfg8.win w).flush t = false) := by decide +kernel

-- One point of the body: the accumulators restart from zero under the first condition and take the point's terms; under the second the outputs are written from them.
set_option maxHeartbeats 4000000 in
theorem sound_kernel8 (c : Dev nD) (E : Set ℕ) (i : grid8.Coords)
    (arg2 : Memref sig .tc .vmem S256x512 .f32) (harg2 : arg2.IsWhole) (arg3 : Memref sig .tc .vmem S64x512 .bf16) (harg3 : arg3.IsWhole)
    (arg4 : Memref sig .tc .vmem S1x64 .f32) (harg4 : arg4.IsWhole) (arg5 : Memref sig .tc .vmem S1x512 .f32) (harg5 : arg5.IsWhole)
    (arg6 : Memref sig .tc .vmem S1x1 .f32) (harg6 : arg6.IsWhole) (arg7 : Memref sig .tc .vmem S256x64 .f32) (harg7 : arg7.IsWhole)
    (arg8 : Memref sig .tc .vmem S256x1 .f32) (harg8 : arg8.IsWhole) (arg9 : Memref sig .tc .vmem S256x64 .f32) (harg9 : arg9.IsWhole)
    (arg10 : Memref sig .tc .vmem S256x1 .f32) (harg10 : arg10.IsWhole)
    (x0 : Vec F S256x512 .f32) (x1 : Vec F S64x512 .bf16) (x2 : Vec F S1x64 .f32) (x3 : Vec F S1x512 .f32) (x4 : Vec F S1x1 .f32)
    (p0 d7 : Vec F S256x64 .f32) (p1 d8 : Vec F S256x1 .f32) (K : PUnit → sProp 𝕄) (h12 : cond8_1 i → ¬cond8_2 i) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ owns (c : Thread nD τ) arg7 fullShare d7 ∗ owns (c : Thread nD τ) arg8 fullShare d8 ∗ owns (c : Thread nD τ) arg9 fullShare p0 ∗ owns (c : Thread nD τ) arg10 fullShare p1
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
            ∗ owns (c : Thread nD τ) arg7 fullShare (if cond8_2 i then k8_pay5 (k8_pay3 x0 x1 (if cond8_1 i then k8_pay1 else p0)) x2 else d7)
            ∗ owns (c : Thread nD τ) arg8 fullShare (if cond8_2 i then k8_pay6 (k8_pay4 (if cond8_1 i then k8_pay2 else p1) x0 x3) x4 else d8)
            ∗ owns (c : Thread nD τ) arg9 fullShare (k8_pay3 x0 x1 (if cond8_1 i then k8_pay1 else p0))
            ∗ owns (c : Thread nD τ) arg10 fullShare (k8_pay4 (if cond8_1 i then k8_pay2 else p1) x0 x3)) -∗ K ⟨⟩))
      ⊢ wp frame (wpE (defs₀ (F := F)) Variants.none c none) E (cc8__head_kernel i arg2 harg2 arg3 harg3 arg4 harg4 arg5 harg5 arg6 harg6 arg7 harg7 arg8 harg8 arg9 harg9 arg10 harg10) K := by
  simp only [cc8__head_kernel_eq_skeleton]; unfold cc8__head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  subst hf0 hf1 hf2 hf3 hf4 hf5 hf6 hf7 hf8
  by_cases hc1 : cond8_1 i <;> by_cases hc2 : cond8_2 i
  · exact absurd hc2 (h12 hc1)
  all_goals
    first | rw [if_pos hc1, if_pos hc1] | rw [if_neg hc1, if_neg hc1]
    first | rw [if_pos hc2, if_pos hc2] | rw [if_neg hc2, if_neg hc2]
    sl_exec (disch := first | exact hc1 | exact hc2)
    sl_step
    iapply Hk
    isplitl [H0]; iexists _; isplitr; swap; iexact H0; rotate_left
    isplitl [H1]; iexists _; isplitr; swap; iexact H1; rotate_left
    isplitl [H2]; iexists _; isplitr; swap; iexact H2; rotate_left
    isplitl [H3]; iexists _; isplitr; swap; iexact H3; rotate_left
    isplitl [H4]; iexists _; isplitr; swap; iexact H4; rotate_left
    isplitl [H5]; iexists _; isplitr; swap; iexact H5; rotate_left
    isplitl [H6]; iexists _; isplitr; swap; iexact H6; rotate_left
    isplitl [H7]; iexists _; isplitr; swap; iexact H7; rotate_left
    iexists _; isplitr; swap; iexact H8
    all_goals ipureintro; try sl_unfold_words
    all_goals simp only [View.readAt_eq_ld, View.ld_unit_zero (S := S256x512) hz8, View.ld_unit_zero (S := S64x512) hz8, View.ld_unit_zero (S := S1x64) hz8,
      View.ld_unit_zero (S := S1x512) hz8, View.ld_unit_zero (S := S1x1) hz8, View.ld_unit_zero (S := S256x64) hz8, View.ld_unit_zero (S := S256x1) hz8,
      unit_zero8 (S := S256x64) _ hz8, unit_zero8 (S := S256x1) _ hz8]

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev scM8_0 : Memref sig .tc .vmem S256x64 .f32 := Memref.whole cc8_scratch0
abbrev scM8_1 : Memref sig .tc .vmem S256x1 .f32 := Memref.whole cc8_scratch1

def step8 (c : Dev nD) (t : Fin cfg8.N) (p : Vec F S256x64 .f32 × Vec F S256x1 .f32) : Vec F S256x64 .f32 × Vec F S256x1 .f32 :=
  (k8_pay3 (iblk8 V c 0 t) (iblk8 V c 1 t) p.1, k8_pay4 p.2 (iblk8 V c 0 t) (iblk8 V c 3 t))

-- The two accumulators after point n: restarted where n % 4 = 0, else carried on from point n - 1.
def sc8 (c : Dev nD) : (n : ℕ) → n < cfg8.N → Vec F S256x64 .f32 × Vec F S256x1 .f32
  | 0, hn => step8 V c ⟨0, hn⟩ (k8_pay1, k8_pay2)
  | n + 1, hn => step8 V c ⟨n + 1, hn⟩ (if (n + 1) % 4 = 0 then (k8_pay1, k8_pay2) else sc8 c n (Nat.lt_of_succ_lt hn))

theorem sc8_step (c : Dev nD) (n : ℕ) (hn : n < cfg8.N) :
    sc8 V c n hn = step8 V c ⟨n, hn⟩ (if n % 4 = 0 then (k8_pay1, k8_pay2) else sc8 V c (n - 1) (by omega)) := by
  cases n with
  | zero => rfl
  | succ n => rfl

theorem sc8_congr (c : Dev nD) {n n' : ℕ} (e : n = n') (h : n < cfg8.N) (h' : n' < cfg8.N) :
    sc8 V c n h = sc8 V c n' h' := by
  subst e; rfl

-- Between points the accumulators hold what the point before left; before the first point, anything.
def Phi8 (c : Dev nD) (n : ℕ) (hn : n ≤ cfg8.N) : sProp 𝕄 :=
  iprop(∃ p : Vec F S256x64 .f32 × Vec F S256x1 .f32, ⌜∀ h : n ≠ 0, p = sc8 V c (n - 1) (by omega)⌝
    ∗ (owns (c : Thread nD τ) scM8_0 fullShare p.1 ∗ owns (c : Thread nD τ) scM8_1 fullShare p.2)
    ∗ (∃ r, prngReg c r) ∗ Pipeline.scopedRestBut spec8 c [cc8_scratch0, cc8_scratch1])

theorem Phi8_entry_eq (c : Dev nD) :
    (iprop((∃ r, prngReg c r) ∗ Pipeline.scopedRest spec8 c) : sProp 𝕄)
      = iprop((∃ r, prngReg c r) ∗ ((∃ d, owns (c : Thread nD τ) scM8_0 fullShare d) ∗ (∃ d, owns (c : Thread nD τ) scM8_1 fullShare d))
          ∗ Pipeline.scopedRestBut spec8 c [cc8_scratch0, cc8_scratch1]) := by
  rw [scopedRest8_split]; simp only [scM8_0, scM8_1, owns_whole]; try rfl

def dat8 (V : (c : Dev nD) → (b : Ref sig .tc) → Buf (Elt F) ((c : Thread nD τ).loc b)) (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => k8_pay5 (sc8 V c t.val t.isLt).1 (iblk8 V c 2 t)
    | ⟨6, _⟩ => k8_pay6 (sc8 V c t.val t.isLt).2 (iblk8 V c 4 t)
  Φ t := Phi8 V c t.val (Nat.le_of_lt_succ t.isLt)
  q _ := fullShare
  owed _ := 0

theorem A_eq8 (c : Dev nD) (w : Fin cfg8.W) : (dat8 V c).A w = V c (Pipeline.arrRef spec8 w) := by
  dsimp only [dat8]
theorem q_eq8 (c : Dev nD) (w : Fin cfg8.W) : (dat8 V c).q w = fullShare := by
  dsimp only [dat8]
theorem owed_eq8 (c : Dev nD) (t : Fin (cfg8.N + 1)) : (dat8 V c).owed t = 0 := by
  dsimp only [dat8]
theorem recorded_eq8 (c : Dev nD) (t : Fin (cfg8.N + 1)) : (dat8 V c).recorded t = Set.univ := by
  dsimp only [dat8]

theorem after8_5 (c : Dev nD) (t : Fin cfg8.N) : (dat8 V c).after 5 t = k8_pay5 (sc8 V c t.val t.isLt).1 (iblk8 V c 2 t) := by dsimp only [dat8]
theorem after8_6 (c : Dev nD) (t : Fin cfg8.N) : (dat8 V c).after 6 t = k8_pay6 (sc8 V c t.val t.isLt).2 (iblk8 V c 4 t) := by dsimp only [dat8]

theorem before8 (c : Dev nD) (w : Fin cfg8.W) (hw : w.val < 5) (t : Fin cfg8.N) (d) : (dat8 V c).before w t d = (dat8 V c).after w t := by
  obtain ⟨_ | _ | _ | _ | _ | n, h⟩ := w
  all_goals first
    | exact ((dat8 V c).before_in_eq_fetched _ rfl (fun _ => rfl) (fun _ _ _ => rfl) (fun _ => rfl) t d).trans rfl
    | exact absurd hw (Nat.not_lt.mpr (Nat.le_add_left 5 n))

theorem live8 (c : Dev nD) (w : Fin cfg8.W) (t : Fin cfg8.N) (hw : w.val < 5) :
    owns (c : Thread nD τ) ((cfg8.win w).stage (cfg8.slots t w)) fullShare ((dat8 V c).after w t) ⊢ (dat8 V c).leavesExact w t := by
  unfold Dat.leavesExact; rw [liveAt8 t w hw]

def bodyPre8 (c : Dev nD) (t : Fin cfg8.N) : sProp 𝕄 :=
  iprop((dat8 V c).Φ t.castSucc ∗ (dat8 V c).owesAt () t.castSucc
    ∗ (∃ d, owns (c : Thread nD τ) (win8_0.stage (cfg8.slots t 0)) fullShare ((dat8 V c).before 0 t d))
    ∗ (∃ d, owns (c : Thread nD τ) (win8_1.stage (cfg8.slots t 1)) fullShare ((dat8 V c).before 1 t d))
    ∗ (∃ d, owns (c : Thread nD τ) (win8_2.stage (cfg8.slots t 2)) fullShare ((dat8 V c).before 2 t d))
    ∗ (∃ d, owns (c : Thread nD τ) (win8_3.stage (cfg8.slots t 3)) fullShare ((dat8 V c).before 3 t d))
    ∗ (∃ d, owns (c : Thread nD τ) (win8_4.stage (cfg8.slots t 4)) fullShare ((dat8 V c).before 4 t d))
    ∗ (∃ d, owns (c : Thread nD τ) (win8_5.stage (cfg8.slots t 5)) fullShare ((dat8 V c).before 5 t d))
    ∗ (∃ d, owns (c : Thread nD τ) (win8_6.stage (cfg8.slots t 6)) fullShare ((dat8 V c).before 6 t d)))

def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t
    ∗ (dat8 V c).leavesExact 5 t
    ∗ (dat8 V c).leavesExact 6 t)

-- The body's update of the accumulators is sc8's step, the first condition being n % 4 = 0 in closed form.
theorem sc8_eq (c : Dev nD) (t : Fin cfg8.N) (p : Vec F S256x64 .f32 × Vec F S256x1 .f32)
    (hp : ∀ h : t.val ≠ 0, p = sc8 V c (t.val - 1) (by omega)) :
    k8_pay3 ((dat8 V c).after 0 t) ((dat8 V c).after 1 t) (if cond8_1 (grid8.coords t) then k8_pay1 else p.1) = (sc8 V c t.val t.isLt).1
      ∧ k8_pay4 (if cond8_1 (grid8.coords t) then k8_pay2 else p.2) ((dat8 V c).after 0 t) ((dat8 V c).after 3 t) = (sc8 V c t.val t.isLt).2 := by
  rw [sc8_step V c t.val t.isLt]
  by_cases h0 : t.val % 4 = 0
  · rw [if_pos ((hcond8_1 t).mpr h0), if_pos ((hcond8_1 t).mpr h0), if_pos h0]; exact ⟨rfl, rfl⟩
  · rw [if_neg (mt (hcond8_1 t).mp h0), if_neg (mt (hcond8_1 t).mp h0), if_neg h0, hp fun e => h0 (by rw [e])]; exact ⟨rfl, rfl⟩

-- Under the second condition an output block holds the epilogue's value; otherwise what it held before.
theorem leaves8 (c : Dev nD) (w : Fin cfg8.W) (t : Fin cfg8.N) (d) (hw : 5 ≤ w.val) :
    owns (c : Thread nD τ) ((cfg8.win w).stage (cfg8.slots t w)) fullShare
        (if cond8_2 (grid8.coords t) then (dat8 V c).after w t else (dat8 V c).before w t d) ⊢ (dat8 V c).leavesExact w t := by
  by_cases h : cond8_2 (grid8.coords t)
  · rw [if_pos h]; unfold Dat.leavesExact; rw [(idleAt8 t w hw).1 h]
  · rw [if_neg h, Dat.leavesExact_idle _ w t ((idleAt8 t w hw).2 h).1 ((idleAt8 t w hw).2 h).2]; iintro H; iexists d; iexact H

set_option maxHeartbeats 4800000 in
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8 V c 0 (by decide), before8 V c 1 (by decide), before8 V c 2 (by decide), before8 V c 3 (by decide), before8 V c 4 (by decide)]
  rw [show (dat8 V c).owesAt () t.succ = (dat8 V c).owesAt () t.castSucc from rfl,
    show (dat8 V c).Φ t.succ = Phi8 V c (t.val + 1) t.isLt from rfl,
    show (dat8 V c).Φ t.castSucc = Phi8 V c t.val (Nat.le_of_lt t.isLt) from rfl]
  unfold Phi8
  iintro ⟨⟨%p, %hp, ⟨HS0, HS1⟩, Hg, HR⟩, Ho, ⟨%d0, H0⟩, ⟨%d1, H1⟩, ⟨%d2, H2⟩, ⟨%d3, H3⟩, ⟨%d4, H4⟩, ⟨%d5, H5⟩, ⟨%d6, H6⟩⟩
  iapply sound_kernel8 c Set.univ (grid8.coords t) _ _ _ _ _ _ _ _ _ _ _ _ _ _ _ _ _ _ ((dat8 V c).after 0 t) ((dat8 V c).after 1 t) ((dat8 V c).after 2 t) ((dat8 V c).after 3 t) ((dat8 V c).after 4 t) p.1 ((dat8 V c).before 5 t d5) p.2 ((dat8 V c).before 6 t d6) _ fun h1 h2 => by
    have := (hcond8_1 t).mp h1; have := (hcond8_2 t).mp h2; omega
  irw [(sc8_eq V c t p hp).1, (sc8_eq V c t p hp).2]
  iframe
  iintro ⟨H0, H1, H2, H3, H4, H5, H6, HS0, HS1⟩
  isplitl [HS0 HS1 Hg HR]
  · iexists (sc8 V c t.val t.isLt); iframe; ipureintro; exact fun _ => rfl
  isplitl [H0]; · iapply (live8 V c 0 t (by decide)); iexact H0
  isplitl [H1]; · iapply (live8 V c 1 t (by decide)); iexact H1
  isplitl [H2]; · iapply (live8 V c 2 t (by decide)); iexact H2
  isplitl [H3]; · iapply (live8 V c 3 t (by decide)); iexact H3
  isplitl [H4]; · iapply (live8 V c 4 t (by decide)); iexact H4
  isplitl [H5]; · iapply (leaves8 V c 5 t d5 (by decide)); iexact H5
  iapply (leaves8 V c 6 t d6 (by decide)); iexact H6

theorem body_obligation8 (c : Dev nD) : BodyObligation (dat8 (F := F) V c) (defs₀ (F := F)) Variants.none () Set.univ := fun t => by
  rw [bigSep_W8, bigSep_W8]
  exact sound_body8 V c t

theorem hin8 (c : Dev nD) : (iprop((∃ r, prngReg c r) ∗ Pipeline.scopedRest spec8 c) : sProp 𝕄) ⊢ (dat8 V c).Φ 0 := by
  rw [show (dat8 V c).Φ 0 = Phi8 V c 0 (Nat.zero_le _) from rfl, Phi8_entry_eq]; unfold Phi8
  iintro ⟨Hg, ⟨⟨%d0, HS0⟩, ⟨%d1, HS1⟩⟩, HR⟩
  iexists (d0, d1); iframe; ipureintro; exact fun h => absurd rfl h

theorem hout8 (c : Dev nD) : (dat8 V c).Φ (Fin.last cfg8.N) ⊢ (iprop((∃ r, prngReg c r) ∗ Pipeline.scopedRest spec8 c) : sProp 𝕄) := by
  rw [show (dat8 V c).Φ (Fin.last cfg8.N) = Phi8 V c cfg8.N (Nat.le_refl _) from rfl, Phi8_entry_eq]; unfold Phi8
  iintro ⟨%p, -, ⟨HS0, HS1⟩, Hg, HR⟩
  iframe Hg HR
  isplitl [HS0] <;> iexists _ <;> iassumption

end Cert.KernelIdeal.Hand

end
-- ==== Proof.KI.Vals.lean ====
import proofs.«412769_j28716151341139_3_alg».proof.Proof.KI.Enc0
import proofs.«412769_j28716151341139_3_alg».proof.Proof.KI.Lstm1
import proofs.«412769_j28716151341139_3_alg».proof.Proof.KI.Gate2
import proofs.«412769_j28716151341139_3_alg».proof.Proof.KI.Bsum3
import proofs.«412769_j28716151341139_3_alg».proof.Proof.KI.Lstm4
import proofs.«412769_j28716151341139_3_alg».proof.Proof.KI.Gate5
import proofs.«412769_j28716151341139_3_alg».proof.Proof.KI.Bsum6
import proofs.«412769_j28716151341139_3_alg».proof.Proof.KI.Lstm7
import proofs.«412769_j28716151341139_3_alg».proof.Proof.KI.Head8

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

abbrev atRefs (W : Dev nD → Valuation τ sig (Elt F)) : (c : Dev nD) → (b : Ref sig .tc) → Buf (Elt F) ((c : Thread nD τ).loc b) :=
  fun c b => W c b

abbrev U0 (c : Dev nD) : Valuation τ sig (Elt F) := fun b => m (c, b)
abbrev U1 (c : Dev nD) : Valuation τ sig (Elt F) := StableHlo.after hostOps0 (U0 m c)
def U2 (c : Dev nD) : Valuation τ sig (Elt F) :=
  Function.update (U1 m c) main_v17 ((dat0 (atRefs (U1 m)) c).arrAt 3 cfg0.N)
abbrev U3 (c : Dev nD) : Valuation τ sig (Elt F) := StableHlo.after hostOps1 (U2 m c)
def U4 (c : Dev nD) : Valuation τ sig (Elt F) :=
  Function.update (Function.update (U3 m c) main_v40_0 ((dat1 (atRefs (U3 m)) c).arrAt 6 cfg1.N)) main_v40_1 ((dat1 (atRefs (U3 m)) c).arrAt 7 cfg1.N)
abbrev U5 (c : Dev nD) : Valuation τ sig (Elt F) := StableHlo.after hostOps2 (U4 m c)
def U6 (c : Dev nD) : Valuation τ sig (Elt F) :=
  Function.update (U5 m c) main_v42 ((dat2 (atRefs (U5 m)) c).arrAt 4 cfg2.N)
def U7 (c : Dev nD) : Valuation τ sig (Elt F) :=
  Function.update (U6 m c) main_v43 ((dat3 (atRefs (U6 m)) c).arrAt 3 cfg3.N)
def U8 (c : Dev nD) : Valuation τ sig (Elt F) :=
  Function.update (Function.update (U7 m c) main_v44_0 ((dat4 (atRefs (U7 m)) c).arrAt 6 cfg4.N)) main_v44_1 ((dat4 (atRefs (U7 m)) c).arrAt 7 cfg4.N)
abbrev U9 (c : Dev nD) : Valuation τ sig (Elt F) := StableHlo.after hostOps5 (U8 m c)
def U10 (c : Dev nD) : Valuation τ sig (Elt F) :=
  Function.update (U9 m c) main_v46 ((dat5 (atRefs (U9 m)) c).arrAt 4 cfg5.N)
def U11 (c : Dev nD) : Valuation τ sig (Elt F) :=
  Function.update (U10 m c) main_v47 ((dat6 (atRefs (U10 m)) c).arrAt 3 cfg6.N)
def U12 (c : Dev nD) : Valuation τ sig (Elt F) :=
  Function.update (Function.update (U11 m c) main_v48_0 ((dat7 (atRefs (U11 m)) c).arrAt 6 cfg7.N)) main_v48_1 ((dat7 (atRefs (U11 m)) c).arrAt 7 cfg7.N)
def U13 (c : Dev nD) : Valuation τ sig (Elt F) :=
  Function.update (Function.update (U12 m c) main_v49_0 ((dat8 (atRefs (U12 m)) c).arrAt 5 cfg8.N)) main_v49_1 ((dat8 (atRefs (U12 m)) c).arrAt 6 cfg8.N)
abbrev U14 (c : Dev nD) : Valuation τ sig (Elt F) := StableHlo.after hostOps9 (U13 m c)

end Cert.KernelIdeal.Hand

end
-- ==== Proof.KI.Run.lean ====
import proofs.«412769_j28716151341139_3_alg».proof.Proof.KI.Vals

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- a function updated at a point to g's value there is g, when g agrees with it everywhere else
theorem update_fix {α : Type} [DecidableEq α] {β : α → Type} {f f' : (a : α) → β a} (g : (a : α) → β a) {a : α}
    (e : f' = f) (h : ∀ b, b ≠ a → g b = f b) : Function.update f' a (g a) = g := by
  subst e; funext b
  by_cases hb : b = a
  · subst hb; rw [Function.update_self]
  · rw [Function.update_of_ne hb, h b hb]

-- the same at two points
theorem update_fix₂ {α : Type} [DecidableEq α] {β : α → Type} {f f' : (a : α) → β a} (g : (a : α) → β a) {a₀ a₁ : α}
    (e : f' = f) (h : ∀ b, b ≠ a₀ → b ≠ a₁ → g b = f b) : Function.update (Function.update f' a₀ (g a₀)) a₁ (g a₁) = g := by
  subst e; funext b
  by_cases h₁ : b = a₁
  · subst h₁; rw [Function.update_self]
  · rw [Function.update_of_ne h₁]
    by_cases h₀ : b = a₀
    · subst h₀; rw [Function.update_self]
    · rw [Function.update_of_ne h₀, h b h₀ h₁]

def outs : Gen.Outs (F := F) := fun J r c =>
  match J with
  | 2 => atRefs (U2 m) c r
  | 4 => atRefs (U4 m) c r
  | 6 => atRefs (U6 m) c r
  | 7 => atRefs (U7 m) c r
  | 8 => atRefs (U8 m) c r
  | 10 => atRefs (U10 m) c r
  | 11 => atRefs (U11 m) c r
  | 12 => atRefs (U12 m) c r
  | _ => atRefs (U13 m) c r

-- the generated valuations at these contents are the boundary contents, item by item
theorem V_eq2 (c : Dev nD) : Gen.V2 m (outs m) c = U2 m c :=
  update_fix (U2 m c) rfl fun b hb => Function.update_of_ne hb ..
theorem V_eq3 (c : Dev nD) : Gen.V3 m (outs m) c = U3 m c :=
  congrArg (StableHlo.after hostOps1) (V_eq2 m c)
theorem V_eq4 (c : Dev nD) : Gen.V4 m (outs m) c = U4 m c :=
  update_fix₂ (U4 m c) (V_eq3 m c) fun b h₀ h₁ => (Function.update_of_ne h₁ ..).trans (Function.update_of_ne h₀ ..)
theorem V_eq5 (c : Dev nD) : Gen.V5 m (outs m) c = U5 m c :=
  congrArg (StableHlo.after hostOps2) (V_eq4 m c)
theorem V_eq6 (c : Dev nD) : Gen.V6 m (outs m) c = U6 m c :=
  update_fix (U6 m c) (V_eq5 m c) fun b hb => Function.update_of_ne hb ..
theorem V_eq7 (c : Dev nD) : Gen.V7 m (outs m) c = U7 m c :=
  update_fix (U7 m c) (V_eq6 m c) fun b hb => Function.update_of_ne hb ..
theorem V_eq8 (c : Dev nD) : Gen.V8 m (outs m) c = U8 m c :=
  update_fix₂ (U8 m c) (V_eq7 m c) fun b h₀ h₁ => (Function.update_of_ne h₁ ..).trans (Function.update_of_ne h₀ ..)
theorem V_eq9 (c : Dev nD) : Gen.V9 m (outs m) c = U9 m c :=
  congrArg (StableHlo.after hostOps5) (V_eq8 m c)
theorem V_eq10 (c : Dev nD) : Gen.V10 m (outs m) c = U10 m c :=
  update_fix (U10 m c) (V_eq9 m c) fun b hb => Function.update_of_ne hb ..
theorem V_eq11 (c : Dev nD) : Gen.V11 m (outs m) c = U11 m c :=
  update_fix (U11 m c) (V_eq10 m c) fun b hb => Function.update_of_ne hb ..
theorem V_eq12 (c : Dev nD) : Gen.V12 m (outs m) c = U12 m c :=
  update_fix₂ (U12 m c) (V_eq11 m c) fun b h₀ h₁ => (Function.update_of_ne h₁ ..).trans (Function.update_of_ne h₀ ..)
theorem V_eq13 (c : Dev nD) : Gen.V13 m (outs m) c = U13 m c :=
  update_fix₂ (U13 m c) (V_eq12 m c) fun b h₀ h₁ => (Function.update_of_ne h₁ ..).trans (Function.update_of_ne h₀ ..)
theorem V_eq14 (c : Dev nD) : Gen.V14 m (outs m) c = U14 m c :=
  congrArg (StableHlo.after hostOps9) (V_eq13 m c)

def pdats : (p : Fin 9) → (c : Dev nD) → Dat τ (Elt F) Unit ℕ (UR sig nD τ) ℕ (cfgs p) c
  | ⟨0, _⟩ => fun c => dat0 (atRefs (U1 m)) c
  | ⟨1, _⟩ => fun c => dat1 (atRefs (U3 m)) c
  | ⟨2, _⟩ => fun c => dat2 (atRefs (U5 m)) c
  | ⟨3, _⟩ => fun c => dat3 (atRefs (U6 m)) c
  | ⟨4, _⟩ => fun c => dat4 (atRefs (U7 m)) c
  | ⟨5, _⟩ => fun c => dat5 (atRefs (U9 m)) c
  | ⟨6, _⟩ => fun c => dat6 (atRefs (U10 m)) c
  | ⟨7, _⟩ => fun c => dat7 (atRefs (U11 m)) c
  | ⟨8, _⟩ => fun c => dat8 (atRefs (U12 m)) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem owesAt_of_zero {cfg : Cfg sig Λ₀} {c : Dev nD} (dat : Dat τ (Elt F) Unit ℕ (UR sig nD τ) ℕ cfg c) (t : Fin (cfg.N + 1))
    (howed : dat.owed t = 0) (hrec : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [howed, hrec]
  iintro ⟨%W, HO⟩; iexists W; isplitr; · ipureintro; exact fun _ _ => Or.inl trivial
  iexact HO

theorem zero_of_owesAt {cfg : Cfg sig Λ₀} {c : Dev nD} (dat : Dat τ (Elt F) Unit ℕ (UR sig nD τ) ℕ cfg c) (t : Fin (cfg.N + 1))
    (howed : dat.owed t = 0) :
    dat.owesAt () t ⊢ (iprop(∃ W, owes (c : Thread nD τ) (0 : CellTallies nD τ sig Unit) W) : sProp 𝕄) := by
  unfold Pipeline.Dat.owesAt Pipeline.owesWithin
  rw [howed]
  iintro ⟨%W, -, HO⟩; iexists W; iexact HO

-- V updated at o's array alone holds every array's last contents: the other arrays keep their first contents and arrRef is injective
theorem exit₁ {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Pipeline.arrRef cfg.spec w)) (o : Fin cfg.W) (hio : ∀ w, w ≠ o → (cfg.win w).isOut = false) :
    (∀ w, dat.arrAt w cfg.N = Function.update V (Pipeline.arrRef cfg.spec o) (dat.arrAt o cfg.N) (Pipeline.arrRef cfg.spec w)) ∧
    ∀ b : Ref sig .tc, b ∉ Finset.univ.image (Pipeline.arrRef cfg.spec) →
      Function.update V (Pipeline.arrRef cfg.spec o) (dat.arrAt o cfg.N) b = V b := by
  refine ⟨fun w => ?_, fun b hb => Function.update_of_ne (StableHlo.devRef_ne_of_ne fun e => hb (Finset.mem_image.mpr ⟨o, Finset.mem_univ _, e.symm⟩)) _ _⟩
  by_cases h : w = o
  · subst h; rw [Function.update_self]
  · rw [Pipeline.Dat.arrAt_in _ w (hio w h), hA, Function.update_of_ne (StableHlo.devRef_ne_of_ne fun e => h (hinj e))]

-- the same with two result arrays
theorem exit₂ {cfg : Cfg sig Λ₀} {c : Dev nD} (dat : Dat τ (Elt F) Unit ℕ (UR sig nD τ) ℕ cfg c)
    (hinj : Function.Injective (Pipeline.arrRef cfg.spec)) (V : Valuation τ sig (Elt F))
    (hA : ∀ w, dat.A w = V (Pipeline.arrRef cfg.spec w)) (o₀ o₁ : Fin cfg.W)
    (hio : ∀ w, w ≠ o₀ → w ≠ o₁ → (cfg.win w).isOut = false) :
    (∀ w, dat.arrAt w cfg.N = Function.update (Function.update V (Pipeline.arrRef cfg.spec o₀) (dat.arrAt o₀ cfg.N))
      (Pipeline.arrRef cfg.spec o₁) (dat.arrAt o₁ cfg.N) (Pipeline.arrRef cfg.spec w)) ∧
    ∀ b : Ref sig .tc, b ∉ Finset.univ.image (Pipeline.arrRef cfg.spec) →
      Function.update (Function.update V (Pipeline.arrRef cfg.spec o₀) (dat.arrAt o₀ cfg.N))
        (Pipeline.arrRef cfg.spec o₁) (dat.arrAt o₁ cfg.N) b = V b := by
  have hne (b : Ref sig .tc) (hb : b ∉ Finset.univ.image (Pipeline.arrRef cfg.spec)) (o : Fin cfg.W) :
      (Proc.devRef .tc b : DevRef τ sig) ≠ Proc.devRef .tc (Pipeline.arrRef cfg.spec o) :=
    StableHlo.devRef_ne_of_ne fun e => hb (Finset.mem_image.mpr ⟨o, Finset.mem_univ _, e.symm⟩)
  refine ⟨fun w => ?_, fun b hb => by rw [Function.update_of_ne (hne b hb o₁), Function.update_of_ne (hne b hb o₀)]⟩
  by_cases h₁ : w = o₁
  · subst h₁; rw [Function.update_self]
  rw [Function.update_of_ne (StableHlo.devRef_ne_of_ne fun e => h₁ (hinj e))]
  by_cases h₀ : w = o₀
  · subst h₀; rw [Function.update_self]
  · rw [Pipeline.Dat.arrAt_in _ w (hio w h₀ h₁), hA, Function.update_of_ne (StableHlo.devRef_ne_of_ne fun e => h₀ (hinj e))]

-- a region as a segment that takes every array from its contents at V to its contents at V'
set_option backward.isDefEq.respectTransparency.types false in
def reg (p : Fin 9) (lf : Pipeline.LaunchFacts (nD := nD) (τ := τ) cfgs p) (V V' : Dev nD → Valuation τ sig (Elt F))
    (hb : ∀ c, BodyObligation (pdats m p c) defs₀ Variants.none () Set.univ)
    (ho : ∀ c t, (pdats m p c).owed t = 0) (hr : ∀ c t, (pdats m p c).recorded t = Set.univ)
    (hq : ∀ c w, (pdats m p c).q w = fullShare)
    (hA : ∀ c w, (pdats m p c).A w = atRefs V c (Pipeline.arrRef (cfgs p).spec w))
    (hi : ∀ c, iprop((∃ r, prngReg c r) ∗ Pipeline.scopedRest (cfgs p).spec c) ⊢ (pdats m p c).Φ 0)
    (hou : ∀ c, (pdats m p c).Φ (Fin.last (cfgs p).N) ⊢ iprop((∃ r, prngReg c r) ∗ Pipeline.scopedRest (cfgs p).spec c))
    (hx : ∀ c, (∀ w, (pdats m p c).arrAt w (cfgs p).N = atRefs V' c (Pipeline.arrRef (cfgs p).spec w)) ∧
      ∀ b, b ∉ Finset.univ.image (Pipeline.arrRef (cfgs p).spec) → atRefs V' c b = atRefs V c b) :
    RegionSeg (pcfgs (F := F)) Gen.adm (pdats m) () defs₀ Variants.none L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p ho
  pre c := iprop(StableHlo.held (c : Thread nD τ) (Pipeline.ucRefs τ sig) (V c) ∗ R c)
  post c := iprop(StableHlo.held (c : Thread nD τ) (Pipeline.ucRefs τ sig) (V' c) ∗ R c)
  X c := iprop(∃ r, prngReg c r)
  Y c := iprop(∃ r, prngReg c r)
  Z c := Pipeline.unscopedRest (Ix := Unit) (Name := ℕ) (U := UR sig nD τ) (Lvl := ℕ) (cfgs p).spec c (atRefs V c)
  hentry c := by
    rw [Pipeline.ownSems0_none]
    have hsplit := Pipeline.arrays_of_unscopedBufs (p := p) (pcfgs (F := F)) Gen.adm (pdats m) lf.win lf.arr_whole c
      ((pdats m p c).share_full (hq c)) (atRefs V c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owesAt_of_zero (pdats m p c) 0 (ho c 0) (hr c 0)); iexact HO
    isplitl [Hp]; · iexact Hp
    iexact Hrest
  hin c := by
    refine .trans ?_ (hi c)
    iintro ⟨Hp, -, Hr⟩
    isplitl [Hp] <;> iassumption
  hout c := by
    rw [Pipeline.ownSems0_none]
    refine (hou c).trans ?_
    iintro ⟨Hp, Hr⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c (pdats m) ((pdats m p c).share_full (hq c))
      (atRefs V c) (atRefs V' c) ((pdats m p c).arrAt · (cfgs p).N) (hx c).1 (hx c).2
    rw [Pipeline.unscopedBufs_held] at hjoin
    iintro ⟨Ha, HO, HY, Hrest⟩
    imodintro
    isplitl [Ha Hrest]
    · iapply hjoin; isplitl [Ha] <;> iassumption
    isplitl [HY]; · iexact HY
    iapply (zero_of_owesAt (pdats m p c) (Fin.last (cfgs p).N) (ho c _)); iexact HO

def reg0 := reg m 0 launch0 (U1 m) (U2 m) (body_obligation0 _) (owed_eq0 _) (recorded_eq0 _) (q_eq0 _) (A_eq0 _) (hin0 _) (hout0 _)
  fun c => exit₁ _ launch0.win.arr_inj _ (A_eq0 _ c) 3 (by decide)
def reg1 := reg m 1 launch1 (U3 m) (U4 m) (body_obligation1 _) (owed_eq1 _) (recorded_eq1 _) (q_eq1 _) (A_eq1 _) (hin1 _) (hout1 _)
  fun c => exit₂ _ launch1.win.arr_inj _ (A_eq1 _ c) 6 7 (by decide)
def reg2 := reg m 2 launch2 (U5 m) (U6 m) (body_obligation2 _) (owed_eq2 _) (recorded_eq2 _) (q_eq2 _) (A_eq2 _) (hin2 _) (hout2 _)
  fun c => exit₁ _ launch2.win.arr_inj _ (A_eq2 _ c) 4 (by decide)
def reg3 := reg m 3 launch3 (U6 m) (U7 m) (body_obligation3 _) (owed_eq3 _) (recorded_eq3 _) (q_eq3 _) (A_eq3 _) (hin3 _) (hout3 _)
  fun c => exit₁ _ launch3.win.arr_inj _ (A_eq3 _ c) 3 (by decide)
def reg4 := reg m 4 launch4 (U7 m) (U8 m) (body_obligation4 _) (owed_eq4 _) (recorded_eq4 _) (q_eq4 _) (A_eq4 _) (hin4 _) (hout4 _)
  fun c => exit₂ _ launch4.win.arr_inj _ (A_eq4 _ c) 6 7 (by decide)
def reg5 := reg m 5 launch5 (U9 m) (U10 m) (body_obligation5 _) (owed_eq5 _) (recorded_eq5 _) (q_eq5 _) (A_eq5 _) (hin5 _) (hout5 _)
  fun c => exit₁ _ launch5.win.arr_inj _ (A_eq5 _ c) 4 (by decide)
def reg6 := reg m 6 launch6 (U10 m) (U11 m) (body_obligation6 _) (owed_eq6 _) (recorded_eq6 _) (q_eq6 _) (A_eq6 _) (hin6 _) (hout6 _)
  fun c => exit₁ _ launch6.win.arr_inj _ (A_eq6 _ c) 3 (by decide)
def reg7 := reg m 7 launch7 (U11 m) (U12 m) (body_obligation7 _) (owed_eq7 _) (recorded_eq7 _) (q_eq7 _) (A_eq7 _) (hin7 _) (hout7 _)
  fun c => exit₂ _ launch7.win.arr_inj _ (A_eq7 _ c) 6 7 (by decide)
def reg8 := reg m 8 launch8 (U12 m) (U13 m) (body_obligation8 _) (owed_eq8 _) (recorded_eq8 _) (q_eq8 _) (A_eq8 _) (hin8 _) (hout8 _)
  fun c => exit₂ _ launch8.win.arr_inj _ (A_eq8 _ c) 5 6 (by decide)

-- the run over the nine records: every final memory holds each array at the last valuation
set_option backward.isDefEq.respectTransparency.types false in
theorem run_V14 (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = Gen.V14 m (outs m) c b) := by
  have e {V W : Valuation τ sig (Elt F)} (h : V = W) (c : Dev nD) :
      (iprop(StableHlo.held (c : Thread nD τ) (Pipeline.ucRefs τ sig) V ∗ R c) : sProp 𝕄)
        ⊢ iprop(StableHlo.held (c : Thread nD τ) (Pipeline.ucRefs τ sig) W ∗ R c) := by subst h; exact .rfl
  refine Pipeline.θ_run_regions_kit_dev (pcfgs (F := F)) adm (pdats m) () cellOf_inj (emb₁ (A := UR sig nD τ)) defs₀ Variants.none L lv m ρ main
    (segs m (outs m) Variants.none L lv (fun _ c => R c) () (pdats m) (reg0 m) (reg1 m) (reg2 m) (reg3 m) (reg4 m) (reg5 m) (reg6 m) (reg7 m) (reg8 m))
    (fun c Q => by rewrite [main_chain c, Seg.run_eq_chain]; exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) ?_
    (T₀ := fun c => iprop(StableHlo.held (c : Thread nD τ) (Pipeline.ucRefs τ sig) (V0 m c) ∗ R c))
    (Tₙ := fun c => StableHlo.held (c : Thread nD τ) (Pipeline.ucRefs τ sig) (V14 m (outs m) c))
    (hch := fun c => ⟨.rfl, .rfl, e (V_eq2 m c).symm c, e (V_eq3 m c) c, e (V_eq4 m c).symm c, e (V_eq5 m c) c, .rfl, .rfl,
      e (V_eq8 m c).symm c, e (V_eq9 m c) c, .rfl, .rfl, .rfl, e (V_eq13 m c).symm c, sep_mono .rfl sep_elim_right⟩)
    (hinit := Pipeline.initEach L lv fun c => ?_)
    (QY := fun c s => ∀ b ∈ Pipeline.ucRefs τ sig, s.mem ((c : Thread nD τ).1, b) = V14 m (outs m) c b)
    (hfin := fun c s' => ?_) (hQ := fun _ h => h)
  · iintro Hu; imodintro
    isplitl [Hu]
    · iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  · unfold StableHlo.held
    exact (pointsTo_read_all (Pipeline.ucRefs τ sig) (fun b => ((c : Thread nD τ).1, b)) (V14 m (outs m) c) s').trans fupd_intro

theorem run_main (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = U14 m c b) :=
  (θ_run defs _ _).mono (fun r h c b hb => (h c b hb).trans (congrFun (V_eq14 m c) b)) (run_V14 m ρ)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the last valuation at an argument array walks back to the launch memory
theorem args_kept (c : Dev nD) (mem : (ℓ : Loc nD τ sig) → Buf (Elt F) ℓ)
    (h : ∀ b ∈ Pipeline.ucRefs τ sig, mem ((c : Thread nD τ).1, b) = Gen.V14 m (outs m) c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9)
      ∧ mem ((c.tc : Thread nD τ).loc main_arg10) = m ((c.tc : Thread nD τ).loc main_arg10)
      ∧ mem ((c.tc : Thread nD τ).loc main_arg11) = m ((c.tc : Thread nD τ).loc main_arg11)
      ∧ mem ((c.tc : Thread nD τ).loc main_arg12) = m ((c.tc : Thread nD τ).loc main_arg12)
      ∧ mem ((c.tc : Thread nD τ).loc main_arg13) = m ((c.tc : Thread nD τ).loc main_arg13) :=
  have k (b : Ref sig .tc) (hb : ¬ (Proc.devRef .tc b : DevRef τ sig).isScoped) {x} (e : Gen.V14 m (outs m) c b = x) :
      mem ((c.tc : Thread nD τ).loc b) = x := (h _ (mem_uc b hb)).trans e
  ⟨k _ (by decide) (Gen.V14_main_arg0 m (outs m) c),
   k _ (by decide) (Gen.V14_main_arg1 m (outs m) c),
   k _ (by decide) (Gen.V14_main_arg2 m (outs m) c),
   k _ (by decide) (Gen.V14_main_arg3 m (outs m) c),
   k _ (by decide) (Gen.V14_main_arg4 m (outs m) c),
   k _ (by decide) (Gen.V14_main_arg5 m (outs m) c),
   k _ (by decide) (Gen.V14_main_arg6 m (outs m) c),
   k _ (by decide) (Gen.V14_main_arg7 m (outs m) c),
   k _ (by decide) (Gen.V14_main_arg8 m (outs m) c),
   k _ (by decide) (Gen.V14_main_arg9 m (outs m) c),
   k _ (by decide) (Gen.V14_main_arg10 m (outs m) c),
   k _ (by decide) (Gen.V14_main_arg11 m (outs m) c),
   k _ (by decide) (Gen.V14_main_arg12 m (outs m) c),
   k _ (by decide) (Gen.V14_main_arg13 m (outs m) c)⟩

theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => args_kept m c r.2.mem (h c)) (run_V14 m ρ)

end Cert.KernelIdeal.Hand

end
-- ==== Proof.Spec.lean ====
import Idealize.ShloMosaic.PureOps.Ideal

noncomputable section

open scoped BigOperators

namespace Cert.Spec

open Idealize.ShloMosaic

-- entry (n, h) of x · wᵀ
def mmT {N K H : ℕ} (x : Fin N → Fin K → EReal) (w : Fin H → Fin K → EReal) (n : Fin N) (h : Fin H) : EReal :=
  ∑ k : Fin K, x n k * w h k

-- the encoder: tanh (obs · enc_wᵀ + enc_b)
def enc (x : Fin 2048 → Fin 1024 → EReal) (w : Fin 2048 → Fin 1024 → EReal) (b : Fin 2048 → EReal)
    (n h : Fin 2048) : EReal :=
  Ideal.tanh (mmT x w n h + b h)

-- the row of gate g (input, forget, candidate, output) for hidden unit u in the natural weight layout
def gateRow (g : Fin 4) (u : Fin 2048) : Fin 8192 :=
  ⟨g.val * 2048 + u.val, by have := g.isLt; have := u.isLt; omega⟩

-- an LSTM gate's pre-activation: inp · w_ihᵀ + h · w_hhᵀ + b_ih + b_hh, at the gate's row
def preact (inp h : Fin 2048 → Fin 2048 → EReal) (wih whh : Fin 8192 → Fin 2048 → EReal) (bih bhh : Fin 8192 → EReal)
    (g : Fin 4) (n u : Fin 2048) : EReal :=
  ((mmT inp wih n (gateRow g u) + mmT h whh n (gateRow g u)) + bih (gateRow g u)) + bhh (gateRow g u)

-- the new cell state: σ(forget) · cell + σ(input) · tanh(candidate)
def cellNew (inp h cell : Fin 2048 → Fin 2048 → EReal) (wih whh : Fin 8192 → Fin 2048 → EReal) (bih bhh : Fin 8192 → EReal)
    (n u : Fin 2048) : EReal :=
  Ideal.logistic (preact inp h wih whh bih bhh 1 n u) * cell n u
    + Ideal.logistic (preact inp h wih whh bih bhh 0 n u) * Ideal.tanh (preact inp h wih whh bih bhh 2 n u)

-- the new hidden state: σ(output) · tanh(new cell)
def hNew (inp h cell : Fin 2048 → Fin 2048 → EReal) (wih whh : Fin 8192 → Fin 2048 → EReal) (bih bhh : Fin 8192 → EReal)
    (n u : Fin 2048) : EReal :=
  Ideal.logistic (preact inp h wih whh bih bhh 3 n u) * Ideal.tanh (cellNew inp h cell wih whh bih bhh n u)

-- the static communication weight: (1 − [j = k]) · alive j · alive k / (Σ alive − 1)
def sw (alive : Fin 2048 → EReal) (j k : Fin 2048) : EReal :=
  Ideal.div (((1 : EReal) - (if j.val = k.val then (1 : EReal) else 0)) * (alive j * alive k)) ((∑ i : Fin 2048, alive i) - 1)

-- the hard gate ⌈σ(h · g_wᵀ + g_b)⌉ times the static weight
def gate (h : Fin 2048 → Fin 2048 → EReal) (gw : Fin 2048 → Fin 2048 → EReal) (gb : Fin 2048 → EReal)
    (s : Fin 2048 → Fin 2048 → EReal) (j k : Fin 2048) : EReal :=
  Ideal.liftRound Int.ceil (Ideal.logistic (mmT h gw j k + gb k)) * s j k

-- the LSTM's input: the encoding plus the gated sum of the senders' hidden states
def bsum (G h e : Fin 2048 → Fin 2048 → EReal) (i u : Fin 2048) : EReal :=
  e i u + ∑ j : Fin 2048, G j i * h j u

abbrev negInf : EReal := Ideal.ofBits .f32 0xFF800000#32

def rowMax (l : Fin 64 → EReal) : EReal :=
  max negInf (Finset.univ.fold max negInf l)

def logits (h : Fin 2048 → Fin 2048 → EReal) (aw : Fin 64 → Fin 2048 → EReal) (ab : Fin 64 → EReal)
    (n : Fin 2048) (a : Fin 64) : EReal :=
  mmT h aw n a + ab a

-- the log-softmax of the action logits, with the row maximum subtracted first
def logp (h : Fin 2048 → Fin 2048 → EReal) (aw : Fin 64 → Fin 2048 → EReal) (ab : Fin 64 → EReal)
    (n : Fin 2048) (a : Fin 64) : EReal :=
  (logits h aw ab n a - rowMax (logits h aw ab n))
    - Ideal.log (∑ a' : Fin 64, Ideal.exp (logits h aw ab n a' - rowMax (logits h aw ab n)))

-- the value head: h · val_wᵀ + val_b
def value (h : Fin 2048 → Fin 2048 → EReal) (vw : Fin 2048 → EReal) (vb : EReal) (n : Fin 2048) : EReal :=
  (∑ k : Fin 2048, h n k * vw k) + vb

structure Args where
  obs : Fin 2048 → Fin 1024 → EReal
  alive : Fin 2048 → EReal
  encw : Fin 2048 → Fin 1024 → EReal
  encb : Fin 2048 → EReal
  gw : Fin 2048 → Fin 2048 → EReal
  gb : Fin 2048 → EReal
  wih : Fin 8192 → Fin 2048 → EReal
  whh : Fin 8192 → Fin 2048 → EReal
  bih : Fin 8192 → EReal
  bhh : Fin 8192 → EReal
  actw : Fin 64 → Fin 2048 → EReal
  actb : Fin 64 → EReal
  valw : Fin 2048 → EReal
  valb : EReal

def zero2 : Fin 2048 → Fin 2048 → EReal := fun _ _ => 0

variable (a : Args)

-- the network: encoding, static weight, an LSTM step from zero states, two rounds of gate, gated sum and LSTM step, two heads
def E : Fin 2048 → Fin 2048 → EReal := enc a.obs a.encw a.encb
def S : Fin 2048 → Fin 2048 → EReal := sw a.alive
def H1 : Fin 2048 → Fin 2048 → EReal := hNew (E a) zero2 zero2 a.wih a.whh a.bih a.bhh
def C1 : Fin 2048 → Fin 2048 → EReal := cellNew (E a) zero2 zero2 a.wih a.whh a.bih a.bhh
def G1 : Fin 2048 → Fin 2048 → EReal := gate (H1 a) a.gw a.gb (S a)
def I1 : Fin 2048 → Fin 2048 → EReal := bsum (G1 a) (H1 a) (E a)
def H2 : Fin 2048 → Fin 2048 → EReal := hNew (I1 a) (H1 a) (C1 a) a.wih a.whh a.bih a.bhh
def C2 : Fin 2048 → Fin 2048 → EReal := cellNew (I1 a) (H1 a) (C1 a) a.wih a.whh a.bih a.bhh
def G2 : Fin 2048 → Fin 2048 → EReal := gate (H2 a) a.gw a.gb (S a)
def I2 : Fin 2048 → Fin 2048 → EReal := bsum (G2 a) (H2 a) (E a)
def H3 : Fin 2048 → Fin 2048 → EReal := hNew (I2 a) (H2 a) (C2 a) a.wih a.whh a.bih a.bhh
def outLogp : Fin 2048 → Fin 64 → EReal := logp (H3 a) a.actw a.actb
def outValue : Fin 2048 → EReal := value (H3 a) a.valw a.valb

end Cert.Spec

end
-- ==== Proof.SpecArrays.lean ====
import proofs.«412769_j28716151341139_3_alg».proof.Proof.Spec
import Idealize.ShloMosaic.Lib.ValueIdx

noncomputable section

open scoped BigOperators

namespace Cert.Spec

open Idealize.ShloMosaic Idealize.ShloMosaic.ValueIdx

def argsOf (x0 : (⟨3, ![1, 2048, 1024]⟩ : Shape).Idx → EReal) (x1 : (⟨1, ![2048]⟩ : Shape).Idx → EReal)
    (x2 : (⟨2, ![2048, 1024]⟩ : Shape).Idx → EReal) (x3 : (⟨1, ![2048]⟩ : Shape).Idx → EReal)
    (x4 : (⟨2, ![2048, 2048]⟩ : Shape).Idx → EReal) (x5 : (⟨1, ![2048]⟩ : Shape).Idx → EReal)
    (x6 x7 : (⟨2, ![8192, 2048]⟩ : Shape).Idx → EReal) (x8 x9 : (⟨1, ![8192]⟩ : Shape).Idx → EReal)
    (x10 : (⟨2, ![64, 2048]⟩ : Shape).Idx → EReal) (x11 : (⟨1, ![64]⟩ : Shape).Idx → EReal)
    (x12 : (⟨2, ![1, 2048]⟩ : Shape).Idx → EReal) (x13 : (⟨1, ![1]⟩ : Shape).Idx → EReal) : Args where
  obs n o := x0 (ix3 0 n o)
  alive n := x1 (ix1 n)
  encw h o := x2 (ix2 h o)
  encb h := x3 (ix1 h)
  gw k h := x4 (ix2 k h)
  gb k := x5 (ix1 k)
  wih r k := x6 (ix2 r k)
  whh r k := x7 (ix2 r k)
  bih r := x8 (ix1 r)
  bhh r := x9 (ix1 r)
  actw a k := x10 (ix2 a k)
  actb a := x11 (ix1 a)
  valw k := x12 (ix2 0 k)
  valb := x13 (ix1 0)

def permRow (g : Fin 4) (u : Fin 2048) : Fin 8192 :=
  ⟨(u.val / 512) * 2048 + g.val * 512 + u.val % 512, by have := g.isLt; have := u.isLt; omega⟩

def preactP (inp h : Fin 2048 → Fin 2048 → EReal) (wihP whhP : Fin 8192 → Fin 2048 → EReal) (biasP : Fin 8192 → EReal)
    (g : Fin 4) (n u : Fin 2048) : EReal :=
  (mmT inp wihP n (permRow g u) + mmT h whhP n (permRow g u)) + biasP (permRow g u)

def cellNewP (inp h cell : Fin 2048 → Fin 2048 → EReal) (wihP whhP : Fin 8192 → Fin 2048 → EReal) (biasP : Fin 8192 → EReal)
    (n u : Fin 2048) : EReal :=
  Ideal.logistic (preactP inp h wihP whhP biasP 1 n u) * cell n u
    + Ideal.logistic (preactP inp h wihP whhP biasP 0 n u) * Ideal.tanh (preactP inp h wihP whhP biasP 2 n u)

def hNewP (inp h cell : Fin 2048 → Fin 2048 → EReal) (wihP whhP : Fin 8192 → Fin 2048 → EReal) (biasP : Fin 8192 → EReal)
    (n u : Fin 2048) : EReal :=
  Ideal.logistic (preactP inp h wihP whhP biasP 3 n u) * Ideal.tanh (cellNewP inp h cell wihP whhP biasP n u)

end Cert.Spec

end
-- ==== Proof.KI.HostVals.lean ====
import proofs.«412769_j28716151341139_3_alg».proof.Proof.KI.Vals
import proofs.«412769_j28716151341139_3_alg».proof.Proof.SpecArrays
import Idealize.ShloMosaic.Lib.ValueIdx
import Idealize.ShloMosaic.Lib.Pipeline.Value
import Idealize.ShloMosaic.Lib.ValueLayout
import Idealize.ShloMosaic.Lib.IdealHost
import Idealize.ShloMosaic.Lib.StableHlo.Run
import Idealize.ShloMosaic.PureOps.Ideal.Laws

set_option maxRecDepth 16384

noncomputable section

open scoped BigOperators

namespace Cert.KernelIdeal.HandVal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

namespace HV

variable (W : Valuation τ sig (Elt Ideal))

section Layout
variable {α : Type}

theorem tileMajor_apply {K : ℕ} (x : (⟨2, ![8192, K]⟩ : Shape).Idx → α)
    (h1 : (⟨2, ![8192, K]⟩ : Shape).ShapeCasts ⟨4, ![4, 4, 512, K]⟩)
    (h2 : (⟨4, ![4, 4, 512, K]⟩ : Shape).Transposes [1, 0, 2, 3] ⟨4, ![4, 4, 512, K]⟩)
    (h3 : (⟨4, ![4, 4, 512, K]⟩ : Shape).ShapeCasts ⟨2, ![8192, K]⟩)
    (g : Fin 4) (u : Fin 2048) (k : Fin K) :
    shapeCast ⟨2, ![8192, K]⟩ (transpose ⟨4, ![4, 4, 512, K]⟩ [1, 0, 2, 3] (shapeCast ⟨4, ![4, 4, 512, K]⟩ x h1) h2) h3
        (ix2 (Cert.Spec.permRow g u) k)
      = x (ix2 (Cert.Spec.gateRow g u) k) := by
  have hj : u.val / 512 < 4 := by have := u.isLt; omega
  have hr : u.val % 512 < 512 := Nat.mod_lt _ (by norm_num)
  rw [shapeCast_apply _ h3 (ix2 (Cert.Spec.permRow g u) k) (ix4 (⟨u.val / 512, hj⟩ : Fin 4) g (⟨u.val % 512, hr⟩ : Fin 512) k) (by
    rw [Shape.rowMajor_val_four, Shape.rowMajor_val_two]
    show ((u.val / 512 * 4 + g.val) * 512 + u.val % 512) * K + k.val = (u.val / 512 * 2048 + g.val * 512 + u.val % 512) * K + k.val
    congr 1; congr 1; omega)]
  rw [transpose_apply [1, 0, 2, 3] _ h2 (ix4 (⟨u.val / 512, hj⟩ : Fin 4) g (⟨u.val % 512, hr⟩ : Fin 512) k)
    (ix4 g (⟨u.val / 512, hj⟩ : Fin 4) (⟨u.val % 512, hr⟩ : Fin 512) k)
    (fun b => match b with | ⟨0, _⟩ => rfl | ⟨1, _⟩ => rfl | ⟨2, _⟩ => rfl | ⟨3, _⟩ => rfl)]
  exact shapeCast_apply _ h1 _ _ (by
    rw [Shape.rowMajor_val_four, Shape.rowMajor_val_two]
    show (g.val * 2048 + u.val) * K + k.val = ((g.val * 4 + u.val / 512) * 512 + u.val % 512) * K + k.val
    congr 1; congr 1; omega)

theorem tileMajorRow_apply (x : (⟨1, ![8192]⟩ : Shape).Idx → α)
    (h1 : (⟨1, ![8192]⟩ : Shape).ShapeCasts ⟨3, ![4, 4, 512]⟩)
    (h2 : (⟨3, ![4, 4, 512]⟩ : Shape).Transposes [1, 0, 2] ⟨3, ![4, 4, 512]⟩)
    (h3 : (⟨3, ![4, 4, 512]⟩ : Shape).ShapeCasts ⟨2, ![1, 8192]⟩)
    (z : Fin 1) (g : Fin 4) (u : Fin 2048) :
    shapeCast ⟨2, ![1, 8192]⟩ (transpose ⟨3, ![4, 4, 512]⟩ [1, 0, 2] (shapeCast ⟨3, ![4, 4, 512]⟩ x h1) h2) h3
        (ix2 z (Cert.Spec.permRow g u))
      = x (ix1 (Cert.Spec.gateRow g u)) := by
  have hj : u.val / 512 < 4 := by have := u.isLt; omega
  have hr : u.val % 512 < 512 := Nat.mod_lt _ (by norm_num)
  have hz : z.val = 0 := by omega
  rw [shapeCast_apply _ h3 (ix2 z (Cert.Spec.permRow g u)) (ix3 (⟨u.val / 512, hj⟩ : Fin 4) g (⟨u.val % 512, hr⟩ : Fin 512)) (by
    rw [Shape.rowMajor_val_three, Shape.rowMajor_val_two]
    show (u.val / 512 * 4 + g.val) * 512 + u.val % 512 = z.val * 8192 + (u.val / 512 * 2048 + g.val * 512 + u.val % 512)
    omega)]
  rw [transpose_apply [1, 0, 2] _ h2 (ix3 (⟨u.val / 512, hj⟩ : Fin 4) g (⟨u.val % 512, hr⟩ : Fin 512))
    (ix3 g (⟨u.val / 512, hj⟩ : Fin 4) (⟨u.val % 512, hr⟩ : Fin 512))
    (fun b => match b with | ⟨0, _⟩ => rfl | ⟨1, _⟩ => rfl | ⟨2, _⟩ => rfl)]
  exact shapeCast_apply _ h1 _ _ (by
    rw [Shape.rowMajor_val_three, Shape.rowMajor_val_one]
    show g.val * 2048 + u.val = (g.val * 4 + u.val / 512) * 512 + u.val % 512
    omega)

end Layout

theorem host0_v0 : (StableHlo.after hostOps0 W (Proc.devRef .tc main_v0) : S2048x1024.Idx → EReal)
    = shapeCast S2048x1024 (W (Proc.devRef .tc main_arg0) : S1x2048x1024.Idx → EReal) shapeCasts_S1x2048x1024_S2048x1024 := by
  simp only [hostOps0]; (after_results <;> rfl)

theorem host0_v0_apply (n : Fin 2048) (o : Fin 1024) :
    (StableHlo.after hostOps0 W (Proc.devRef .tc main_v0) : S2048x1024.Idx → EReal) (ix2 n o)
      = (W (Proc.devRef .tc main_arg0) : S1x2048x1024.Idx → EReal) (ix3 0 n o) := by
  rw [host0_v0 W]; exact shapeCast_1ab_ab_apply _ _ n o

theorem host0_v1 : (StableHlo.after hostOps0 W (Proc.devRef .tc main_v1) : S2048x1024.Idx → EReal)
    = ((truncf .bf16 (W (Proc.devRef .tc main_arg2) : FVec Ideal S2048x1024 .f32) bitsLt_bf16_f32 : FVec Ideal S2048x1024 .bf16) : S2048x1024.Idx → EReal) := by
  simp only [hostOps0]; (after_results <;> rfl)

theorem host0_v2 : (StableHlo.after hostOps0 W (Proc.devRef .tc main_v2) : S2048x2048.Idx → EReal)
    = ((truncf .bf16 (W (Proc.devRef .tc main_arg4) : FVec Ideal S2048x2048 .f32) bitsLt_bf16_f32 : FVec Ideal S2048x2048 .bf16) : S2048x2048.Idx → EReal) := by
  simp only [hostOps0]; (after_results <;> rfl)

theorem host0_v3 : (StableHlo.after hostOps0 W (Proc.devRef .tc main_v3) : S64x2048.Idx → EReal)
    = ((truncf .bf16 (W (Proc.devRef .tc main_arg10) : FVec Ideal S64x2048 .f32) bitsLt_bf16_f32 : FVec Ideal S64x2048 .bf16) : S64x2048.Idx → EReal) := by
  simp only [hostOps0]; (after_results <;> rfl)

theorem host0_v7 : (StableHlo.after hostOps0 W (Proc.devRef .tc main_v7) : S8192x2048.Idx → EReal)
    = ((truncf .bf16 (shapeCast S8192x2048 (transpose S4x4x512x2048 [1, 0, 2, 3] (shapeCast S4x4x512x2048 (W (Proc.devRef .tc main_arg6) : FVec Ideal S8192x2048 .f32) shapeCasts_S8192x2048_S4x4x512x2048) transposes_S4x4x512x2048_S4x4x512x2048_1_0_2_3) shapeCasts_S4x4x512x2048_S8192x2048 : FVec Ideal S8192x2048 .f32) bitsLt_bf16_f32 : FVec Ideal S8192x2048 .bf16) : S8192x2048.Idx → EReal) := by
  simp only [hostOps0]; (after_results <;> rfl)

theorem host0_v7_apply (g : Fin 4) (u k : Fin 2048) :
    (StableHlo.after hostOps0 W (Proc.devRef .tc main_v7) : S8192x2048.Idx → EReal) (ix2 (Cert.Spec.permRow g u) k)
      = (W (Proc.devRef .tc main_arg6) : S8192x2048.Idx → EReal) (ix2 (Cert.Spec.gateRow g u) k) := by
  rw [host0_v7 W, truncf_apply]; exact tileMajor_apply _ _ _ _ g u k

theorem host0_v11 : (StableHlo.after hostOps0 W (Proc.devRef .tc main_v11) : S8192x2048.Idx → EReal)
    = ((truncf .bf16 (shapeCast S8192x2048 (transpose S4x4x512x2048 [1, 0, 2, 3] (shapeCast S4x4x512x2048 (W (Proc.devRef .tc main_arg7) : FVec Ideal S8192x2048 .f32) shapeCasts_S8192x2048_S4x4x512x2048) transposes_S4x4x512x2048_S4x4x512x2048_1_0_2_3) shapeCasts_S4x4x512x2048_S8192x2048 : FVec Ideal S8192x2048 .f32) bitsLt_bf16_f32 : FVec Ideal S8192x2048 .bf16) : S8192x2048.Idx → EReal) := by
  simp only [hostOps0]; (after_results <;> rfl)

theorem host0_v11_apply (g : Fin 4) (u k : Fin 2048) :
    (StableHlo.after hostOps0 W (Proc.devRef .tc main_v11) : S8192x2048.Idx → EReal) (ix2 (Cert.Spec.permRow g u) k)
      = (W (Proc.devRef .tc main_arg7) : S8192x2048.Idx → EReal) (ix2 (Cert.Spec.gateRow g u) k) := by
  rw [host0_v11 W, truncf_apply]; exact tileMajor_apply _ _ _ _ g u k

theorem host0_v15 (b8 b9 : FVec Ideal S8192 .f32) (h8 : W (Proc.devRef .tc main_arg8) = b8) (h9 : W (Proc.devRef .tc main_arg9) = b9) :
    (StableHlo.after hostOps0 W (Proc.devRef .tc main_v15) : S1x8192.Idx → EReal)
    = shapeCast S1x8192 (transpose S4x4x512 [1, 0, 2] (shapeCast S4x4x512 (addf b8 b9) shapeCasts_S8192_S4x4x512) transposes_S4x4x512_S4x4x512_1_0_2) shapeCasts_S4x4x512_S1x8192 := by
  subst h8 h9
  simp only [hostOps0]; (after_results <;> rfl)

theorem host0_v15_apply (b8 b9 : S8192.Idx → EReal) (h8 : W (Proc.devRef .tc main_arg8) = b8) (h9 : W (Proc.devRef .tc main_arg9) = b9)
    (g : Fin 4) (u : Fin 2048) :
    (StableHlo.after hostOps0 W (Proc.devRef .tc main_v15) : S1x8192.Idx → EReal) (ix2 0 (Cert.Spec.permRow g u))
      = b8 (ix1 (Cert.Spec.gateRow g u)) + b9 (ix1 (Cert.Spec.gateRow g u)) := by
  rw [host0_v15 W b8 b9 h8 h9, tileMajorRow_apply _ _ _ _ 0 g u, addf_apply]

theorem host0_v16 : (StableHlo.after hostOps0 W (Proc.devRef .tc main_v16) : S1x2048.Idx → EReal)
    = shapeCast S1x2048 (W (Proc.devRef .tc main_arg3) : S2048.Idx → EReal) shapeCasts_S2048_S1x2048 := by
  simp only [hostOps0]; (after_results <;> rfl)

theorem host0_v16_apply (h : Fin 2048) :
    (StableHlo.after hostOps0 W (Proc.devRef .tc main_v16) : S1x2048.Idx → EReal) (ix2 0 h)
      = (W (Proc.devRef .tc main_arg3) : S2048.Idx → EReal) (ix1 h) := by
  rw [host0_v16 W]; exact shapeCast_a_1a_apply _ _ 0 h

theorem host0_v1_apply (h : Fin 2048) (o : Fin 1024) :
    (StableHlo.after hostOps0 W (Proc.devRef .tc main_v1) : S2048x1024.Idx → EReal) (ix2 h o)
      = (W (Proc.devRef .tc main_arg2) : S2048x1024.Idx → EReal) (ix2 h o) := by
  rw [host0_v1 W]; rfl

theorem host0_v2_apply (k h : Fin 2048) :
    (StableHlo.after hostOps0 W (Proc.devRef .tc main_v2) : S2048x2048.Idx → EReal) (ix2 k h)
      = (W (Proc.devRef .tc main_arg4) : S2048x2048.Idx → EReal) (ix2 k h) := by
  rw [host0_v2 W]; rfl

theorem host0_v3_apply (a : Fin 64) (k : Fin 2048) :
    (StableHlo.after hostOps0 W (Proc.devRef .tc main_v3) : S64x2048.Idx → EReal) (ix2 a k)
      = (W (Proc.devRef .tc main_arg10) : S64x2048.Idx → EReal) (ix2 a k) := by
  rw [host0_v3 W]; rfl

section StaticWeight

theorem eyeInd_apply (hb : S_.BroadcastsInDim S2048x2048 (![] : Fin 0 → Fin S2048x2048.rank)) (j k : Fin 2048) :
    (uitofp .f32 (cmpi .eq (addi (iotaInDim S2048x2048 32 0) (broadcastInDim S2048x2048 ![] hb (constantI S_ 32 0#32))) (iotaInDim S2048x2048 32 1)) : FVec Ideal S2048x2048 .f32) (ix2 j k)
      = if j.val = k.val then (1 : EReal) else 0 := by
  show (((IntOp.cmpi .eq (IntOp.addi (BitVec.ofNat 32 j.val) (broadcastInDim S2048x2048 ![] hb (constantI S_ 32 0#32) (ix2 j k))) (BitVec.ofNat 32 k.val)).toNat : ℝ) : EReal) = _
  rw [broadcastInDim_scalar_apply, constantI_apply]
  have hj := j.isLt; have hk := k.isLt
  by_cases e : j.val = k.val
  · rw [if_pos e, e]; simp [IntOp.cmpi, IntOp.addi]
  · rw [if_neg e]
    have hne : ¬ BitVec.ofNat 32 j.val = BitVec.ofNat 32 k.val := by
      intro h
      have := congrArg BitVec.toNat h
      simp only [BitVec.toNat_ofNat] at this
      rw [Nat.mod_eq_of_lt (by omega), Nat.mod_eq_of_lt (by omega)] at this
      exact e this
    simp [IntOp.cmpi, IntOp.addi, hne]

theorem outer_apply (x : FVec Ideal S2048 .f32)
    (h1 : S2048.BroadcastsInDim S2048x1 (![0] : Fin 1 → Fin S2048x1.rank))
    (h2 : S2048.BroadcastsInDim S1x2048 (![1] : Fin 1 → Fin S1x2048.rank))
    (h3 : S2048x1.BroadcastsInDim S2048x2048 (![0, 1] : Fin 2 → Fin S2048x2048.rank))
    (h4 : S1x2048.BroadcastsInDim S2048x2048 (![0, 1] : Fin 2 → Fin S2048x2048.rank)) (j k : Fin 2048) :
    (mulf (broadcastInDim S2048x2048 ![0, 1] h3 (broadcastInDim S2048x1 ![0] h1 x))
          (broadcastInDim S2048x2048 ![0, 1] h4 (broadcastInDim S1x2048 ![1] h2 x)) : FVec Ideal S2048x2048 .f32) (ix2 j k)
      = x (ix1 j) * x (ix1 k) := by
  rw [mulf_apply]
  rw [broadcastInDim_apply ![0, 1] h3 _ (ix2 j k) (ix2 j (0 : Fin 1)) (fun a => match a with | ⟨0, _⟩ => rfl | ⟨1, _⟩ => rfl)]
  rw [broadcastInDim_apply ![0] h1 _ (ix2 j (0 : Fin 1)) (ix1 j) (fun a => match a with | ⟨0, _⟩ => rfl)]
  rw [broadcastInDim_apply ![0, 1] h4 _ (ix2 j k) (ix2 (0 : Fin 1) k) (fun a => match a with | ⟨0, _⟩ => rfl | ⟨1, _⟩ => rfl)]
  rw [broadcastInDim_apply ![1] h2 _ (ix2 (0 : Fin 1) k) (ix1 k) (fun a => match a with | ⟨0, _⟩ => rfl)]

theorem total_apply (x : FVec Ideal S2048 .f32) (h : S2048.ReducesTo [0] S_) (hu : 0 < S_.numel) :
    (Host.reduceAdd x (constant (F := Ideal) S_ .f32 0x00000000#32) h hu : FVec Ideal S_ .f32) ix0 = ∑ i : Fin 2048, x (ix1 i) := by
  rw [hostReduceAdd_apply, Ideal.hostReduceAdd_total h (fun b => b.elim0), constant_apply, Ideal.ofBits_zero_f32, zero_add]
  exact Fintype.sum_equiv ⟨fun i => i 0, fun a => ix1 a, fun i => (eq_ix1 i).symm, fun a => rfl⟩ _ _ (fun i => congrArg x (eq_ix1 i))

end StaticWeight

def swTerm (x : FVec Ideal S2048 .f32) : FVec Ideal S2048x2048 .f32 :=
  Host.divf
    (mulf (subf (broadcastInDim S2048x2048 ![] bcast_S_S2048x2048 (constant (F := Ideal) S_ .f32 0x3F800000#32))
                (uitofp .f32 (cmpi .eq (addi (iotaInDim S2048x2048 32 0) (broadcastInDim S2048x2048 ![] bcast_S_S2048x2048 (constantI S_ 32 0#32))) (iotaInDim S2048x2048 32 1))))
          (mulf (broadcastInDim S2048x2048 ![0, 1] bcast_S2048x1_S2048x2048_0_1 (broadcastInDim S2048x1 ![0] bcast_S2048_S2048x1_0 x))
                (broadcastInDim S2048x2048 ![0, 1] bcast_S1x2048_S2048x2048_0_1 (broadcastInDim S1x2048 ![1] bcast_S2048_S1x2048_1 x))))
    (broadcastInDim S2048x2048 ![] bcast_S_S2048x2048
      (subf (Host.reduceAdd x (constant (F := Ideal) S_ .f32 0x00000000#32) reducesTo_S2048_S_d0 h_S_) (constant (F := Ideal) S_ .f32 0x3F800000#32)))

theorem swTerm_apply (x : FVec Ideal S2048 .f32) (j k : Fin 2048) :
    swTerm x (ix2 j k) = Cert.Spec.sw (fun n => x (ix1 n)) j k := by
  unfold swTerm Cert.Spec.sw
  rw [hostDivf_apply, mulf_apply, subf_apply, eyeInd_apply, outer_apply, broadcastInDim_scalar_apply, constant_apply,
    Ideal.ofBits_one_f32, broadcastInDim_scalar_apply, subf_apply, total_apply, constant_apply, Ideal.ofBits_one_f32]

theorem host1_v35 (x : FVec Ideal S2048 .f32) (hx : W (Proc.devRef .tc main_arg1) = x) :
    (StableHlo.after hostOps1 W (Proc.devRef .tc main_v35) : S2048x2048.Idx → EReal) = swTerm x := by
  subst hx
  simp only [hostOps1]; (after_results_simp <;> rfl)

theorem host1_v36 (x : S64.Idx → EReal) (hx : W (Proc.devRef .tc main_arg11) = x) :
    (StableHlo.after hostOps1 W (Proc.devRef .tc main_v36) : S1x64.Idx → EReal) = shapeCast S1x64 x shapeCasts_S64_S1x64 := by
  subst hx
  simp only [hostOps1]; (after_results <;> rfl)

theorem host1_v37 (x : S1.Idx → EReal) (hx : W (Proc.devRef .tc main_arg13) = x) :
    (StableHlo.after hostOps1 W (Proc.devRef .tc main_v37) : S1x1.Idx → EReal) = shapeCast S1x1 x shapeCasts_S1_S1x1 := by
  subst hx
  simp only [hostOps1]; (after_results <;> rfl)

theorem host1_v38 : (StableHlo.after hostOps1 W (Proc.devRef .tc main_v38) : S2048x2048.Idx → EReal)
    = broadcastInDim S2048x2048 ![] bcast_S_S2048x2048 (constant (F := Ideal) S_ .f32 0x00000000#32) := by
  simp only [hostOps1]; (after_results <;> rfl)

theorem host1_v39 : (StableHlo.after hostOps1 W (Proc.devRef .tc main_v39) : S2048x2048.Idx → EReal)
    = broadcastInDim S2048x2048 ![] bcast_S_S2048x2048 (constant (F := Ideal) S_ .f32 0x00000000#32) := by
  simp only [hostOps1]; (after_results <;> rfl)

theorem zeroSplat_apply (hb : S_.BroadcastsInDim S2048x2048 (![] : Fin 0 → Fin S2048x2048.rank)) (i : S2048x2048.Idx) :
    (broadcastInDim S2048x2048 ![] hb (constant (F := Ideal) S_ .f32 0x00000000#32) : S2048x2048.Idx → EReal) i = 0 := by
  rw [broadcastInDim_scalar_apply, constant_apply, Ideal.ofBits_zero_f32]

theorem host2_v41 (x : S2048.Idx → EReal) (hx : W (Proc.devRef .tc main_arg5) = x) :
    (StableHlo.after hostOps2 W (Proc.devRef .tc main_v41) : S1x2048.Idx → EReal) = shapeCast S1x2048 x shapeCasts_S2048_S1x2048 := by
  subst hx
  simp only [hostOps2]; (after_results <;> rfl)

theorem host5_v45 (x : S2048.Idx → EReal) (hx : W (Proc.devRef .tc main_arg5) = x) :
    (StableHlo.after hostOps5 W (Proc.devRef .tc main_v45) : S1x2048.Idx → EReal) = shapeCast S1x2048 x shapeCasts_S2048_S1x2048 := by
  subst hx
  simp only [hostOps5]; (after_results <;> rfl)

theorem host9_v50 (x : S2048x64.Idx → EReal) (hx : W (Proc.devRef .tc main_v49_0) = x) :
    (StableHlo.after hostOps9 W (Proc.devRef .tc main_v50) : S1x2048x64.Idx → EReal) = shapeCast S1x2048x64 x shapeCasts_S2048x64_S1x2048x64 := by
  subst hx
  simp only [hostOps9]; (after_results <;> rfl)

theorem host9_v51 (x : S2048x1.Idx → EReal) (hx : W (Proc.devRef .tc main_v49_1) = x) :
    (StableHlo.after hostOps9 W (Proc.devRef .tc main_v51) : S1x2048x1.Idx → EReal) = shapeCast S1x2048x1 x shapeCasts_S2048x1_S1x2048x1 := by
  subst hx
  simp only [hostOps9]; (after_results <;> rfl)

end HV

variable (m : (ℓ : Loc nD τ sig) → Buf (Elt Ideal) ℓ) (c : Dev nD)

abbrev A : Cert.Spec.Args :=
  Cert.Spec.argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13))

theorem U1_of (r : Ref sig .tc) (h : r ∉ (hostOps0_W : List (Ref sig .tc))) : U1 m c r = U0 m c r :=
  StableHlo.after_of_writes_sub hostOps0 _ hostOps0_writes h
theorem U2_of (r : Ref sig .tc) (h : r ∉ ([main_v17] : List (Ref sig .tc))) : U2 m c r = U1 m c r := by
  simp only [U2, Function.update_of_ne (StableHlo.devRef_ne_of_ne (List.ne_of_not_mem_cons h) : (Proc.devRef .tc r : DevRef τ sig) ≠ Proc.devRef .tc main_v17)]
theorem U3_of (r : Ref sig .tc) (h : r ∉ (hostOps1_W : List (Ref sig .tc))) : U3 m c r = U2 m c r :=
  StableHlo.after_of_writes_sub hostOps1 _ hostOps1_writes h
theorem U4_of (r : Ref sig .tc) (h : r ∉ ([main_v40_0, main_v40_1] : List (Ref sig .tc))) : U4 m c r = U3 m c r := by
  simp only [U4, Function.update_of_ne (StableHlo.devRef_ne_of_ne (List.ne_of_not_mem_cons h) : (Proc.devRef .tc r : DevRef τ sig) ≠ Proc.devRef .tc main_v40_0), Function.update_of_ne (StableHlo.devRef_ne_of_ne (List.ne_of_not_mem_cons (List.not_mem_of_not_mem_cons h)) : (Proc.devRef .tc r : DevRef τ sig) ≠ Proc.devRef .tc main_v40_1)]
theorem U5_of (r : Ref sig .tc) (h : r ∉ (hostOps2_W : List (Ref sig .tc))) : U5 m c r = U4 m c r :=
  StableHlo.after_of_writes_sub hostOps2 _ hostOps2_writes h
theorem U6_of (r : Ref sig .tc) (h : r ∉ ([main_v42] : List (Ref sig .tc))) : U6 m c r = U5 m c r := by
  simp only [U6, Function.update_of_ne (StableHlo.devRef_ne_of_ne (List.ne_of_not_mem_cons h) : (Proc.devRef .tc r : DevRef τ sig) ≠ Proc.devRef .tc main_v42)]
theorem U7_of (r : Ref sig .tc) (h : r ∉ ([main_v43] : List (Ref sig .tc))) : U7 m c r = U6 m c r := by
  simp only [U7, Function.update_of_ne (StableHlo.devRef_ne_of_ne (List.ne_of_not_mem_cons h) : (Proc.devRef .tc r : DevRef τ sig) ≠ Proc.devRef .tc main_v43)]
theorem U8_of (r : Ref sig .tc) (h : r ∉ ([main_v44_0, main_v44_1] : List (Ref sig .tc))) : U8 m c r = U7 m c r := by
  simp only [U8, Function.update_of_ne (StableHlo.devRef_ne_of_ne (List.ne_of_not_mem_cons h) : (Proc.devRef .tc r : DevRef τ sig) ≠ Proc.devRef .tc main_v44_0), Function.update_of_ne (StableHlo.devRef_ne_of_ne (List.ne_of_not_mem_cons (List.not_mem_of_not_mem_cons h)) : (Proc.devRef .tc r : DevRef τ sig) ≠ Proc.devRef .tc main_v44_1)]
theorem U9_of (r : Ref sig .tc) (h : r ∉ (hostOps5_W : List (Ref sig .tc))) : U9 m c r = U8 m c r :=
  StableHlo.after_of_writes_sub hostOps5 _ hostOps5_writes h
theorem U10_of (r : Ref sig .tc) (h : r ∉ ([main_v46] : List (Ref sig .tc))) : U10 m c r = U9 m c r := by
  simp only [U10, Function.update_of_ne (StableHlo.devRef_ne_of_ne (List.ne_of_not_mem_cons h) : (Proc.devRef .tc r : DevRef τ sig) ≠ Proc.devRef .tc main_v46)]
theorem U11_of (r : Ref sig .tc) (h : r ∉ ([main_v47] : List (Ref sig .tc))) : U11 m c r = U10 m c r := by
  simp only [U11, Function.update_of_ne (StableHlo.devRef_ne_of_ne (List.ne_of_not_mem_cons h) : (Proc.devRef .tc r : DevRef τ sig) ≠ Proc.devRef .tc main_v47)]
theorem U12_of (r : Ref sig .tc) (h : r ∉ ([main_v48_0, main_v48_1] : List (Ref sig .tc))) : U12 m c r = U11 m c r := by
  simp only [U12, Function.update_of_ne (StableHlo.devRef_ne_of_ne (List.ne_of_not_mem_cons h) : (Proc.devRef .tc r : DevRef τ sig) ≠ Proc.devRef .tc main_v48_0), Function.update_of_ne (StableHlo.devRef_ne_of_ne (List.ne_of_not_mem_cons (List.not_mem_of_not_mem_cons h)) : (Proc.devRef .tc r : DevRef τ sig) ≠ Proc.devRef .tc main_v48_1)]
theorem U13_of (r : Ref sig .tc) (h : r ∉ ([main_v49_0, main_v49_1] : List (Ref sig .tc))) : U13 m c r = U12 m c r := by
  simp only [U13, Function.update_of_ne (StableHlo.devRef_ne_of_ne (List.ne_of_not_mem_cons h) : (Proc.devRef .tc r : DevRef τ sig) ≠ Proc.devRef .tc main_v49_0), Function.update_of_ne (StableHlo.devRef_ne_of_ne (List.ne_of_not_mem_cons (List.not_mem_of_not_mem_cons h)) : (Proc.devRef .tc r : DevRef τ sig) ≠ Proc.devRef .tc main_v49_1)]
theorem U14_of (r : Ref sig .tc) (h : r ∉ (hostOps9_W : List (Ref sig .tc))) : U14 m c r = U13 m c r :=
  StableHlo.after_of_writes_sub hostOps9 _ hostOps9_writes h

theorem keep_v7_3 : U3 m c main_v7 = U1 m c main_v7 :=
  (U3_of m c main_v7 (by decide)).trans <| (U2_of m c main_v7 (by decide))
theorem keep_v7_7 : U7 m c main_v7 = U1 m c main_v7 :=
  (U7_of m c main_v7 (by decide)).trans <| (U6_of m c main_v7 (by decide)).trans <| (U5_of m c main_v7 (by decide)).trans <| (U4_of m c main_v7 (by decide)).trans <| (U3_of m c main_v7 (by decide)).trans <| (U2_of m c main_v7 (by decide))
theorem keep_v7_11 : U11 m c main_v7 = U1 m c main_v7 :=
  (U11_of m c main_v7 (by decide)).trans <| (U10_of m c main_v7 (by decide)).trans <| (U9_of m c main_v7 (by decide)).trans <| (U8_of m c main_v7 (by decide)).trans <| (U7_of m c main_v7 (by decide)).trans <| (U6_of m c main_v7 (by decide)).trans <| (U5_of m c main_v7 (by decide)).trans <| (U4_of m c main_v7 (by decide)).trans <| (U3_of m c main_v7 (by decide)).trans <| (U2_of m c main_v7 (by decide))
theorem keep_v11_3 : U3 m c main_v11 = U1 m c main_v11 :=
  (U3_of m c main_v11 (by decide)).trans <| (U2_of m c main_v11 (by decide))
theorem keep_v11_7 : U7 m c main_v11 = U1 m c main_v11 :=
  (U7_of m c main_v11 (by decide)).trans <| (U6_of m c main_v11 (by decide)).trans <| (U5_of m c main_v11 (by decide)).trans <| (U4_of m c main_v11 (by decide)).trans <| (U3_of m c main_v11 (by decide)).trans <| (U2_of m c main_v11 (by decide))
theorem keep_v11_11 : U11 m c main_v11 = U1 m c main_v11 :=
  (U11_of m c main_v11 (by decide)).trans <| (U10_of m c main_v11 (by decide)).trans <| (U9_of m c main_v11 (by decide)).trans <| (U8_of m c main_v11 (by decide)).trans <| (U7_of m c main_v11 (by decide)).trans <| (U6_of m c main_v11 (by decide)).trans <| (U5_of m c main_v11 (by decide)).trans <| (U4_of m c main_v11 (by decide)).trans <| (U3_of m c main_v11 (by decide)).trans <| (U2_of m c main_v11 (by decide))
theorem keep_v15_3 : U3 m c main_v15 = U1 m c main_v15 :=
  (U3_of m c main_v15 (by decide)).trans <| (U2_of m c main_v15 (by decide))
theorem keep_v15_7 : U7 m c main_v15 = U1 m c main_v15 :=
  (U7_of m c main_v15 (by decide)).trans <| (U6_of m c main_v15 (by decide)).trans <| (U5_of m c main_v15 (by decide)).trans <| (U4_of m c main_v15 (by decide)).trans <| (U3_of m c main_v15 (by decide)).trans <| (U2_of m c main_v15 (by decide))
theorem keep_v15_11 : U11 m c main_v15 = U1 m c main_v15 :=
  (U11_of m c main_v15 (by decide)).trans <| (U10_of m c main_v15 (by decide)).trans <| (U9_of m c main_v15 (by decide)).trans <| (U8_of m c main_v15 (by decide)).trans <| (U7_of m c main_v15 (by decide)).trans <| (U6_of m c main_v15 (by decide)).trans <| (U5_of m c main_v15 (by decide)).trans <| (U4_of m c main_v15 (by decide)).trans <| (U3_of m c main_v15 (by decide)).trans <| (U2_of m c main_v15 (by decide))
theorem keep_v17_3 : U3 m c main_v17 = U2 m c main_v17 :=
  (U3_of m c main_v17 (by decide))
theorem keep_v17_6 : U6 m c main_v17 = U2 m c main_v17 :=
  (U6_of m c main_v17 (by decide)).trans <| (U5_of m c main_v17 (by decide)).trans <| (U4_of m c main_v17 (by decide)).trans <| (U3_of m c main_v17 (by decide))
theorem keep_v17_10 : U10 m c main_v17 = U2 m c main_v17 :=
  (U10_of m c main_v17 (by decide)).trans <| (U9_of m c main_v17 (by decide)).trans <| (U8_of m c main_v17 (by decide)).trans <| (U7_of m c main_v17 (by decide)).trans <| (U6_of m c main_v17 (by decide)).trans <| (U5_of m c main_v17 (by decide)).trans <| (U4_of m c main_v17 (by decide)).trans <| (U3_of m c main_v17 (by decide))
theorem keep_v2_5 : U5 m c main_v2 = U1 m c main_v2 :=
  (U5_of m c main_v2 (by decide)).trans <| (U4_of m c main_v2 (by decide)).trans <| (U3_of m c main_v2 (by decide)).trans <| (U2_of m c main_v2 (by decide))
theorem keep_v2_9 : U9 m c main_v2 = U1 m c main_v2 :=
  (U9_of m c main_v2 (by decide)).trans <| (U8_of m c main_v2 (by decide)).trans <| (U7_of m c main_v2 (by decide)).trans <| (U6_of m c main_v2 (by decide)).trans <| (U5_of m c main_v2 (by decide)).trans <| (U4_of m c main_v2 (by decide)).trans <| (U3_of m c main_v2 (by decide)).trans <| (U2_of m c main_v2 (by decide))
theorem keep_v35_5 : U5 m c main_v35 = U3 m c main_v35 :=
  (U5_of m c main_v35 (by decide)).trans <| (U4_of m c main_v35 (by decide))
theorem keep_v35_9 : U9 m c main_v35 = U3 m c main_v35 :=
  (U9_of m c main_v35 (by decide)).trans <| (U8_of m c main_v35 (by decide)).trans <| (U7_of m c main_v35 (by decide)).trans <| (U6_of m c main_v35 (by decide)).trans <| (U5_of m c main_v35 (by decide)).trans <| (U4_of m c main_v35 (by decide))
theorem keep_v3_12 : U12 m c main_v3 = U1 m c main_v3 :=
  (U12_of m c main_v3 (by decide)).trans <| (U11_of m c main_v3 (by decide)).trans <| (U10_of m c main_v3 (by decide)).trans <| (U9_of m c main_v3 (by decide)).trans <| (U8_of m c main_v3 (by decide)).trans <| (U7_of m c main_v3 (by decide)).trans <| (U6_of m c main_v3 (by decide)).trans <| (U5_of m c main_v3 (by decide)).trans <| (U4_of m c main_v3 (by decide)).trans <| (U3_of m c main_v3 (by decide)).trans <| (U2_of m c main_v3 (by decide))
theorem keep_v36_12 : U12 m c main_v36 = U3 m c main_v36 :=
  (U12_of m c main_v36 (by decide)).trans <| (U11_of m c main_v36 (by decide)).trans <| (U10_of m c main_v36 (by decide)).trans <| (U9_of m c main_v36 (by decide)).trans <| (U8_of m c main_v36 (by decide)).trans <| (U7_of m c main_v36 (by decide)).trans <| (U6_of m c main_v36 (by decide)).trans <| (U5_of m c main_v36 (by decide)).trans <| (U4_of m c main_v36 (by decide))
theorem keep_v37_12 : U12 m c main_v37 = U3 m c main_v37 :=
  (U12_of m c main_v37 (by decide)).trans <| (U11_of m c main_v37 (by decide)).trans <| (U10_of m c main_v37 (by decide)).trans <| (U9_of m c main_v37 (by decide)).trans <| (U8_of m c main_v37 (by decide)).trans <| (U7_of m c main_v37 (by decide)).trans <| (U6_of m c main_v37 (by decide)).trans <| (U5_of m c main_v37 (by decide)).trans <| (U4_of m c main_v37 (by decide))
theorem keep_arg12_12 : U12 m c main_arg12 = U0 m c main_arg12 :=
  (U12_of m c main_arg12 (by decide)).trans <| (U11_of m c main_arg12 (by decide)).trans <| (U10_of m c main_arg12 (by decide)).trans <| (U9_of m c main_arg12 (by decide)).trans <| (U8_of m c main_arg12 (by decide)).trans <| (U7_of m c main_arg12 (by decide)).trans <| (U6_of m c main_arg12 (by decide)).trans <| (U5_of m c main_arg12 (by decide)).trans <| (U4_of m c main_arg12 (by decide)).trans <| (U3_of m c main_arg12 (by decide)).trans <| (U2_of m c main_arg12 (by decide)).trans <| (U1_of m c main_arg12 (by decide))
theorem keep_v40_0_5 : U5 m c main_v40_0 = U4 m c main_v40_0 :=
  (U5_of m c main_v40_0 (by decide))
theorem keep_v40_0_6 : U6 m c main_v40_0 = U4 m c main_v40_0 :=
  (U6_of m c main_v40_0 (by decide)).trans <| (U5_of m c main_v40_0 (by decide))
theorem keep_v40_0_7 : U7 m c main_v40_0 = U4 m c main_v40_0 :=
  (U7_of m c main_v40_0 (by decide)).trans <| (U6_of m c main_v40_0 (by decide)).trans <| (U5_of m c main_v40_0 (by decide))
theorem keep_v40_1_7 : U7 m c main_v40_1 = U4 m c main_v40_1 :=
  (U7_of m c main_v40_1 (by decide)).trans <| (U6_of m c main_v40_1 (by decide)).trans <| (U5_of m c main_v40_1 (by decide))
theorem keep_v44_0_9 : U9 m c main_v44_0 = U8 m c main_v44_0 :=
  (U9_of m c main_v44_0 (by decide))
theorem keep_v44_0_10 : U10 m c main_v44_0 = U8 m c main_v44_0 :=
  (U10_of m c main_v44_0 (by decide)).trans <| (U9_of m c main_v44_0 (by decide))
theorem keep_v44_0_11 : U11 m c main_v44_0 = U8 m c main_v44_0 :=
  (U11_of m c main_v44_0 (by decide)).trans <| (U10_of m c main_v44_0 (by decide)).trans <| (U9_of m c main_v44_0 (by decide))
theorem keep_v44_1_11 : U11 m c main_v44_1 = U8 m c main_v44_1 :=
  (U11_of m c main_v44_1 (by decide)).trans <| (U10_of m c main_v44_1 (by decide)).trans <| (U9_of m c main_v44_1 (by decide))
theorem keep_arg1_2 : U2 m c main_arg1 = U0 m c main_arg1 :=
  (U2_of m c main_arg1 (by decide)).trans <| (U1_of m c main_arg1 (by decide))
theorem keep_arg11_2 : U2 m c main_arg11 = U0 m c main_arg11 :=
  (U2_of m c main_arg11 (by decide)).trans <| (U1_of m c main_arg11 (by decide))
theorem keep_arg13_2 : U2 m c main_arg13 = U0 m c main_arg13 :=
  (U2_of m c main_arg13 (by decide)).trans <| (U1_of m c main_arg13 (by decide))
theorem keep_arg5_4 : U4 m c main_arg5 = U0 m c main_arg5 :=
  (U4_of m c main_arg5 (by decide)).trans <| (U3_of m c main_arg5 (by decide)).trans <| (U2_of m c main_arg5 (by decide)).trans <| (U1_of m c main_arg5 (by decide))
theorem keep_arg5_8 : U8 m c main_arg5 = U0 m c main_arg5 :=
  (U8_of m c main_arg5 (by decide)).trans <| (U7_of m c main_arg5 (by decide)).trans <| (U6_of m c main_arg5 (by decide)).trans <| (U5_of m c main_arg5 (by decide)).trans <| (U4_of m c main_arg5 (by decide)).trans <| (U3_of m c main_arg5 (by decide)).trans <| (U2_of m c main_arg5 (by decide)).trans <| (U1_of m c main_arg5 (by decide))

theorem wrote_v17 : U2 m c main_v17 = (dat0 (atRefs (U1 m)) c).arrAt 3 cfg0.N := by
  simp only [U2, Function.update_self]
theorem wrote_v40_0 : U4 m c main_v40_0 = (dat1 (atRefs (U3 m)) c).arrAt 6 cfg1.N := by
  simp only [U4, Function.update_of_ne (StableHlo.devRef_ne_of_ne (by decide) : (Proc.devRef .tc main_v40_0 : DevRef τ sig) ≠ Proc.devRef .tc main_v40_1), Function.update_self]
theorem wrote_v40_1 : U4 m c main_v40_1 = (dat1 (atRefs (U3 m)) c).arrAt 7 cfg1.N := by
  simp only [U4, Function.update_self]
theorem wrote_v42 : U6 m c main_v42 = (dat2 (atRefs (U5 m)) c).arrAt 4 cfg2.N := by
  simp only [U6, Function.update_self]
theorem wrote_v43 : U7 m c main_v43 = (dat3 (atRefs (U6 m)) c).arrAt 3 cfg3.N := by
  simp only [U7, Function.update_self]
theorem wrote_v44_0 : U8 m c main_v44_0 = (dat4 (atRefs (U7 m)) c).arrAt 6 cfg4.N := by
  simp only [U8, Function.update_of_ne (StableHlo.devRef_ne_of_ne (by decide) : (Proc.devRef .tc main_v44_0 : DevRef τ sig) ≠ Proc.devRef .tc main_v44_1), Function.update_self]
theorem wrote_v44_1 : U8 m c main_v44_1 = (dat4 (atRefs (U7 m)) c).arrAt 7 cfg4.N := by
  simp only [U8, Function.update_self]
theorem wrote_v46 : U10 m c main_v46 = (dat5 (atRefs (U9 m)) c).arrAt 4 cfg5.N := by
  simp only [U10, Function.update_self]
theorem wrote_v47 : U11 m c main_v47 = (dat6 (atRefs (U10 m)) c).arrAt 3 cfg6.N := by
  simp only [U11, Function.update_self]
theorem wrote_v48_0 : U12 m c main_v48_0 = (dat7 (atRefs (U11 m)) c).arrAt 6 cfg7.N := by
  simp only [U12, Function.update_of_ne (StableHlo.devRef_ne_of_ne (by decide) : (Proc.devRef .tc main_v48_0 : DevRef τ sig) ≠ Proc.devRef .tc main_v48_1), Function.update_self]
theorem wrote_v49_0 : U13 m c main_v49_0 = (dat8 (atRefs (U12 m)) c).arrAt 5 cfg8.N := by
  simp only [U13, Function.update_of_ne (StableHlo.devRef_ne_of_ne (by decide) : (Proc.devRef .tc main_v49_0 : DevRef τ sig) ≠ Proc.devRef .tc main_v49_1), Function.update_self]
theorem wrote_v49_1 : U13 m c main_v49_1 = (dat8 (atRefs (U12 m)) c).arrAt 6 cfg8.N := by
  simp only [U13, Function.update_self]

theorem hv0 (n : Fin 2048) (o : Fin 1024) : (U1 m c main_v0 : S2048x1024.Idx → EReal) (ix2 n o) = (A m c).obs n o :=
  HV.host0_v0_apply (U0 m c) n o

theorem hv1 (h : Fin 2048) (o : Fin 1024) : (U1 m c main_v1 : S2048x1024.Idx → EReal) (ix2 h o) = (A m c).encw h o :=
  HV.host0_v1_apply (U0 m c) h o

theorem hv2 (k h : Fin 2048) : (U1 m c main_v2 : S2048x2048.Idx → EReal) (ix2 k h) = (A m c).gw k h :=
  HV.host0_v2_apply (U0 m c) k h

theorem hv3 (a : Fin 64) (k : Fin 2048) : (U1 m c main_v3 : S64x2048.Idx → EReal) (ix2 a k) = (A m c).actw a k :=
  HV.host0_v3_apply (U0 m c) a k

theorem hv7 (g : Fin 4) (u k : Fin 2048) : (U1 m c main_v7 : S8192x2048.Idx → EReal) (ix2 (Cert.Spec.permRow g u) k) = (A m c).wih (Cert.Spec.gateRow g u) k :=
  HV.host0_v7_apply (U0 m c) g u k

theorem hv11 (g : Fin 4) (u k : Fin 2048) : (U1 m c main_v11 : S8192x2048.Idx → EReal) (ix2 (Cert.Spec.permRow g u) k) = (A m c).whh (Cert.Spec.gateRow g u) k :=
  HV.host0_v11_apply (U0 m c) g u k

theorem hv15 (g : Fin 4) (u : Fin 2048) : (U1 m c main_v15 : S1x8192.Idx → EReal) (ix2 0 (Cert.Spec.permRow g u)) = (A m c).bih (Cert.Spec.gateRow g u) + (A m c).bhh (Cert.Spec.gateRow g u) :=
  HV.host0_v15_apply (U0 m c) _ _ rfl rfl g u

theorem hv16 (h : Fin 2048) : (U1 m c main_v16 : S1x2048.Idx → EReal) (ix2 0 h) = (A m c).encb h :=
  HV.host0_v16_apply (U0 m c) h

theorem hv35 (j k : Fin 2048) : (U3 m c main_v35 : S2048x2048.Idx → EReal) (ix2 j k) = Cert.Spec.sw (A m c).alive j k :=
  (congrFun (HV.host1_v35 (U2 m c) _ (keep_arg1_2 m c)) (ix2 j k)).trans (HV.swTerm_apply _ j k)

theorem hv36 (a : Fin 64) : (U3 m c main_v36 : S1x64.Idx → EReal) (ix2 0 a) = (A m c).actb a :=
  (congrFun (HV.host1_v36 (U2 m c) _ (keep_arg11_2 m c)) (ix2 0 a)).trans (shapeCast_a_1a_apply _ _ 0 a)

theorem hv37 : (U3 m c main_v37 : S1x1.Idx → EReal) (ix2 0 0) = (A m c).valb :=
  (congrFun (HV.host1_v37 (U2 m c) _ (keep_arg13_2 m c)) (ix2 0 0)).trans (shapeCast_a_1a_apply _ _ 0 0)

theorem hv38 (n u : Fin 2048) : (U3 m c main_v38 : S2048x2048.Idx → EReal) (ix2 n u) = Cert.Spec.zero2 n u :=
  (congrFun (HV.host1_v38 (U2 m c)) (ix2 n u)).trans (HV.zeroSplat_apply _ _)

theorem hv39 (n u : Fin 2048) : (U3 m c main_v39 : S2048x2048.Idx → EReal) (ix2 n u) = Cert.Spec.zero2 n u :=
  (congrFun (HV.host1_v39 (U2 m c)) (ix2 n u)).trans (HV.zeroSplat_apply _ _)

theorem hv41 (k : Fin 2048) : (U5 m c main_v41 : S1x2048.Idx → EReal) (ix2 0 k) = (A m c).gb k :=
  (congrFun (HV.host2_v41 (U4 m c) _ (keep_arg5_4 m c)) (ix2 0 k)).trans (shapeCast_a_1a_apply _ _ 0 k)

theorem hv45 (k : Fin 2048) : (U9 m c main_v45 : S1x2048.Idx → EReal) (ix2 0 k) = (A m c).gb k :=
  (congrFun (HV.host5_v45 (U8 m c) _ (keep_arg5_8 m c)) (ix2 0 k)).trans (shapeCast_a_1a_apply _ _ 0 k)

theorem hv50 (n : Fin 2048) (a : Fin 64) : (U14 m c main_v50 : S1x2048x64.Idx → EReal) (ix3 0 n a) = (U13 m c main_v49_0 : S2048x64.Idx → EReal) (ix2 n a) :=
  (congrFun (HV.host9_v50 (U13 m c) _ rfl) (ix3 0 n a)).trans (shapeCast_ab_1ab_apply _ _ 0 n a)

theorem hv51 (n : Fin 2048) : (U14 m c main_v51 : S1x2048x1.Idx → EReal) (ix3 0 n 0) = (U13 m c main_v49_1 : S2048x1.Idx → EReal) (ix2 n 0) :=
  (congrFun (HV.host9_v51 (U13 m c) _ rfl) (ix3 0 n 0)).trans (shapeCast_ab_1ab_apply _ _ 0 n 0)

theorem hv7_at3 (g : Fin 4) (u k : Fin 2048) : (U3 m c main_v7 : S8192x2048.Idx → EReal) (ix2 (Cert.Spec.permRow g u) k) = (A m c).wih (Cert.Spec.gateRow g u) k := by
  rw [keep_v7_3 m c]; exact hv7 m c g u k
theorem hv7_at7 (g : Fin 4) (u k : Fin 2048) : (U7 m c main_v7 : S8192x2048.Idx → EReal) (ix2 (Cert.Spec.permRow g u) k) = (A m c).wih (Cert.Spec.gateRow g u) k := by
  rw [keep_v7_7 m c]; exact hv7 m c g u k
theorem hv7_at11 (g : Fin 4) (u k : Fin 2048) : (U11 m c main_v7 : S8192x2048.Idx → EReal) (ix2 (Cert.Spec.permRow g u) k) = (A m c).wih (Cert.Spec.gateRow g u) k := by
  rw [keep_v7_11 m c]; exact hv7 m c g u k
theorem hv11_at3 (g : Fin 4) (u k : Fin 2048) : (U3 m c main_v11 : S8192x2048.Idx → EReal) (ix2 (Cert.Spec.permRow g u) k) = (A m c).whh (Cert.Spec.gateRow g u) k := by
  rw [keep_v11_3 m c]; exact hv11 m c g u k
theorem hv11_at7 (g : Fin 4) (u k : Fin 2048) : (U7 m c main_v11 : S8192x2048.Idx → EReal) (ix2 (Cert.Spec.permRow g u) k) = (A m c).whh (Cert.Spec.gateRow g u) k := by
  rw [keep_v11_7 m c]; exact hv11 m c g u k
theorem hv11_at11 (g : Fin 4) (u k : Fin 2048) : (U11 m c main_v11 : S8192x2048.Idx → EReal) (ix2 (Cert.Spec.permRow g u) k) = (A m c).whh (Cert.Spec.gateRow g u) k := by
  rw [keep_v11_11 m c]; exact hv11 m c g u k
theorem hv15_at3 (g : Fin 4) (u : Fin 2048) : (U3 m c main_v15 : S1x8192.Idx → EReal) (ix2 0 (Cert.Spec.permRow g u)) = (A m c).bih (Cert.Spec.gateRow g u) + (A m c).bhh (Cert.Spec.gateRow g u) := by
  rw [keep_v15_3 m c]; exact hv15 m c g u
theorem hv15_at7 (g : Fin 4) (u : Fin 2048) : (U7 m c main_v15 : S1x8192.Idx → EReal) (ix2 0 (Cert.Spec.permRow g u)) = (A m c).bih (Cert.Spec.gateRow g u) + (A m c).bhh (Cert.Spec.gateRow g u) := by
  rw [keep_v15_7 m c]; exact hv15 m c g u
theorem hv15_at11 (g : Fin 4) (u : Fin 2048) : (U11 m c main_v15 : S1x8192.Idx → EReal) (ix2 0 (Cert.Spec.permRow g u)) = (A m c).bih (Cert.Spec.gateRow g u) + (A m c).bhh (Cert.Spec.gateRow g u) := by
  rw [keep_v15_11 m c]; exact hv15 m c g u
theorem hv2_at5 (k h : Fin 2048) : (U5 m c main_v2 : S2048x2048.Idx → EReal) (ix2 k h) = (A m c).gw k h := by
  rw [keep_v2_5 m c]; exact hv2 m c k h
theorem hv2_at9 (k h : Fin 2048) : (U9 m c main_v2 : S2048x2048.Idx → EReal) (ix2 k h) = (A m c).gw k h := by
  rw [keep_v2_9 m c]; exact hv2 m c k h
theorem hv35_at5 (j k : Fin 2048) : (U5 m c main_v35 : S2048x2048.Idx → EReal) (ix2 j k) = Cert.Spec.sw (A m c).alive j k := by
  rw [keep_v35_5 m c]; exact hv35 m c j k
theorem hv35_at9 (j k : Fin 2048) : (U9 m c main_v35 : S2048x2048.Idx → EReal) (ix2 j k) = Cert.Spec.sw (A m c).alive j k := by
  rw [keep_v35_9 m c]; exact hv35 m c j k
theorem hv3_at12 (a : Fin 64) (k : Fin 2048) : (U12 m c main_v3 : S64x2048.Idx → EReal) (ix2 a k) = (A m c).actw a k := by
  rw [keep_v3_12 m c]; exact hv3 m c a k
theorem hv36_at12 (a : Fin 64) : (U12 m c main_v36 : S1x64.Idx → EReal) (ix2 0 a) = (A m c).actb a := by
  rw [keep_v36_12 m c]; exact hv36 m c a
theorem hv37_at12  : (U12 m c main_v37 : S1x1.Idx → EReal) (ix2 0 0) = (A m c).valb := by
  rw [keep_v37_12 m c]; exact hv37 m c
theorem hvarg12_at12 (k : Fin 2048) : (U12 m c main_arg12 : S1x2048.Idx → EReal) (ix2 0 k) = (A m c).valw k := by
  rw [keep_arg12_12 m c]; rfl

end Cert.KernelIdeal.HandVal

end
-- ==== Proof.KI.Enc0Val.lean ====
import proofs.«412769_j28716151341139_3_alg».proof.Proof.KI.Enc0
import proofs.«412769_j28716151341139_3_alg».proof.Proof.SpecArrays
import Idealize.ShloMosaic.Lib.ValueIdx
import Idealize.ShloMosaic.Lib.Pipeline.Value
import Idealize.ShloMosaic.PureOps.Ideal.Laws

noncomputable section

namespace Cert.KernelIdeal.HandVal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand
open scoped BigOperators

variable (V : (c : Dev nD) → (b : Ref sig .tc) → Buf (Elt Ideal) ((c : Thread nD τ).loc b))

namespace R0

theorem pay1_apply (a : Fin 256) (b : Fin 512) : (k0_pay1 (F := Ideal) : S256x512.Idx → EReal) (ix2 a b) = 0 := by
  unfold k0_pay1
  simp only [shapeCast_self]
  exact Ideal.ofBits_zero_f32

-- One step of the accumulation: what was there plus the products of row a of the first block with row b of the second.
theorem pay2_apply (x0 : Vec Ideal S256x512 .f32) (x1 : Vec Ideal S512x512 .bf16) (xs : Vec Ideal S256x512 .f32) (a : Fin 256) (b : Fin 512) :
    (k0_pay2 (F := Ideal) x0 x1 xs : S256x512.Idx → EReal) (ix2 a b)
      = (xs (ix2 a b) : EReal) + ∑ k : Fin 512, (x0 (ix2 a k) : EReal) * (x1 (ix2 b k) : EReal) := by
  unfold k0_pay2
  simp only [shapeCast_self, matmul]
  rw [addf_apply, Ideal.matmul_constant_zero_apply, ← Equiv.sum_comp (contrEquiv1 dot_S256x512_S512x512_S256x512_1_1_0_0_n_n 512 rfl rfl).symm]
  refine congrArg (_ + ·) (Finset.sum_congr rfl fun k _ => ?_)
  have hk := contrEquiv1_symm_val dot_S256x512_S512x512_S256x512_1_1_0_0_n_n 512 rfl rfl k
  refine congrArg₂ (· * ·) (congrArg x0 (funext fun d => Fin.ext ?_)) (congrArg x1 (funext fun d => Fin.ext ?_)) <;>
    match d with
    | ⟨0, _⟩ => rfl
    | ⟨1, _⟩ => first | exact (DotDims.lhsIdx_val_of_single _ rfl _ _).trans hk | exact (DotDims.rhsIdx_val_of_single _ rfl _ _).trans hk

theorem pay3_apply (s : Vec Ideal S256x512 .f32) (x2 : Vec Ideal S1x512 .f32) (a : Fin 256) (b : Fin 512) :
    (k0_pay3 (F := Ideal) s x2 : S256x512.Idx → EReal) (ix2 a b) = Ideal.tanh ((s (ix2 a b) : EReal) + (x2 (ix2 0 b) : EReal)) := by
  unfold k0_pay3
  simp only [shapeCast_self]
  show Ideal.tanh ((s (ix2 a b) : EReal) + broadcastTo S256x512 x2 broadcasts_S1x512_S256x512 (ix2 a b)) = _
  rw [broadcastTo_apply x2 _ (ix2 a b) (ix2 0 b) fun | ⟨0, _⟩ => rfl | ⟨1, _⟩ => rfl]

theorem iblk0_0_apply (c : Dev nD) (t : Fin cfg0.N) (a : Fin 256) (k : Fin 512) (n : Fin 2048) (o : ℕ) (ho' : o < 1024)
    (hn : n.val = win0_0.index t (0 : Fin 2) * 256 + a.val) (ho : o = win0_0.index t (1 : Fin 2) * 512 + k.val) :
    (iblk0 V c 0 t : S256x512.Idx → EReal) (ix2 a k) = (V c (Pipeline.arrRef spec0 0) : S2048x1024.Idx → EReal) (ix2 n ⟨o, ho'⟩) := by
  refine congrArg (V c (Pipeline.arrRef spec0 0) : S2048x1024.Idx → EReal) (funext fun d => Fin.ext ?_)
  match d with
  | ⟨0, _⟩ => show win0_0.index t (0 : Fin 2) * 256 + 1 * a.val = n.val; omega
  | ⟨1, _⟩ => show win0_0.index t (1 : Fin 2) * 512 + 1 * k.val = o; omega

theorem iblk0_1_apply (c : Dev nD) (t : Fin cfg0.N) (b : Fin 512) (k : Fin 512) (h : Fin 2048) (o : ℕ) (ho' : o < 1024)
    (hh : h.val = win0_1.index t (0 : Fin 2) * 512 + b.val) (ho : o = win0_1.index t (1 : Fin 2) * 512 + k.val) :
    (iblk0 V c 1 t : S512x512.Idx → EReal) (ix2 b k) = (V c (Pipeline.arrRef spec0 1) : S2048x1024.Idx → EReal) (ix2 h ⟨o, ho'⟩) := by
  refine congrArg (V c (Pipeline.arrRef spec0 1) : S2048x1024.Idx → EReal) (funext fun d => Fin.ext ?_)
  match d with
  | ⟨0, _⟩ => show win0_1.index t (0 : Fin 2) * 512 + 1 * b.val = h.val; omega
  | ⟨1, _⟩ => show win0_1.index t (1 : Fin 2) * 512 + 1 * k.val = o; omega

theorem iblk0_2_apply (c : Dev nD) (t : Fin cfg0.N) (b : Fin 512) (h : Fin 2048)
    (h0 : win0_2.index t (0 : Fin 2) = 0) (hh : h.val = win0_2.index t (1 : Fin 2) * 512 + b.val) :
    (iblk0 V c 2 t : S1x512.Idx → EReal) (ix2 0 b) = (V c (Pipeline.arrRef spec0 2) : S1x2048.Idx → EReal) (ix2 0 h) := by
  refine congrArg (V c (Pipeline.arrRef spec0 2) : S1x2048.Idx → EReal) (funext fun d => Fin.ext ?_)
  match d with
  | ⟨0, _⟩ => show win0_2.index t (0 : Fin 2) * 1 + 1 * (0 : Fin 1).val = (0 : Fin 1).val; rw [h0]; rfl
  | ⟨1, _⟩ => show win0_2.index t (1 : Fin 2) * 512 + 1 * b.val = h.val; omega

abbrev prev0 (t : Fin cfg0.N) : Fin cfg0.N := ⟨t.val - 1, Nat.lt_of_le_of_lt (Nat.sub_le _ _) t.isLt⟩

-- At an odd point (k = 1) and at the point before it (k = 0) the operands' blocks are row blocks i and j, where (i, j) is the output's block.
theorem idx_facts0 : ∀ t : Fin cfg0.N, t.val % 2 = 1 →
    win0_0.index t (0 : Fin 2) = win0_3.index t (0 : Fin 2) ∧ win0_0.index t (1 : Fin 2) = 1
    ∧ win0_1.index t (0 : Fin 2) = win0_3.index t (1 : Fin 2) ∧ win0_1.index t (1 : Fin 2) = 1
    ∧ win0_2.index t (0 : Fin 2) = 0 ∧ win0_2.index t (1 : Fin 2) = win0_3.index t (1 : Fin 2)
    ∧ win0_3.index t (0 : Fin 2) ≤ 7 ∧ win0_3.index t (1 : Fin 2) ≤ 3
    ∧ win0_0.index (prev0 t) (0 : Fin 2) = win0_3.index t (0 : Fin 2) ∧ win0_0.index (prev0 t) (1 : Fin 2) = 0
    ∧ win0_1.index (prev0 t) (0 : Fin 2) = win0_3.index t (1 : Fin 2) ∧ win0_1.index (prev0 t) (1 : Fin 2) = 0 :=
  (by decide +kernel : ∀ t : Fin grid0.N, _)

theorem idx_onto3 : ∀ (q0 : Fin 8) (q1 : Fin 4), ∃ t : Fin cfg0.N, t.val % 2 = 1 ∧ win0_3.index t = ![q0.val, q1.val] :=
  (by decide +kernel : ∀ (q0 : Fin 8) (q1 : Fin 4), ∃ t : Fin grid0.N, _)

theorem sum_split1024 (f : Fin 1024 → EReal) :
    ∑ o : Fin 1024, f o = ∑ k : Fin 512, f ⟨k.val, by have := k.isLt; omega⟩ + ∑ k : Fin 512, f ⟨512 + k.val, by have := k.isLt; omega⟩ :=
  Fin.sum_univ_add (a := 512) (b := 512) f

abbrev encG (c : Dev nD) : S2048x2048.Idx → EReal := fun i =>
  Cert.Spec.enc (fun a b => (V c (Pipeline.arrRef spec0 0) : S2048x1024.Idx → EReal) (ix2 a b))
    (fun a b => (V c (Pipeline.arrRef spec0 1) : S2048x1024.Idx → EReal) (ix2 a b))
    (fun r => (V c (Pipeline.arrRef spec0 2) : S1x2048.Idx → EReal) (ix2 0 r)) (i 0) (i 1)

-- At an odd point the output block is its block of encG: zero plus the products over the first 512 contraction positions (the point before) plus those over the last 512 (this point).
theorem flushed3_eq (c : Dev nD) (t : Fin cfg0.N) (hf : (cfg0.win 3).flush t = true) :
    (dat0 V c).flushed 3 t = ((cfg0.win 3).blk t).view.read (Elt Ideal) (encG V c) := by
  have h1 : t.val % 2 = 1 := (flush0_3 t).mp hf
  show (cfg0.win 3).cut (grid0.coords t) ((dat0 V c).after 3 t) = _
  rw [after0_3, scAt0_eq V c t, if_neg (show ¬t.val % 2 = 0 by omega), scAt0_eq V c (prev0 t), if_pos (show (t.val - 1) % 2 = 0 by omega)]
  funext j
  obtain ⟨a, b, rfl⟩ : ∃ (a : Fin 256) (b : Fin 512), j = ix2 a b := ⟨j 0, j 1, eq_ix2 j⟩
  show (k0_pay3 (F := Ideal) _ _ : S256x512.Idx → EReal) (ix2 a b) = encG V c (((cfg0.win 3).blk t).view.emb (ix2 a b))
  obtain ⟨X, hX⟩ : ∃ X : S2048x2048.Idx, ((cfg0.win 3).blk t).view.emb (ix2 a b) = X := ⟨_, rfl⟩
  rw [hX]
  show _ = Ideal.tanh (Cert.Spec.mmT _ _ (X 0) (X 1) + _)
  have hX0 : (X 0).val = win0_3.index t (0 : Fin 2) * 256 + a.val := by rw [← hX]; show win0_3.index t (0 : Fin 2) * 256 + 1 * a.val = _; omega
  have hX1 : (X 1).val = win0_3.index t (1 : Fin 2) * 512 + b.val := by rw [← hX]; show win0_3.index t (1 : Fin 2) * 512 + 1 * b.val = _; omega
  obtain ⟨e0, e1, e2, e3, e4, e5, e6, e7, p0, p1, p2, p3⟩ := idx_facts0 t h1
  rw [pay3_apply, pay2_apply, pay2_apply, pay1_apply, zero_add]
  unfold Cert.Spec.mmT
  rw [sum_split1024]
  refine congrArg Ideal.tanh (congrArg₂ (· + ·) (congrArg₂ (· + ·) (Finset.sum_congr rfl fun k _ => ?_) (Finset.sum_congr rfl fun k _ => ?_)) ?_)
  iterate 2 exact congrArg₂ (· * ·) (iblk0_0_apply V c _ a k _ _ _ (by omega) (by omega)) (iblk0_1_apply V c _ b k _ _ _ (by omega) (by omega))
  exact iblk0_2_apply V c t b _ e4 (by omega)

theorem mem_blk3 (t : Fin cfg0.N) (i : S2048x2048.Idx) :
    i ∈ ((cfg0.win 3).blk t).view.set ↔ ∀ a : Fin 2, win0_3.index t a * S256x512.size a ≤ (i a).val ∧ (i a).val < win0_3.index t a * S256x512.size a + S256x512.size a := by
  show i ∈ ((View.whole main_v17).slice (win0_3.rect t)).set ↔ _
  rw [View.set_slice_whole, Rect.mem_set_unit]
  exact Iff.rfl

-- The odd points' blocks cover the array: element (r, s) is in block (r / 256, s / 512).
theorem cover3 (i : S2048x2048.Idx) : ∃ t : Fin cfg0.N, (cfg0.win 3).flush t = true ∧ i ∈ ((cfg0.win 3).blk t).view.set := by
  have hi0 : (i 0).val < 2048 := (i 0).isLt
  have hi1 : (i 1).val < 2048 := (i 1).isLt
  obtain ⟨t, ht1, ht⟩ := idx_onto3 ⟨(i 0).val / 256, by omega⟩ ⟨(i 1).val / 512, by omega⟩
  have q0 : win0_3.index t (0 : Fin 2) = (i 0).val / 256 := congrFun ht 0
  have q1 : win0_3.index t (1 : Fin 2) = (i 1).val / 512 := congrFun ht 1
  refine ⟨t, (flush0_3 t).mpr ht1, (mem_blk3 t i).mpr fun a => ?_⟩
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 512 ≤ (i 1).val ∧ (i 1).val < win0_3.index t (1 : Fin 2) * 512 + 512; omega

theorem final0 (c : Dev nD) (p q : Fin 2048) :
    ((dat0 (F := Ideal) V c).arrAt 3 cfg0.N : S2048x2048.Idx → EReal) (ix2 p q)
      = Cert.Spec.enc (fun a b => (V c (Pipeline.arrRef spec0 0) : S2048x1024.Idx → EReal) (ix2 a b)) (fun a b => (V c (Pipeline.arrRef spec0 1) : S2048x1024.Idx → EReal) (ix2 a b)) (fun r => (V c (Pipeline.arrRef spec0 2) : S1x2048.Idx → EReal) (ix2 0 r)) p q :=
  congrFun ((dat0 (F := Ideal) V c).arrAt_eq_of_cover 3 (encG V c) (flushed3_eq V c) cover3) (ix2 p q)

end R0

export R0 (final0)

end Cert.KernelIdeal.HandVal

end
-- ==== Proof.KI.Lstm1Val.lean ====
import proofs.«412769_j28716151341139_3_alg».proof.Proof.KI.Lstm1
import proofs.«412769_j28716151341139_3_alg».proof.Proof.SpecArrays
import Idealize.ShloMosaic.Lib.ValueIdx
import Idealize.ShloMosaic.Lib.Pipeline.Value
import Idealize.ShloMosaic.PureOps.Ideal.Laws

set_option maxRecDepth 16384

noncomputable section

namespace Cert.KernelIdeal.HandVal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

namespace R1

-- entry (p, r) of the product against the transposed weights: row p of x against row r of W
theorem mm1_apply (x : FVec Ideal S64x2048 .bf16) (W : FVec Ideal S2048x2048 .bf16) (p : Fin 64) (r : Fin 2048) :
    FloatOps.matmul dot_S64x2048_S2048x2048_S64x2048_1_1_0_0_n_n none x W (constant (F := Ideal) S64x2048 .f32 0x00000000#32) (ix2 p r)
      = ∑ k : Fin 2048, x (ix2 p k) * W (ix2 r k) := by
  rw [Ideal.matmul_constant_zero_apply, ← Equiv.sum_comp (contrEquiv1 dot_S64x2048_S2048x2048_S64x2048_1_1_0_0_n_n 2048 rfl rfl).symm]
  refine Finset.sum_congr rfl fun k _ => ?_
  have hk := contrEquiv1_symm_val dot_S64x2048_S2048x2048_S64x2048_1_1_0_0_n_n 2048 rfl rfl k
  exact congrArg₂ (· * ·) (congrArg x (Shape.idx_ext₂ rfl ((dot_S64x2048_S2048x2048_S64x2048_1_1_0_0_n_n.lhsIdx_val_of_single rfl _ _).trans hk)))
    (congrArg W (Shape.idx_ext₂ rfl ((dot_S64x2048_S2048x2048_S64x2048_1_1_0_0_n_n.rhsIdx_val_of_single rfl _ _).trans hk)))

-- the pre-activations: the two products plus the bias row
theorem pay1_apply (xa xb : Vec Ideal S64x2048 .f32) (xc xd : Vec Ideal S2048x2048 .bf16) (xe : Vec Ideal S1x2048 .f32)
    (p : Fin 64) (r : Fin 2048) :
    k1_pay1 xa xb xc xd xe (ix2 p r)
      = ((∑ k : Fin 2048, xa (ix2 p k) * xc (ix2 r k)) + ∑ k : Fin 2048, xb (ix2 p k) * xd (ix2 r k)) + xe (ix2 0 r) := by
  unfold k1_pay1
  simp only [shapeCast_self]
  rw [addf_apply, addf_apply]
  rw [broadcastTo_apply xe broadcasts_S1x2048_S64x2048 (ix2 p r) (ix2 0 r) (Fin.forall_fin_two.2 ⟨rfl, rfl⟩)]
  simp only [matmul]
  rw [mm1_apply, mm1_apply]
  rfl

-- the new cell: forget gate times the cell plus input gate times the tanh of the candidate
theorem pay2_apply (xa xb : Vec Ideal S64x2048 .f32) (xc xd : Vec Ideal S2048x2048 .bf16) (xe : Vec Ideal S1x2048 .f32)
    (xf : Vec Ideal S64x512 .f32) (p : Fin 64) (q : Fin 512) :
    k1_pay2 xa xb xc xd xe xf (ix2 p q)
      = Ideal.logistic (k1_pay1 xa xb xc xd xe (ix2 p (⟨512 + q.val, by have := q.isLt; omega⟩ : Fin 2048))) * xf (ix2 p q)
        + Ideal.logistic (k1_pay1 xa xb xc xd xe (ix2 p (⟨q.val, by have := q.isLt; omega⟩ : Fin 2048)))
          * Ideal.tanh (k1_pay1 xa xb xc xd xe (ix2 p (⟨1024 + q.val, by have := q.isLt; omega⟩ : Fin 2048))) := by
  unfold k1_pay2
  simp only [shapeCast_self]
  rw [addf_apply, mulf_apply, mulf_apply]
  show Ideal.logistic _ * _ + Ideal.logistic _ * Ideal.tanh _ = _
  rw [extractStridedSlice_apply ![0, 512] _ slices_S64x2048_o0_512_S64x512 (ix2 p q) (ix2 p (⟨512 + q.val, by have := q.isLt; omega⟩ : Fin 2048)) (Fin.forall_fin_two.2 ⟨(Nat.zero_add _).symm, rfl⟩),
    extractStridedSlice_apply ![0, 0] _ slices_S64x2048_o0_0_S64x512 (ix2 p q) (ix2 p (⟨q.val, by have := q.isLt; omega⟩ : Fin 2048)) (Fin.forall_fin_two.2 ⟨(Nat.zero_add _).symm, (Nat.zero_add _).symm⟩),
    extractStridedSlice_apply ![0, 1024] _ slices_S64x2048_o0_1024_S64x512 (ix2 p q) (ix2 p (⟨1024 + q.val, by have := q.isLt; omega⟩ : Fin 2048)) (Fin.forall_fin_two.2 ⟨(Nat.zero_add _).symm, rfl⟩)]

-- the new hidden state: output gate times the tanh of the new cell
theorem pay3_apply (xa xb : Vec Ideal S64x2048 .f32) (xc xd : Vec Ideal S2048x2048 .bf16) (xe : Vec Ideal S1x2048 .f32)
    (xf : Vec Ideal S64x512 .f32) (p : Fin 64) (q : Fin 512) :
    k1_pay3 xa xb xc xd xe xf (ix2 p q)
      = Ideal.logistic (k1_pay1 xa xb xc xd xe (ix2 p (⟨1536 + q.val, by have := q.isLt; omega⟩ : Fin 2048)))
        * Ideal.tanh (k1_pay2 xa xb xc xd xe xf (ix2 p q)) := by
  unfold k1_pay3
  rw [mulf_apply]
  show Ideal.logistic _ * Ideal.tanh _ = _
  rw [extractStridedSlice_apply ![0, 1536] _ slices_S64x2048_o0_1536_S64x512 (ix2 p q) (ix2 p (⟨1536 + q.val, by have := q.isLt; omega⟩ : Fin 2048)) (Fin.forall_fin_two.2 ⟨(Nat.zero_add _).symm, rfl⟩)]

-- the block index maps at every point, in terms of the outputs' block (i, j)
theorem idx_facts1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (1 : Fin 2) ∧ win1_2.index t (1 : Fin 2) = 0
    ∧ win1_3.index t (0 : Fin 2) = win1_6.index t (1 : Fin 2) ∧ win1_3.index t (1 : Fin 2) = 0
    ∧ win1_4.index t (0 : Fin 2) = 0 ∧ win1_4.index t (1 : Fin 2) = win1_6.index t (1 : Fin 2)
    ∧ win1_5.index t (0 : Fin 2) = win1_6.index t (0 : Fin 2) ∧ win1_5.index t (1 : Fin 2) = win1_6.index t (1 : Fin 2)
    ∧ win1_7.index t (0 : Fin 2) = win1_6.index t (0 : Fin 2) ∧ win1_7.index t (1 : Fin 2) = win1_6.index t (1 : Fin 2)
    ∧ win1_6.index t (0 : Fin 2) ≤ 31 ∧ win1_6.index t (1 : Fin 2) ≤ 3 :=
  (by decide +kernel : ∀ t : Fin grid1.N, _)

-- every output block is some point's
theorem idx_onto1 : ∀ (qa : Fin 32) (qb : Fin 4), ∃ t : Fin cfg1.N, win1_6.index t = ![qa.val, qb.val] :=
  (by decide +kernel : ∀ (qa : Fin 32) (qb : Fin 4), ∃ t : Fin grid1.N, win1_6.index t = ![qa.val, qb.val])

-- (n, u) is the global entry of tile entry (p, q) at point t
abbrev glob1 (t : Fin cfg1.N) (p : Fin 64) (q : Fin 512) (n u : Fin 2048) : Prop :=
  n.val = win1_6.index t (0 : Fin 2) * 64 + p.val ∧ u.val = win1_6.index t (1 : Fin 2) * 512 + q.val

-- an input block's entry is the array's entry at the block's offset plus the coordinate (windows 0 to 4)
theorem blk1_in (t : Fin cfg1.N) (p : Fin 64) (r n : Fin 2048) (R : Fin 8192)
    (hn : n.val = win1_6.index t (0 : Fin 2) * 64 + p.val) (hR : R.val = win1_6.index t (1 : Fin 2) * 2048 + r.val) :
    (∀ (a : S2048x2048.Idx → Elt Ideal .f32) (k : Fin 2048), (((cfg1.win 0).blk t).view.read (Elt Ideal) a : S64x2048.Idx → EReal) (ix2 p k) = a (ix2 n k))
    ∧ (∀ (a : S2048x2048.Idx → Elt Ideal .f32) (k : Fin 2048), (((cfg1.win 1).blk t).view.read (Elt Ideal) a : S64x2048.Idx → EReal) (ix2 p k) = a (ix2 n k))
    ∧ (∀ (a : S8192x2048.Idx → Elt Ideal .bf16) (k : Fin 2048), (((cfg1.win 2).blk t).view.read (Elt Ideal) a : S2048x2048.Idx → EReal) (ix2 r k) = a (ix2 R k))
    ∧ (∀ (a : S8192x2048.Idx → Elt Ideal .bf16) (k : Fin 2048), (((cfg1.win 3).blk t).view.read (Elt Ideal) a : S2048x2048.Idx → EReal) (ix2 r k) = a (ix2 R k))
    ∧ ∀ (a : S1x8192.Idx → Elt Ideal .f32), (((cfg1.win 4).blk t).view.read (Elt Ideal) a : S1x2048.Idx → EReal) (ix2 0 r) = a (ix2 0 R) := by
  obtain ⟨a0, b0, a1, b1, a2, b2, a3, b3, a4, b4, -⟩ := idx_facts1 t
  exact ⟨fun a k => congrArg a (Shape.idx_ext₂ (by show win1_0.index t (0 : Fin 2) * 64 + 1 * p.val = n.val; omega) (by show win1_0.index t (1 : Fin 2) * 2048 + 1 * k.val = k.val; omega)),
    fun a k => congrArg a (Shape.idx_ext₂ (by show win1_1.index t (0 : Fin 2) * 64 + 1 * p.val = n.val; omega) (by show win1_1.index t (1 : Fin 2) * 2048 + 1 * k.val = k.val; omega)),
    fun a k => congrArg a (Shape.idx_ext₂ (by show win1_2.index t (0 : Fin 2) * 2048 + 1 * r.val = R.val; omega) (by show win1_2.index t (1 : Fin 2) * 2048 + 1 * k.val = k.val; omega)),
    fun a k => congrArg a (Shape.idx_ext₂ (by show win1_3.index t (0 : Fin 2) * 2048 + 1 * r.val = R.val; omega) (by show win1_3.index t (1 : Fin 2) * 2048 + 1 * k.val = k.val; omega)),
    fun a => congrArg a (Shape.idx_ext₂ (by show win1_4.index t (0 : Fin 2) * 1 + 1 * 0 = 0; omega) (by show win1_4.index t (1 : Fin 2) * 2048 + 1 * r.val = R.val; omega))⟩

-- the same for the cell's block, and both output windows place a tile entry at the global entry
theorem blk1_out (t : Fin cfg1.N) (p : Fin 64) (q : Fin 512) (n u : Fin 2048) (h : glob1 t p q n u) :
    (∀ a : S2048x2048.Idx → Elt Ideal .f32, (((cfg1.win 5).blk t).view.read (Elt Ideal) a : S64x512.Idx → EReal) (ix2 p q) = a (ix2 n u))
    ∧ ((cfg1.win 6).blk t).view.emb (ix2 p q) = ix2 n u ∧ ((cfg1.win 7).blk t).view.emb (ix2 p q) = ix2 n u := by
  obtain ⟨hn, hu⟩ := h
  obtain ⟨-, -, -, -, -, -, -, -, -, -, a5, b5, a7, b7, -⟩ := idx_facts1 t
  exact ⟨fun a => congrArg a (Shape.idx_ext₂ (by show win1_5.index t (0 : Fin 2) * 64 + 1 * p.val = n.val; omega) (by show win1_5.index t (1 : Fin 2) * 512 + 1 * q.val = u.val; omega)),
    Shape.idx_ext₂ (by show win1_6.index t (0 : Fin 2) * 64 + 1 * p.val = n.val; omega) (by show win1_6.index t (1 : Fin 2) * 512 + 1 * q.val = u.val; omega),
    Shape.idx_ext₂ (by show win1_7.index t (0 : Fin 2) * 64 + 1 * p.val = n.val; omega) (by show win1_7.index t (1 : Fin 2) * 512 + 1 * q.val = u.val; omega)⟩

section AtPoint

variable (aa ab af : S2048x2048.Idx → Elt Ideal .f32) (ac ad : S8192x2048.Idx → Elt Ideal .bf16) (ae : S1x8192.Idx → Elt Ideal .f32)

-- gate g's pre-activation at a point's tile is the specification's at the global row and unit
theorem preact1_apply (t : Fin cfg1.N) (p : Fin 64) (q : Fin 512) (g : Fin 4) (r n u : Fin 2048)
    (hr : r.val = g.val * 512 + q.val)
    (h : glob1 t p q n u) :
    k1_pay1 (((cfg1.win 0).blk t).view.read (Elt Ideal) aa) (((cfg1.win 1).blk t).view.read (Elt Ideal) ab)
        (((cfg1.win 2).blk t).view.read (Elt Ideal) ac) (((cfg1.win 3).blk t).view.read (Elt Ideal) ad)
        (((cfg1.win 4).blk t).view.read (Elt Ideal) ae) (ix2 p r)
      = Cert.Spec.preactP (fun x y => aa (ix2 x y)) (fun x y => ab (ix2 x y)) (fun x y => ac (ix2 x y)) (fun x y => ad (ix2 x y))
          (fun x => ae (ix2 0 x)) g n u := by
  obtain ⟨hn, hu⟩ := h
  have hR : (Cert.Spec.permRow g u).val = win1_6.index t (1 : Fin 2) * 2048 + r.val := by
    show (u.val / 512) * 2048 + g.val * 512 + u.val % 512 = _
    have := q.isLt; omega
  rw [pay1_apply]
  unfold Cert.Spec.preactP Cert.Spec.mmT
  simp only [blk1_in t p r n _ hn hR]

-- the new cell at a point's tile is the specification's at the global entry
theorem cell1_apply (t : Fin cfg1.N) (p : Fin 64) (q : Fin 512) (n u : Fin 2048)
    (h : glob1 t p q n u) :
    k1_pay2 (((cfg1.win 0).blk t).view.read (Elt Ideal) aa) (((cfg1.win 1).blk t).view.read (Elt Ideal) ab)
        (((cfg1.win 2).blk t).view.read (Elt Ideal) ac) (((cfg1.win 3).blk t).view.read (Elt Ideal) ad)
        (((cfg1.win 4).blk t).view.read (Elt Ideal) ae) (((cfg1.win 5).blk t).view.read (Elt Ideal) af) (ix2 p q)
      = Cert.Spec.cellNewP (fun x y => aa (ix2 x y)) (fun x y => ab (ix2 x y)) (fun x y => af (ix2 x y)) (fun x y => ac (ix2 x y))
          (fun x y => ad (ix2 x y)) (fun x => ae (ix2 0 x)) n u := by
  rw [pay2_apply]
  unfold Cert.Spec.cellNewP
  rw [preact1_apply aa ab ac ad ae t p q 1 _ n u rfl h,
    preact1_apply aa ab ac ad ae t p q 0 _ n u (Nat.zero_add _).symm h,
    preact1_apply aa ab ac ad ae t p q 2 _ n u rfl h,
    (blk1_out t p q n u h).1 af]

-- the new hidden state at a point's tile is the specification's at the global entry
theorem hid1_apply (t : Fin cfg1.N) (p : Fin 64) (q : Fin 512) (n u : Fin 2048) (h : glob1 t p q n u) :
    k1_pay3 (((cfg1.win 0).blk t).view.read (Elt Ideal) aa) (((cfg1.win 1).blk t).view.read (Elt Ideal) ab)
        (((cfg1.win 2).blk t).view.read (Elt Ideal) ac) (((cfg1.win 3).blk t).view.read (Elt Ideal) ad)
        (((cfg1.win 4).blk t).view.read (Elt Ideal) ae) (((cfg1.win 5).blk t).view.read (Elt Ideal) af) (ix2 p q)
      = Cert.Spec.hNewP (fun x y => aa (ix2 x y)) (fun x y => ab (ix2 x y)) (fun x y => af (ix2 x y)) (fun x y => ac (ix2 x y))
          (fun x y => ad (ix2 x y)) (fun x => ae (ix2 0 x)) n u := by
  rw [pay3_apply, cell1_apply aa ab af ac ad ae t p q n u h]
  unfold Cert.Spec.hNewP
  rw [preact1_apply aa ab ac ad ae t p q 3 _ n u rfl h]

end AtPoint

theorem hz1 : (![0, 0] : Fin 2 → Nat) = fun _ => 0 := funext fun a => by fin_cases a <;> rfl

-- an output array as one function of the input arrays
abbrev G1 (f : (Fin 2048 → Fin 2048 → EReal) → (Fin 2048 → Fin 2048 → EReal) → (Fin 2048 → Fin 2048 → EReal) → (Fin 8192 → Fin 2048 → EReal) → (Fin 8192 → Fin 2048 → EReal) → (Fin 8192 → EReal) → Fin 2048 → Fin 2048 → EReal)
    (c : Dev nD) : S2048x2048.Idx → EReal := fun i =>
  f (fun a b => (V c (Pipeline.arrRef spec1 0) : S2048x2048.Idx → EReal) (ix2 a b)) (fun a b => (V c (Pipeline.arrRef spec1 1) : S2048x2048.Idx → EReal) (ix2 a b)) (fun a b => (V c (Pipeline.arrRef spec1 5) : S2048x2048.Idx → EReal) (ix2 a b)) (fun a b => (V c (Pipeline.arrRef spec1 2) : S8192x2048.Idx → EReal) (ix2 a b)) (fun a b => (V c (Pipeline.arrRef spec1 3) : S8192x2048.Idx → EReal) (ix2 a b)) (fun r => (V c (Pipeline.arrRef spec1 4) : S1x8192.Idx → EReal) (ix2 0 r)) (i 0) (i 1)

-- the global entry of a tile entry, within bounds
theorem pt1 (t : Fin cfg1.N) (p : Fin 64) (q : Fin 512) :
    ∃ n u : Fin 2048, glob1 t p q n u := by
  obtain ⟨-, -, -, -, -, -, -, -, -, -, -, -, -, -, ba, bb⟩ := idx_facts1 t
  exact ⟨⟨_, by have := p.isLt; omega⟩, ⟨_, by have := q.isLt; omega⟩, rfl, rfl⟩

-- a point's output tile is its tile of the specification's array
theorem flushed1_6_eq (c : Dev nD) (t : Fin cfg1.N) :
    (dat1 (F := Ideal) V c).flushed 6 t = ((cfg1.win 6).blk t).view.read (Elt Ideal) (G1 V Cert.Spec.hNewP c) := by
  show (cfg1.win 6).cut (grid1.coords t) ((dat1 V c).after 6 t) = _
  dsimp only [dat1]
  unfold out1_6
  rw [View.canon_unit_zero hz1]
  simp only [View.ld_unit_zero (S := S64x2048) hz1, View.ld_unit_zero (S := S2048x2048) hz1, View.ld_unit_zero (S := S1x2048) hz1,
    View.ld_unit_zero (S := S64x512) hz1]
  unfold iblk1
  funext j
  obtain ⟨p, q, rfl⟩ : ∃ (p : Fin 64) (q : Fin 512), j = ix2 p q := ⟨j 0, j 1, eq_ix2 j⟩
  obtain ⟨n, u, h⟩ := pt1 t p q
  show k1_pay3 (F := Ideal) _ _ _ _ _ _ (ix2 p q) = G1 V Cert.Spec.hNewP c (((cfg1.win 6).blk t).view.emb (ix2 p q))
  rw [(blk1_out t p q n u h).2.1, hid1_apply _ _ _ _ _ _ t p q n u h]

theorem flushed1_7_eq (c : Dev nD) (t : Fin cfg1.N) :
    (dat1 (F := Ideal) V c).flushed 7 t = ((cfg1.win 7).blk t).view.read (Elt Ideal) (G1 V Cert.Spec.cellNewP c) := by
  show (cfg1.win 7).cut (grid1.coords t) ((dat1 V c).after 7 t) = _
  dsimp only [dat1]
  unfold out1_7
  rw [View.canon_unit_zero hz1]
  simp only [View.ld_unit_zero (S := S64x2048) hz1, View.ld_unit_zero (S := S2048x2048) hz1, View.ld_unit_zero (S := S1x2048) hz1,
    View.ld_unit_zero (S := S64x512) hz1]
  unfold iblk1
  funext j
  obtain ⟨p, q, rfl⟩ : ∃ (p : Fin 64) (q : Fin 512), j = ix2 p q := ⟨j 0, j 1, eq_ix2 j⟩
  obtain ⟨n, u, h⟩ := pt1 t p q
  show k1_pay2 (F := Ideal) _ _ _ _ _ _ (ix2 p q) = G1 V Cert.Spec.cellNewP c (((cfg1.win 7).blk t).view.emb (ix2 p q))
  rw [(blk1_out t p q n u h).2.2, cell1_apply _ _ _ _ _ _ t p q n u h]

-- the output tiles cover the array: entry (n, u) lies in the tile of block (n / 64, u / 512)
theorem cover1 (i : S2048x2048.Idx) : ∃ t : Fin cfg1.N, i ∈ ((cfg1.win 6).blk t).view.set ∧ i ∈ ((cfg1.win 7).blk t).view.set := by
  have ha := idx2_lt0 i
  have hb := idx2_lt1 i
  obtain ⟨t, ht⟩ := idx_onto1 ⟨(i 0).val / 64, by omega⟩ ⟨(i 1).val / 512, by omega⟩
  have qa : win1_6.index t (0 : Fin 2) = (i 0).val / 64 := congrFun ht 0
  have qb : win1_6.index t (1 : Fin 2) = (i 1).val / 512 := congrFun ht 1
  obtain ⟨-, e6, e7⟩ := blk1_out t ⟨(i 0).val % 64, by omega⟩ ⟨(i 1).val % 512, by omega⟩ (i 0) (i 1)
    ⟨by show (i 0).val = win1_6.index t (0 : Fin 2) * 64 + (i 0).val % 64; omega,
      by show (i 1).val = win1_6.index t (1 : Fin 2) * 512 + (i 1).val % 512; omega⟩
  rw [eq_ix2 i]
  exact ⟨t, e6 ▸ View.emb_mem_set _ _, e7 ▸ View.emb_mem_set _ _⟩

-- the region's value: the two output arrays are the specification's new hidden and cell states
theorem final1_h (c : Dev nD) (n u : Fin 2048) :
    ((dat1 (F := Ideal) V c).arrAt 6 cfg1.N : S2048x2048.Idx → EReal) (ix2 n u)
      = Cert.Spec.hNewP (fun a b => (V c (Pipeline.arrRef spec1 0) : S2048x2048.Idx → EReal) (ix2 a b)) (fun a b => (V c (Pipeline.arrRef spec1 1) : S2048x2048.Idx → EReal) (ix2 a b)) (fun a b => (V c (Pipeline.arrRef spec1 5) : S2048x2048.Idx → EReal) (ix2 a b)) (fun a b => (V c (Pipeline.arrRef spec1 2) : S8192x2048.Idx → EReal) (ix2 a b)) (fun a b => (V c (Pipeline.arrRef spec1 3) : S8192x2048.Idx → EReal) (ix2 a b)) (fun r => (V c (Pipeline.arrRef spec1 4) : S1x8192.Idx → EReal) (ix2 0 r)) n u :=
  congrFun ((dat1 (F := Ideal) V c).arrAt_eq_of_cover 6 (G1 V Cert.Spec.hNewP c) (fun t _ => flushed1_6_eq V c t) fun i => (cover1 i).imp fun t h => ⟨flush1_6 t, h.1⟩) (ix2 n u)

theorem final1_c (c : Dev nD) (n u : Fin 2048) :
    ((dat1 (F := Ideal) V c).arrAt 7 cfg1.N : S2048x2048.Idx → EReal) (ix2 n u)
      = Cert.Spec.cellNewP (fun a b => (V c (Pipeline.arrRef spec1 0) : S2048x2048.Idx → EReal) (ix2 a b)) (fun a b => (V c (Pipeline.arrRef spec1 1) : S2048x2048.Idx → EReal) (ix2 a b)) (fun a b => (V c (Pipeline.arrRef spec1 5) : S2048x2048.Idx → EReal) (ix2 a b)) (fun a b => (V c (Pipeline.arrRef spec1 2) : S8192x2048.Idx → EReal) (ix2 a b)) (fun a b => (V c (Pipeline.arrRef spec1 3) : S8192x2048.Idx → EReal) (ix2 a b)) (fun r => (V c (Pipeline.arrRef spec1 4) : S1x8192.Idx → EReal) (ix2 0 r)) n u :=
  congrFun ((dat1 (F := Ideal) V c).arrAt_eq_of_cover 7 (G1 V Cert.Spec.cellNewP c) (fun t _ => flushed1_7_eq V c t) fun i => (cover1 i).imp fun t h => ⟨flush1_7 t, h.2⟩) (ix2 n u)

end R1

export R1 (final1_h final1_c)

end Cert.KernelIdeal.HandVal

end
-- ==== Proof.LibBlockSum.lean ====
import Mathlib.Logic.Equiv.Fin.Basic
import Mathlib.Data.Fintype.BigOperators
import Mathlib.Algebra.BigOperators.Group.Finset.Defs
import Mathlib.Data.EReal.Operations

noncomputable section

open scoped BigOperators

namespace Cert.LibBlockSum

def blockIdx {B R N : Nat} (h : B * R = N) (t : Fin B) (r : Fin R) : Fin N :=
  ⟨R * t.val + r.val, by
    have ht := t.isLt
    have hr := r.isLt
    calc R * t.val + r.val < R * t.val + R := by omega
      _ = R * (t.val + 1) := by rw [Nat.mul_succ]
      _ ≤ R * B := Nat.mul_le_mul_left _ ht
      _ = N := by rw [Nat.mul_comm]; exact h⟩

theorem blockIdx_val {B R N : Nat} (h : B * R = N) (t : Fin B) (r : Fin R) :
    (blockIdx h t r).val = R * t.val + r.val := rfl

theorem sum_blocks {M : Type*} [AddCommMonoid M] {B R N : Nat} (h : B * R = N) (f : Fin N → M) :
    ∑ n : Fin N, f n = ∑ t : Fin B, ∑ r : Fin R, f (blockIdx h t r) := by
  subst h
  rw [← Equiv.sum_comp (finProdFinEquiv (m := B) (n := R)) f, Fintype.sum_prod_type]
  refine Finset.sum_congr rfl fun t _ => Finset.sum_congr rfl fun r _ => congrArg f (Fin.ext ?_)
  show r.val + R * t.val = R * t.val + r.val
  exact Nat.add_comm _ _

theorem eq_ofNat_iff_toInt_eq (b : BitVec 32) (g : Nat) (hg : g < 2 ^ 31) :
    b = BitVec.ofNat 32 g ↔ b.toInt = (g : Int) := by
  have e : (BitVec.ofNat 32 g).toInt = (g : Int) := by
    rw [BitVec.toInt_eq_toNat_of_lt (by rw [BitVec.toNat_ofNat]; omega), BitVec.toNat_ofNat]
    omega
  rw [← e]
  exact BitVec.toInt_inj.symm

theorem ite_one_zero_mul (p : Prop) [Decidable p] (x : EReal) :
    (if p then (1 : EReal) else 0) * x = if p then x else 0 := by
  split
  · exact one_mul x
  · exact zero_mul x

example {M : Type*} [AddCommMonoid M] (f : Fin 100000 → M) :
    ∑ n : Fin 100000, f n = ∑ t : Fin 20, ∑ r : Fin 5000, f (blockIdx (B := 20) (R := 5000) (N := 100000) (by norm_num) t r) :=
  sum_blocks (B := 20) (R := 5000) (by norm_num) f

end Cert.LibBlockSum

end
-- ==== Proof.KI.Gate2Val.lean ====
import proofs.«412769_j28716151341139_3_alg».proof.Proof.KI.Gate2
import proofs.«412769_j28716151341139_3_alg».proof.Proof.SpecArrays
import proofs.«412769_j28716151341139_3_alg».proof.Proof.LibBlockSum
import Idealize.ShloMosaic.Lib.ValueIdx
import Idealize.ShloMosaic.Lib.Pipeline.Value
import Idealize.ShloMosaic.PureOps.Ideal.Laws

noncomputable section

namespace Cert.KernelIdeal.HandVal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

namespace R2

theorem pay2_apply (x0 : Vec Ideal S256x512 .f32) (x1 : Vec Ideal S256x512 .bf16) (acc : Vec Ideal S256x256 .f32) (p q : Fin 256) :
    k2_pay2 (F := Ideal) x0 x1 acc (ix2 p q) = acc (ix2 p q) + ∑ k : Fin 512, x0 (ix2 p k) * x1 (ix2 q k) := by
  obtain ⟨E, hE⟩ : ∃ E : dot_S256x512_S256x512_S256x256_1_1_0_0_n_n.contr.Idx ≃ Fin 512, ∀ k, ((E.symm k) ⟨0, by decide⟩ : ℕ) = k.val :=
    ⟨contrEquiv1 dot_S256x512_S256x512_S256x256_1_1_0_0_n_n 512 rfl rfl, contrEquiv1_symm_val dot_S256x512_S256x512_S256x256_1_1_0_0_n_n 512 rfl rfl⟩
  unfold k2_pay2
  simp only [shapeCast_self]
  rw [addf_apply]
  simp only [matmul]
  rw [Ideal.matmul_constant_zero_apply, ← Equiv.sum_comp E.symm]
  congr 1
  refine Finset.sum_congr rfl fun k _ => ?_
  rw [show dot_S256x512_S256x512_S256x256_1_1_0_0_n_n.lhsIdx (ix2 p q) (E.symm k) = ix2 p k from Shape.idx_ext₂
      (by unfold DotDims.lhsIdx; rw [dif_neg (by decide), dif_pos (by decide)]; rfl) ((dot_S256x512_S256x512_S256x256_1_1_0_0_n_n.lhsIdx_val_of_single rfl _ _).trans (hE k)),
    show dot_S256x512_S256x512_S256x256_1_1_0_0_n_n.rhsIdx (ix2 p q) (E.symm k) = ix2 q k from Shape.idx_ext₂
      (by unfold DotDims.rhsIdx; rw [dif_neg (by decide), dif_pos (by decide)]; rfl) ((dot_S256x512_S256x512_S256x256_1_1_0_0_n_n.rhsIdx_val_of_single rfl _ _).trans (hE k))]
  rfl

theorem pay1_apply (i : S256x256.Idx) : k2_pay1 (F := Ideal) i = 0 := by
  unfold k2_pay1
  simp only [shapeCast_self]
  show Ideal.ofBits .f32 0x00000000#32 = 0
  exact Ideal.ofBits_zero_f32

theorem pay3_apply (v17 : Vec Ideal S256x256 .f32) (v18 : Vec Ideal S1x256 .f32) (v24 : Vec Ideal S256x256 .f32) (p q : Fin 256) :
    k2_pay3 (F := Ideal) v17 v18 v24 (ix2 p q)
      = Ideal.liftRound Int.ceil (Ideal.logistic (v17 (ix2 p q) + v18 (ix2 0 q))) * v24 (ix2 p q) := by
  unfold k2_pay3
  simp only [shapeCast_self]
  rw [mulf_apply]
  show Ideal.liftRound Int.ceil (Ideal.logistic (v17 (ix2 p q) + broadcastTo S256x256 v18 broadcasts_S1x256_S256x256 (ix2 p q))) * _ = _
  rw [broadcastTo_apply v18 broadcasts_S1x256_S256x256 (ix2 p q) (ix2 0 q) (fun a => by
    match a with
    | ⟨0, _⟩ => rfl
    | ⟨1, _⟩ => rfl)]

def hOf (c : Dev nD) : Fin 2048 → Fin 2048 → EReal := fun a b => (V c (Pipeline.arrRef spec2 0) : S2048x2048.Idx → EReal) (ix2 a b)
def gwOf (c : Dev nD) : Fin 2048 → Fin 2048 → EReal := fun a b => (V c (Pipeline.arrRef spec2 1) : S2048x2048.Idx → EReal) (ix2 a b)
def gbOf (c : Dev nD) : Fin 2048 → EReal := fun r => (V c (Pipeline.arrRef spec2 2) : S1x2048.Idx → EReal) (ix2 0 r)
def swOf (c : Dev nD) : Fin 2048 → Fin 2048 → EReal := fun a b => (V c (Pipeline.arrRef spec2 3) : S2048x2048.Idx → EReal) (ix2 a b)

theorem idx_gate2 : ∀ t : Fin cfg2.N,
    win2_0.index t (0 : Fin 2) = t.val / 32 ∧ win2_0.index t (1 : Fin 2) = t.val % 4
    ∧ win2_1.index t (0 : Fin 2) = t.val / 4 % 8 ∧ win2_1.index t (1 : Fin 2) = t.val % 4
    ∧ win2_2.index t (0 : Fin 2) = 0 ∧ win2_2.index t (1 : Fin 2) = t.val / 4 % 8
    ∧ win2_3.index t (0 : Fin 2) = t.val / 32 ∧ win2_3.index t (1 : Fin 2) = t.val / 4 % 8
    ∧ win2_4.index t (0 : Fin 2) = t.val / 32 ∧ win2_4.index t (1 : Fin 2) = t.val / 4 % 8 :=
  (by decide +kernel : ∀ t : Fin grid2.N, _)

def gate2 (c : Dev nD) : S2048x2048.Idx → EReal := fun i =>
  Cert.Spec.gate (hOf V c) (gwOf V c) (gbOf V c) (swOf V c) ⟨(i 0).val, idx2_lt0 i⟩ ⟨(i 1).val, idx2_lt1 i⟩

theorem blk_sum2 (h4 : 4 * 512 = 2048) (c : Dev nD) (t : Fin cfg2.N) (h3 : t.val % 4 = 3) (p q : Fin 256) (a b : Fin 2048)
    (ha : a.val = t.val / 32 * 256 + p.val) (hb : b.val = t.val / 4 % 8 * 256 + q.val) (m : Fin 4) (s : Fin cfg2.N) (hs : s.val + 3 = t.val + m.val)
    (x0 : Vec Ideal S256x512 .f32) (x1 : Vec Ideal S256x512 .bf16) (h0 : x0 = iblk2 V c 0 s) (h1 : x1 = iblk2 V c 1 s) :
    ∑ k : Fin 512, x0 (ix2 p k) * x1 (ix2 q k)
      = ∑ r : Fin 512, hOf V c a (Cert.LibBlockSum.blockIdx (B := 4) (R := 512) h4 m r)
          * gwOf V c b (Cert.LibBlockSum.blockIdx (B := 4) (R := 512) h4 m r) := by
  subst h0; subst h1
  have hm := m.isLt
  obtain ⟨ea, eb, ec, ed, -⟩ := idx_gate2 s
  refine Finset.sum_congr rfl fun k _ => congrArg₂ (· * ·)
    (congrArg (V c (Pipeline.arrRef spec2 0) : S2048x2048.Idx → EReal) (Shape.idx_ext₂
      (by show win2_0.index s (0 : Fin 2) * 256 + 1 * p.val = a.val; omega)
      (by show win2_0.index s (1 : Fin 2) * 512 + 1 * k.val = 512 * m.val + k.val; omega)))
    (congrArg (V c (Pipeline.arrRef spec2 1) : S2048x2048.Idx → EReal) (Shape.idx_ext₂
      (by show win2_1.index s (0 : Fin 2) * 256 + 1 * q.val = b.val; omega)
      (by show win2_1.index s (1 : Fin 2) * 512 + 1 * k.val = 512 * m.val + k.val; omega)))

theorem acc2_apply (c : Dev nD) (t : Fin cfg2.N) (h3 : t.val % 4 = 3) (p q : Fin 256) (a b : Fin 2048)
    (ha : a.val = t.val / 32 * 256 + p.val) (hb : b.val = t.val / 4 % 8 * 256 + q.val) :
    acc2 V c t.val t.isLt (ix2 p q) = Cert.Spec.mmT (hOf V c) (gwOf V c) a b := by
  have hN : t.val < 256 := lt_of_lt_of_eq t.isLt (show cfg2.N = 256 from N_2)
  have B := blk_sum2 V rfl c t h3 p q a b ha hb
  rw [acc2_def V c t, if_neg (show ¬t.val % 4 = 0 by omega),
    acc2_def V c ⟨t.val - 1, by omega⟩, if_neg (show ¬(t.val - 1) % 4 = 0 by omega),
    acc2_def V c ⟨t.val - 1 - 1, by omega⟩, if_neg (show ¬(t.val - 1 - 1) % 4 = 0 by omega),
    acc2_def V c ⟨t.val - 1 - 1 - 1, by omega⟩, if_pos (show (t.val - 1 - 1 - 1) % 4 = 0 by omega),
    pay2_apply, pay2_apply, pay2_apply, pay2_apply, pay1_apply, zero_add]
  unfold Cert.Spec.mmT
  rw [Cert.LibBlockSum.sum_blocks (B := 4) (R := 512) rfl, Fin.sum_univ_four,
    B 3 t rfl _ _ rfl rfl, B 2 ⟨t.val - 1, by omega⟩ (by show t.val - 1 + 3 = t.val + 2; omega) _ _ rfl rfl,
    B 1 ⟨t.val - 1 - 1, by omega⟩ (by show t.val - 1 - 1 + 3 = t.val + 1; omega) _ _ rfl rfl,
    B 0 ⟨t.val - 1 - 1 - 1, by omega⟩ (by show t.val - 1 - 1 - 1 + 3 = t.val + 0; omega) _ _ rfl rfl]

theorem flushed2_eq (c : Dev nD) (t : Fin cfg2.N) (hf : (cfg2.win 4).flush t = true) :
    (dat2 V c).flushed 4 t = ((cfg2.win 4).blk t).view.read (Elt Ideal) (gate2 V c) := by
  have h3 : t.val % 4 = 3 := (flush2_4 t).mp hf
  have hN : t.val < 256 := lt_of_lt_of_eq t.isLt (show cfg2.N = 256 from N_2)
  obtain ⟨-, -, -, -, ea, eb, ec, ed, e0, e1⟩ := idx_gate2 t
  show (cfg2.win 4).cut (grid2.coords t) ((dat2 V c).after 4 t) = _
  rw [after2_4]
  unfold out2
  funext y
  obtain ⟨p, q, rfl⟩ : ∃ (p : Fin 256) (q : Fin 256), y = ix2 p q := ⟨y 0, y 1, eq_ix2 y⟩
  have hp := p.isLt
  have hq := q.isLt
  show k2_pay3 (F := Ideal) (acc2 V c t.val t.isLt) (iblk2 V c 2 t) (iblk2 V c 3 t) (ix2 p q) = gate2 V c (((cfg2.win 4).blk t).view.emb (ix2 p q))
  obtain ⟨a, ha⟩ : ∃ a : Fin 2048, a.val = t.val / 32 * 256 + p.val := ⟨⟨_, by omega⟩, rfl⟩
  obtain ⟨b, hb⟩ : ∃ b : Fin 2048, b.val = t.val / 4 % 8 * 256 + q.val := ⟨⟨_, by omega⟩, rfl⟩
  rw [show ((cfg2.win 4).blk t).view.emb (ix2 p q) = (ix2 a b : S2048x2048.Idx) from Shape.idx_ext₂
      (by show win2_4.index t (0 : Fin 2) * 256 + 1 * p.val = a.val; rw [e0, ha]; omega)
      (by show win2_4.index t (1 : Fin 2) * 256 + 1 * q.val = b.val; rw [e1, hb]; omega),
    pay3_apply, acc2_apply V c t h3 p q a b ha hb]
  exact congrArg₂ (fun x y => Ideal.liftRound Int.ceil (Ideal.logistic (_ + x)) * y)
    (congrArg (V c (Pipeline.arrRef spec2 2) : S1x2048.Idx → EReal) (Shape.idx_ext₂
      (by show win2_2.index t (0 : Fin 2) * 1 + 1 * 0 = 0; omega) (by show win2_2.index t (1 : Fin 2) * 256 + 1 * q.val = b.val; omega)))
    (congrArg (V c (Pipeline.arrRef spec2 3) : S2048x2048.Idx → EReal) (Shape.idx_ext₂
      (by show win2_3.index t (0 : Fin 2) * 256 + 1 * p.val = a.val; omega) (by show win2_3.index t (1 : Fin 2) * 256 + 1 * q.val = b.val; omega)))

theorem cover2 (i : S2048x2048.Idx) : ∃ t : Fin cfg2.N, (cfg2.win 4).flush t = true ∧ i ∈ ((cfg2.win 4).blk t).view.set := by
  have hi0 : (i 0).val < 2048 := idx2_lt0 i
  have hi1 : (i 1).val < 2048 := idx2_lt1 i
  have hN : cfg2.N = 256 := N_2
  let t : Fin cfg2.N := ⟨((i 0).val / 256 * 8 + (i 1).val / 256) * 4 + 3, by rw [hN]; omega⟩
  have ht : t.val = ((i 0).val / 256 * 8 + (i 1).val / 256) * 4 + 3 := rfl
  obtain ⟨-, -, -, -, -, -, -, -, e0, e1⟩ := idx_gate2 t
  refine ⟨t, (flush2_4 t).mpr (by rw [ht]; omega), ?_⟩
  show i ∈ ((View.whole (Pipeline.arrRef spec2 4)).slice (win2_4.rect t)).set
  rw [View.set_slice_whole, Rect.mem_set_unit]
  intro a
  match a with
  | ⟨0, _⟩ => show win2_4.index t (0 : Fin 2) * 256 ≤ (i 0).val ∧ (i 0).val < win2_4.index t (0 : Fin 2) * 256 + 256; rw [e0, ht]; omega
  | ⟨1, _⟩ => show win2_4.index t (1 : Fin 2) * 256 ≤ (i 1).val ∧ (i 1).val < win2_4.index t (1 : Fin 2) * 256 + 256; rw [e1, ht]; omega

theorem final2 (c : Dev nD) (j k : Fin 2048) :
    ((dat2 (F := Ideal) V c).arrAt 4 cfg2.N : S2048x2048.Idx → EReal) (ix2 j k)
      = Cert.Spec.gate (fun a b => (V c (Pipeline.arrRef spec2 0) : S2048x2048.Idx → EReal) (ix2 a b)) (fun a b => (V c (Pipeline.arrRef spec2 1) : S2048x2048.Idx → EReal) (ix2 a b)) (fun r => (V c (Pipeline.arrRef spec2 2) : S1x2048.Idx → EReal) (ix2 0 r)) (fun a b => (V c (Pipeline.arrRef spec2 3) : S2048x2048.Idx → EReal) (ix2 a b)) j k := by
  rw [(dat2 V c).arrAt_eq_of_cover 4 (gate2 V c) (fun t hf => flushed2_eq V c t hf) (cover2)]
  rfl

end R2

export R2 (final2)

end Cert.KernelIdeal.HandVal

end
-- ==== Proof.LibAcc.lean ====
import Mathlib.Algebra.BigOperators.Fin

namespace Cert.LibAcc

theorem idx_lt {T B : ℕ} (b : Fin B) {k : ℕ} (hk : k < T) : b.val * T + k < B * T :=
  calc b.val * T + k < b.val * T + T := Nat.add_lt_add_left hk _
    _ = (b.val + 1) * T := (Nat.succ_mul _ _).symm
    _ ≤ B * T := Nat.mul_le_mul_right T b.isLt

theorem mod_eq (b T k : ℕ) (hk : k < T) : (b * T + k) % T = k := by
  rw [Nat.add_comm, Nat.add_mul_mod_self_right, Nat.mod_eq_of_lt hk]

section
variable {M : Type} [AddCommMonoid M] (T B : ℕ) (acc s : (n : ℕ) → n < B * T → M)

theorem acc_congr {n n' : ℕ} (e : n = n') (h : n < B * T) (h' : n' < B * T) : acc n h = acc n' h' := by
  subst e; rfl

variable (hreset : ∀ n (hn : n < B * T), n % T = 0 → acc n hn = s n hn)
  (hstep : ∀ n (hn : n < B * T) (h : n % T ≠ 0), acc n hn = acc (n - 1) (by omega) + s n hn)

include hreset hstep in
theorem acc_prefix (b : Fin B) : ∀ (k : ℕ) (hk : k < T),
    acc (b.val * T + k) (idx_lt b hk)
      = ∑ i' : Fin (k + 1), s (b.val * T + i'.val) (idx_lt b (Nat.lt_of_lt_of_le i'.isLt hk))
  | 0, hk => by
    rw [Fin.sum_univ_one]
    exact hreset _ _ (mod_eq b.val T 0 hk)
  | k + 1, hk => by
    rw [Fin.sum_univ_castSucc]
    have hmod : (b.val * T + (k + 1)) % T ≠ 0 := by rw [mod_eq b.val T (k + 1) hk]; omega
    rw [hstep _ _ hmod]
    refine congrArg₂ (· + ·) ?_ rfl
    exact (acc_congr T B acc (by omega) _ (idx_lt b (Nat.lt_of_succ_lt hk))).trans
      (acc_prefix b k (Nat.lt_of_succ_lt hk))

include hreset hstep in
theorem acc_stretch (b : Fin B) (i : Fin T) :
    acc (b.val * T + i.val) (idx_lt b i.isLt)
      = ∑ i' : Fin (i.val + 1), s (b.val * T + i'.val) (idx_lt b (Nat.lt_of_lt_of_le i'.isLt i.isLt)) :=
  acc_prefix T B acc s hreset hstep b i.val i.isLt

include hreset hstep in
theorem acc_last (hT : 0 < T) (b : Fin B) :
    acc (b.val * T + (T - 1)) (idx_lt b (by omega)) = ∑ i : Fin T, s (b.val * T + i.val) (idx_lt b i.isLt) := by
  cases T with
  | zero => omega
  | succ T' => exact acc_prefix (T' + 1) B acc s hreset hstep b T' (Nat.lt_succ_self T')

end

section
variable {M : Type} [AddCommMonoid M] (T B : ℕ) (acc s : (n : ℕ) → n < B * T → M) (z : M) (hz : z = 0)
  (hreset : ∀ n (hn : n < B * T), n % T = 0 → acc n hn = z + s n hn)
  (hstep : ∀ n (hn : n < B * T) (h : n % T ≠ 0), acc n hn = acc (n - 1) (by omega) + s n hn)

include hz hreset hstep in
theorem acc_stretch_zero (b : Fin B) (i : Fin T) :
    acc (b.val * T + i.val) (idx_lt b i.isLt)
      = ∑ i' : Fin (i.val + 1), s (b.val * T + i'.val) (idx_lt b (Nat.lt_of_lt_of_le i'.isLt i.isLt)) :=
  acc_stretch T B acc s (fun n hn h => by rw [hreset n hn h, hz, zero_add]) hstep b i

include hz hreset hstep in
theorem acc_last_zero (hT : 0 < T) (b : Fin B) :
    acc (b.val * T + (T - 1)) (idx_lt b (by omega)) = ∑ i : Fin T, s (b.val * T + i.val) (idx_lt b i.isLt) :=
  acc_last T B acc s (fun n hn h => by rw [hreset n hn h, hz, zero_add]) hstep hT b

end

end Cert.LibAcc
-- ==== Proof.KI.Bsum3Val.lean ====
import proofs.«412769_j28716151341139_3_alg».proof.Proof.KI.Bsum3
import proofs.«412769_j28716151341139_3_alg».proof.Proof.SpecArrays
import proofs.«412769_j28716151341139_3_alg».proof.Proof.LibAcc
import proofs.«412769_j28716151341139_3_alg».proof.Proof.LibBlockSum
import Idealize.ShloMosaic.Lib.ValueIdx
import Idealize.ShloMosaic.Lib.Pipeline.Value
import Idealize.ShloMosaic.PureOps.Ideal.Laws

noncomputable section

namespace Cert.KernelIdeal.HandVal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

namespace R3

theorem pay2_apply (x0 : Vec Ideal S512x256 .f32) (x1 : Vec Ideal S512x512 .f32) (xs : Vec Ideal S256x512 .f32) (r : Fin 256) (s : Fin 512) :
    k3_pay2 (F := Ideal) x0 x1 xs (ix2 r s) = xs (ix2 r s) + ∑ a : Fin 512, x0 (ix2 a r) * x1 (ix2 a s) := by
  unfold k3_pay2
  rw [shapeCast_self, shapeCast_self, shapeCast_self]
  show xs (ix2 r s) + FloatOps.matmul dot_S512x256_S512x512_S256x512_0_0_1_1_n_n none (truncf (F := Ideal) .bf16 x0 bitsLt_bf16_f32)
    (truncf (F := Ideal) .bf16 x1 bitsLt_bf16_f32) (constant (F := Ideal) S256x512 .f32 0x00000000#32) (ix2 r s) = _
  rw [Ideal.matmul_constant_zero_apply, ← Equiv.sum_comp (contrEquiv1 dot_S512x256_S512x512_S256x512_0_0_1_1_n_n 512 rfl rfl).symm]
  congr 1
  refine Finset.sum_congr rfl fun k _ => ?_
  have hk := contrEquiv1_symm_val dot_S512x256_S512x512_S256x512_0_0_1_1_n_n 512 rfl rfl k
  show x0 _ * x1 _ = _
  congr 2 <;> refine funext fun a => Fin.ext ?_ <;> match a with
    | ⟨0, _⟩ => first | exact (DotDims.lhsIdx_val_of_single _ rfl _ _).trans hk | exact (DotDims.rhsIdx_val_of_single _ rfl _ _).trans hk
    | ⟨1, _⟩ => (first | unfold DotDims.lhsIdx | unfold DotDims.rhsIdx); rw [dif_neg (by decide +revert), dif_pos (by decide +revert)]; rfl

theorem pay1_apply (y : S256x512.Idx) : k3_pay1 (F := Ideal) y = 0 := by
  unfold k3_pay1
  rw [shapeCast_self]
  exact Ideal.ofBits_zero_f32

theorem pay3_apply (v18 v19 : Vec Ideal S256x512 .f32) (y : S256x512.Idx) : k3_pay3 (F := Ideal) v18 v19 y = v18 y + v19 y := by
  unfold k3_pay3
  rw [shapeCast_self]
  rfl

abbrev garr3 (c : Dev nD) : S2048x2048.Idx → EReal := V c (Pipeline.arrRef spec3 0)
abbrev harr3 (c : Dev nD) : S2048x2048.Idx → EReal := V c (Pipeline.arrRef spec3 1)
abbrev earr3 (c : Dev nD) : S2048x2048.Idx → EReal := V c (Pipeline.arrRef spec3 2)
abbrev gblk3 (c : Dev nD) (t : Fin cfg3.N) : Vec Ideal S512x256 .f32 := iblk3 V c 0 t
abbrev hblk3 (c : Dev nD) (t : Fin cfg3.N) : Vec Ideal S512x512 .f32 := iblk3 V c 1 t
abbrev eblk3 (c : Dev nD) (t : Fin cfg3.N) : Vec Ideal S256x512 .f32 := iblk3 V c 2 t

theorem idx3 : ∀ t : Fin cfg3.N,
    win3_0.index t (0 : Fin 2) = t.val % 4 ∧ win3_0.index t (1 : Fin 2) = t.val / 16
    ∧ win3_1.index t (0 : Fin 2) = t.val % 4 ∧ win3_1.index t (1 : Fin 2) = t.val / 4 % 4
    ∧ win3_2.index t (0 : Fin 2) = t.val / 16 ∧ win3_2.index t (1 : Fin 2) = t.val / 4 % 4
    ∧ win3_3.index t (0 : Fin 2) = t.val / 16 ∧ win3_3.index t (1 : Fin 2) = t.val / 4 % 4 :=
  (by decide +kernel : ∀ t : Fin grid3.N, _)

theorem gblk3_apply (c : Dev nD) (t : Fin cfg3.N) (a : Fin 512) (r : Fin 256) (p q : Fin 2048)
    (hp : p.val = 512 * (t.val % 4) + a.val) (hq : q.val = 256 * (t.val / 16) + r.val) :
    gblk3 V c t (ix2 a r) = garr3 V c (ix2 p q) := by
  obtain ⟨e0, e1, -⟩ := idx3 t
  show V c (Pipeline.arrRef spec3 0) (((cfg3.win 0).blk t).view.emb (ix2 a r)) = V c (Pipeline.arrRef spec3 0) (ix2 p q)
  refine congrArg _ (funext fun x => Fin.ext ?_)
  match x with
  | ⟨0, _⟩ => show win3_0.index t (0 : Fin 2) * 512 + 1 * a.val = p.val; omega
  | ⟨1, _⟩ => show win3_0.index t (1 : Fin 2) * 256 + 1 * r.val = q.val; omega

theorem hblk3_apply (c : Dev nD) (t : Fin cfg3.N) (a : Fin 512) (s : Fin 512) (p q : Fin 2048)
    (hp : p.val = 512 * (t.val % 4) + a.val) (hq : q.val = 512 * (t.val / 4 % 4) + s.val) :
    hblk3 V c t (ix2 a s) = harr3 V c (ix2 p q) := by
  obtain ⟨-, -, e2, e3, -⟩ := idx3 t
  show V c (Pipeline.arrRef spec3 1) (((cfg3.win 1).blk t).view.emb (ix2 a s)) = V c (Pipeline.arrRef spec3 1) (ix2 p q)
  refine congrArg _ (funext fun x => Fin.ext ?_)
  match x with
  | ⟨0, _⟩ => show win3_1.index t (0 : Fin 2) * 512 + 1 * a.val = p.val; omega
  | ⟨1, _⟩ => show win3_1.index t (1 : Fin 2) * 512 + 1 * s.val = q.val; omega

theorem eblk3_apply (c : Dev nD) (t : Fin cfg3.N) (r : Fin 256) (s : Fin 512) (p q : Fin 2048)
    (hp : p.val = 256 * (t.val / 16) + r.val) (hq : q.val = 512 * (t.val / 4 % 4) + s.val) :
    eblk3 V c t (ix2 r s) = earr3 V c (ix2 p q) := by
  obtain ⟨-, -, -, -, e4, e5, -⟩ := idx3 t
  show V c (Pipeline.arrRef spec3 2) (((cfg3.win 2).blk t).view.emb (ix2 r s)) = V c (Pipeline.arrRef spec3 2) (ix2 p q)
  refine congrArg _ (funext fun x => Fin.ext ?_)
  match x with
  | ⟨0, _⟩ => show win3_2.index t (0 : Fin 2) * 256 + 1 * r.val = p.val; omega
  | ⟨1, _⟩ => show win3_2.index t (1 : Fin 2) * 512 + 1 * s.val = q.val; omega

theorem hN3 {n : ℕ} (h : n < 32 * 4) : n < cfg3.N := lt_of_lt_of_eq h N_3.symm

def accAt3 (c : Dev nD) (r : Fin 256) (s : Fin 512) (n : ℕ) (hn : n < 32 * 4) : EReal := acc3 V c n (hN3 hn) (ix2 r s)
def term3 (c : Dev nD) (r : Fin 256) (s : Fin 512) (n : ℕ) (hn : n < 32 * 4) : EReal :=
  ∑ a : Fin 512, gblk3 V c ⟨n, hN3 hn⟩ (ix2 a r) * hblk3 V c ⟨n, hN3 hn⟩ (ix2 a s)

theorem acc3_last (c : Dev nD) (r : Fin 256) (s : Fin 512) (b : Fin 32) :
    accAt3 V c r s (b.val * 4 + (4 - 1)) (Cert.LibAcc.idx_lt b (by omega))
      = ∑ k : Fin 4, term3 V c r s (b.val * 4 + k.val) (Cert.LibAcc.idx_lt b k.isLt) :=
  Cert.LibAcc.acc_last_zero 4 32 (accAt3 V c r s) (term3 V c r s) (k3_pay1 (F := Ideal) (ix2 r s)) (pay1_apply (ix2 r s))
    (fun n hn h0 => (congrFun (acc3_A V c ⟨n, hN3 hn⟩ h0) (ix2 r s)).trans (pay2_apply _ _ _ r s))
    (fun n hn h0 => (congrFun (acc3_B V c ⟨n, hN3 hn⟩ h0) (ix2 r s)).trans (pay2_apply _ _ _ r s))
    (by omega) b

def gout3 (c : Dev nD) : S2048x2048.Idx → EReal := fun y =>
  Cert.Spec.bsum (fun a b => garr3 V c (ix2 a b)) (fun a b => harr3 V c (ix2 a b)) (fun a b => earr3 V c (ix2 a b)) (y 0) (y 1)

theorem entry3 (c : Dev nD) (t : Fin cfg3.N) (h3 : t.val % 4 = 3) (r : Fin 256) (s : Fin 512) (i u : Fin 2048)
    (hi : i.val = 256 * (t.val / 16) + r.val) (hu : u.val = 512 * (t.val / 4 % 4) + s.val) :
    acc3 V c t.val t.isLt (ix2 r s) + eblk3 V c t (ix2 r s)
      = Cert.Spec.bsum (fun a b => garr3 V c (ix2 a b)) (fun a b => harr3 V c (ix2 a b)) (fun a b => earr3 V c (ix2 a b)) i u := by
  have hN : t.val < 128 := lt_of_lt_of_eq t.isLt N_3
  have hb : t.val / 4 < 32 := by omega
  have ht : t.val = (t.val / 4) * 4 + (4 - 1) := by omega
  unfold Cert.Spec.bsum
  rw [add_comm]
  refine congrArg₂ (· + ·) (eblk3_apply V c t r s i u hi hu) ?_
  have hacc : acc3 V c t.val t.isLt (ix2 r s) = accAt3 V c r s ((t.val / 4) * 4 + (4 - 1)) (Cert.LibAcc.idx_lt ⟨t.val / 4, hb⟩ (by omega)) := by
    unfold accAt3; congr 2
  rw [hacc, acc3_last V c r s ⟨t.val / 4, hb⟩, Cert.LibBlockSum.sum_blocks (B := 4) (R := 512) (N := 2048) (by norm_num)]
  refine Finset.sum_congr rfl fun k _ => ?_
  unfold term3
  refine Finset.sum_congr rfl fun a _ => ?_
  have hk := k.isLt
  rw [gblk3_apply V c ⟨t.val / 4 * 4 + k.val, _⟩ a r (Cert.LibBlockSum.blockIdx (B := 4) (R := 512) (N := 2048) (by norm_num) k a) i
      (by rw [Cert.LibBlockSum.blockIdx_val]; show _ = 512 * ((t.val / 4 * 4 + k.val) % 4) + a.val; omega)
      (by show _ = 256 * ((t.val / 4 * 4 + k.val) / 16) + r.val; omega),
    hblk3_apply V c ⟨t.val / 4 * 4 + k.val, _⟩ a s (Cert.LibBlockSum.blockIdx (B := 4) (R := 512) (N := 2048) (by norm_num) k a) u
      (by rw [Cert.LibBlockSum.blockIdx_val]; show _ = 512 * ((t.val / 4 * 4 + k.val) % 4) + a.val; omega)
      (by show _ = 512 * ((t.val / 4 * 4 + k.val) / 4 % 4) + s.val; omega)]

theorem flushed3_eq (c : Dev nD) (t : Fin cfg3.N) (hf : (cfg3.win 3).flush t = true) :
    (dat3 (F := Ideal) V c).flushed 3 t = ((cfg3.win 3).blk t).view.read (Elt Ideal) (gout3 V c) := by
  have h3 : t.val % 4 = 3 := (flush3_3 t).mp hf
  obtain ⟨-, -, -, -, -, -, e6, e7⟩ := idx3 t
  funext j
  obtain ⟨r, s, rfl⟩ : ∃ (r : Fin 256) (s : Fin 512), j = ix2 r s := ⟨j 0, j 1, eq_ix2 j⟩
  show k3_pay3 (F := Ideal) (acc3 V c t.val t.isLt) (eblk3 V c t) (ix2 r s) = gout3 V c (((cfg3.win 3).blk t).view.emb (ix2 r s))
  refine (pay3_apply (acc3 V c t.val t.isLt) (eblk3 V c t) (ix2 r s)).trans ?_
  exact entry3 V c t h3 r s _ _ (by show win3_3.index t (0 : Fin 2) * 256 + 1 * r.val = _; omega)
    (by show win3_3.index t (1 : Fin 2) * 512 + 1 * s.val = _; omega)

theorem mem_blk3 (t : Fin cfg3.N) (y : S2048x2048.Idx) :
    y ∈ ((cfg3.win 3).blk t).view.set ↔ ∀ a : Fin 2, win3_3.index t a * S256x512.size a ≤ (y a).val ∧ (y a).val < win3_3.index t a * S256x512.size a + S256x512.size a := by
  show y ∈ ((View.whole (Pipeline.arrRef spec3 3)).slice (win3_3.rect t)).set ↔ _
  rw [View.set_slice_whole, Rect.mem_set_unit]
  exact Iff.rfl

theorem cover3 (y : S2048x2048.Idx) : ∃ t : Fin cfg3.N, (cfg3.win 3).flush t = true ∧ y ∈ ((cfg3.win 3).blk t).view.set := by
  have h0 : (y 0).val < 2048 := (y 0).isLt
  have h1 : (y 1).val < 2048 := (y 1).isLt
  have hlt : 16 * ((y 0).val / 256) + 4 * ((y 1).val / 512) + 3 < cfg3.N := by rw [show cfg3.N = 128 from N_3]; omega
  obtain ⟨t, ht⟩ : ∃ t : Fin cfg3.N, t.val = 16 * ((y 0).val / 256) + 4 * ((y 1).val / 512) + 3 := ⟨⟨_, hlt⟩, rfl⟩
  obtain ⟨-, -, -, -, -, -, e6, e7⟩ := idx3 t
  refine ⟨t, (flush3_3 t).mpr (by omega), ?_⟩
  rw [mem_blk3]
  intro a
  match a with
  | ⟨0, _⟩ =>
    show win3_3.index t (0 : Fin 2) * 256 ≤ (y 0).val ∧ (y 0).val < win3_3.index t (0 : Fin 2) * 256 + 256
    omega
  | ⟨1, _⟩ =>
    show win3_3.index t (1 : Fin 2) * 512 ≤ (y 1).val ∧ (y 1).val < win3_3.index t (1 : Fin 2) * 512 + 512
    omega

theorem final3 (c : Dev nD) (i u : Fin 2048) :
    ((dat3 (F := Ideal) V c).arrAt 3 cfg3.N : S2048x2048.Idx → EReal) (ix2 i u)
      = Cert.Spec.bsum (fun a b => (V c (Pipeline.arrRef spec3 0) : S2048x2048.Idx → EReal) (ix2 a b)) (fun a b => (V c (Pipeline.arrRef spec3 1) : S2048x2048.Idx → EReal) (ix2 a b)) (fun a b => (V c (Pipeline.arrRef spec3 2) : S2048x2048.Idx → EReal) (ix2 a b)) i u :=
  congrFun ((dat3 (F := Ideal) V c).arrAt_eq_of_cover 3 (gout3 V c) (flushed3_eq V c) cover3) (ix2 i u)

end R3

export R3 (final3)

end Cert.KernelIdeal.HandVal

end
-- ==== Proof.KI.Lstm4Val.lean ====
import proofs.«412769_j28716151341139_3_alg».proof.Proof.KI.Lstm4
import proofs.«412769_j28716151341139_3_alg».proof.Proof.SpecArrays
import Idealize.ShloMosaic.Lib.ValueIdx
import Idealize.ShloMosaic.Lib.Pipeline.Value
import Idealize.ShloMosaic.PureOps.Ideal.Laws

set_option maxRecDepth 16384

noncomputable section

namespace Cert.KernelIdeal.HandVal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

namespace R4

-- entry (p, r) of the product against the transposed weights: row p of x against row r of W
theorem mm4_apply (x : FVec Ideal S64x2048 .bf16) (W : FVec Ideal S2048x2048 .bf16) (p : Fin 64) (r : Fin 2048) :
    FloatOps.matmul dot_S64x2048_S2048x2048_S64x2048_1_1_0_0_n_n none x W (constant (F := Ideal) S64x2048 .f32 0x00000000#32) (ix2 p r)
      = ∑ k : Fin 2048, x (ix2 p k) * W (ix2 r k) := by
  rw [Ideal.matmul_constant_zero_apply, ← Equiv.sum_comp (contrEquiv1 dot_S64x2048_S2048x2048_S64x2048_1_1_0_0_n_n 2048 rfl rfl).symm]
  refine Finset.sum_congr rfl fun k _ => ?_
  have hk := contrEquiv1_symm_val dot_S64x2048_S2048x2048_S64x2048_1_1_0_0_n_n 2048 rfl rfl k
  exact congrArg₂ (· * ·) (congrArg x (Shape.idx_ext₂ rfl ((dot_S64x2048_S2048x2048_S64x2048_1_1_0_0_n_n.lhsIdx_val_of_single rfl _ _).trans hk)))
    (congrArg W (Shape.idx_ext₂ rfl ((dot_S64x2048_S2048x2048_S64x2048_1_1_0_0_n_n.rhsIdx_val_of_single rfl _ _).trans hk)))

-- the pre-activations: the two products plus the bias row
theorem pay1_apply (xa xb : Vec Ideal S64x2048 .f32) (xc xd : Vec Ideal S2048x2048 .bf16) (xe : Vec Ideal S1x2048 .f32)
    (p : Fin 64) (r : Fin 2048) :
    k4_pay1 xa xb xc xd xe (ix2 p r)
      = ((∑ k : Fin 2048, xa (ix2 p k) * xc (ix2 r k)) + ∑ k : Fin 2048, xb (ix2 p k) * xd (ix2 r k)) + xe (ix2 0 r) := by
  unfold k4_pay1
  simp only [shapeCast_self]
  rw [addf_apply, addf_apply]
  rw [broadcastTo_apply xe broadcasts_S1x2048_S64x2048 (ix2 p r) (ix2 0 r) (Fin.forall_fin_two.2 ⟨rfl, rfl⟩)]
  simp only [matmul]
  rw [mm4_apply, mm4_apply]
  rfl

-- the new cell: forget gate times the cell plus input gate times the tanh of the candidate
theorem pay2_apply (xa xb : Vec Ideal S64x2048 .f32) (xc xd : Vec Ideal S2048x2048 .bf16) (xe : Vec Ideal S1x2048 .f32)
    (xf : Vec Ideal S64x512 .f32) (p : Fin 64) (q : Fin 512) :
    k4_pay2 xa xb xc xd xe xf (ix2 p q)
      = Ideal.logistic (k4_pay1 xa xb xc xd xe (ix2 p (⟨512 + q.val, by have := q.isLt; omega⟩ : Fin 2048))) * xf (ix2 p q)
        + Ideal.logistic (k4_pay1 xa xb xc xd xe (ix2 p (⟨q.val, by have := q.isLt; omega⟩ : Fin 2048)))
          * Ideal.tanh (k4_pay1 xa xb xc xd xe (ix2 p (⟨1024 + q.val, by have := q.isLt; omega⟩ : Fin 2048))) := by
  unfold k4_pay2
  simp only [shapeCast_self]
  rw [addf_apply, mulf_apply, mulf_apply]
  show Ideal.logistic _ * _ + Ideal.logistic _ * Ideal.tanh _ = _
  rw [extractStridedSlice_apply ![0, 512] _ slices_S64x2048_o0_512_S64x512 (ix2 p q) (ix2 p (⟨512 + q.val, by have := q.isLt; omega⟩ : Fin 2048)) (Fin.forall_fin_two.2 ⟨(Nat.zero_add _).symm, rfl⟩),
    extractStridedSlice_apply ![0, 0] _ slices_S64x2048_o0_0_S64x512 (ix2 p q) (ix2 p (⟨q.val, by have := q.isLt; omega⟩ : Fin 2048)) (Fin.forall_fin_two.2 ⟨(Nat.zero_add _).symm, (Nat.zero_add _).symm⟩),
    extractStridedSlice_apply ![0, 1024] _ slices_S64x2048_o0_1024_S64x512 (ix2 p q) (ix2 p (⟨1024 + q.val, by have := q.isLt; omega⟩ : Fin 2048)) (Fin.forall_fin_two.2 ⟨(Nat.zero_add _).symm, rfl⟩)]

-- the new hidden state: output gate times the tanh of the new cell
theorem pay3_apply (xa xb : Vec Ideal S64x2048 .f32) (xc xd : Vec Ideal S2048x2048 .bf16) (xe : Vec Ideal S1x2048 .f32)
    (xf : Vec Ideal S64x512 .f32) (p : Fin 64) (q : Fin 512) :
    k4_pay3 xa xb xc xd xe xf (ix2 p q)
      = Ideal.logistic (k4_pay1 xa xb xc xd xe (ix2 p (⟨1536 + q.val, by have := q.isLt; omega⟩ : Fin 2048)))
        * Ideal.tanh (k4_pay2 xa xb xc xd xe xf (ix2 p q)) := by
  unfold k4_pay3
  rw [mulf_apply]
  show Ideal.logistic _ * Ideal.tanh _ = _
  rw [extractStridedSlice_apply ![0, 1536] _ slices_S64x2048_o0_1536_S64x512 (ix2 p q) (ix2 p (⟨1536 + q.val, by have := q.isLt; omega⟩ : Fin 2048)) (Fin.forall_fin_two.2 ⟨(Nat.zero_add _).symm, rfl⟩)]

-- the block index maps at every point, in terms of the outputs' block (i, j)
theorem idx_facts4 : ∀ t : Fin cfg4.N,
    win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 2) = win4_6.index t (1 : Fin 2) ∧ win4_2.index t (1 : Fin 2) = 0
    ∧ win4_3.index t (0 : Fin 2) = win4_6.index t (1 : Fin 2) ∧ win4_3.index t (1 : Fin 2) = 0
    ∧ win4_4.index t (0 : Fin 2) = 0 ∧ win4_4.index t (1 : Fin 2) = win4_6.index t (1 : Fin 2)
    ∧ win4_5.index t (0 : Fin 2) = win4_6.index t (0 : Fin 2) ∧ win4_5.index t (1 : Fin 2) = win4_6.index t (1 : Fin 2)
    ∧ win4_7.index t (0 : Fin 2) = win4_6.index t (0 : Fin 2) ∧ win4_7.index t (1 : Fin 2) = win4_6.index t (1 : Fin 2)
    ∧ win4_6.index t (0 : Fin 2) ≤ 31 ∧ win4_6.index t (1 : Fin 2) ≤ 3 :=
  (by decide +kernel : ∀ t : Fin grid4.N, _)

-- every output block is some point's
theorem idx_onto4 : ∀ (qa : Fin 32) (qb : Fin 4), ∃ t : Fin cfg4.N, win4_6.index t = ![qa.val, qb.val] :=
  (by decide +kernel : ∀ (qa : Fin 32) (qb : Fin 4), ∃ t : Fin grid4.N, win4_6.index t = ![qa.val, qb.val])

-- (n, u) is the global entry of tile entry (p, q) at point t
abbrev glob4 (t : Fin cfg4.N) (p : Fin 64) (q : Fin 512) (n u : Fin 2048) : Prop :=
  n.val = win4_6.index t (0 : Fin 2) * 64 + p.val ∧ u.val = win4_6.index t (1 : Fin 2) * 512 + q.val

-- an input block's entry is the array's entry at the block's offset plus the coordinate (windows 0 to 4)
theorem blk4_in (t : Fin cfg4.N) (p : Fin 64) (r n : Fin 2048) (R : Fin 8192)
    (hn : n.val = win4_6.index t (0 : Fin 2) * 64 + p.val) (hR : R.val = win4_6.index t (1 : Fin 2) * 2048 + r.val) :
    (∀ (a : S2048x2048.Idx → Elt Ideal .f32) (k : Fin 2048), (((cfg4.win 0).blk t).view.read (Elt Ideal) a : S64x2048.Idx → EReal) (ix2 p k) = a (ix2 n k))
    ∧ (∀ (a : S2048x2048.Idx → Elt Ideal .f32) (k : Fin 2048), (((cfg4.win 1).blk t).view.read (Elt Ideal) a : S64x2048.Idx → EReal) (ix2 p k) = a (ix2 n k))
    ∧ (∀ (a : S8192x2048.Idx → Elt Ideal .bf16) (k : Fin 2048), (((cfg4.win 2).blk t).view.read (Elt Ideal) a : S2048x2048.Idx → EReal) (ix2 r k) = a (ix2 R k))
    ∧ (∀ (a : S8192x2048.Idx → Elt Ideal .bf16) (k : Fin 2048), (((cfg4.win 3).blk t).view.read (Elt Ideal) a : S2048x2048.Idx → EReal) (ix2 r k) = a (ix2 R k))
    ∧ ∀ (a : S1x8192.Idx → Elt Ideal .f32), (((cfg4.win 4).blk t).view.read (Elt Ideal) a : S1x2048.Idx → EReal) (ix2 0 r) = a (ix2 0 R) := by
  obtain ⟨a0, b0, a1, b1, a2, b2, a3, b3, a4, b4, -⟩ := idx_facts4 t
  exact ⟨fun a k => congrArg a (Shape.idx_ext₂ (by show win4_0.index t (0 : Fin 2) * 64 + 1 * p.val = n.val; omega) (by show win4_0.index t (1 : Fin 2) * 2048 + 1 * k.val = k.val; omega)),
    fun a k => congrArg a (Shape.idx_ext₂ (by show win4_1.index t (0 : Fin 2) * 64 + 1 * p.val = n.val; omega) (by show win4_1.index t (1 : Fin 2) * 2048 + 1 * k.val = k.val; omega)),
    fun a k => congrArg a (Shape.idx_ext₂ (by show win4_2.index t (0 : Fin 2) * 2048 + 1 * r.val = R.val; omega) (by show win4_2.index t (1 : Fin 2) * 2048 + 1 * k.val = k.val; omega)),
    fun a k => congrArg a (Shape.idx_ext₂ (by show win4_3.index t (0 : Fin 2) * 2048 + 1 * r.val = R.val; omega) (by show win4_3.index t (1 : Fin 2) * 2048 + 1 * k.val = k.val; omega)),
    fun a => congrArg a (Shape.idx_ext₂ (by show win4_4.index t (0 : Fin 2) * 1 + 1 * 0 = 0; omega) (by show win4_4.index t (1 : Fin 2) * 2048 + 1 * r.val = R.val; omega))⟩

-- the same for the cell's block, and both output windows place a tile entry at the global entry
theorem blk4_out (t : Fin cfg4.N) (p : Fin 64) (q : Fin 512) (n u : Fin 2048) (h : glob4 t p q n u) :
    (∀ a : S2048x2048.Idx → Elt Ideal .f32, (((cfg4.win 5).blk t).view.read (Elt Ideal) a : S64x512.Idx → EReal) (ix2 p q) = a (ix2 n u))
    ∧ ((cfg4.win 6).blk t).view.emb (ix2 p q) = ix2 n u ∧ ((cfg4.win 7).blk t).view.emb (ix2 p q) = ix2 n u := by
  obtain ⟨hn, hu⟩ := h
  obtain ⟨-, -, -, -, -, -, -, -, -, -, a5, b5, a7, b7, -⟩ := idx_facts4 t
  exact ⟨fun a => congrArg a (Shape.idx_ext₂ (by show win4_5.index t (0 : Fin 2) * 64 + 1 * p.val = n.val; omega) (by show win4_5.index t (1 : Fin 2) * 512 + 1 * q.val = u.val; omega)),
    Shape.idx_ext₂ (by show win4_6.index t (0 : Fin 2) * 64 + 1 * p.val = n.val; omega) (by show win4_6.index t (1 : Fin 2) * 512 + 1 * q.val = u.val; omega),
    Shape.idx_ext₂ (by show win4_7.index t (0 : Fin 2) * 64 + 1 * p.val = n.val; omega) (by show win4_7.index t (1 : Fin 2) * 512 + 1 * q.val = u.val; omega)⟩

section AtPoint

variable (aa ab af : S2048x2048.Idx → Elt Ideal .f32) (ac ad : S8192x2048.Idx → Elt Ideal .bf16) (ae : S1x8192.Idx → Elt Ideal .f32)

-- gate g's pre-activation at a point's tile is the specification's at the global row and unit
theorem preact4_apply (t : Fin cfg4.N) (p : Fin 64) (q : Fin 512) (g : Fin 4) (r n u : Fin 2048)
    (hr : r.val = g.val * 512 + q.val)
    (h : glob4 t p q n u) :
    k4_pay1 (((cfg4.win 0).blk t).view.read (Elt Ideal) aa) (((cfg4.win 1).blk t).view.read (Elt Ideal) ab)
        (((cfg4.win 2).blk t).view.read (Elt Ideal) ac) (((cfg4.win 3).blk t).view.read (Elt Ideal) ad)
        (((cfg4.win 4).blk t).view.read (Elt Ideal) ae) (ix2 p r)
      = Cert.Spec.preactP (fun x y => aa (ix2 x y)) (fun x y => ab (ix2 x y)) (fun x y => ac (ix2 x y)) (fun x y => ad (ix2 x y))
          (fun x => ae (ix2 0 x)) g n u := by
  obtain ⟨hn, hu⟩ := h
  have hR : (Cert.Spec.permRow g u).val = win4_6.index t (1 : Fin 2) * 2048 + r.val := by
    show (u.val / 512) * 2048 + g.val * 512 + u.val % 512 = _
    have := q.isLt; omega
  rw [pay1_apply]
  unfold Cert.Spec.preactP Cert.Spec.mmT
  simp only [blk4_in t p r n _ hn hR]

-- the new cell at a point's tile is the specification's at the global entry
theorem cell4_apply (t : Fin cfg4.N) (p : Fin 64) (q : Fin 512) (n u : Fin 2048)
    (h : glob4 t p q n u) :
    k4_pay2 (((cfg4.win 0).blk t).view.read (Elt Ideal) aa) (((cfg4.win 1).blk t).view.read (Elt Ideal) ab)
        (((cfg4.win 2).blk t).view.read (Elt Ideal) ac) (((cfg4.win 3).blk t).view.read (Elt Ideal) ad)
        (((cfg4.win 4).blk t).view.read (Elt Ideal) ae) (((cfg4.win 5).blk t).view.read (Elt Ideal) af) (ix2 p q)
      = Cert.Spec.cellNewP (fun x y => aa (ix2 x y)) (fun x y => ab (ix2 x y)) (fun x y => af (ix2 x y)) (fun x y => ac (ix2 x y))
          (fun x y => ad (ix2 x y)) (fun x => ae (ix2 0 x)) n u := by
  rw [pay2_apply]
  unfold Cert.Spec.cellNewP
  rw [preact4_apply aa ab ac ad ae t p q 1 _ n u rfl h,
    preact4_apply aa ab ac ad ae t p q 0 _ n u (Nat.zero_add _).symm h,
    preact4_apply aa ab ac ad ae t p q 2 _ n u rfl h,
    (blk4_out t p q n u h).1 af]

-- the new hidden state at a point's tile is the specification's at the global entry
theorem hid4_apply (t : Fin cfg4.N) (p : Fin 64) (q : Fin 512) (n u : Fin 2048) (h : glob4 t p q n u) :
    k4_pay3 (((cfg4.win 0).blk t).view.read (Elt Ideal) aa) (((cfg4.win 1).blk t).view.read (Elt Ideal) ab)
        (((cfg4.win 2).blk t).view.read (Elt Ideal) ac) (((cfg4.win 3).blk t).view.read (Elt Ideal) ad)
        (((cfg4.win 4).blk t).view.read (Elt Ideal) ae) (((cfg4.win 5).blk t).view.read (Elt Ideal) af) (ix2 p q)
      = Cert.Spec.hNewP (fun x y => aa (ix2 x y)) (fun x y => ab (ix2 x y)) (fun x y => af (ix2 x y)) (fun x y => ac (ix2 x y))
          (fun x y => ad (ix2 x y)) (fun x => ae (ix2 0 x)) n u := by
  rw [pay3_apply, cell4_apply aa ab af ac ad ae t p q n u h]
  unfold Cert.Spec.hNewP
  rw [preact4_apply aa ab ac ad ae t p q 3 _ n u rfl h]

end AtPoint

theorem hz4 : (![0, 0] : Fin 2 → Nat) = fun _ => 0 := funext fun a => by fin_cases a <;> rfl

-- an output array as one function of the input arrays
abbrev G4 (f : (Fin 2048 → Fin 2048 → EReal) → (Fin 2048 → Fin 2048 → EReal) → (Fin 2048 → Fin 2048 → EReal) → (Fin 8192 → Fin 2048 → EReal) → (Fin 8192 → Fin 2048 → EReal) → (Fin 8192 → EReal) → Fin 2048 → Fin 2048 → EReal)
    (c : Dev nD) : S2048x2048.Idx → EReal := fun i =>
  f (fun a b => (V c (Pipeline.arrRef spec4 0) : S2048x2048.Idx → EReal) (ix2 a b)) (fun a b => (V c (Pipeline.arrRef spec4 1) : S2048x2048.Idx → EReal) (ix2 a b)) (fun a b => (V c (Pipeline.arrRef spec4 5) : S2048x2048.Idx → EReal) (ix2 a b)) (fun a b => (V c (Pipeline.arrRef spec4 2) : S8192x2048.Idx → EReal) (ix2 a b)) (fun a b => (V c (Pipeline.arrRef spec4 3) : S8192x2048.Idx → EReal) (ix2 a b)) (fun r => (V c (Pipeline.arrRef spec4 4) : S1x8192.Idx → EReal) (ix2 0 r)) (i 0) (i 1)

-- the global entry of a tile entry, within bounds
theorem pt4 (t : Fin cfg4.N) (p : Fin 64) (q : Fin 512) :
    ∃ n u : Fin 2048, glob4 t p q n u := by
  obtain ⟨-, -, -, -, -, -, -, -, -, -, -, -, -, -, ba, bb⟩ := idx_facts4 t
  exact ⟨⟨_, by have := p.isLt; omega⟩, ⟨_, by have := q.isLt; omega⟩, rfl, rfl⟩

-- a point's output tile is its tile of the specification's array
theorem flushed4_6_eq (c : Dev nD) (t : Fin cfg4.N) :
    (dat4 (F := Ideal) V c).flushed 6 t = ((cfg4.win 6).blk t).view.read (Elt Ideal) (G4 V Cert.Spec.hNewP c) := by
  show (cfg4.win 6).cut (grid4.coords t) ((dat4 V c).after 6 t) = _
  dsimp only [dat4]
  unfold out4_6
  rw [View.canon_unit_zero hz4]
  simp only [View.ld_unit_zero (S := S64x2048) hz4, View.ld_unit_zero (S := S2048x2048) hz4, View.ld_unit_zero (S := S1x2048) hz4,
    View.ld_unit_zero (S := S64x512) hz4]
  unfold iblk4
  funext j
  obtain ⟨p, q, rfl⟩ : ∃ (p : Fin 64) (q : Fin 512), j = ix2 p q := ⟨j 0, j 1, eq_ix2 j⟩
  obtain ⟨n, u, h⟩ := pt4 t p q
  show k4_pay3 (F := Ideal) _ _ _ _ _ _ (ix2 p q) = G4 V Cert.Spec.hNewP c (((cfg4.win 6).blk t).view.emb (ix2 p q))
  rw [(blk4_out t p q n u h).2.1, hid4_apply _ _ _ _ _ _ t p q n u h]

theorem flushed4_7_eq (c : Dev nD) (t : Fin cfg4.N) :
    (dat4 (F := Ideal) V c).flushed 7 t = ((cfg4.win 7).blk t).view.read (Elt Ideal) (G4 V Cert.Spec.cellNewP c) := by
  show (cfg4.win 7).cut (grid4.coords t) ((dat4 V c).after 7 t) = _
  dsimp only [dat4]
  unfold out4_7
  rw [View.canon_unit_zero hz4]
  simp only [View.ld_unit_zero (S := S64x2048) hz4, View.ld_unit_zero (S := S2048x2048) hz4, View.ld_unit_zero (S := S1x2048) hz4,
    View.ld_unit_zero (S := S64x512) hz4]
  unfold iblk4
  funext j
  obtain ⟨p, q, rfl⟩ : ∃ (p : Fin 64) (q : Fin 512), j = ix2 p q := ⟨j 0, j 1, eq_ix2 j⟩
  obtain ⟨n, u, h⟩ := pt4 t p q
  show k4_pay2 (F := Ideal) _ _ _ _ _ _ (ix2 p q) = G4 V Cert.Spec.cellNewP c (((cfg4.win 7).blk t).view.emb (ix2 p q))
  rw [(blk4_out t p q n u h).2.2, cell4_apply _ _ _ _ _ _ t p q n u h]

-- the output tiles cover the array: entry (n, u) lies in the tile of block (n / 64, u / 512)
theorem cover4 (i : S2048x2048.Idx) : ∃ t : Fin cfg4.N, i ∈ ((cfg4.win 6).blk t).view.set ∧ i ∈ ((cfg4.win 7).blk t).view.set := by
  have ha := idx2_lt0 i
  have hb := idx2_lt1 i
  obtain ⟨t, ht⟩ := idx_onto4 ⟨(i 0).val / 64, by omega⟩ ⟨(i 1).val / 512, by omega⟩
  have qa : win4_6.index t (0 : Fin 2) = (i 0).val / 64 := congrFun ht 0
  have qb : win4_6.index t (1 : Fin 2) = (i 1).val / 512 := congrFun ht 1
  obtain ⟨-, e6, e7⟩ := blk4_out t ⟨(i 0).val % 64, by omega⟩ ⟨(i 1).val % 512, by omega⟩ (i 0) (i 1)
    ⟨by show (i 0).val = win4_6.index t (0 : Fin 2) * 64 + (i 0).val % 64; omega,
      by show (i 1).val = win4_6.index t (1 : Fin 2) * 512 + (i 1).val % 512; omega⟩
  rw [eq_ix2 i]
  exact ⟨t, e6 ▸ View.emb_mem_set _ _, e7 ▸ View.emb_mem_set _ _⟩

-- the region's value: the two output arrays are the specification's new hidden and cell states
theorem final4_h (c : Dev nD) (n u : Fin 2048) :
    ((dat4 (F := Ideal) V c).arrAt 6 cfg4.N : S2048x2048.Idx → EReal) (ix2 n u)
      = Cert.Spec.hNewP (fun a b => (V c (Pipeline.arrRef spec4 0) : S2048x2048.Idx → EReal) (ix2 a b)) (fun a b => (V c (Pipeline.arrRef spec4 1) : S2048x2048.Idx → EReal) (ix2 a b)) (fun a b => (V c (Pipeline.arrRef spec4 5) : S2048x2048.Idx → EReal) (ix2 a b)) (fun a b => (V c (Pipeline.arrRef spec4 2) : S8192x2048.Idx → EReal) (ix2 a b)) (fun a b => (V c (Pipeline.arrRef spec4 3) : S8192x2048.Idx → EReal) (ix2 a b)) (fun r => (V c (Pipeline.arrRef spec4 4) : S1x8192.Idx → EReal) (ix2 0 r)) n u :=
  congrFun ((dat4 (F := Ideal) V c).arrAt_eq_of_cover 6 (G4 V Cert.Spec.hNewP c) (fun t _ => flushed4_6_eq V c t) fun i => (cover4 i).imp fun t h => ⟨flush4_6 t, h.1⟩) (ix2 n u)

theorem final4_c (c : Dev nD) (n u : Fin 2048) :
    ((dat4 (F := Ideal) V c).arrAt 7 cfg4.N : S2048x2048.Idx → EReal) (ix2 n u)
      = Cert.Spec.cellNewP (fun a b => (V c (Pipeline.arrRef spec4 0) : S2048x2048.Idx → EReal) (ix2 a b)) (fun a b => (V c (Pipeline.arrRef spec4 1) : S2048x2048.Idx → EReal) (ix2 a b)) (fun a b => (V c (Pipeline.arrRef spec4 5) : S2048x2048.Idx → EReal) (ix2 a b)) (fun a b => (V c (Pipeline.arrRef spec4 2) : S8192x2048.Idx → EReal) (ix2 a b)) (fun a b => (V c (Pipeline.arrRef spec4 3) : S8192x2048.Idx → EReal) (ix2 a b)) (fun r => (V c (Pipeline.arrRef spec4 4) : S1x8192.Idx → EReal) (ix2 0 r)) n u :=
  congrFun ((dat4 (F := Ideal) V c).arrAt_eq_of_cover 7 (G4 V Cert.Spec.cellNewP c) (fun t _ => flushed4_7_eq V c t) fun i => (cover4 i).imp fun t h => ⟨flush4_7 t, h.2⟩) (ix2 n u)

end R4

export R4 (final4_h final4_c)

end Cert.KernelIdeal.HandVal

end
-- ==== Proof.KI.Gate5Val.lean ====
import proofs.«412769_j28716151341139_3_alg».proof.Proof.KI.Gate5
import proofs.«412769_j28716151341139_3_alg».proof.Proof.SpecArrays
import proofs.«412769_j28716151341139_3_alg».proof.Proof.LibBlockSum
import Idealize.ShloMosaic.Lib.ValueIdx
import Idealize.ShloMosaic.Lib.Pipeline.Value
import Idealize.ShloMosaic.PureOps.Ideal.Laws

noncomputable section

namespace Cert.KernelIdeal.HandVal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

namespace R5

theorem pay2_apply (x0 : Vec Ideal S256x512 .f32) (x1 : Vec Ideal S256x512 .bf16) (acc : Vec Ideal S256x256 .f32) (p q : Fin 256) :
    k5_pay2 (F := Ideal) x0 x1 acc (ix2 p q) = acc (ix2 p q) + ∑ k : Fin 512, x0 (ix2 p k) * x1 (ix2 q k) := by
  obtain ⟨E, hE⟩ : ∃ E : dot_S256x512_S256x512_S256x256_1_1_0_0_n_n.contr.Idx ≃ Fin 512, ∀ k, ((E.symm k) ⟨0, by decide⟩ : ℕ) = k.val :=
    ⟨contrEquiv1 dot_S256x512_S256x512_S256x256_1_1_0_0_n_n 512 rfl rfl, contrEquiv1_symm_val dot_S256x512_S256x512_S256x256_1_1_0_0_n_n 512 rfl rfl⟩
  unfold k5_pay2
  simp only [shapeCast_self]
  rw [addf_apply]
  simp only [matmul]
  rw [Ideal.matmul_constant_zero_apply, ← Equiv.sum_comp E.symm]
  congr 1
  refine Finset.sum_congr rfl fun k _ => ?_
  rw [show dot_S256x512_S256x512_S256x256_1_1_0_0_n_n.lhsIdx (ix2 p q) (E.symm k) = ix2 p k from Shape.idx_ext₂
      (by unfold DotDims.lhsIdx; rw [dif_neg (by decide), dif_pos (by decide)]; rfl) ((dot_S256x512_S256x512_S256x256_1_1_0_0_n_n.lhsIdx_val_of_single rfl _ _).trans (hE k)),
    show dot_S256x512_S256x512_S256x256_1_1_0_0_n_n.rhsIdx (ix2 p q) (E.symm k) = ix2 q k from Shape.idx_ext₂
      (by unfold DotDims.rhsIdx; rw [dif_neg (by decide), dif_pos (by decide)]; rfl) ((dot_S256x512_S256x512_S256x256_1_1_0_0_n_n.rhsIdx_val_of_single rfl _ _).trans (hE k))]
  rfl

theorem pay1_apply (i : S256x256.Idx) : k5_pay1 (F := Ideal) i = 0 := by
  unfold k5_pay1
  simp only [shapeCast_self]
  show Ideal.ofBits .f32 0x00000000#32 = 0
  exact Ideal.ofBits_zero_f32

theorem pay3_apply (v17 : Vec Ideal S256x256 .f32) (v18 : Vec Ideal S1x256 .f32) (v24 : Vec Ideal S256x256 .f32) (p q : Fin 256) :
    k5_pay3 (F := Ideal) v17 v18 v24 (ix2 p q)
      = Ideal.liftRound Int.ceil (Ideal.logistic (v17 (ix2 p q) + v18 (ix2 0 q))) * v24 (ix2 p q) := by
  unfold k5_pay3
  simp only [shapeCast_self]
  rw [mulf_apply]
  show Ideal.liftRound Int.ceil (Ideal.logistic (v17 (ix2 p q) + broadcastTo S256x256 v18 broadcasts_S1x256_S256x256 (ix2 p q))) * _ = _
  rw [broadcastTo_apply v18 broadcasts_S1x256_S256x256 (ix2 p q) (ix2 0 q) (fun a => by
    match a with
    | ⟨0, _⟩ => rfl
    | ⟨1, _⟩ => rfl)]

def hOf (c : Dev nD) : Fin 2048 → Fin 2048 → EReal := fun a b => (V c (Pipeline.arrRef spec5 0) : S2048x2048.Idx → EReal) (ix2 a b)
def gwOf (c : Dev nD) : Fin 2048 → Fin 2048 → EReal := fun a b => (V c (Pipeline.arrRef spec5 1) : S2048x2048.Idx → EReal) (ix2 a b)
def gbOf (c : Dev nD) : Fin 2048 → EReal := fun r => (V c (Pipeline.arrRef spec5 2) : S1x2048.Idx → EReal) (ix2 0 r)
def swOf (c : Dev nD) : Fin 2048 → Fin 2048 → EReal := fun a b => (V c (Pipeline.arrRef spec5 3) : S2048x2048.Idx → EReal) (ix2 a b)

theorem idx_gate5 : ∀ t : Fin cfg5.N,
    win5_0.index t (0 : Fin 2) = t.val / 32 ∧ win5_0.index t (1 : Fin 2) = t.val % 4
    ∧ win5_1.index t (0 : Fin 2) = t.val / 4 % 8 ∧ win5_1.index t (1 : Fin 2) = t.val % 4
    ∧ win5_2.index t (0 : Fin 2) = 0 ∧ win5_2.index t (1 : Fin 2) = t.val / 4 % 8
    ∧ win5_3.index t (0 : Fin 2) = t.val / 32 ∧ win5_3.index t (1 : Fin 2) = t.val / 4 % 8
    ∧ win5_4.index t (0 : Fin 2) = t.val / 32 ∧ win5_4.index t (1 : Fin 2) = t.val / 4 % 8 :=
  (by decide +kernel : ∀ t : Fin grid5.N, _)

def gate5 (c : Dev nD) : S2048x2048.Idx → EReal := fun i =>
  Cert.Spec.gate (hOf V c) (gwOf V c) (gbOf V c) (swOf V c) ⟨(i 0).val, idx2_lt0 i⟩ ⟨(i 1).val, idx2_lt1 i⟩

theorem blk_sum5 (h4 : 4 * 512 = 2048) (c : Dev nD) (t : Fin cfg5.N) (h3 : t.val % 4 = 3) (p q : Fin 256) (a b : Fin 2048)
    (ha : a.val = t.val / 32 * 256 + p.val) (hb : b.val = t.val / 4 % 8 * 256 + q.val) (m : Fin 4) (s : Fin cfg5.N) (hs : s.val + 3 = t.val + m.val)
    (x0 : Vec Ideal S256x512 .f32) (x1 : Vec Ideal S256x512 .bf16) (h0 : x0 = iblk5 V c 0 s) (h1 : x1 = iblk5 V c 1 s) :
    ∑ k : Fin 512, x0 (ix2 p k) * x1 (ix2 q k)
      = ∑ r : Fin 512, hOf V c a (Cert.LibBlockSum.blockIdx (B := 4) (R := 512) h4 m r)
          * gwOf V c b (Cert.LibBlockSum.blockIdx (B := 4) (R := 512) h4 m r) := by
  subst h0; subst h1
  have hm := m.isLt
  obtain ⟨ea, eb, ec, ed, -⟩ := idx_gate5 s
  refine Finset.sum_congr rfl fun k _ => congrArg₂ (· * ·)
    (congrArg (V c (Pipeline.arrRef spec5 0) : S2048x2048.Idx → EReal) (Shape.idx_ext₂
      (by show win5_0.index s (0 : Fin 2) * 256 + 1 * p.val = a.val; omega)
      (by show win5_0.index s (1 : Fin 2) * 512 + 1 * k.val = 512 * m.val + k.val; omega)))
    (congrArg (V c (Pipeline.arrRef spec5 1) : S2048x2048.Idx → EReal) (Shape.idx_ext₂
      (by show win5_1.index s (0 : Fin 2) * 256 + 1 * q.val = b.val; omega)
      (by show win5_1.index s (1 : Fin 2) * 512 + 1 * k.val = 512 * m.val + k.val; omega)))

theorem acc5_apply (c : Dev nD) (t : Fin cfg5.N) (h3 : t.val % 4 = 3) (p q : Fin 256) (a b : Fin 2048)
    (ha : a.val = t.val / 32 * 256 + p.val) (hb : b.val = t.val / 4 % 8 * 256 + q.val) :
    acc5 V c t.val t.isLt (ix2 p q) = Cert.Spec.mmT (hOf V c) (gwOf V c) a b := by
  have hN : t.val < 256 := lt_of_lt_of_eq t.isLt (show cfg5.N = 256 from N_5)
  have B := blk_sum5 V rfl c t h3 p q a b ha hb
  rw [acc5_def V c t, if_neg (show ¬t.val % 4 = 0 by omega),
    acc5_def V c ⟨t.val - 1, by omega⟩, if_neg (show ¬(t.val - 1) % 4 = 0 by omega),
    acc5_def V c ⟨t.val - 1 - 1, by omega⟩, if_neg (show ¬(t.val - 1 - 1) % 4 = 0 by omega),
    acc5_def V c ⟨t.val - 1 - 1 - 1, by omega⟩, if_pos (show (t.val - 1 - 1 - 1) % 4 = 0 by omega),
    pay2_apply, pay2_apply, pay2_apply, pay2_apply, pay1_apply, zero_add]
  unfold Cert.Spec.mmT
  rw [Cert.LibBlockSum.sum_blocks (B := 4) (R := 512) rfl, Fin.sum_univ_four,
    B 3 t rfl _ _ rfl rfl, B 2 ⟨t.val - 1, by omega⟩ (by show t.val - 1 + 3 = t.val + 2; omega) _ _ rfl rfl,
    B 1 ⟨t.val - 1 - 1, by omega⟩ (by show t.val - 1 - 1 + 3 = t.val + 1; omega) _ _ rfl rfl,
    B 0 ⟨t.val - 1 - 1 - 1, by omega⟩ (by show t.val - 1 - 1 - 1 + 3 = t.val + 0; omega) _ _ rfl rfl]

theorem flushed5_eq (c : Dev nD) (t : Fin cfg5.N) (hf : (cfg5.win 4).flush t = true) :
    (dat5 V c).flushed 4 t = ((cfg5.win 4).blk t).view.read (Elt Ideal) (gate5 V c) := by
  have h3 : t.val % 4 = 3 := (flush5_4 t).mp hf
  have hN : t.val < 256 := lt_of_lt_of_eq t.isLt (show cfg5.N = 256 from N_5)
  obtain ⟨-, -, -, -, ea, eb, ec, ed, e0, e1⟩ := idx_gate5 t
  show (cfg5.win 4).cut (grid5.coords t) ((dat5 V c).after 4 t) = _
  rw [after5_4]
  unfold out5
  funext y
  obtain ⟨p, q, rfl⟩ : ∃ (p : Fin 256) (q : Fin 256), y = ix2 p q := ⟨y 0, y 1, eq_ix2 y⟩
  have hp := p.isLt
  have hq := q.isLt
  show k5_pay3 (F := Ideal) (acc5 V c t.val t.isLt) (iblk5 V c 2 t) (iblk5 V c 3 t) (ix2 p q) = gate5 V c (((cfg5.win 4).blk t).view.emb (ix2 p q))
  obtain ⟨a, ha⟩ : ∃ a : Fin 2048, a.val = t.val / 32 * 256 + p.val := ⟨⟨_, by omega⟩, rfl⟩
  obtain ⟨b, hb⟩ : ∃ b : Fin 2048, b.val = t.val / 4 % 8 * 256 + q.val := ⟨⟨_, by omega⟩, rfl⟩
  rw [show ((cfg5.win 4).blk t).view.emb (ix2 p q) = (ix2 a b : S2048x2048.Idx) from Shape.idx_ext₂
      (by show win5_4.index t (0 : Fin 2) * 256 + 1 * p.val = a.val; rw [e0, ha]; omega)
      (by show win5_4.index t (1 : Fin 2) * 256 + 1 * q.val = b.val; rw [e1, hb]; omega),
    pay3_apply, acc5_apply V c t h3 p q a b ha hb]
  exact congrArg₂ (fun x y => Ideal.liftRound Int.ceil (Ideal.logistic (_ + x)) * y)
    (congrArg (V c (Pipeline.arrRef spec5 2) : S1x2048.Idx → EReal) (Shape.idx_ext₂
      (by show win5_2.index t (0 : Fin 2) * 1 + 1 * 0 = 0; omega) (by show win5_2.index t (1 : Fin 2) * 256 + 1 * q.val = b.val; omega)))
    (congrArg (V c (Pipeline.arrRef spec5 3) : S2048x2048.Idx → EReal) (Shape.idx_ext₂
      (by show win5_3.index t (0 : Fin 2) * 256 + 1 * p.val = a.val; omega) (by show win5_3.index t (1 : Fin 2) * 256 + 1 * q.val = b.val; omega)))

theorem cover5 (i : S2048x2048.Idx) : ∃ t : Fin cfg5.N, (cfg5.win 4).flush t = true ∧ i ∈ ((cfg5.win 4).blk t).view.set := by
  have hi0 : (i 0).val < 2048 := idx2_lt0 i
  have hi1 : (i 1).val < 2048 := idx2_lt1 i
  have hN : cfg5.N = 256 := N_5
  let t : Fin cfg5.N := ⟨((i 0).val / 256 * 8 + (i 1).val / 256) * 4 + 3, by rw [hN]; omega⟩
  have ht : t.val = ((i 0).val / 256 * 8 + (i 1).val / 256) * 4 + 3 := rfl
  obtain ⟨-, -, -, -, -, -, -, -, e0, e1⟩ := idx_gate5 t
  refine ⟨t, (flush5_4 t).mpr (by rw [ht]; omega), ?_⟩
  show i ∈ ((View.whole (Pipeline.arrRef spec5 4)).slice (win5_4.rect t)).set
  rw [View.set_slice_whole, Rect.mem_set_unit]
  intro a
  match a with
  | ⟨0, _⟩ => show win5_4.index t (0 : Fin 2) * 256 ≤ (i 0).val ∧ (i 0).val < win5_4.index t (0 : Fin 2) * 256 + 256; rw [e0, ht]; omega
  | ⟨1, _⟩ => show win5_4.index t (1 : Fin 2) * 256 ≤ (i 1).val ∧ (i 1).val < win5_4.index t (1 : Fin 2) * 256 + 256; rw [e1, ht]; omega

theorem final5 (c : Dev nD) (j k : Fin 2048) :
    ((dat5 (F := Ideal) V c).arrAt 4 cfg5.N : S2048x2048.Idx → EReal) (ix2 j k)
      = Cert.Spec.gate (fun a b => (V c (Pipeline.arrRef spec5 0) : S2048x2048.Idx → EReal) (ix2 a b)) (fun a b => (V c (Pipeline.arrRef spec5 1) : S2048x2048.Idx → EReal) (ix2 a b)) (fun r => (V c (Pipeline.arrRef spec5 2) : S1x2048.Idx → EReal) (ix2 0 r)) (fun a b => (V c (Pipeline.arrRef spec5 3) : S2048x2048.Idx → EReal) (ix2 a b)) j k := by
  rw [(dat5 V c).arrAt_eq_of_cover 4 (gate5 V c) (fun t hf => flushed5_eq V c t hf) (cover5)]
  rfl

end R5

export R5 (final5)

end Cert.KernelIdeal.HandVal

end
-- ==== Proof.KI.Bsum6Val.lean ====
import proofs.«412769_j28716151341139_3_alg».proof.Proof.KI.Bsum6
import proofs.«412769_j28716151341139_3_alg».proof.Proof.SpecArrays
import proofs.«412769_j28716151341139_3_alg».proof.Proof.LibAcc
import proofs.«412769_j28716151341139_3_alg».proof.Proof.LibBlockSum
import Idealize.ShloMosaic.Lib.ValueIdx
import Idealize.ShloMosaic.Lib.Pipeline.Value
import Idealize.ShloMosaic.PureOps.Ideal.Laws

noncomputable section

namespace Cert.KernelIdeal.HandVal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

namespace R6

theorem pay2_apply (x0 : Vec Ideal S512x256 .f32) (x1 : Vec Ideal S512x512 .f32) (xs : Vec Ideal S256x512 .f32) (r : Fin 256) (s : Fin 512) :
    k6_pay2 (F := Ideal) x0 x1 xs (ix2 r s) = xs (ix2 r s) + ∑ a : Fin 512, x0 (ix2 a r) * x1 (ix2 a s) := by
  unfold k6_pay2
  rw [shapeCast_self, shapeCast_self, shapeCast_self]
  show xs (ix2 r s) + FloatOps.matmul dot_S512x256_S512x512_S256x512_0_0_1_1_n_n none (truncf (F := Ideal) .bf16 x0 bitsLt_bf16_f32)
    (truncf (F := Ideal) .bf16 x1 bitsLt_bf16_f32) (constant (F := Ideal) S256x512 .f32 0x00000000#32) (ix2 r s) = _
  rw [Ideal.matmul_constant_zero_apply, ← Equiv.sum_comp (contrEquiv1 dot_S512x256_S512x512_S256x512_0_0_1_1_n_n 512 rfl rfl).symm]
  congr 1
  refine Finset.sum_congr rfl fun k _ => ?_
  have hk := contrEquiv1_symm_val dot_S512x256_S512x512_S256x512_0_0_1_1_n_n 512 rfl rfl k
  show x0 _ * x1 _ = _
  congr 2 <;> refine funext fun a => Fin.ext ?_ <;> match a with
    | ⟨0, _⟩ => first | exact (DotDims.lhsIdx_val_of_single _ rfl _ _).trans hk | exact (DotDims.rhsIdx_val_of_single _ rfl _ _).trans hk
    | ⟨1, _⟩ => (first | unfold DotDims.lhsIdx | unfold DotDims.rhsIdx); rw [dif_neg (by decide +revert), dif_pos (by decide +revert)]; rfl

theorem pay1_apply (y : S256x512.Idx) : k6_pay1 (F := Ideal) y = 0 := by
  unfold k6_pay1
  rw [shapeCast_self]
  exact Ideal.ofBits_zero_f32

theorem pay3_apply (v18 v19 : Vec Ideal S256x512 .f32) (y : S256x512.Idx) : k6_pay3 (F := Ideal) v18 v19 y = v18 y + v19 y := by
  unfold k6_pay3
  rw [shapeCast_self]
  rfl

abbrev garr6 (c : Dev nD) : S2048x2048.Idx → EReal := V c (Pipeline.arrRef spec6 0)
abbrev harr6 (c : Dev nD) : S2048x2048.Idx → EReal := V c (Pipeline.arrRef spec6 1)
abbrev earr6 (c : Dev nD) : S2048x2048.Idx → EReal := V c (Pipeline.arrRef spec6 2)
abbrev gblk6 (c : Dev nD) (t : Fin cfg6.N) : Vec Ideal S512x256 .f32 := iblk6 V c 0 t
abbrev hblk6 (c : Dev nD) (t : Fin cfg6.N) : Vec Ideal S512x512 .f32 := iblk6 V c 1 t
abbrev eblk6 (c : Dev nD) (t : Fin cfg6.N) : Vec Ideal S256x512 .f32 := iblk6 V c 2 t

theorem idx6 : ∀ t : Fin cfg6.N,
    win6_0.index t (0 : Fin 2) = t.val % 4 ∧ win6_0.index t (1 : Fin 2) = t.val / 16
    ∧ win6_1.index t (0 : Fin 2) = t.val % 4 ∧ win6_1.index t (1 : Fin 2) = t.val / 4 % 4
    ∧ win6_2.index t (0 : Fin 2) = t.val / 16 ∧ win6_2.index t (1 : Fin 2) = t.val / 4 % 4
    ∧ win6_3.index t (0 : Fin 2) = t.val / 16 ∧ win6_3.index t (1 : Fin 2) = t.val / 4 % 4 :=
  (by decide +kernel : ∀ t : Fin grid6.N, _)

theorem gblk6_apply (c : Dev nD) (t : Fin cfg6.N) (a : Fin 512) (r : Fin 256) (p q : Fin 2048)
    (hp : p.val = 512 * (t.val % 4) + a.val) (hq : q.val = 256 * (t.val / 16) + r.val) :
    gblk6 V c t (ix2 a r) = garr6 V c (ix2 p q) := by
  obtain ⟨e0, e1, -⟩ := idx6 t
  show V c (Pipeline.arrRef spec6 0) (((cfg6.win 0).blk t).view.emb (ix2 a r)) = V c (Pipeline.arrRef spec6 0) (ix2 p q)
  refine congrArg _ (funext fun x => Fin.ext ?_)
  match x with
  | ⟨0, _⟩ => show win6_0.index t (0 : Fin 2) * 512 + 1 * a.val = p.val; omega
  | ⟨1, _⟩ => show win6_0.index t (1 : Fin 2) * 256 + 1 * r.val = q.val; omega

theorem hblk6_apply (c : Dev nD) (t : Fin cfg6.N) (a : Fin 512) (s : Fin 512) (p q : Fin 2048)
    (hp : p.val = 512 * (t.val % 4) + a.val) (hq : q.val = 512 * (t.val / 4 % 4) + s.val) :
    hblk6 V c t (ix2 a s) = harr6 V c (ix2 p q) := by
  obtain ⟨-, -, e2, e3, -⟩ := idx6 t
  show V c (Pipeline.arrRef spec6 1) (((cfg6.win 1).blk t).view.emb (ix2 a s)) = V c (Pipeline.arrRef spec6 1) (ix2 p q)
  refine congrArg _ (funext fun x => Fin.ext ?_)
  match x with
  | ⟨0, _⟩ => show win6_1.index t (0 : Fin 2) * 512 + 1 * a.val = p.val; omega
  | ⟨1, _⟩ => show win6_1.index t (1 : Fin 2) * 512 + 1 * s.val = q.val; omega

theorem eblk6_apply (c : Dev nD) (t : Fin cfg6.N) (r : Fin 256) (s : Fin 512) (p q : Fin 2048)
    (hp : p.val = 256 * (t.val / 16) + r.val) (hq : q.val = 512 * (t.val / 4 % 4) + s.val) :
    eblk6 V c t (ix2 r s) = earr6 V c (ix2 p q) := by
  obtain ⟨-, -, -, -, e4, e5, -⟩ := idx6 t
  show V c (Pipeline.arrRef spec6 2) (((cfg6.win 2).blk t).view.emb (ix2 r s)) = V c (Pipeline.arrRef spec6 2) (ix2 p q)
  refine congrArg _ (funext fun x => Fin.ext ?_)
  match x with
  | ⟨0, _⟩ => show win6_2.index t (0 : Fin 2) * 256 + 1 * r.val = p.val; omega
  | ⟨1, _⟩ => show win6_2.index t (1 : Fin 2) * 512 + 1 * s.val = q.val; omega

theorem hN6 {n : ℕ} (h : n < 32 * 4) : n < cfg6.N := lt_of_lt_of_eq h N_6.symm

def accAt6 (c : Dev nD) (r : Fin 256) (s : Fin 512) (n : ℕ) (hn : n < 32 * 4) : EReal := acc6 V c n (hN6 hn) (ix2 r s)
def term6 (c : Dev nD) (r : Fin 256) (s : Fin 512) (n : ℕ) (hn : n < 32 * 4) : EReal :=
  ∑ a : Fin 512, gblk6 V c ⟨n, hN6 hn⟩ (ix2 a r) * hblk6 V c ⟨n, hN6 hn⟩ (ix2 a s)

theorem acc6_last (c : Dev nD) (r : Fin 256) (s : Fin 512) (b : Fin 32) :
    accAt6 V c r s (b.val * 4 + (4 - 1)) (Cert.LibAcc.idx_lt b (by omega))
      = ∑ k : Fin 4, term6 V c r s (b.val * 4 + k.val) (Cert.LibAcc.idx_lt b k.isLt) :=
  Cert.LibAcc.acc_last_zero 4 32 (accAt6 V c r s) (term6 V c r s) (k6_pay1 (F := Ideal) (ix2 r s)) (pay1_apply (ix2 r s))
    (fun n hn h0 => (congrFun (acc6_A V c ⟨n, hN6 hn⟩ h0) (ix2 r s)).trans (pay2_apply _ _ _ r s))
    (fun n hn h0 => (congrFun (acc6_B V c ⟨n, hN6 hn⟩ h0) (ix2 r s)).trans (pay2_apply _ _ _ r s))
    (by omega) b

def gout6 (c : Dev nD) : S2048x2048.Idx → EReal := fun y =>
  Cert.Spec.bsum (fun a b => garr6 V c (ix2 a b)) (fun a b => harr6 V c (ix2 a b)) (fun a b => earr6 V c (ix2 a b)) (y 0) (y 1)

theorem entry6 (c : Dev nD) (t : Fin cfg6.N) (h3 : t.val % 4 = 3) (r : Fin 256) (s : Fin 512) (i u : Fin 2048)
    (hi : i.val = 256 * (t.val / 16) + r.val) (hu : u.val = 512 * (t.val / 4 % 4) + s.val) :
    acc6 V c t.val t.isLt (ix2 r s) + eblk6 V c t (ix2 r s)
      = Cert.Spec.bsum (fun a b => garr6 V c (ix2 a b)) (fun a b => harr6 V c (ix2 a b)) (fun a b => earr6 V c (ix2 a b)) i u := by
  have hN : t.val < 128 := lt_of_lt_of_eq t.isLt N_6
  have hb : t.val / 4 < 32 := by omega
  have ht : t.val = (t.val / 4) * 4 + (4 - 1) := by omega
  unfold Cert.Spec.bsum
  rw [add_comm]
  refine congrArg₂ (· + ·) (eblk6_apply V c t r s i u hi hu) ?_
  have hacc : acc6 V c t.val t.isLt (ix2 r s) = accAt6 V c r s ((t.val / 4) * 4 + (4 - 1)) (Cert.LibAcc.idx_lt ⟨t.val / 4, hb⟩ (by omega)) := by
    unfold accAt6; congr 2
  rw [hacc, acc6_last V c r s ⟨t.val / 4, hb⟩, Cert.LibBlockSum.sum_blocks (B := 4) (R := 512) (N := 2048) (by norm_num)]
  refine Finset.sum_congr rfl fun k _ => ?_
  unfold term6
  refine Finset.sum_congr rfl fun a _ => ?_
  have hk := k.isLt
  rw [gblk6_apply V c ⟨t.val / 4 * 4 + k.val, _⟩ a r (Cert.LibBlockSum.blockIdx (B := 4) (R := 512) (N := 2048) (by norm_num) k a) i
      (by rw [Cert.LibBlockSum.blockIdx_val]; show _ = 512 * ((t.val / 4 * 4 + k.val) % 4) + a.val; omega)
      (by show _ = 256 * ((t.val / 4 * 4 + k.val) / 16) + r.val; omega),
    hblk6_apply V c ⟨t.val / 4 * 4 + k.val, _⟩ a s (Cert.LibBlockSum.blockIdx (B := 4) (R := 512) (N := 2048) (by norm_num) k a) u
      (by rw [Cert.LibBlockSum.blockIdx_val]; show _ = 512 * ((t.val / 4 * 4 + k.val) % 4) + a.val; omega)
      (by show _ = 512 * ((t.val / 4 * 4 + k.val) / 4 % 4) + s.val; omega)]

theorem flushed6_eq (c : Dev nD) (t : Fin cfg6.N) (hf : (cfg6.win 3).flush t = true) :
    (dat6 (F := Ideal) V c).flushed 3 t = ((cfg6.win 3).blk t).view.read (Elt Ideal) (gout6 V c) := by
  have h3 : t.val % 4 = 3 := (flush6_3 t).mp hf
  obtain ⟨-, -, -, -, -, -, e6, e7⟩ := idx6 t
  funext j
  obtain ⟨r, s, rfl⟩ : ∃ (r : Fin 256) (s : Fin 512), j = ix2 r s := ⟨j 0, j 1, eq_ix2 j⟩
  show k6_pay3 (F := Ideal) (acc6 V c t.val t.isLt) (eblk6 V c t) (ix2 r s) = gout6 V c (((cfg6.win 3).blk t).view.emb (ix2 r s))
  refine (pay3_apply (acc6 V c t.val t.isLt) (eblk6 V c t) (ix2 r s)).trans ?_
  exact entry6 V c t h3 r s _ _ (by show win6_3.index t (0 : Fin 2) * 256 + 1 * r.val = _; omega)
    (by show win6_3.index t (1 : Fin 2) * 512 + 1 * s.val = _; omega)

theorem mem_blk6 (t : Fin cfg6.N) (y : S2048x2048.Idx) :
    y ∈ ((cfg6.win 3).blk t).view.set ↔ ∀ a : Fin 2, win6_3.index t a * S256x512.size a ≤ (y a).val ∧ (y a).val < win6_3.index t a * S256x512.size a + S256x512.size a := by
  show y ∈ ((View.whole (Pipeline.arrRef spec6 3)).slice (win6_3.rect t)).set ↔ _
  rw [View.set_slice_whole, Rect.mem_set_unit]
  exact Iff.rfl

theorem cover6 (y : S2048x2048.Idx) : ∃ t : Fin cfg6.N, (cfg6.win 3).flush t = true ∧ y ∈ ((cfg6.win 3).blk t).view.set := by
  have h0 : (y 0).val < 2048 := (y 0).isLt
  have h1 : (y 1).val < 2048 := (y 1).isLt
  have hlt : 16 * ((y 0).val / 256) + 4 * ((y 1).val / 512) + 3 < cfg6.N := by rw [show cfg6.N = 128 from N_6]; omega
  obtain ⟨t, ht⟩ : ∃ t : Fin cfg6.N, t.val = 16 * ((y 0).val / 256) + 4 * ((y 1).val / 512) + 3 := ⟨⟨_, hlt⟩, rfl⟩
  obtain ⟨-, -, -, -, -, -, e6, e7⟩ := idx6 t
  refine ⟨t, (flush6_3 t).mpr (by omega), ?_⟩
  rw [mem_blk6]
  intro a
  match a with
  | ⟨0, _⟩ =>
    show win6_3.index t (0 : Fin 2) * 256 ≤ (y 0).val ∧ (y 0).val < win6_3.index t (0 : Fin 2) * 256 + 256
    omega
  | ⟨1, _⟩ =>
    show win6_3.index t (1 : Fin 2) * 512 ≤ (y 1).val ∧ (y 1).val < win6_3.index t (1 : Fin 2) * 512 + 512
    omega

theorem final6 (c : Dev nD) (i u : Fin 2048) :
    ((dat6 (F := Ideal) V c).arrAt 3 cfg6.N : S2048x2048.Idx → EReal) (ix2 i u)
      = Cert.Spec.bsum (fun a b => (V c (Pipeline.arrRef spec6 0) : S2048x2048.Idx → EReal) (ix2 a b)) (fun a b => (V c (Pipeline.arrRef spec6 1) : S2048x2048.Idx → EReal) (ix2 a b)) (fun a b => (V c (Pipeline.arrRef spec6 2) : S2048x2048.Idx → EReal) (ix2 a b)) i u :=
  congrFun ((dat6 (F := Ideal) V c).arrAt_eq_of_cover 3 (gout6 V c) (flushed6_eq V c) cover6) (ix2 i u)

end R6

export R6 (final6)

end Cert.KernelIdeal.HandVal

end
-- ==== Proof.KI.Lstm7Val.lean ====
import proofs.«412769_j28716151341139_3_alg».proof.Proof.KI.Lstm7
import proofs.«412769_j28716151341139_3_alg».proof.Proof.SpecArrays
import Idealize.ShloMosaic.Lib.ValueIdx
import Idealize.ShloMosaic.Lib.Pipeline.Value
import Idealize.ShloMosaic.PureOps.Ideal.Laws

set_option maxRecDepth 16384

noncomputable section

namespace Cert.KernelIdeal.HandVal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

namespace R7

-- entry (p, r) of the product against the transposed weights: row p of x against row r of W
theorem mm7_apply (x : FVec Ideal S64x2048 .bf16) (W : FVec Ideal S2048x2048 .bf16) (p : Fin 64) (r : Fin 2048) :
    FloatOps.matmul dot_S64x2048_S2048x2048_S64x2048_1_1_0_0_n_n none x W (constant (F := Ideal) S64x2048 .f32 0x00000000#32) (ix2 p r)
      = ∑ k : Fin 2048, x (ix2 p k) * W (ix2 r k) := by
  rw [Ideal.matmul_constant_zero_apply, ← Equiv.sum_comp (contrEquiv1 dot_S64x2048_S2048x2048_S64x2048_1_1_0_0_n_n 2048 rfl rfl).symm]
  refine Finset.sum_congr rfl fun k _ => ?_
  have hk := contrEquiv1_symm_val dot_S64x2048_S2048x2048_S64x2048_1_1_0_0_n_n 2048 rfl rfl k
  exact congrArg₂ (· * ·) (congrArg x (Shape.idx_ext₂ rfl ((dot_S64x2048_S2048x2048_S64x2048_1_1_0_0_n_n.lhsIdx_val_of_single rfl _ _).trans hk)))
    (congrArg W (Shape.idx_ext₂ rfl ((dot_S64x2048_S2048x2048_S64x2048_1_1_0_0_n_n.rhsIdx_val_of_single rfl _ _).trans hk)))

-- the pre-activations: the two products plus the bias row
theorem pay1_apply (xa xb : Vec Ideal S64x2048 .f32) (xc xd : Vec Ideal S2048x2048 .bf16) (xe : Vec Ideal S1x2048 .f32)
    (p : Fin 64) (r : Fin 2048) :
    k7_pay1 xa xb xc xd xe (ix2 p r)
      = ((∑ k : Fin 2048, xa (ix2 p k) * xc (ix2 r k)) + ∑ k : Fin 2048, xb (ix2 p k) * xd (ix2 r k)) + xe (ix2 0 r) := by
  unfold k7_pay1
  simp only [shapeCast_self]
  rw [addf_apply, addf_apply]
  rw [broadcastTo_apply xe broadcasts_S1x2048_S64x2048 (ix2 p r) (ix2 0 r) (Fin.forall_fin_two.2 ⟨rfl, rfl⟩)]
  simp only [matmul]
  rw [mm7_apply, mm7_apply]
  rfl

-- the new cell: forget gate times the cell plus input gate times the tanh of the candidate
theorem pay2_apply (xa xb : Vec Ideal S64x2048 .f32) (xc xd : Vec Ideal S2048x2048 .bf16) (xe : Vec Ideal S1x2048 .f32)
    (xf : Vec Ideal S64x512 .f32) (p : Fin 64) (q : Fin 512) :
    k7_pay2 xa xb xc xd xe xf (ix2 p q)
      = Ideal.logistic (k7_pay1 xa xb xc xd xe (ix2 p (⟨512 + q.val, by have := q.isLt; omega⟩ : Fin 2048))) * xf (ix2 p q)
        + Ideal.logistic (k7_pay1 xa xb xc xd xe (ix2 p (⟨q.val, by have := q.isLt; omega⟩ : Fin 2048)))
          * Ideal.tanh (k7_pay1 xa xb xc xd xe (ix2 p (⟨1024 + q.val, by have := q.isLt; omega⟩ : Fin 2048))) := by
  unfold k7_pay2
  simp only [shapeCast_self]
  rw [addf_apply, mulf_apply, mulf_apply]
  show Ideal.logistic _ * _ + Ideal.logistic _ * Ideal.tanh _ = _
  rw [extractStridedSlice_apply ![0, 512] _ slices_S64x2048_o0_512_S64x512 (ix2 p q) (ix2 p (⟨512 + q.val, by have := q.isLt; omega⟩ : Fin 2048)) (Fin.forall_fin_two.2 ⟨(Nat.zero_add _).symm, rfl⟩),
    extractStridedSlice_apply ![0, 0] _ slices_S64x2048_o0_0_S64x512 (ix2 p q) (ix2 p (⟨q.val, by have := q.isLt; omega⟩ : Fin 2048)) (Fin.forall_fin_two.2 ⟨(Nat.zero_add _).symm, (Nat.zero_add _).symm⟩),
    extractStridedSlice_apply ![0, 1024] _ slices_S64x2048_o0_1024_S64x512 (ix2 p q) (ix2 p (⟨1024 + q.val, by have := q.isLt; omega⟩ : Fin 2048)) (Fin.forall_fin_two.2 ⟨(Nat.zero_add _).symm, rfl⟩)]

-- the new hidden state: output gate times the tanh of the new cell
theorem pay3_apply (xa xb : Vec Ideal S64x2048 .f32) (xc xd : Vec Ideal S2048x2048 .bf16) (xe : Vec Ideal S1x2048 .f32)
    (xf : Vec Ideal S64x512 .f32) (p : Fin 64) (q : Fin 512) :
    k7_pay3 xa xb xc xd xe xf (ix2 p q)
      = Ideal.logistic (k7_pay1 xa xb xc xd xe (ix2 p (⟨1536 + q.val, by have := q.isLt; omega⟩ : Fin 2048)))
        * Ideal.tanh (k7_pay2 xa xb xc xd xe xf (ix2 p q)) := by
  unfold k7_pay3
  rw [mulf_apply]
  show Ideal.logistic _ * Ideal.tanh _ = _
  rw [extractStridedSlice_apply ![0, 1536] _ slices_S64x2048_o0_1536_S64x512 (ix2 p q) (ix2 p (⟨1536 + q.val, by have := q.isLt; omega⟩ : Fin 2048)) (Fin.forall_fin_two.2 ⟨(Nat.zero_add _).symm, rfl⟩)]

-- the block index maps at every point, in terms of the outputs' block (i, j)
theorem idx_facts7 : ∀ t : Fin cfg7.N,
    win7_0.index t (0 : Fin 2) = win7_6.index t (0 : Fin 2) ∧ win7_0.index t (1 : Fin 2) = 0
    ∧ win7_1.index t (0 : Fin 2) = win7_6.index t (0 : Fin 2) ∧ win7_1.index t (1 : Fin 2) = 0
    ∧ win7_2.index t (0 : Fin 2) = win7_6.index t (1 : Fin 2) ∧ win7_2.index t (1 : Fin 2) = 0
    ∧ win7_3.index t (0 : Fin 2) = win7_6.index t (1 : Fin 2) ∧ win7_3.index t (1 : Fin 2) = 0
    ∧ win7_4.index t (0 : Fin 2) = 0 ∧ win7_4.index t (1 : Fin 2) = win7_6.index t (1 : Fin 2)
    ∧ win7_5.index t (0 : Fin 2) = win7_6.index t (0 : Fin 2) ∧ win7_5.index t (1 : Fin 2) = win7_6.index t (1 : Fin 2)
    ∧ win7_7.index t (0 : Fin 2) = win7_6.index t (0 : Fin 2) ∧ win7_7.index t (1 : Fin 2) = win7_6.index t (1 : Fin 2)
    ∧ win7_6.index t (0 : Fin 2) ≤ 31 ∧ win7_6.index t (1 : Fin 2) ≤ 3 :=
  (by decide +kernel : ∀ t : Fin grid7.N, _)

-- every output block is some point's
theorem idx_onto7 : ∀ (qa : Fin 32) (qb : Fin 4), ∃ t : Fin cfg7.N, win7_6.index t = ![qa.val, qb.val] :=
  (by decide +kernel : ∀ (qa : Fin 32) (qb : Fin 4), ∃ t : Fin grid7.N, win7_6.index t = ![qa.val, qb.val])

-- (n, u) is the global entry of tile entry (p, q) at point t
abbrev glob7 (t : Fin cfg7.N) (p : Fin 64) (q : Fin 512) (n u : Fin 2048) : Prop :=
  n.val = win7_6.index t (0 : Fin 2) * 64 + p.val ∧ u.val = win7_6.index t (1 : Fin 2) * 512 + q.val

-- an input block's entry is the array's entry at the block's offset plus the coordinate (windows 0 to 4)
theorem blk7_in (t : Fin cfg7.N) (p : Fin 64) (r n : Fin 2048) (R : Fin 8192)
    (hn : n.val = win7_6.index t (0 : Fin 2) * 64 + p.val) (hR : R.val = win7_6.index t (1 : Fin 2) * 2048 + r.val) :
    (∀ (a : S2048x2048.Idx → Elt Ideal .f32) (k : Fin 2048), (((cfg7.win 0).blk t).view.read (Elt Ideal) a : S64x2048.Idx → EReal) (ix2 p k) = a (ix2 n k))
    ∧ (∀ (a : S2048x2048.Idx → Elt Ideal .f32) (k : Fin 2048), (((cfg7.win 1).blk t).view.read (Elt Ideal) a : S64x2048.Idx → EReal) (ix2 p k) = a (ix2 n k))
    ∧ (∀ (a : S8192x2048.Idx → Elt Ideal .bf16) (k : Fin 2048), (((cfg7.win 2).blk t).view.read (Elt Ideal) a : S2048x2048.Idx → EReal) (ix2 r k) = a (ix2 R k))
    ∧ (∀ (a : S8192x2048.Idx → Elt Ideal .bf16) (k : Fin 2048), (((cfg7.win 3).blk t).view.read (Elt Ideal) a : S2048x2048.Idx → EReal) (ix2 r k) = a (ix2 R k))
    ∧ ∀ (a : S1x8192.Idx → Elt Ideal .f32), (((cfg7.win 4).blk t).view.read (Elt Ideal) a : S1x2048.Idx → EReal) (ix2 0 r) = a (ix2 0 R) := by
  obtain ⟨a0, b0, a1, b1, a2, b2, a3, b3, a4, b4, -⟩ := idx_facts7 t
  exact ⟨fun a k => congrArg a (Shape.idx_ext₂ (by show win7_0.index t (0 : Fin 2) * 64 + 1 * p.val = n.val; omega) (by show win7_0.index t (1 : Fin 2) * 2048 + 1 * k.val = k.val; omega)),
    fun a k => congrArg a (Shape.idx_ext₂ (by show win7_1.index t (0 : Fin 2) * 64 + 1 * p.val = n.val; omega) (by show win7_1.index t (1 : Fin 2) * 2048 + 1 * k.val = k.val; omega)),
    fun a k => congrArg a (Shape.idx_ext₂ (by show win7_2.index t (0 : Fin 2) * 2048 + 1 * r.val = R.val; omega) (by show win7_2.index t (1 : Fin 2) * 2048 + 1 * k.val = k.val; omega)),
    fun a k => congrArg a (Shape.idx_ext₂ (by show win7_3.index t (0 : Fin 2) * 2048 + 1 * r.val = R.val; omega) (by show win7_3.index t (1 : Fin 2) * 2048 + 1 * k.val = k.val; omega)),
    fun a => congrArg a (Shape.idx_ext₂ (by show win7_4.index t (0 : Fin 2) * 1 + 1 * 0 = 0; omega) (by show win7_4.index t (1 : Fin 2) * 2048 + 1 * r.val = R.val; omega))⟩

-- the same for the cell's block, and both output windows place a tile entry at the global entry
theorem blk7_out (t : Fin cfg7.N) (p : Fin 64) (q : Fin 512) (n u : Fin 2048) (h : glob7 t p q n u) :
    (∀ a : S2048x2048.Idx → Elt Ideal .f32, (((cfg7.win 5).blk t).view.read (Elt Ideal) a : S64x512.Idx → EReal) (ix2 p q) = a (ix2 n u))
    ∧ ((cfg7.win 6).blk t).view.emb (ix2 p q) = ix2 n u ∧ ((cfg7.win 7).blk t).view.emb (ix2 p q) = ix2 n u := by
  obtain ⟨hn, hu⟩ := h
  obtain ⟨-, -, -, -, -, -, -, -, -, -, a5, b5, a7, b7, -⟩ := idx_facts7 t
  exact ⟨fun a => congrArg a (Shape.idx_ext₂ (by show win7_5.index t (0 : Fin 2) * 64 + 1 * p.val = n.val; omega) (by show win7_5.index t (1 : Fin 2) * 512 + 1 * q.val = u.val; omega)),
    Shape.idx_ext₂ (by show win7_6.index t (0 : Fin 2) * 64 + 1 * p.val = n.val; omega) (by show win7_6.index t (1 : Fin 2) * 512 + 1 * q.val = u.val; omega),
    Shape.idx_ext₂ (by show win7_7.index t (0 : Fin 2) * 64 + 1 * p.val = n.val; omega) (by show win7_7.index t (1 : Fin 2) * 512 + 1 * q.val = u.val; omega)⟩

section AtPoint

variable (aa ab af : S2048x2048.Idx → Elt Ideal .f32) (ac ad : S8192x2048.Idx → Elt Ideal .bf16) (ae : S1x8192.Idx → Elt Ideal .f32)

-- gate g's pre-activation at a point's tile is the specification's at the global row and unit
theorem preact7_apply (t : Fin cfg7.N) (p : Fin 64) (q : Fin 512) (g : Fin 4) (r n u : Fin 2048)
    (hr : r.val = g.val * 512 + q.val)
    (h : glob7 t p q n u) :
    k7_pay1 (((cfg7.win 0).blk t).view.read (Elt Ideal) aa) (((cfg7.win 1).blk t).view.read (Elt Ideal) ab)
        (((cfg7.win 2).blk t).view.read (Elt Ideal) ac) (((cfg7.win 3).blk t).view.read (Elt Ideal) ad)
        (((cfg7.win 4).blk t).view.read (Elt Ideal) ae) (ix2 p r)
      = Cert.Spec.preactP (fun x y => aa (ix2 x y)) (fun x y => ab (ix2 x y)) (fun x y => ac (ix2 x y)) (fun x y => ad (ix2 x y))
          (fun x => ae (ix2 0 x)) g n u := by
  obtain ⟨hn, hu⟩ := h
  have hR : (Cert.Spec.permRow g u).val = win7_6.index t (1 : Fin 2) * 2048 + r.val := by
    show (u.val / 512) * 2048 + g.val * 512 + u.val % 512 = _
    have := q.isLt; omega
  rw [pay1_apply]
  unfold Cert.Spec.preactP Cert.Spec.mmT
  simp only [blk7_in t p r n _ hn hR]

-- the new cell at a point's tile is the specification's at the global entry
theorem cell7_apply (t : Fin cfg7.N) (p : Fin 64) (q : Fin 512) (n u : Fin 2048)
    (h : glob7 t p q n u) :
    k7_pay2 (((cfg7.win 0).blk t).view.read (Elt Ideal) aa) (((cfg7.win 1).blk t).view.read (Elt Ideal) ab)
        (((cfg7.win 2).blk t).view.read (Elt Ideal) ac) (((cfg7.win 3).blk t).view.read (Elt Ideal) ad)
        (((cfg7.win 4).blk t).view.read (Elt Ideal) ae) (((cfg7.win 5).blk t).view.read (Elt Ideal) af) (ix2 p q)
      = Cert.Spec.cellNewP (fun x y => aa (ix2 x y)) (fun x y => ab (ix2 x y)) (fun x y => af (ix2 x y)) (fun x y => ac (ix2 x y))
          (fun x y => ad (ix2 x y)) (fun x => ae (ix2 0 x)) n u := by
  rw [pay2_apply]
  unfold Cert.Spec.cellNewP
  rw [preact7_apply aa ab ac ad ae t p q 1 _ n u rfl h,
    preact7_apply aa ab ac ad ae t p q 0 _ n u (Nat.zero_add _).symm h,
    preact7_apply aa ab ac ad ae t p q 2 _ n u rfl h,
    (blk7_out t p q n u h).1 af]

-- the new hidden state at a point's tile is the specification's at the global entry
theorem hid7_apply (t : Fin cfg7.N) (p : Fin 64) (q : Fin 512) (n u : Fin 2048) (h : glob7 t p q n u) :
    k7_pay3 (((cfg7.win 0).blk t).view.read (Elt Ideal) aa) (((cfg7.win 1).blk t).view.read (Elt Ideal) ab)
        (((cfg7.win 2).blk t).view.read (Elt Ideal) ac) (((cfg7.win 3).blk t).view.read (Elt Ideal) ad)
        (((cfg7.win 4).blk t).view.read (Elt Ideal) ae) (((cfg7.win 5).blk t).view.read (Elt Ideal) af) (ix2 p q)
      = Cert.Spec.hNewP (fun x y => aa (ix2 x y)) (fun x y => ab (ix2 x y)) (fun x y => af (ix2 x y)) (fun x y => ac (ix2 x y))
          (fun x y => ad (ix2 x y)) (fun x => ae (ix2 0 x)) n u := by
  rw [pay3_apply, cell7_apply aa ab af ac ad ae t p q n u h]
  unfold Cert.Spec.hNewP
  rw [preact7_apply aa ab ac ad ae t p q 3 _ n u rfl h]

end AtPoint

theorem hz7 : (![0, 0] : Fin 2 → Nat) = fun _ => 0 := funext fun a => by fin_cases a <;> rfl

-- an output array as one function of the input arrays
abbrev G7 (f : (Fin 2048 → Fin 2048 → EReal) → (Fin 2048 → Fin 2048 → EReal) → (Fin 2048 → Fin 2048 → EReal) → (Fin 8192 → Fin 2048 → EReal) → (Fin 8192 → Fin 2048 → EReal) → (Fin 8192 → EReal) → Fin 2048 → Fin 2048 → EReal)
    (c : Dev nD) : S2048x2048.Idx → EReal := fun i =>
  f (fun a b => (V c (Pipeline.arrRef spec7 0) : S2048x2048.Idx → EReal) (ix2 a b)) (fun a b => (V c (Pipeline.arrRef spec7 1) : S2048x2048.Idx → EReal) (ix2 a b)) (fun a b => (V c (Pipeline.arrRef spec7 5) : S2048x2048.Idx → EReal) (ix2 a b)) (fun a b => (V c (Pipeline.arrRef spec7 2) : S8192x2048.Idx → EReal) (ix2 a b)) (fun a b => (V c (Pipeline.arrRef spec7 3) : S8192x2048.Idx → EReal) (ix2 a b)) (fun r => (V c (Pipeline.arrRef spec7 4) : S1x8192.Idx → EReal) (ix2 0 r)) (i 0) (i 1)

-- the global entry of a tile entry, within bounds
theorem pt7 (t : Fin cfg7.N) (p : Fin 64) (q : Fin 512) :
    ∃ n u : Fin 2048, glob7 t p q n u := by
  obtain ⟨-, -, -, -, -, -, -, -, -, -, -, -, -, -, ba, bb⟩ := idx_facts7 t
  exact ⟨⟨_, by have := p.isLt; omega⟩, ⟨_, by have := q.isLt; omega⟩, rfl, rfl⟩

-- a point's output tile is its tile of the specification's array
theorem flushed7_6_eq (c : Dev nD) (t : Fin cfg7.N) :
    (dat7 (F := Ideal) V c).flushed 6 t = ((cfg7.win 6).blk t).view.read (Elt Ideal) (G7 V Cert.Spec.hNewP c) := by
  show (cfg7.win 6).cut (grid7.coords t) ((dat7 V c).after 6 t) = _
  dsimp only [dat7]
  unfold out7_6
  rw [View.canon_unit_zero hz7]
  simp only [View.ld_unit_zero (S := S64x2048) hz7, View.ld_unit_zero (S := S2048x2048) hz7, View.ld_unit_zero (S := S1x2048) hz7,
    View.ld_unit_zero (S := S64x512) hz7]
  unfold iblk7
  funext j
  obtain ⟨p, q, rfl⟩ : ∃ (p : Fin 64) (q : Fin 512), j = ix2 p q := ⟨j 0, j 1, eq_ix2 j⟩
  obtain ⟨n, u, h⟩ := pt7 t p q
  show k7_pay3 (F := Ideal) _ _ _ _ _ _ (ix2 p q) = G7 V Cert.Spec.hNewP c (((cfg7.win 6).blk t).view.emb (ix2 p q))
  rw [(blk7_out t p q n u h).2.1, hid7_apply _ _ _ _ _ _ t p q n u h]

theorem flushed7_7_eq (c : Dev nD) (t : Fin cfg7.N) :
    (dat7 (F := Ideal) V c).flushed 7 t = ((cfg7.win 7).blk t).view.read (Elt Ideal) (G7 V Cert.Spec.cellNewP c) := by
  show (cfg7.win 7).cut (grid7.coords t) ((dat7 V c).after 7 t) = _
  dsimp only [dat7]
  unfold out7_7
  rw [View.canon_unit_zero hz7]
  simp only [View.ld_unit_zero (S := S64x2048) hz7, View.ld_unit_zero (S := S2048x2048) hz7, View.ld_unit_zero (S := S1x2048) hz7,
    View.ld_unit_zero (S := S64x512) hz7]
  unfold iblk7
  funext j
  obtain ⟨p, q, rfl⟩ : ∃ (p : Fin 64) (q : Fin 512), j = ix2 p q := ⟨j 0, j 1, eq_ix2 j⟩
  obtain ⟨n, u, h⟩ := pt7 t p q
  show k7_pay2 (F := Ideal) _ _ _ _ _ _ (ix2 p q) = G7 V Cert.Spec.cellNewP c (((cfg7.win 7).blk t).view.emb (ix2 p q))
  rw [(blk7_out t p q n u h).2.2, cell7_apply _ _ _ _ _ _ t p q n u h]

-- the output tiles cover the array: entry (n, u) lies in the tile of block (n / 64, u / 512)
theorem cover7 (i : S2048x2048.Idx) : ∃ t : Fin cfg7.N, i ∈ ((cfg7.win 6).blk t).view.set ∧ i ∈ ((cfg7.win 7).blk t).view.set := by
  have ha := idx2_lt0 i
  have hb := idx2_lt1 i
  obtain ⟨t, ht⟩ := idx_onto7 ⟨(i 0).val / 64, by omega⟩ ⟨(i 1).val / 512, by omega⟩
  have qa : win7_6.index t (0 : Fin 2) = (i 0).val / 64 := congrFun ht 0
  have qb : win7_6.index t (1 : Fin 2) = (i 1).val / 512 := congrFun ht 1
  obtain ⟨-, e6, e7⟩ := blk7_out t ⟨(i 0).val % 64, by omega⟩ ⟨(i 1).val % 512, by omega⟩ (i 0) (i 1)
    ⟨by show (i 0).val = win7_6.index t (0 : Fin 2) * 64 + (i 0).val % 64; omega,
      by show (i 1).val = win7_6.index t (1 : Fin 2) * 512 + (i 1).val % 512; omega⟩
  rw [eq_ix2 i]
  exact ⟨t, e6 ▸ View.emb_mem_set _ _, e7 ▸ View.emb_mem_set _ _⟩

-- the region's value: the two output arrays are the specification's new hidden and cell states
theorem final7_h (c : Dev nD) (n u : Fin 2048) :
    ((dat7 (F := Ideal) V c).arrAt 6 cfg7.N : S2048x2048.Idx → EReal) (ix2 n u)
      = Cert.Spec.hNewP (fun a b => (V c (Pipeline.arrRef spec7 0) : S2048x2048.Idx → EReal) (ix2 a b)) (fun a b => (V c (Pipeline.arrRef spec7 1) : S2048x2048.Idx → EReal) (ix2 a b)) (fun a b => (V c (Pipeline.arrRef spec7 5) : S2048x2048.Idx → EReal) (ix2 a b)) (fun a b => (V c (Pipeline.arrRef spec7 2) : S8192x2048.Idx → EReal) (ix2 a b)) (fun a b => (V c (Pipeline.arrRef spec7 3) : S8192x2048.Idx → EReal) (ix2 a b)) (fun r => (V c (Pipeline.arrRef spec7 4) : S1x8192.Idx → EReal) (ix2 0 r)) n u :=
  congrFun ((dat7 (F := Ideal) V c).arrAt_eq_of_cover 6 (G7 V Cert.Spec.hNewP c) (fun t _ => flushed7_6_eq V c t) fun i => (cover7 i).imp fun t h => ⟨flush7_6 t, h.1⟩) (ix2 n u)

theorem final7_c (c : Dev nD) (n u : Fin 2048) :
    ((dat7 (F := Ideal) V c).arrAt 7 cfg7.N : S2048x2048.Idx → EReal) (ix2 n u)
      = Cert.Spec.cellNewP (fun a b => (V c (Pipeline.arrRef spec7 0) : S2048x2048.Idx → EReal) (ix2 a b)) (fun a b => (V c (Pipeline.arrRef spec7 1) : S2048x2048.Idx → EReal) (ix2 a b)) (fun a b => (V c (Pipeline.arrRef spec7 5) : S2048x2048.Idx → EReal) (ix2 a b)) (fun a b => (V c (Pipeline.arrRef spec7 2) : S8192x2048.Idx → EReal) (ix2 a b)) (fun a b => (V c (Pipeline.arrRef spec7 3) : S8192x2048.Idx → EReal) (ix2 a b)) (fun r => (V c (Pipeline.arrRef spec7 4) : S1x8192.Idx → EReal) (ix2 0 r)) n u :=
  congrFun ((dat7 (F := Ideal) V c).arrAt_eq_of_cover 7 (G7 V Cert.Spec.cellNewP c) (fun t _ => flushed7_7_eq V c t) fun i => (cover7 i).imp fun t h => ⟨flush7_7 t, h.2⟩) (ix2 n u)

end R7

export R7 (final7_h final7_c)

end Cert.KernelIdeal.HandVal

end
-- ==== Proof.LibKeepdims.lean ====
import Idealize.ShloMosaic.Lib.ValueLayout
import Idealize.ShloMosaic.PureOps.Ideal.Laws

namespace Idealize.ShloMosaic.ValueIdx

open Idealize.ShloMosaic

variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem multiReduction_add_cols_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ src 0x00000000#32 h hφ hacc (ix1 r) = ∑ c : Fin b, src (ix2 r c) :=
  (Ideal.multiReduction_add_single src 0x00000000#32 h hφ hacc (ix1 r)).trans
    (Finset.sum_congr rfl fun c _ => congrArg src (funext fun ax => Fin.ext (by
      match ax with
      | ⟨0, _⟩ => rfl
      | ⟨1, _⟩ => rfl)))

theorem multiReduction_add_rows_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (j : Fin b) :
    multiReduction .add [0] ⟨1, ![b]⟩ src 0x00000000#32 h hφ hacc (ix1 j) = ∑ c : Fin a, src (ix2 c j) :=
  (Ideal.multiReduction_add_single src 0x00000000#32 h hφ hacc (ix1 j)).trans
    (Finset.sum_congr rfl fun c _ => congrArg src (funext fun ax => Fin.ext (by
      match ax with
      | ⟨0, _⟩ => rfl
      | ⟨1, _⟩ => rfl)))

end Idealize.ShloMosaic.ValueIdx
-- ==== Proof.KI.Head8Val.lean ====
import proofs.«412769_j28716151341139_3_alg».proof.Proof.KI.Head8
import proofs.«412769_j28716151341139_3_alg».proof.Proof.SpecArrays
import proofs.«412769_j28716151341139_3_alg».proof.Proof.LibAcc
import proofs.«412769_j28716151341139_3_alg».proof.Proof.LibBlockSum
import proofs.«412769_j28716151341139_3_alg».proof.Proof.LibKeepdims
import Idealize.ShloMosaic.Lib.ValueIdx
import Idealize.ShloMosaic.Lib.Pipeline.Value
import Idealize.ShloMosaic.PureOps.Ideal.Laws

set_option maxRecDepth 16384

noncomputable section

namespace Cert.KernelIdeal.HandVal

open scoped BigOperators
open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

namespace R8

theorem dotIdx8 (j : S256x64.Idx) (k : dot_S256x512_S64x512_S256x64_1_1_0_0_n_n.contr.Idx) :
    (dot_S256x512_S64x512_S256x64_1_1_0_0_n_n.lhsIdx j k 0 : ℕ) = j 0 ∧ (dot_S256x512_S64x512_S256x64_1_1_0_0_n_n.lhsIdx j k 1 : ℕ) = k ⟨0, by decide⟩
      ∧ (dot_S256x512_S64x512_S256x64_1_1_0_0_n_n.rhsIdx j k 0 : ℕ) = j 1 ∧ (dot_S256x512_S64x512_S256x64_1_1_0_0_n_n.rhsIdx j k 1 : ℕ) = k ⟨0, by decide⟩ := by
  refine ⟨?_, ?_, ?_, ?_⟩ <;> simp [DotDims.lhsIdx, DotDims.rhsIdx, dot_S256x512_S64x512_S256x64_1_1_0_0_n_n] <;> rfl

-- The contraction over the shared second axis, re-indexed by its one coordinate.
theorem dot8_sum {α : Type} [AddCommMonoid α] (f : S256x512.Idx → S64x512.Idx → α) (a : Fin 256) (b : Fin 64) :
    ∑ k : dot_S256x512_S64x512_S256x64_1_1_0_0_n_n.contr.Idx,
        f (dot_S256x512_S64x512_S256x64_1_1_0_0_n_n.lhsIdx (ix2 a b) k) (dot_S256x512_S64x512_S256x64_1_1_0_0_n_n.rhsIdx (ix2 a b) k)
      = ∑ j : Fin 512, f (ix2 a j) (ix2 b j) := by
  rw [← Equiv.sum_comp (contrEquiv1 dot_S256x512_S64x512_S256x64_1_1_0_0_n_n 512 rfl rfl).symm]
  refine Finset.sum_congr rfl fun j _ => ?_
  have cj := contrEquiv1_symm_val dot_S256x512_S64x512_S256x64_1_1_0_0_n_n 512 rfl rfl j
  congr 1
  · funext ax; apply Fin.ext
    match ax with
    | ⟨0, _⟩ => exact (dotIdx8 _ _).1
    | ⟨1, _⟩ => exact (dotIdx8 _ _).2.1.trans cj
  · funext ax; apply Fin.ext
    match ax with
    | ⟨0, _⟩ => exact (dotIdx8 _ _).2.2.1
    | ⟨1, _⟩ => exact (dotIdx8 _ _).2.2.2.trans cj

theorem pay3_apply (x0 : Vec Ideal S256x512 .f32) (x1 : Vec Ideal S64x512 .bf16) (p : Vec Ideal S256x64 .f32) (a : Fin 256) (b : Fin 64) :
    k8_pay3 x0 x1 p (ix2 a b) = p (ix2 a b) + ∑ j : Fin 512, x0 (ix2 a j) * x1 (ix2 b j) := by
  unfold k8_pay3
  simp only [shapeCast_self]
  rw [addf_apply]
  congr 1
  show FloatOps.matmul dot_S256x512_S64x512_S256x64_1_1_0_0_n_n none _ _ (constant S256x64 .f32 0x00000000#32) (ix2 a b) = _
  rw [Ideal.matmul_constant_zero_apply]
  exact dot8_sum (fun i i' => x0 i * x1 i') a b

theorem pay1_apply (a : Fin 256) (b : Fin 64) : k8_pay1 (F := Ideal) (ix2 a b) = 0 := by
  unfold k8_pay1
  simp only [shapeCast_self]
  exact Ideal.ofBits_zero_f32

-- The epilogue at an entry: the log-softmax, along the row, of the accumulated product plus the bias.
theorem pay5_apply (s : Vec Ideal S256x64 .f32) (x2 : Vec Ideal S1x64 .f32) (a : Fin 256) (b : Fin 64) :
    k8_pay5 s x2 (ix2 a b)
      = ((s (ix2 a b) + x2 (ix2 (0 : Fin 1) b)) - Cert.Spec.rowMax (fun q : Fin 64 => s (ix2 a q) + x2 (ix2 (0 : Fin 1) q)))
        - Ideal.log (∑ q' : Fin 64, Ideal.exp ((s (ix2 a q') + x2 (ix2 (0 : Fin 1) q'))
            - Cert.Spec.rowMax (fun q : Fin 64 => s (ix2 a q) + x2 (ix2 (0 : Fin 1) q)))) := by
  have hb : ∀ q : Fin 64, broadcastTo S256x64 x2 broadcasts_S1x64_S256x64 (ix2 a q) = x2 (ix2 (0 : Fin 1) q) := fun q =>
    broadcastTo_apply x2 broadcasts_S1x64_S256x64 (ix2 a q) (ix2 (0 : Fin 1) q) fun ax => by
      match ax with
      | ⟨0, _⟩ => rfl
      | ⟨1, _⟩ => rfl
  have hlift : ∀ q : Fin 64, reduces_S256x64_S256.lift (ix1 a) q = ix2 a q := fun q => funext fun ax => Fin.ext (by
    match ax with
    | ⟨0, _⟩ => rfl
    | ⟨1, _⟩ => rfl)
  have hmax : ∀ (src : FVec Ideal S256x64 .f32),
      multiReduction .maximumf [1] S256 src 0xFF800000#32 reduces_S256x64_S256 (.inl rfl) rfl (ix1 a)
        = Finset.univ.fold max Cert.Spec.negInf (fun q : Fin 64 => src (ix2 a q)) := fun src =>
    (Ideal.multiReduction_maximumf_single src 0xFF800000#32 reduces_S256x64_S256 (.inl rfl) rfl (ix1 a)).trans
      (congrArg (Finset.univ.fold max Cert.Spec.negInf) (funext fun q => congrArg src (hlift q)))
  have hsum : ∀ (src : FVec Ideal S256x64 .f32),
      multiReduction (F := Ideal) .add [1] S256 src 0x00000000#32 reduces_S256x64_S256 (.inl rfl) rfl (ix1 a)
        = ∑ q : Fin 64, src (ix2 a q) := fun src =>
    multiReduction_add_cols_apply src reduces_S256x64_S256 (.inl rfl) rfl a
  have hlg : (fun q : Fin 64 => (addf (F := Ideal) (φ := .f32) s (broadcastTo S256x64 x2 broadcasts_S1x64_S256x64)) (ix2 a q))
      = fun q : Fin 64 => s (ix2 a q) + x2 (ix2 (0 : Fin 1) q) := funext fun q => by rw [addf_apply, hb]
  have hM : shapeCast S256x1 (maximumf (F := Ideal) (φ := .f32) (broadcast S256 (FloatOps.ofBits FTy.f32 0xFF800000#32))
        (multiReduction (F := Ideal) .maximumf [1] S256 (addf (F := Ideal) (φ := .f32) s (broadcastTo S256x64 x2 broadcasts_S1x64_S256x64)) 0xFF800000#32 reduces_S256x64_S256 (.inl rfl) rfl))
        shapeCasts_S256_S256x1 (ix2 a (0 : Fin 1))
      = Cert.Spec.rowMax (fun q : Fin 64 => s (ix2 a q) + x2 (ix2 (0 : Fin 1) q)) := by
    rw [shapeCast_a_a1_apply, maximumf_apply, hmax, hlg]; rfl
  unfold k8_pay5
  simp only [shapeCast_self]
  rw [subf_apply, subf_apply, broadcastTo_a1_ab_apply, broadcastTo_a1_ab_apply, addf_apply, hb]
  rw [hM]
  refine congrArg (fun z : EReal => (s (ix2 a b) + x2 (ix2 (0 : Fin 1) b) - Cert.Spec.rowMax (fun q : Fin 64 => s (ix2 a q) + x2 (ix2 (0 : Fin 1) q))) - z) ?_
  show Ideal.log (shapeCast S256x1 _ shapeCasts_S256_S256x1 (ix2 a (0 : Fin 1))) = _
  refine congrArg Ideal.log ?_
  rw [shapeCast_a_a1_apply, hsum]
  refine Finset.sum_congr rfl fun q' _ => ?_
  show Ideal.exp (subf (F := Ideal) (φ := .f32) _ _ (ix2 a q')) = _
  refine congrArg Ideal.exp ?_
  rw [subf_apply, addf_apply, hb, broadcastTo_a1_ab_apply, hM]

theorem idx_facts8 : ∀ t : Fin cfg8.N,
    win8_0.index t (0 : Fin 2) = t.val / 4 ∧ win8_0.index t (1 : Fin 2) = t.val % 4
    ∧ win8_1.index t (0 : Fin 2) = 0 ∧ win8_1.index t (1 : Fin 2) = t.val % 4
    ∧ win8_2.index t (0 : Fin 2) = 0 ∧ win8_2.index t (1 : Fin 2) = 0
    ∧ win8_5.index t (0 : Fin 2) = t.val / 4 ∧ win8_5.index t (1 : Fin 2) = 0 :=
  (by decide +kernel : ∀ t : Fin grid8.N, _)

theorem iblk8_0_apply (c : Dev nD) (t : Fin cfg8.N) (p : Fin 256) (j : Fin 512) :
    (iblk8 V c 0 t : Vec Ideal S256x512 .f32) (ix2 p j)
      = (V c (Pipeline.arrRef spec8 0) : S2048x2048.Idx → EReal) (ix2 ⟨256 * (t.val / 4) + p.val, by have := t.isLt; have : cfg8.N = 32 := N_8; omega⟩ ⟨512 * (t.val % 4) + j.val, by omega⟩) := by
  obtain ⟨e0, e1, -⟩ := idx_facts8 t
  unfold iblk8
  rw [View.read_apply]
  show V c (Pipeline.arrRef spec8 0) _ = V c (Pipeline.arrRef spec8 0) _
  congr 1
  funext a
  apply Fin.ext
  match a with
  | ⟨0, _⟩ => show win8_0.index t (0 : Fin 2) * 256 + 1 * p.val = 256 * (t.val / 4) + p.val; rw [e0]; omega
  | ⟨1, _⟩ => show win8_0.index t (1 : Fin 2) * 512 + 1 * j.val = 512 * (t.val % 4) + j.val; rw [e1]; omega

theorem iblk8_1_apply (c : Dev nD) (t : Fin cfg8.N) (q : Fin 64) (j : Fin 512) :
    (iblk8 V c 1 t : Vec Ideal S64x512 .bf16) (ix2 q j)
      = (V c (Pipeline.arrRef spec8 1) : S64x2048.Idx → EReal) (ix2 q ⟨512 * (t.val % 4) + j.val, by omega⟩) := by
  obtain ⟨-, -, e2, e3, -⟩ := idx_facts8 t
  unfold iblk8
  rw [View.read_apply]
  show V c (Pipeline.arrRef spec8 1) _ = V c (Pipeline.arrRef spec8 1) _
  congr 1
  funext a
  apply Fin.ext
  match a with
  | ⟨0, _⟩ => show win8_1.index t (0 : Fin 2) * 64 + 1 * q.val = q.val; rw [e2]; omega
  | ⟨1, _⟩ => show win8_1.index t (1 : Fin 2) * 512 + 1 * j.val = 512 * (t.val % 4) + j.val; rw [e3]; omega

theorem iblk8_2_apply (c : Dev nD) (t : Fin cfg8.N) (q : Fin 64) :
    (iblk8 V c 2 t : Vec Ideal S1x64 .f32) (ix2 (0 : Fin 1) q)
      = (V c (Pipeline.arrRef spec8 2) : S1x64.Idx → EReal) (ix2 (0 : Fin 1) q) := by
  obtain ⟨-, -, -, -, e4, e5, -⟩ := idx_facts8 t
  unfold iblk8
  rw [View.read_apply]
  show V c (Pipeline.arrRef spec8 2) _ = V c (Pipeline.arrRef spec8 2) _
  congr 1
  funext a
  apply Fin.ext
  match a with
  | ⟨0, _⟩ => show win8_2.index t (0 : Fin 2) * 1 + 1 * 0 = 0; rw [e4]
  | ⟨1, _⟩ => show win8_2.index t (1 : Fin 2) * 64 + 1 * q.val = q.val; rw [e5]; omega

abbrev hh8 (c : Dev nD) : Fin 2048 → Fin 2048 → EReal := fun a b => (V c (Pipeline.arrRef spec8 0) : S2048x2048.Idx → EReal) (ix2 a b)
abbrev aw8 (c : Dev nD) : Fin 64 → Fin 2048 → EReal := fun a b => (V c (Pipeline.arrRef spec8 1) : S64x2048.Idx → EReal) (ix2 a b)
abbrev ab8 (c : Dev nD) : Fin 64 → EReal := fun r => (V c (Pipeline.arrRef spec8 2) : S1x64.Idx → EReal) (ix2 0 r)

abbrev hblk (c : Dev nD) (n : ℕ) (hn : n < cfg8.N) (p : Fin 256) (j : Fin 512) : EReal :=
  (iblk8 V c 0 ⟨n, hn⟩ : Vec Ideal S256x512 .f32) (ix2 p j)
abbrev wblk (c : Dev nD) (n : ℕ) (hn : n < cfg8.N) (q : Fin 64) (j : Fin 512) : EReal :=
  (iblk8 V c 1 ⟨n, hn⟩ : Vec Ideal S64x512 .bf16) (ix2 q j)

-- Zero at the first of a row block's four points and one block of 512 terms added at each: after the fourth, all 2048 terms.
theorem acc8_last (c : Dev nD) (b : Fin 8) (p : Fin 256) (q : Fin 64) (h : b.val * 4 + 3 < cfg8.N) :
    ((sc8 V c (b.val * 4 + 3) h).1 : Vec Ideal S256x64 .f32) (ix2 p q)
      = Cert.Spec.mmT (hh8 V c) (aw8 V c) ⟨256 * b.val + p.val, by omega⟩ q := by
  have hN : cfg8.N = 32 := N_8
  have hreset : ∀ n (hn : n < 8 * 4), n % 4 = 0 →
      ((sc8 V c n (by omega)).1 : Vec Ideal S256x64 .f32) (ix2 p q)
        = 0 + ∑ j : Fin 512, hblk V c n (by omega) p j * wblk V c n (by omega) q j := fun n hn h0 => by
    rw [sc8_step V c n, if_pos h0]
    show k8_pay3 _ _ k8_pay1 (ix2 p q) = _
    rw [pay3_apply, pay1_apply]
  have hstep : ∀ n (hn : n < 8 * 4) (h : n % 4 ≠ 0),
      ((sc8 V c n (by omega)).1 : Vec Ideal S256x64 .f32) (ix2 p q)
        = ((sc8 V c (n - 1) (by omega)).1 : Vec Ideal S256x64 .f32) (ix2 p q)
          + ∑ j : Fin 512, hblk V c n (by omega) p j * wblk V c n (by omega) q j := fun n hn h0 => by
    rw [sc8_step V c n, if_neg h0]
    show k8_pay3 _ _ _ (ix2 p q) = _
    rw [pay3_apply]
  have key := Cert.LibAcc.acc_last_zero 4 8
    (fun n hn => ((sc8 V c n (by omega)).1 : Vec Ideal S256x64 .f32) (ix2 p q))
    (fun n hn => ∑ j : Fin 512, hblk V c n (by omega) p j * wblk V c n (by omega) q j)
    0 rfl hreset hstep (by decide) b
  refine key.trans ?_
  unfold Cert.Spec.mmT
  rw [Cert.LibBlockSum.sum_blocks (show 4 * 512 = 2048 from rfl)]
  refine Finset.sum_congr rfl fun i _ => Finset.sum_congr rfl fun j _ => ?_
  dsimp only [hblk, wblk]
  rw [iblk8_0_apply, iblk8_1_apply]
  have hi := i.isLt
  refine congrArg₂ (· * ·)
    (congrArg₂ (fun x y => (V c (Pipeline.arrRef spec8 0) : S2048x2048.Idx → EReal) (ix2 x y)) (Fin.ext ?_) (Fin.ext ?_))
    (congrArg (fun y => (V c (Pipeline.arrRef spec8 1) : S64x2048.Idx → EReal) (ix2 q y)) (Fin.ext ?_))
  · show 256 * ((b.val * 4 + i.val) / 4) + p.val = 256 * b.val + p.val; omega
  · show 512 * ((b.val * 4 + i.val) % 4) + j.val = 512 * i.val + j.val; omega
  · show 512 * ((b.val * 4 + i.val) % 4) + j.val = 512 * i.val + j.val; omega

abbrev G8 (c : Dev nD) : S2048x64.Idx → EReal := fun i =>
  Cert.Spec.logp (hh8 V c) (aw8 V c) (ab8 V c) ⟨(i 0).val, idx2_lt0 i⟩ ⟨(i 1).val, idx2_lt1 i⟩

-- Row n lies in the block of point 4 * (n / 256) + 3.
theorem cover8_5 (i : S2048x64.Idx) : ∃ t : Fin cfg8.N, (cfg8.win 5).flush t = true ∧ i ∈ ((cfg8.win 5).blk t).view.set := by
  have hN : cfg8.N = 32 := N_8
  have hi0 : (i 0).val < 2048 := idx2_lt0 i
  have hi1 : (i 1).val < 64 := idx2_lt1 i
  obtain ⟨t, ht⟩ : ∃ t : Fin cfg8.N, t.val = 4 * ((i 0).val / 256) + 3 := ⟨⟨4 * ((i 0).val / 256) + 3, by omega⟩, rfl⟩
  refine ⟨t, (flush8_5 t).mpr (by omega), ?_⟩
  show i ∈ ((View.whole main_v49_0).slice (win8_5.rect t)).set
  rw [View.set_slice_whole, Rect.mem_set_unit]
  obtain ⟨-, -, -, -, -, -, e6, e7⟩ := idx_facts8 t
  intro a
  match a with
  | ⟨0, _⟩ => show win8_5.index t (0 : Fin 2) * 256 ≤ (i 0).val ∧ (i 0).val < win8_5.index t (0 : Fin 2) * 256 + 256; rw [e6]; omega
  | ⟨1, _⟩ => show win8_5.index t (1 : Fin 2) * 64 ≤ (i 1).val ∧ (i 1).val < win8_5.index t (1 : Fin 2) * 64 + 64; rw [e7]; omega

theorem G8_eq (c : Dev nD) (i : S2048x64.Idx) (n : Fin 2048) (a : Fin 64) (h0 : (i 0).val = n.val) (h1 : (i 1).val = a.val) :
    G8 V c i = Cert.Spec.logp (hh8 V c) (aw8 V c) (ab8 V c) n a := by
  show Cert.Spec.logp (hh8 V c) (aw8 V c) (ab8 V c) ⟨(i 0).val, idx2_lt0 i⟩ ⟨(i 1).val, idx2_lt1 i⟩ = _
  rw [show (⟨(i 0).val, idx2_lt0 i⟩ : Fin 2048) = n from Fin.ext h0, show (⟨(i 1).val, idx2_lt1 i⟩ : Fin 64) = a from Fin.ext h1]

-- At the last point of a row block the accumulator is the whole product, so the epilogue gives the block of log-probabilities.
theorem flushed8_5_eq (c : Dev nD) (t : Fin cfg8.N) (hf : (cfg8.win 5).flush t = true) :
    (dat8 V c).flushed 5 t = ((cfg8.win 5).blk t).view.read (Elt Ideal) (G8 V c) := by
  have hN : cfg8.N = 32 := N_8
  have h3 : t.val % 4 = 3 := (flush8_5 t).mp hf
  obtain ⟨-, -, -, -, -, -, e6, e7⟩ := idx_facts8 t
  show (cfg8.win 5).cut (grid8.coords t) ((dat8 V c).after 5 t) = _
  rw [after8_5]
  funext y
  obtain ⟨p, q, rfl⟩ : ∃ (p : Fin 256) (q : Fin 64), y = ix2 p q := ⟨y 0, y 1, eq_ix2 y⟩
  show k8_pay5 (sc8 V c t.val t.isLt).1 (iblk8 V c 2 t) (ix2 p q) = G8 V c (((cfg8.win 5).blk t).view.emb (ix2 p q))
  have hacc : ∀ q' : Fin 64, ((sc8 V c t.val t.isLt).1 : Vec Ideal S256x64 .f32) (ix2 p q')
      = Cert.Spec.mmT (hh8 V c) (aw8 V c) ⟨256 * (t.val / 4) + p.val, by omega⟩ q' := fun q' => by
    rw [sc8_congr V c (show t.val = t.val / 4 * 4 + 3 by omega) t.isLt (by omega)]
    exact acc8_last V c ⟨t.val / 4, by omega⟩ p q' (by show t.val / 4 * 4 + 3 < cfg8.N; omega)
  rw [pay5_apply]
  simp only [hacc, iblk8_2_apply]
  refine (G8_eq V c _ ⟨256 * (t.val / 4) + p.val, by omega⟩ q ?_ ?_).symm
  · show win8_5.index t (0 : Fin 2) * 256 + 1 * p.val = 256 * (t.val / 4) + p.val; rw [e6]; omega
  · show win8_5.index t (1 : Fin 2) * 64 + 1 * q.val = q.val; rw [e7]; omega

theorem final8_logp (c : Dev nD) (n : Fin 2048) (a : Fin 64) :
    ((dat8 (F := Ideal) V c).arrAt 5 cfg8.N : S2048x64.Idx → EReal) (ix2 n a)
      = Cert.Spec.logp (fun a b => (V c (Pipeline.arrRef spec8 0) : S2048x2048.Idx → EReal) (ix2 a b)) (fun a b => (V c (Pipeline.arrRef spec8 1) : S64x2048.Idx → EReal) (ix2 a b)) (fun r => (V c (Pipeline.arrRef spec8 2) : S1x64.Idx → EReal) (ix2 0 r)) n a :=
  (congrFun ((dat8 V c).arrAt_eq_of_cover 5 (G8 V c) (flushed8_5_eq V c) cover8_5) (ix2 n a)).trans
    (G8_eq V c (ix2 n a) n a rfl rfl)

end R8

export R8 (final8_logp)

end Cert.KernelIdeal.HandVal

end
-- ==== Proof.KI.Head8ValV.lean ====
import proofs.«412769_j28716151341139_3_alg».proof.Proof.KI.Head8
import proofs.«412769_j28716151341139_3_alg».proof.Proof.SpecArrays
import proofs.«412769_j28716151341139_3_alg».proof.Proof.LibAcc
import proofs.«412769_j28716151341139_3_alg».proof.Proof.LibBlockSum
import proofs.«412769_j28716151341139_3_alg».proof.Proof.LibKeepdims
import Idealize.ShloMosaic.Lib.ValueIdx
import Idealize.ShloMosaic.Lib.Pipeline.Value
import Idealize.ShloMosaic.PureOps.Ideal.Laws

set_option maxRecDepth 16384

noncomputable section

namespace Cert.KernelIdeal.HandVal

open scoped BigOperators
open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

namespace R8v

theorem pay2_8_apply (r : Fin 256) (u : Fin 1) : k8_pay2 (F := Ideal) (ix2 r u) = 0 := by
  unfold k8_pay2
  simp only [shapeCast_self]
  exact Ideal.ofBits_zero_f32

def rowDot (v15 : Vec Ideal S256x512 .f32) (v17 : Vec Ideal S1x512 .f32) (r : Fin 256) : EReal :=
  ∑ cc : Fin 512, v15 (ix2 r cc) * v17 (ix2 0 cc)

-- One step of the lane sum at row r: what was held plus the row of the block against the weights' block.
theorem pay4_8_apply (v14 : Vec Ideal S256x1 .f32) (v15 : Vec Ideal S256x512 .f32) (v17 : Vec Ideal S1x512 .f32) (r : Fin 256) (u : Fin 1) :
    k8_pay4 v14 v15 v17 (ix2 r u) = v14 (ix2 r u) + rowDot v15 v17 r := by
  unfold k8_pay4 rowDot
  simp only [shapeCast_self]
  rw [addf_apply, shapeCast_a_a1_apply]
  refine congrArg (v14 (ix2 r u) + ·) ?_
  refine (multiReduction_add_cols_apply (a := 256) (b := 512) _ reduces_S256x512_S256 _ _ r).trans ?_
  refine Finset.sum_congr rfl fun cc _ => ?_
  rw [mulf_apply]
  rw [broadcastTo_apply v17 broadcasts_S1x512_S256x512 (ix2 r cc) (ix2 0 cc) (fun a => by
    match a with
    | ⟨0, _⟩ => rfl
    | ⟨1, _⟩ => rfl)]

theorem pay6_8_apply (v47 : Vec Ideal S256x1 .f32) (v48 : Vec Ideal S1x1 .f32) (r : Fin 256) (u : Fin 1) :
    k8_pay6 v47 v48 (ix2 r u) = v47 (ix2 r u) + v48 (ix2 0 0) := by
  unfold k8_pay6
  simp only [shapeCast_self]
  rw [addf_apply]
  rw [broadcastTo_apply v48 broadcasts_S1x1_S256x1 (ix2 r u) (ix2 0 0) (fun a => by
    match a with
    | ⟨0, _⟩ => rfl
    | ⟨1, _⟩ => rfl)]

theorem idx_facts8 : ∀ t : Fin cfg8.N,
    win8_0.index t (0 : Fin 2) = t.val / 4 ∧ win8_0.index t (1 : Fin 2) = t.val % 4
    ∧ win8_3.index t (0 : Fin 2) = 0 ∧ win8_3.index t (1 : Fin 2) = t.val % 4
    ∧ win8_4.index t (0 : Fin 2) = 0 ∧ win8_4.index t (1 : Fin 2) = 0
    ∧ win8_6.index t (0 : Fin 2) = t.val / 4 ∧ win8_6.index t (1 : Fin 2) = 0 :=
  (by decide +kernel : ∀ t : Fin grid8.N, _)

theorem blk8_0_apply (a : S2048x2048.Idx → Elt Ideal .f32) (t : Fin cfg8.N) (r : Fin 256) (cc : Fin 512) (n k : Fin 2048)
    (hn : n.val = t.val / 4 * 256 + r.val) (hk : k.val = t.val % 4 * 512 + cc.val) :
    (((cfg8.win 0).blk t).view.read (Elt Ideal) a : S256x512.Idx → EReal) (ix2 r cc) = a (ix2 n k) := by
  obtain ⟨ea, eb, -⟩ := idx_facts8 t
  show a (((cfg8.win 0).blk t).view.emb (ix2 r cc)) = a (ix2 n k)
  refine congrArg a (funext fun b => Fin.ext ?_)
  match b with
  | ⟨0, _⟩ => show win8_0.index t (0 : Fin 2) * 256 + 1 * r.val = n.val; omega
  | ⟨1, _⟩ => show win8_0.index t (1 : Fin 2) * 512 + 1 * cc.val = k.val; omega
theorem blk8_3_apply (a : S1x2048.Idx → Elt Ideal .f32) (t : Fin cfg8.N) (cc : Fin 512) (k : Fin 2048)
    (hk : k.val = t.val % 4 * 512 + cc.val) :
    (((cfg8.win 3).blk t).view.read (Elt Ideal) a : S1x512.Idx → EReal) (ix2 0 cc) = a (ix2 0 k) := by
  obtain ⟨-, -, ea, eb, -⟩ := idx_facts8 t
  show a (((cfg8.win 3).blk t).view.emb (ix2 0 cc)) = a (ix2 0 k)
  refine congrArg a (funext fun b => Fin.ext ?_)
  match b with
  | ⟨0, _⟩ => show win8_3.index t (0 : Fin 2) * 1 + 1 * 0 = 0; omega
  | ⟨1, _⟩ => show win8_3.index t (1 : Fin 2) * 512 + 1 * cc.val = k.val; omega
theorem blk8_4_apply (a : S1x1.Idx → Elt Ideal .f32) (t : Fin cfg8.N) :
    (((cfg8.win 4).blk t).view.read (Elt Ideal) a : S1x1.Idx → EReal) (ix2 0 0) = a (ix2 0 0) := by
  obtain ⟨-, -, -, -, ea, eb, -⟩ := idx_facts8 t
  show a (((cfg8.win 4).blk t).view.emb (ix2 0 0)) = a (ix2 0 0)
  refine congrArg a (funext fun b => Fin.ext ?_)
  match b with
  | ⟨0, _⟩ => show win8_4.index t (0 : Fin 2) * 1 + 1 * 0 = 0; omega
  | ⟨1, _⟩ => show win8_4.index t (1 : Fin 2) * 1 + 1 * 0 = 0; omega

section Acc
variable (c : Dev nD) (r : Fin 256)

def acc8 : (n : ℕ) → n < 8 * 4 → EReal := fun n hn =>
  ((sc8 (F := Ideal) V c n hn).2 : S256x1.Idx → EReal) (ix2 r 0)

def term8 : (n : ℕ) → n < 8 * 4 → EReal := fun n hn =>
  rowDot (iblk8 (F := Ideal) V c 0 ⟨n, hn⟩) (iblk8 (F := Ideal) V c 3 ⟨n, hn⟩) r

theorem acc8_reset (n : ℕ) (hn : n < 8 * 4) (h0 : n % 4 = 0) :
    acc8 V c r n hn = k8_pay2 (F := Ideal) (ix2 r 0) + term8 V c r n hn := by
  unfold acc8 term8
  rw [sc8_step V c n hn, if_pos h0]
  exact pay4_8_apply (k8_pay2 (F := Ideal)) (iblk8 V c 0 ⟨n, hn⟩) (iblk8 V c 3 ⟨n, hn⟩) r 0

theorem acc8_step (n : ℕ) (hn : n < 8 * 4) (h0 : n % 4 ≠ 0) :
    acc8 V c r n hn = acc8 V c r (n - 1) (Nat.lt_of_le_of_lt (Nat.sub_le _ _) hn) + term8 V c r n hn := by
  unfold acc8 term8
  rw [sc8_step V c n hn, if_neg h0]
  exact pay4_8_apply (sc8 (F := Ideal) V c (n - 1) (Nat.lt_of_le_of_lt (Nat.sub_le _ _) hn)).2 (iblk8 V c 0 ⟨n, hn⟩)
    (iblk8 V c 3 ⟨n, hn⟩) r 0

-- At the last of a row tile's four points the accumulator holds the four points' terms, summed from zero.
theorem acc8_last (b : Fin 8) :
    acc8 V c r (b.val * 4 + (4 - 1)) (Cert.LibAcc.idx_lt b (by omega))
      = ∑ i : Fin 4, term8 V c r (b.val * 4 + i.val) (Cert.LibAcc.idx_lt b i.isLt) :=
  Cert.LibAcc.acc_last_zero 4 8 (acc8 V c r) (term8 V c r) (k8_pay2 (F := Ideal) (ix2 r 0)) (pay2_8_apply r 0)
    (fun n hn h => acc8_reset V c r n hn h) (fun n hn h => acc8_step V c r n hn h) (by decide) b

end Acc

theorem h2048 : 4 * 512 = 2048 := by norm_num

theorem term_blk8 (a0 : S2048x2048.Idx → Elt Ideal .f32) (a3 : S1x2048.Idx → Elt Ideal .f32) (b : Fin 8) (i : Fin 4) (r : Fin 256)
    (t : Fin cfg8.N) (ht : t.val = b.val * 4 + i.val) (n : Fin 2048) (hn : n.val = b.val * 256 + r.val) :
    rowDot (((cfg8.win 0).blk t).view.read (Elt Ideal) a0) (((cfg8.win 3).blk t).view.read (Elt Ideal) a3) r
      = ∑ cc : Fin 512, a0 (ix2 n (Cert.LibBlockSum.blockIdx h2048 i cc)) * a3 (ix2 0 (Cert.LibBlockSum.blockIdx h2048 i cc)) := by
  unfold rowDot
  refine Finset.sum_congr rfl fun cc _ => ?_
  have hb := b.isLt
  have hi := i.isLt
  have hc := cc.isLt
  rw [blk8_0_apply a0 t r cc n (Cert.LibBlockSum.blockIdx h2048 i cc) (by rw [ht, hn]; omega)
      (by rw [Cert.LibBlockSum.blockIdx_val, ht]; omega),
    blk8_3_apply a3 t cc (Cert.LibBlockSum.blockIdx h2048 i cc) (by rw [Cert.LibBlockSum.blockIdx_val, ht]; omega)]

-- The four column blocks' sums are the sum over the whole row.
theorem row_sum8 (a0 : S2048x2048.Idx → Elt Ideal .f32) (a3 : S1x2048.Idx → Elt Ideal .f32) (n : Fin 2048) :
    ∑ i : Fin 4, ∑ cc : Fin 512, a0 (ix2 n (Cert.LibBlockSum.blockIdx h2048 i cc)) * a3 (ix2 0 (Cert.LibBlockSum.blockIdx h2048 i cc))
      = ∑ k : Fin 2048, a0 (ix2 n k) * a3 (ix2 0 k) :=
  (Cert.LibBlockSum.sum_blocks h2048 (fun k : Fin 2048 => a0 (ix2 n k) * a3 (ix2 0 k))).symm

abbrev G8_6 (c : Dev nD) : S2048x1.Idx → EReal := fun i =>
  Cert.Spec.value (fun a b => (V c (Pipeline.arrRef spec8 0) : S2048x2048.Idx → EReal) (ix2 a b)) (fun r => (V c (Pipeline.arrRef spec8 3) : S1x2048.Idx → EReal) (ix2 0 r)) ((V c (Pipeline.arrRef spec8 4) : S1x1.Idx → EReal) (ix2 0 0)) (i 0)

-- At the last point of a row tile the lane sum is the whole row's, so what is left is the block of values: that sum plus the bias.
theorem flushed8_6_eq (c : Dev nD) (t : Fin cfg8.N) (hf : (cfg8.win 6).flush t = true) :
    (dat8 (F := Ideal) V c).flushed 6 t = ((cfg8.win 6).blk t).view.read (Elt Ideal) (G8_6 V c) := by
  have h3 : t.val % 4 = 3 := (flush8_6 t).mp hf
  have hlt : t.val < 32 := t.isLt
  obtain ⟨-, -, -, -, -, -, ea, eb⟩ := idx_facts8 t
  show (cfg8.win 6).cut (grid8.coords t) ((dat8 V c).after 6 t) = _
  rw [after8_6 V c t]
  funext j
  obtain ⟨r, u, rfl⟩ : ∃ (r : Fin 256) (u : Fin 1), j = ix2 r u := ⟨j 0, j 1, eq_ix2 j⟩
  obtain rfl : u = 0 := Subsingleton.elim _ _
  have hr := r.isLt
  have e : ((cfg8.win 6).blk t).view.emb (ix2 r (0 : Fin 1))
      = ix2 (⟨t.val / 4 * 256 + r.val, by omega⟩ : Fin 2048) (0 : Fin 1) :=
    funext fun a => Fin.ext (by
      match a with
      | ⟨0, _⟩ => show win8_6.index t (0 : Fin 2) * 256 + 1 * r.val = t.val / 4 * 256 + r.val; omega
      | ⟨1, _⟩ => show win8_6.index t (1 : Fin 2) * 1 + 1 * 0 = 0; omega)
  show k8_pay6 (F := Ideal) _ _ (ix2 r 0) = G8_6 V c (((cfg8.win 6).blk t).view.emb (ix2 r 0))
  rw [e]
  refine (pay6_8_apply (sc8 (F := Ideal) V c t.val t.isLt).2 (iblk8 V c 4 t) r 0).trans ?_
  have hacc : ((sc8 (F := Ideal) V c t.val t.isLt).2 : S256x1.Idx → EReal) (ix2 r 0)
      = ∑ i : Fin 4, term8 V c r ((⟨t.val / 4, by omega⟩ : Fin 8).val * 4 + i.val) (Cert.LibAcc.idx_lt _ i.isLt) := by
    rw [sc8_congr V c (show t.val = (⟨t.val / 4, by omega⟩ : Fin 8).val * 4 + (4 - 1) by show t.val = t.val / 4 * 4 + (4 - 1); omega) t.isLt
      (Cert.LibAcc.idx_lt (T := 4) (⟨t.val / 4, by omega⟩ : Fin 8) (by omega))]
    exact acc8_last V c r ⟨t.val / 4, by omega⟩
  rw [hacc]
  refine congrArg₂ (· + ·) ?_ (blk8_4_apply _ t)
  refine (Finset.sum_congr rfl fun i _ => ?_).trans (row_sum8 _ _ ⟨t.val / 4 * 256 + r.val, by omega⟩)
  exact term_blk8 _ _ ⟨t.val / 4, by omega⟩ i r ⟨t.val / 4 * 4 + i.val, Cert.LibAcc.idx_lt (T := 4) (⟨t.val / 4, by omega⟩ : Fin 8) i.isLt⟩ rfl ⟨t.val / 4 * 256 + r.val, by omega⟩ rfl

-- Row n lies in the block of point 4 * (n / 256) + 3.
theorem cover8_6 (i : S2048x1.Idx) : ∃ t : Fin cfg8.N, (cfg8.win 6).flush t = true ∧ i ∈ ((cfg8.win 6).blk t).view.set := by
  have ha : (i 0).val < 2048 := (i 0).isLt
  have hb : (i 1).val < 1 := (i 1).isLt
  obtain ⟨t, ht⟩ : ∃ t : Fin cfg8.N, t.val = (i 0).val / 256 * 4 + 3 := ⟨⟨(i 0).val / 256 * 4 + 3, by show _ < 8 * 4; omega⟩, rfl⟩
  obtain ⟨-, -, -, -, -, -, ea, eb⟩ := idx_facts8 t
  refine ⟨t, (flush8_6 t).mpr (by omega), ?_⟩
  show i ∈ ((View.whole (Pipeline.arrRef spec8 6)).slice (win8_6.rect t)).set
  rw [View.set_slice_whole, Rect.mem_set_unit]
  intro a
  match a with
  | ⟨0, _⟩ => show win8_6.index t (0 : Fin 2) * 256 ≤ (i 0).val ∧ (i 0).val < win8_6.index t (0 : Fin 2) * 256 + 256; rw [ea]; omega
  | ⟨1, _⟩ => show win8_6.index t (1 : Fin 2) * 1 ≤ (i 1).val ∧ (i 1).val < win8_6.index t (1 : Fin 2) * 1 + 1; rw [eb]; omega

theorem final8_val (c : Dev nD) (n : Fin 2048) :
    ((dat8 (F := Ideal) V c).arrAt 6 cfg8.N : S2048x1.Idx → EReal) (ix2 n 0)
      = Cert.Spec.value (fun a b => (V c (Pipeline.arrRef spec8 0) : S2048x2048.Idx → EReal) (ix2 a b)) (fun r => (V c (Pipeline.arrRef spec8 3) : S1x2048.Idx → EReal) (ix2 0 r)) ((V c (Pipeline.arrRef spec8 4) : S1x1.Idx → EReal) (ix2 0 0)) n :=
  (congrFun ((dat8 (F := Ideal) V c).arrAt_eq_of_cover 6 (G8_6 V c) (fun t hf => flushed8_6_eq V c t hf) cover8_6) (ix2 n 0)).trans rfl

end R8v

export R8v (final8_val)

end Cert.KernelIdeal.HandVal

end
-- ==== Proof.SpecPerm.lean ====
import proofs.«412769_j28716151341139_3_alg».proof.Proof.SpecArrays

noncomputable section

open scoped BigOperators

namespace Cert.Spec

theorem mmT_perm (x : Fin 2048 → Fin 2048 → EReal) (w wP : Fin 8192 → Fin 2048 → EReal)
    (hw : ∀ g u k, wP (permRow g u) k = w (gateRow g u) k) (g : Fin 4) (n u : Fin 2048) :
    mmT x wP n (permRow g u) = mmT x w n (gateRow g u) := by
  unfold mmT
  exact Finset.sum_congr rfl (fun k _ => by rw [hw g u k])

theorem preactP_eq (inp h : Fin 2048 → Fin 2048 → EReal)
    (wih whh : Fin 8192 → Fin 2048 → EReal) (bih bhh : Fin 8192 → EReal)
    (wihP whhP : Fin 8192 → Fin 2048 → EReal) (biasP : Fin 8192 → EReal)
    (hw : ∀ g u k, wihP (permRow g u) k = wih (gateRow g u) k)
    (hw' : ∀ g u k, whhP (permRow g u) k = whh (gateRow g u) k)
    (hb : ∀ g u, biasP (permRow g u) = bih (gateRow g u) + bhh (gateRow g u))
    (g : Fin 4) (n u : Fin 2048) :
    preactP inp h wihP whhP biasP g n u = preact inp h wih whh bih bhh g n u := by
  unfold preactP preact
  rw [mmT_perm inp wih wihP hw g n u, mmT_perm h whh whhP hw' g n u, hb g u]
  exact (add_assoc _ _ _).symm

theorem cellNewP_eq (inp h cell : Fin 2048 → Fin 2048 → EReal)
    (wih whh : Fin 8192 → Fin 2048 → EReal) (bih bhh : Fin 8192 → EReal)
    (wihP whhP : Fin 8192 → Fin 2048 → EReal) (biasP : Fin 8192 → EReal)
    (hw : ∀ g u k, wihP (permRow g u) k = wih (gateRow g u) k)
    (hw' : ∀ g u k, whhP (permRow g u) k = whh (gateRow g u) k)
    (hb : ∀ g u, biasP (permRow g u) = bih (gateRow g u) + bhh (gateRow g u)) :
    cellNewP inp h cell wihP whhP biasP = cellNew inp h cell wih whh bih bhh := by
  funext n u
  unfold cellNewP cellNew
  simp only [preactP_eq inp h wih whh bih bhh wihP whhP biasP hw hw' hb]

theorem hNewP_eq (inp h cell : Fin 2048 → Fin 2048 → EReal)
    (wih whh : Fin 8192 → Fin 2048 → EReal) (bih bhh : Fin 8192 → EReal)
    (wihP whhP : Fin 8192 → Fin 2048 → EReal) (biasP : Fin 8192 → EReal)
    (hw : ∀ g u k, wihP (permRow g u) k = wih (gateRow g u) k)
    (hw' : ∀ g u k, whhP (permRow g u) k = whh (gateRow g u) k)
    (hb : ∀ g u, biasP (permRow g u) = bih (gateRow g u) + bhh (gateRow g u)) :
    hNewP inp h cell wihP whhP biasP = hNew inp h cell wih whh bih bhh := by
  funext n u
  unfold hNewP hNew
  rw [cellNewP_eq inp h cell wih whh bih bhh wihP whhP biasP hw hw' hb]
  simp only [preactP_eq inp h wih whh bih bhh wihP whhP biasP hw hw' hb]

end Cert.Spec

end
-- ==== Proof.KI.Chain.lean ====
import proofs.«412769_j28716151341139_3_alg».proof.Proof.KI.HostVals
import proofs.«412769_j28716151341139_3_alg».proof.Proof.KI.Enc0Val
import proofs.«412769_j28716151341139_3_alg».proof.Proof.KI.Lstm1Val
import proofs.«412769_j28716151341139_3_alg».proof.Proof.KI.Gate2Val
import proofs.«412769_j28716151341139_3_alg».proof.Proof.KI.Bsum3Val
import proofs.«412769_j28716151341139_3_alg».proof.Proof.KI.Lstm4Val
import proofs.«412769_j28716151341139_3_alg».proof.Proof.KI.Gate5Val
import proofs.«412769_j28716151341139_3_alg».proof.Proof.KI.Bsum6Val
import proofs.«412769_j28716151341139_3_alg».proof.Proof.KI.Lstm7Val
import proofs.«412769_j28716151341139_3_alg».proof.Proof.KI.Head8Val
import proofs.«412769_j28716151341139_3_alg».proof.Proof.KI.Head8ValV
import proofs.«412769_j28716151341139_3_alg».proof.Proof.KI.Vals
import proofs.«412769_j28716151341139_3_alg».proof.Proof.SpecPerm

set_option maxRecDepth 16384

noncomputable section

namespace Cert.KernelIdeal.HandVal

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Hand

variable (m : (ℓ : Loc nD τ sig) → Buf (Elt Ideal) ℓ) (c : Dev nD)

private theorem f0 : (fun a b => (U1 m c main_v0 : S2048x1024.Idx → EReal) (ix2 a b)) = (A m c).obs := funext fun a => funext fun b => hv0 m c a b
private theorem f1 : (fun a b => (U1 m c main_v1 : S2048x1024.Idx → EReal) (ix2 a b)) = (A m c).encw := funext fun a => funext fun b => hv1 m c a b
private theorem f16 : (fun r => (U1 m c main_v16 : S1x2048.Idx → EReal) (ix2 0 r)) = (A m c).encb := funext fun r => hv16 m c r
private theorem f2 : (fun a b => (U1 m c main_v2 : S2048x2048.Idx → EReal) (ix2 a b)) = (A m c).gw := funext fun a => funext fun b => hv2 m c a b
private theorem f3 : (fun a b => (U1 m c main_v3 : S64x2048.Idx → EReal) (ix2 a b)) = (A m c).actw := funext fun a => funext fun b => hv3 m c a b
private theorem f35 : (fun a b => (U3 m c main_v35 : S2048x2048.Idx → EReal) (ix2 a b)) = Cert.Spec.S (A m c) := funext fun a => funext fun b => hv35 m c a b
private theorem f36 : (fun r => (U3 m c main_v36 : S1x64.Idx → EReal) (ix2 0 r)) = (A m c).actb := funext fun r => hv36 m c r
private theorem f38 : (fun a b => (U3 m c main_v38 : S2048x2048.Idx → EReal) (ix2 a b)) = Cert.Spec.zero2 := funext fun a => funext fun b => hv38 m c a b
private theorem f39 : (fun a b => (U3 m c main_v39 : S2048x2048.Idx → EReal) (ix2 a b)) = Cert.Spec.zero2 := funext fun a => funext fun b => hv39 m c a b
private theorem f41 : (fun r => (U5 m c main_v41 : S1x2048.Idx → EReal) (ix2 0 r)) = (A m c).gb := funext fun r => hv41 m c r
private theorem f45 : (fun r => (U9 m c main_v45 : S1x2048.Idx → EReal) (ix2 0 r)) = (A m c).gb := funext fun r => hv45 m c r
private theorem farg12 : (fun r => (U0 m c main_arg12 : S1x2048.Idx → EReal) (ix2 0 r)) = (A m c).valw := rfl

private theorem hNewP_U1 (inp h cell : Fin 2048 → Fin 2048 → EReal) :
    Cert.Spec.hNewP inp h cell (fun a b => (U1 m c main_v7 : S8192x2048.Idx → EReal) (ix2 a b)) (fun a b => (U1 m c main_v11 : S8192x2048.Idx → EReal) (ix2 a b)) (fun r => (U1 m c main_v15 : S1x8192.Idx → EReal) (ix2 0 r))
      = Cert.Spec.hNew inp h cell (A m c).wih (A m c).whh (A m c).bih (A m c).bhh :=
  Cert.Spec.hNewP_eq inp h cell (A m c).wih (A m c).whh (A m c).bih (A m c).bhh _ _ _
    (fun g u k => hv7 m c g u k) (fun g u k => hv11 m c g u k) (fun g u => hv15 m c g u)
private theorem cellNewP_U1 (inp h cell : Fin 2048 → Fin 2048 → EReal) :
    Cert.Spec.cellNewP inp h cell (fun a b => (U1 m c main_v7 : S8192x2048.Idx → EReal) (ix2 a b)) (fun a b => (U1 m c main_v11 : S8192x2048.Idx → EReal) (ix2 a b)) (fun r => (U1 m c main_v15 : S1x8192.Idx → EReal) (ix2 0 r))
      = Cert.Spec.cellNew inp h cell (A m c).wih (A m c).whh (A m c).bih (A m c).bhh :=
  Cert.Spec.cellNewP_eq inp h cell (A m c).wih (A m c).whh (A m c).bih (A m c).bhh _ _ _
    (fun g u k => hv7 m c g u k) (fun g u k => hv11 m c g u k) (fun g u => hv15 m c g u)

theorem e_val_fun : (fun p q => (U2 m c main_v17 : S2048x2048.Idx → EReal) (ix2 p q)) = Cert.Spec.E (A m c) := by
  funext p q
  have h : ((dat0 (F := Ideal) (atRefs (U1 m)) c).arrAt 3 cfg0.N : S2048x2048.Idx → EReal) (ix2 p q)
      = Cert.Spec.enc (fun a b => (U1 m c main_v0 : S2048x1024.Idx → EReal) (ix2 a b)) (fun a b => (U1 m c main_v1 : S2048x1024.Idx → EReal) (ix2 a b)) (fun r => (U1 m c main_v16 : S1x2048.Idx → EReal) (ix2 0 r)) p q := final0 (atRefs (U1 m)) c p q
  rw [f0 m c, f1 m c, f16 m c] at h
  show (U2 m c main_v17 : S2048x2048.Idx → EReal) (ix2 p q) = _
  rw [wrote_v17 m c]
  exact h
theorem e_val (p q : Fin 2048) : (U2 m c main_v17 : S2048x2048.Idx → EReal) (ix2 p q) = Cert.Spec.E (A m c) p q :=
  congrFun (congrFun (e_val_fun m c) p) q

theorem h1_val_fun : (fun n u => (U4 m c main_v40_0 : S2048x2048.Idx → EReal) (ix2 n u)) = Cert.Spec.H1 (A m c) := by
  funext n u
  have h : ((dat1 (F := Ideal) (atRefs (U3 m)) c).arrAt 6 cfg1.N : S2048x2048.Idx → EReal) (ix2 n u)
      = Cert.Spec.hNewP (fun a b => (U3 m c main_v17 : S2048x2048.Idx → EReal) (ix2 a b)) (fun a b => (U3 m c main_v38 : S2048x2048.Idx → EReal) (ix2 a b)) (fun a b => (U3 m c main_v39 : S2048x2048.Idx → EReal) (ix2 a b)) (fun a b => (U3 m c main_v7 : S8192x2048.Idx → EReal) (ix2 a b)) (fun a b => (U3 m c main_v11 : S8192x2048.Idx → EReal) (ix2 a b)) (fun r => (U3 m c main_v15 : S1x8192.Idx → EReal) (ix2 0 r)) n u := final1_h (atRefs (U3 m)) c n u
  rw [keep_v17_3 m c, keep_v7_3 m c, keep_v11_3 m c, keep_v15_3 m c, e_val_fun m c, f38 m c, f39 m c, hNewP_U1 m c] at h
  show (U4 m c main_v40_0 : S2048x2048.Idx → EReal) (ix2 n u) = _
  rw [wrote_v40_0 m c]
  exact h
theorem h1_val (n u : Fin 2048) : (U4 m c main_v40_0 : S2048x2048.Idx → EReal) (ix2 n u) = Cert.Spec.H1 (A m c) n u :=
  congrFun (congrFun (h1_val_fun m c) n) u

theorem c1_val_fun : (fun n u => (U4 m c main_v40_1 : S2048x2048.Idx → EReal) (ix2 n u)) = Cert.Spec.C1 (A m c) := by
  funext n u
  have h : ((dat1 (F := Ideal) (atRefs (U3 m)) c).arrAt 7 cfg1.N : S2048x2048.Idx → EReal) (ix2 n u)
      = Cert.Spec.cellNewP (fun a b => (U3 m c main_v17 : S2048x2048.Idx → EReal) (ix2 a b)) (fun a b => (U3 m c main_v38 : S2048x2048.Idx → EReal) (ix2 a b)) (fun a b => (U3 m c main_v39 : S2048x2048.Idx → EReal) (ix2 a b)) (fun a b => (U3 m c main_v7 : S8192x2048.Idx → EReal) (ix2 a b)) (fun a b => (U3 m c main_v11 : S8192x2048.Idx → EReal) (ix2 a b)) (fun r => (U3 m c main_v15 : S1x8192.Idx → EReal) (ix2 0 r)) n u := final1_c (atRefs (U3 m)) c n u
  rw [keep_v17_3 m c, keep_v7_3 m c, keep_v11_3 m c, keep_v15_3 m c, e_val_fun m c, f38 m c, f39 m c, cellNewP_U1 m c] at h
  show (U4 m c main_v40_1 : S2048x2048.Idx → EReal) (ix2 n u) = _
  rw [wrote_v40_1 m c]
  exact h
theorem c1_val (n u : Fin 2048) : (U4 m c main_v40_1 : S2048x2048.Idx → EReal) (ix2 n u) = Cert.Spec.C1 (A m c) n u :=
  congrFun (congrFun (c1_val_fun m c) n) u

theorem g1_val_fun : (fun j k => (U6 m c main_v42 : S2048x2048.Idx → EReal) (ix2 j k)) = Cert.Spec.G1 (A m c) := by
  funext j k
  have h : ((dat2 (F := Ideal) (atRefs (U5 m)) c).arrAt 4 cfg2.N : S2048x2048.Idx → EReal) (ix2 j k)
      = Cert.Spec.gate (fun a b => (U5 m c main_v40_0 : S2048x2048.Idx → EReal) (ix2 a b)) (fun a b => (U5 m c main_v2 : S2048x2048.Idx → EReal) (ix2 a b)) (fun r => (U5 m c main_v41 : S1x2048.Idx → EReal) (ix2 0 r)) (fun a b => (U5 m c main_v35 : S2048x2048.Idx → EReal) (ix2 a b)) j k := final2 (atRefs (U5 m)) c j k
  rw [keep_v40_0_5 m c, keep_v2_5 m c, keep_v35_5 m c, h1_val_fun m c, f2 m c, f41 m c, f35 m c] at h
  show (U6 m c main_v42 : S2048x2048.Idx → EReal) (ix2 j k) = _
  rw [wrote_v42 m c]
  exact h
theorem g1_val (j k : Fin 2048) : (U6 m c main_v42 : S2048x2048.Idx → EReal) (ix2 j k) = Cert.Spec.G1 (A m c) j k :=
  congrFun (congrFun (g1_val_fun m c) j) k

theorem i1_val_fun : (fun i u => (U7 m c main_v43 : S2048x2048.Idx → EReal) (ix2 i u)) = Cert.Spec.I1 (A m c) := by
  funext i u
  have h : ((dat3 (F := Ideal) (atRefs (U6 m)) c).arrAt 3 cfg3.N : S2048x2048.Idx → EReal) (ix2 i u)
      = Cert.Spec.bsum (fun a b => (U6 m c main_v42 : S2048x2048.Idx → EReal) (ix2 a b)) (fun a b => (U6 m c main_v40_0 : S2048x2048.Idx → EReal) (ix2 a b)) (fun a b => (U6 m c main_v17 : S2048x2048.Idx → EReal) (ix2 a b)) i u := final3 (atRefs (U6 m)) c i u
  rw [keep_v40_0_6 m c, keep_v17_6 m c, g1_val_fun m c, h1_val_fun m c, e_val_fun m c] at h
  show (U7 m c main_v43 : S2048x2048.Idx → EReal) (ix2 i u) = _
  rw [wrote_v43 m c]
  exact h
theorem i1_val (i u : Fin 2048) : (U7 m c main_v43 : S2048x2048.Idx → EReal) (ix2 i u) = Cert.Spec.I1 (A m c) i u :=
  congrFun (congrFun (i1_val_fun m c) i) u

theorem h2_val_fun : (fun n u => (U8 m c main_v44_0 : S2048x2048.Idx → EReal) (ix2 n u)) = Cert.Spec.H2 (A m c) := by
  funext n u
  have h : ((dat4 (F := Ideal) (atRefs (U7 m)) c).arrAt 6 cfg4.N : S2048x2048.Idx → EReal) (ix2 n u)
      = Cert.Spec.hNewP (fun a b => (U7 m c main_v43 : S2048x2048.Idx → EReal) (ix2 a b)) (fun a b => (U7 m c main_v40_0 : S2048x2048.Idx → EReal) (ix2 a b)) (fun a b => (U7 m c main_v40_1 : S2048x2048.Idx → EReal) (ix2 a b)) (fun a b => (U7 m c main_v7 : S8192x2048.Idx → EReal) (ix2 a b)) (fun a b => (U7 m c main_v11 : S8192x2048.Idx → EReal) (ix2 a b)) (fun r => (U7 m c main_v15 : S1x8192.Idx → EReal) (ix2 0 r)) n u := final4_h (atRefs (U7 m)) c n u
  rw [keep_v40_0_7 m c, keep_v40_1_7 m c, keep_v7_7 m c, keep_v11_7 m c, keep_v15_7 m c, i1_val_fun m c, h1_val_fun m c, c1_val_fun m c, hNewP_U1 m c] at h
  show (U8 m c main_v44_0 : S2048x2048.Idx → EReal) (ix2 n u) = _
  rw [wrote_v44_0 m c]
  exact h
theorem h2_val (n u : Fin 2048) : (U8 m c main_v44_0 : S2048x2048.Idx → EReal) (ix2 n u) = Cert.Spec.H2 (A m c) n u :=
  congrFun (congrFun (h2_val_fun m c) n) u

theorem c2_val_fun : (fun n u => (U8 m c main_v44_1 : S2048x2048.Idx → EReal) (ix2 n u)) = Cert.Spec.C2 (A m c) := by
  funext n u
  have h : ((dat4 (F := Ideal) (atRefs (U7 m)) c).arrAt 7 cfg4.N : S2048x2048.Idx → EReal) (ix2 n u)
      = Cert.Spec.cellNewP (fun a b => (U7 m c main_v43 : S2048x2048.Idx → EReal) (ix2 a b)) (fun a b => (U7 m c main_v40_0 : S2048x2048.Idx → EReal) (ix2 a b)) (fun a b => (U7 m c main_v40_1 : S2048x2048.Idx → EReal) (ix2 a b)) (fun a b => (U7 m c main_v7 : S8192x2048.Idx → EReal) (ix2 a b)) (fun a b => (U7 m c main_v11 : S8192x2048.Idx → EReal) (ix2 a b)) (fun r => (U7 m c main_v15 : S1x8192.Idx → EReal) (ix2 0 r)) n u := final4_c (atRefs (U7 m)) c n u
  rw [keep_v40_0_7 m c, keep_v40_1_7 m c, keep_v7_7 m c, keep_v11_7 m c, keep_v15_7 m c, i1_val_fun m c, h1_val_fun m c, c1_val_fun m c, cellNewP_U1 m c] at h
  show (U8 m c main_v44_1 : S2048x2048.Idx → EReal) (ix2 n u) = _
  rw [wrote_v44_1 m c]
  exact h
theorem c2_val (n u : Fin 2048) : (U8 m c main_v44_1 : S2048x2048.Idx → EReal) (ix2 n u) = Cert.Spec.C2 (A m c) n u :=
  congrFun (congrFun (c2_val_fun m c) n) u

theorem g2_val_fun : (fun j k => (U10 m c main_v46 : S2048x2048.Idx → EReal) (ix2 j k)) = Cert.Spec.G2 (A m c) := by
  funext j k
  have h : ((dat5 (F := Ideal) (atRefs (U9 m)) c).arrAt 4 cfg5.N : S2048x2048.Idx → EReal) (ix2 j k)
      = Cert.Spec.gate (fun a b => (U9 m c main_v44_0 : S2048x2048.Idx → EReal) (ix2 a b)) (fun a b => (U9 m c main_v2 : S2048x2048.Idx → EReal) (ix2 a b)) (fun r => (U9 m c main_v45 : S1x2048.Idx → EReal) (ix2 0 r)) (fun a b => (U9 m c main_v35 : S2048x2048.Idx → EReal) (ix2 a b)) j k := final5 (atRefs (U9 m)) c j k
  rw [keep_v44_0_9 m c, keep_v2_9 m c, keep_v35_9 m c, h2_val_fun m c, f2 m c, f45 m c, f35 m c] at h
  show (U10 m c main_v46 : S2048x2048.Idx → EReal) (ix2 j k) = _
  rw [wrote_v46 m c]
  exact h
theorem g2_val (j k : Fin 2048) : (U10 m c main_v46 : S2048x2048.Idx → EReal) (ix2 j k) = Cert.Spec.G2 (A m c) j k :=
  congrFun (congrFun (g2_val_fun m c) j) k

theorem i2_val_fun : (fun i u => (U11 m c main_v47 : S2048x2048.Idx → EReal) (ix2 i u)) = Cert.Spec.I2 (A m c) := by
  funext i u
  have h : ((dat6 (F := Ideal) (atRefs (U10 m)) c).arrAt 3 cfg6.N : S2048x2048.Idx → EReal) (ix2 i u)
      = Cert.Spec.bsum (fun a b => (U10 m c main_v46 : S2048x2048.Idx → EReal) (ix2 a b)) (fun a b => (U10 m c main_v44_0 : S2048x2048.Idx → EReal) (ix2 a b)) (fun a b => (U10 m c main_v17 : S2048x2048.Idx → EReal) (ix2 a b)) i u := final6 (atRefs (U10 m)) c i u
  rw [keep_v44_0_10 m c, keep_v17_10 m c, g2_val_fun m c, h2_val_fun m c, e_val_fun m c] at h
  show (U11 m c main_v47 : S2048x2048.Idx → EReal) (ix2 i u) = _
  rw [wrote_v47 m c]
  exact h
theorem i2_val (i u : Fin 2048) : (U11 m c main_v47 : S2048x2048.Idx → EReal) (ix2 i u) = Cert.Spec.I2 (A m c) i u :=
  congrFun (congrFun (i2_val_fun m c) i) u

theorem h3_val_fun : (fun n u => (U12 m c main_v48_0 : S2048x2048.Idx → EReal) (ix2 n u)) = Cert.Spec.H3 (A m c) := by
  funext n u
  have h : ((dat7 (F := Ideal) (atRefs (U11 m)) c).arrAt 6 cfg7.N : S2048x2048.Idx → EReal) (ix2 n u)
      = Cert.Spec.hNewP (fun a b => (U11 m c main_v47 : S2048x2048.Idx → EReal) (ix2 a b)) (fun a b => (U11 m c main_v44_0 : S2048x2048.Idx → EReal) (ix2 a b)) (fun a b => (U11 m c main_v44_1 : S2048x2048.Idx → EReal) (ix2 a b)) (fun a b => (U11 m c main_v7 : S8192x2048.Idx → EReal) (ix2 a b)) (fun a b => (U11 m c main_v11 : S8192x2048.Idx → EReal) (ix2 a b)) (fun r => (U11 m c main_v15 : S1x8192.Idx → EReal) (ix2 0 r)) n u := final7_h (atRefs (U11 m)) c n u
  rw [keep_v44_0_11 m c, keep_v44_1_11 m c, keep_v7_11 m c, keep_v11_11 m c, keep_v15_11 m c, i2_val_fun m c, h2_val_fun m c, c2_val_fun m c, hNewP_U1 m c] at h
  show (U12 m c main_v48_0 : S2048x2048.Idx → EReal) (ix2 n u) = _
  rw [wrote_v48_0 m c]
  exact h
theorem h3_val (n u : Fin 2048) : (U12 m c main_v48_0 : S2048x2048.Idx → EReal) (ix2 n u) = Cert.Spec.H3 (A m c) n u :=
  congrFun (congrFun (h3_val_fun m c) n) u

theorem kernel_logp (n : Fin 2048) (a : Fin 64) :
    (U14 m c main_v50 : S1x2048x64.Idx → EReal) (ix3 0 n a) = Cert.Spec.outLogp (A m c) n a := by
  have h : ((dat8 (F := Ideal) (atRefs (U12 m)) c).arrAt 5 cfg8.N : S2048x64.Idx → EReal) (ix2 n a)
      = Cert.Spec.logp (fun a b => (U12 m c main_v48_0 : S2048x2048.Idx → EReal) (ix2 a b)) (fun a b => (U12 m c main_v3 : S64x2048.Idx → EReal) (ix2 a b)) (fun r => (U12 m c main_v36 : S1x64.Idx → EReal) (ix2 0 r)) n a := final8_logp (atRefs (U12 m)) c n a
  rw [keep_v3_12 m c, keep_v36_12 m c, h3_val_fun m c, f3 m c, f36 m c] at h
  rw [hv50 m c n a, wrote_v49_0 m c]
  exact h

theorem kernel_value (n : Fin 2048) :
    (U14 m c main_v51 : S1x2048x1.Idx → EReal) (ix3 0 n 0) = Cert.Spec.outValue (A m c) n := by
  have h : ((dat8 (F := Ideal) (atRefs (U12 m)) c).arrAt 6 cfg8.N : S2048x1.Idx → EReal) (ix2 n 0)
      = Cert.Spec.value (fun a b => (U12 m c main_v48_0 : S2048x2048.Idx → EReal) (ix2 a b)) (fun r => (U12 m c main_arg12 : S1x2048.Idx → EReal) (ix2 0 r)) ((U12 m c main_v37 : S1x1.Idx → EReal) (ix2 0 0)) n := final8_val (atRefs (U12 m)) c n
  rw [keep_arg12_12 m c, keep_v37_12 m c, h3_val_fun m c, farg12 m c, hv37 m c] at h
  rw [hv51 m c n, wrote_v49_1 m c]
  exact h

end Cert.KernelIdeal.HandVal

end
-- ==== Proof.RefStages.lean ====
import proofs.«412769_j28716151341139_3_alg».proof.Proof.RefRunP
import proofs.«412769_j28716151341139_3_alg».proof.Proof.RefReadP

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

abbrev P0 : List (HloOp τ sig (Elt F)) := (ValueP.ops (F := F)).take 31
abbrev R0 : List (HloOp τ sig (Elt F)) := (ValueP.ops (F := F)).drop 31
abbrev P1 : List (HloOp τ sig (Elt F)) := (R0 (F := F)).take 61
abbrev R1 : List (HloOp τ sig (Elt F)) := (R0 (F := F)).drop 61
abbrev P2 : List (HloOp τ sig (Elt F)) := (R1 (F := F)).take 60
abbrev R2 : List (HloOp τ sig (Elt F)) := (R1 (F := F)).drop 60
abbrev P3 : List (HloOp τ sig (Elt F)) := (R2 (F := F)).take 60
abbrev P4 : List (HloOp τ sig (Elt F)) := (R2 (F := F)).drop 60

theorem ops_eq : (ValueP.ops : List (HloOp τ sig (Elt F))) = P0 ++ (P1 ++ (P2 ++ (P3 ++ P4))) := by
  simp only [List.take_append_drop]

theorem after_ops (V : Valuation τ sig (Elt F)) :
    after ValueP.ops V = after P4 (after P3 (after P2 (after P1 (after P0 V)))) := by
  conv_lhs => rw [ops_eq, after_append, after_append, after_append, after_append]

abbrev P0_W : List (Ref sig .tc) := [main_v0, main_v1, main_v2, main_v3, main_v4, main_cst, main_v5, main_cst_0, main_v6, main_v7, main_v8, main_c, main_v9, main_v10, main_v11, main_v12, main_cst_1, main_v13, main_v14, main_cst_2, main_v15, main_v16, main_v17, main_v18, main_v19, main_v20, main_v21, main_cst_3, main_v22, main_v23, main_v24]
set_option maxRecDepth 8192 in
theorem P0_writes : (P0 : List (HloOp τ sig (Elt F))).Forall fun op => op.writes ⊆ (P0_W.map (Proc.devRef (τ := τ) .tc)).toFinset := by
  simp only [P0, ValueP.ops, List.take_succ_cons, List.take_zero, List.drop_succ_cons, List.drop_zero, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, Finset.singleton_subset_iff, List.mem_toFinset]; exact List.mem_map_of_mem (by decide))
theorem P0_keep (W : Valuation τ sig (Elt F)) {r : Ref sig .tc} (h : r ∉ P0_W) :
    after P0 W (Proc.devRef .tc r) = W (Proc.devRef .tc r) :=
  after_of_writes_sub P0 W P0_writes h

abbrev P1_W : List (Ref sig .tc) := [main_v25, main_v26, main_v27, main_v28, main_v29, main_v30, main_cst_4, main_v31, main_v32, main_cst_5, main_v33, main_v34, main_v35, main_v36, main_v37, main_cst_6, main_v38, main_v39, main_v40, main_v41, main_v42, main_v43, main_v44, main_v45, main_v46, main_v47, main_v48, main_v49, main_v50, main_v51, main_v52, main_v53, main_v54, main_cst_7, main_v55, main_v56, main_cst_8, main_v57, main_v58, main_v59, main_v60, main_v61, main_cst_9, main_v62, main_v63, main_cst_10, main_v64, main_v65, main_v66, main_v67, main_v68, main_v69, main_v70, main_cst_11, main_v71, main_v72, main_cst_12, main_v73, main_v74, main_v75, main_v76]
set_option maxRecDepth 8192 in
theorem P1_writes : (P1 : List (HloOp τ sig (Elt F))).Forall fun op => op.writes ⊆ (P1_W.map (Proc.devRef (τ := τ) .tc)).toFinset := by
  simp only [P1, R0, ValueP.ops, List.take_succ_cons, List.take_zero, List.drop_succ_cons, List.drop_zero, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, Finset.singleton_subset_iff, List.mem_toFinset]; exact List.mem_map_of_mem (by decide))
theorem P1_keep (W : Valuation τ sig (Elt F)) {r : Ref sig .tc} (h : r ∉ P1_W) :
    after P1 W (Proc.devRef .tc r) = W (Proc.devRef .tc r) :=
  after_of_writes_sub P1 W P1_writes h

abbrev P2_W : List (Ref sig .tc) := [main_v77, main_v78, main_v79, main_v80, main_v81, main_v82, main_cst_13, main_v83, main_v84, main_cst_14, main_v85, main_v86, main_v87, main_v88, main_v89, main_v90, main_v91, main_v92, main_v93, main_v94, main_v95, main_v96, main_v97, main_v98, main_v99, main_v100, main_v101, main_v102, main_v103, main_v104, main_v105, main_v106, main_cst_15, main_v107, main_v108, main_cst_16, main_v109, main_v110, main_v111, main_v112, main_v113, main_cst_17, main_v114, main_v115, main_cst_18, main_v116, main_v117, main_v118, main_v119, main_v120, main_v121, main_v122, main_cst_19, main_v123, main_v124, main_cst_20, main_v125, main_v126, main_v127, main_v128]
set_option maxRecDepth 8192 in
theorem P2_writes : (P2 : List (HloOp τ sig (Elt F))).Forall fun op => op.writes ⊆ (P2_W.map (Proc.devRef (τ := τ) .tc)).toFinset := by
  simp only [P2, R1, R0, ValueP.ops, List.take_succ_cons, List.take_zero, List.drop_succ_cons, List.drop_zero, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, Finset.singleton_subset_iff, List.mem_toFinset]; exact List.mem_map_of_mem (by decide))
theorem P2_keep (W : Valuation τ sig (Elt F)) {r : Ref sig .tc} (h : r ∉ P2_W) :
    after P2 W (Proc.devRef .tc r) = W (Proc.devRef .tc r) :=
  after_of_writes_sub P2 W P2_writes h

abbrev P3_W : List (Ref sig .tc) := [main_v129, main_v130, main_v131, main_v132, main_v133, main_v134, main_cst_21, main_v135, main_v136, main_cst_22, main_v137, main_v138, main_v139, main_v140, main_v141, main_v142, main_v143, main_v144, main_v145, main_v146, main_v147, main_v148, main_v149, main_v150, main_v151, main_v152, main_v153, main_v154, main_v155, main_v156, main_v157, main_v158, main_cst_23, main_v159, main_v160, main_cst_24, main_v161, main_v162, main_v163, main_v164, main_v165, main_cst_25, main_v166, main_v167, main_cst_26, main_v168, main_v169, main_v170, main_v171, main_v172, main_v173, main_v174, main_cst_27, main_v175, main_v176, main_cst_28, main_v177, main_v178, main_v179, main_v180]
set_option maxRecDepth 8192 in
theorem P3_writes : (P3 : List (HloOp τ sig (Elt F))).Forall fun op => op.writes ⊆ (P3_W.map (Proc.devRef (τ := τ) .tc)).toFinset := by
  simp only [P3, R2, R1, R0, ValueP.ops, List.take_succ_cons, List.take_zero, List.drop_succ_cons, List.drop_zero, List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, Finset.singleton_subset_iff, List.mem_toFinset]; exact List.mem_map_of_mem (by decide))
theorem P3_keep (W : Valuation τ sig (Elt F)) {r : Ref sig .tc} (h : r ∉ P3_W) :
    after P3 W (Proc.devRef .tc r) = W (Proc.devRef .tc r) :=
  after_of_writes_sub P3 W P3_writes h

abbrev P4_W : List (Ref sig .tc) := [main_v181, main_v182, main_v183, main_v184, main_call0_cst, main_call0_v0, main_call0_cst_0, main_call0_v1, main_call0_v2, main_call0_v3, main_call0_v4, main_call0_v5, main_call0_v6, main_call0_cst_1, main_call0_v7, main_call0_v8, main_call0_v9, main_call0_v10, main_v185, main_v186, main_v187, main_v188, main_v189]
set_option maxRecDepth 8192 in
theorem P4_writes : (P4 : List (HloOp τ sig (Elt F))).Forall fun op => op.writes ⊆ (P4_W.map (Proc.devRef (τ := τ) .tc)).toFinset := by
  simp only [P4, R2, R1, R0, ValueP.ops, List.take_succ_cons, List.take_zero, List.drop_succ_cons, List.drop_zero, List.Forall]
  refine ⟨?_, ?_, ?_, ?_, ?_, ?_, ?_, ?_, ?_, ?_, ?_, ?_, ?_, ?_, ?_, ?_, ?_, ?_, ?_, ?_, ?_, ?_, ?_⟩ <;>
    (simp only [StableHlo.nullary_writes, StableHlo.unary_writes, StableHlo.binary_writes, Finset.singleton_subset_iff, List.mem_toFinset]; exact List.mem_map_of_mem (by decide))
theorem P4_keep (W : Valuation τ sig (Elt F)) {r : Ref sig .tc} (h : r ∉ P4_W) :
    after P4 W (Proc.devRef .tc r) = W (Proc.devRef .tc r) :=
  after_of_writes_sub P4 W P4_writes h

section
variable (W : Valuation τ sig (Elt F))
  (x0 : (⟨S1x2048x1024, .f32⟩ : BufTy).Contents (Elt F))
  (x1 : (⟨S2048, .f32⟩ : BufTy).Contents (Elt F))
  (x2 : (⟨S2048x1024, .f32⟩ : BufTy).Contents (Elt F))
  (x3 : (⟨S2048, .f32⟩ : BufTy).Contents (Elt F))
  (x4 : (⟨S2048x2048, .f32⟩ : BufTy).Contents (Elt F))
  (x5 : (⟨S2048, .f32⟩ : BufTy).Contents (Elt F))
  (x6 : (⟨S8192x2048, .f32⟩ : BufTy).Contents (Elt F))
  (x7 : (⟨S8192x2048, .f32⟩ : BufTy).Contents (Elt F))
  (x8 : (⟨S8192, .f32⟩ : BufTy).Contents (Elt F))
  (x9 : (⟨S8192, .f32⟩ : BufTy).Contents (Elt F))
  (x10 : (⟨S64x2048, .f32⟩ : BufTy).Contents (Elt F))
  (x11 : (⟨S64, .f32⟩ : BufTy).Contents (Elt F))
  (x12 : (⟨S1x2048, .f32⟩ : BufTy).Contents (Elt F))
  (x13 : (⟨S1, .f32⟩ : BufTy).Contents (Elt F))

set_option maxRecDepth 8192 in
set_option maxHeartbeats 4000000 in
theorem P0_out
    (e0 : W (Proc.devRef .tc main_arg0) = x0)
    (e1 : W (Proc.devRef .tc main_arg1) = x1)
    (e2 : W (Proc.devRef .tc main_arg2) = x2)
    (e3 : W (Proc.devRef .tc main_arg3) = x3) :
    after P0 W (Proc.devRef .tc main_v4) = Read.val_main_v4 (F := F) x0 x2 x3
    ∧ after P0 W (Proc.devRef .tc main_v5) = Read.val_main_v5 (F := F)
    ∧ after P0 W (Proc.devRef .tc main_v6) = Read.val_main_v6 (F := F)
    ∧ after P0 W (Proc.devRef .tc main_v24) = Read.val_main_v24 (F := F) x1 := by
  simp only [P0, ValueP.ops, List.take_succ_cons, List.take_zero, List.drop_succ_cons, List.drop_zero]
  refine ⟨?_, ?_, ?_, ?_⟩ <;> after_results_simp <;> (try simp only [e0, e1, e2, e3]) <;> rfl

set_option maxRecDepth 8192 in
set_option maxHeartbeats 4000000 in
theorem P1_out
    (h_v5 : W (Proc.devRef .tc main_v5) = Read.val_main_v5 (F := F))
    (h_v24 : W (Proc.devRef .tc main_v24) = Read.val_main_v24 (F := F) x1)
    (h_v4 : W (Proc.devRef .tc main_v4) = Read.val_main_v4 (F := F) x0 x2 x3)
    (h_v6 : W (Proc.devRef .tc main_v6) = Read.val_main_v6 (F := F))
    (e4 : W (Proc.devRef .tc main_arg4) = x4)
    (e5 : W (Proc.devRef .tc main_arg5) = x5)
    (e6 : W (Proc.devRef .tc main_arg6) = x6)
    (e7 : W (Proc.devRef .tc main_arg7) = x7)
    (e8 : W (Proc.devRef .tc main_arg8) = x8)
    (e9 : W (Proc.devRef .tc main_arg9) = x9) :
    after P1 W (Proc.devRef .tc main_v68) = Read.val_main_v68 (F := F) x0 x2 x3 x6 x7 x8 x9
    ∧ after P1 W (Proc.devRef .tc main_v76) = Read.val_main_v76 (F := F) x0 x2 x3 x6 x7 x8 x9 := by
  simp only [P1, R0, ValueP.ops, List.take_succ_cons, List.take_zero, List.drop_succ_cons, List.drop_zero]
  refine ⟨?_, ?_⟩ <;> after_results_simp <;> (try simp only [h_v5, h_v24, h_v4, h_v6, e4, e5, e6, e7, e8, e9]) <;> rfl

set_option maxRecDepth 8192 in
set_option maxHeartbeats 4000000 in
theorem P2_out
    (h_v76 : W (Proc.devRef .tc main_v76) = Read.val_main_v76 (F := F) x0 x2 x3 x6 x7 x8 x9)
    (h_v24 : W (Proc.devRef .tc main_v24) = Read.val_main_v24 (F := F) x1)
    (h_v4 : W (Proc.devRef .tc main_v4) = Read.val_main_v4 (F := F) x0 x2 x3)
    (h_v68 : W (Proc.devRef .tc main_v68) = Read.val_main_v68 (F := F) x0 x2 x3 x6 x7 x8 x9)
    (e4 : W (Proc.devRef .tc main_arg4) = x4)
    (e5 : W (Proc.devRef .tc main_arg5) = x5)
    (e6 : W (Proc.devRef .tc main_arg6) = x6)
    (e7 : W (Proc.devRef .tc main_arg7) = x7)
    (e8 : W (Proc.devRef .tc main_arg8) = x8)
    (e9 : W (Proc.devRef .tc main_arg9) = x9) :
    after P2 W (Proc.devRef .tc main_v120) = Read.val_main_v120 (F := F) x0 x1 x2 x3 x4 x5 x6 x7 x8 x9
    ∧ after P2 W (Proc.devRef .tc main_v128) = Read.val_main_v128 (F := F) x0 x1 x2 x3 x4 x5 x6 x7 x8 x9 := by
  simp only [P2, R1, R0, ValueP.ops, List.take_succ_cons, List.take_zero, List.drop_succ_cons, List.drop_zero]
  refine ⟨?_, ?_⟩ <;> after_results_simp <;> (try simp only [h_v76, h_v24, h_v4, h_v68, e4, e5, e6, e7, e8, e9]) <;> rfl

set_option maxRecDepth 8192 in
set_option maxHeartbeats 4000000 in
theorem P3_out
    (h_v128 : W (Proc.devRef .tc main_v128) = Read.val_main_v128 (F := F) x0 x1 x2 x3 x4 x5 x6 x7 x8 x9)
    (h_v24 : W (Proc.devRef .tc main_v24) = Read.val_main_v24 (F := F) x1)
    (h_v4 : W (Proc.devRef .tc main_v4) = Read.val_main_v4 (F := F) x0 x2 x3)
    (h_v120 : W (Proc.devRef .tc main_v120) = Read.val_main_v120 (F := F) x0 x1 x2 x3 x4 x5 x6 x7 x8 x9)
    (e4 : W (Proc.devRef .tc main_arg4) = x4)
    (e5 : W (Proc.devRef .tc main_arg5) = x5)
    (e6 : W (Proc.devRef .tc main_arg6) = x6)
    (e7 : W (Proc.devRef .tc main_arg7) = x7)
    (e8 : W (Proc.devRef .tc main_arg8) = x8)
    (e9 : W (Proc.devRef .tc main_arg9) = x9) :
    after P3 W (Proc.devRef .tc main_v180) = Read.val_main_v180 (F := F) x0 x1 x2 x3 x4 x5 x6 x7 x8 x9 := by
  simp only [P3, R2, R1, R0, ValueP.ops, List.take_succ_cons, List.take_zero, List.drop_succ_cons, List.drop_zero]
  after_results_simp <;> (try simp only [h_v128, h_v24, h_v4, h_v120, e4, e5, e6, e7, e8, e9]) <;> rfl

set_option maxRecDepth 8192 in
set_option maxHeartbeats 4000000 in
theorem P4_out
    (h_v180 : W (Proc.devRef .tc main_v180) = Read.val_main_v180 (F := F) x0 x1 x2 x3 x4 x5 x6 x7 x8 x9)
    (e10 : W (Proc.devRef .tc main_arg10) = x10)
    (e11 : W (Proc.devRef .tc main_arg11) = x11)
    (e12 : W (Proc.devRef .tc main_arg12) = x12)
    (e13 : W (Proc.devRef .tc main_arg13) = x13) :
    after P4 W (Proc.devRef .tc main_v185) = Read.val_main_v185 (F := F) x0 x1 x2 x3 x4 x5 x6 x7 x8 x9 x10 x11
    ∧ after P4 W (Proc.devRef .tc main_v189) = Read.val_main_v189 (F := F) x0 x1 x2 x3 x4 x5 x6 x7 x8 x9 x12 x13 := by
  simp only [P4, R2, R1, R0, ValueP.ops, List.take_succ_cons, List.take_zero, List.drop_succ_cons, List.drop_zero]
  refine ⟨?_, ?_⟩ <;> after_results_simp <;> (try simp only [TRef.ofBuf, TRef.toBuf, cast_cast, cast_eq, h_v180, e10, e11, e12, e13]) <;> rfl

end

set_option maxRecDepth 8192 in
theorem after_out (V : Valuation τ sig (Elt F)) :
    after ValueP.ops V (Proc.devRef .tc main_v185) = Read.val_main_v185 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11))
    ∧ after ValueP.ops V (Proc.devRef .tc main_v189) = Read.val_main_v189 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) := by
  rw [after_ops]
  obtain ⟨s4, s5, s6, s24⟩ := P0_out V _ _ _ _ rfl rfl rfl rfl
  have k1 : ∀ {r : Ref sig .tc}, r ∉ P0_W → after P0 V (Proc.devRef .tc r) = V (Proc.devRef .tc r) := fun h => P0_keep V h
  obtain ⟨s68, s76⟩ := P1_out (after P0 V) _ _ _ _ _ _ _ _ _ _ s5 s24 s4 s6
    (k1 (by decide)) (k1 (by decide)) (k1 (by decide)) (k1 (by decide)) (k1 (by decide)) (k1 (by decide))
  have k2 : ∀ {r : Ref sig .tc}, r ∉ P0_W → r ∉ P1_W → after P1 (after P0 V) (Proc.devRef .tc r) = V (Proc.devRef .tc r) :=
    fun h0 h1 => (P1_keep _ h1).trans (k1 h0)
  have t4 := (P1_keep (after P0 V) (r := main_v4) (by decide)).trans s4
  have t24 := (P1_keep (after P0 V) (r := main_v24) (by decide)).trans s24
  obtain ⟨s120, s128⟩ := P2_out (after P1 (after P0 V)) _ _ _ _ _ _ _ _ _ _ s76 t24 t4 s68
    (k2 (by decide) (by decide)) (k2 (by decide) (by decide)) (k2 (by decide) (by decide)) (k2 (by decide) (by decide)) (k2 (by decide) (by decide)) (k2 (by decide) (by decide))
  have k3 : ∀ {r : Ref sig .tc}, r ∉ P0_W → r ∉ P1_W → r ∉ P2_W →
      after P2 (after P1 (after P0 V)) (Proc.devRef .tc r) = V (Proc.devRef .tc r) :=
    fun h0 h1 h2 => (P2_keep _ h2).trans (k2 h0 h1)
  have u4 := (P2_keep (after P1 (after P0 V)) (r := main_v4) (by decide)).trans t4
  have u24 := (P2_keep (after P1 (after P0 V)) (r := main_v24) (by decide)).trans t24
  have s180 := P3_out (after P2 (after P1 (after P0 V))) _ _ _ _ _ _ _ _ _ _ s128 u24 u4 s120
    (k3 (by decide) (by decide) (by decide)) (k3 (by decide) (by decide) (by decide)) (k3 (by decide) (by decide) (by decide)) (k3 (by decide) (by decide) (by decide)) (k3 (by decide) (by decide) (by decide)) (k3 (by decide) (by decide) (by decide))
  have k4 : ∀ {r : Ref sig .tc}, r ∉ P0_W → r ∉ P1_W → r ∉ P2_W → r ∉ P3_W →
      after P3 (after P2 (after P1 (after P0 V))) (Proc.devRef .tc r) = V (Proc.devRef .tc r) :=
    fun h0 h1 h2 h3 => (P3_keep _ h3).trans (k3 h0 h1 h2)
  exact P4_out (after P3 (after P2 (after P1 (after P0 V)))) _ _ _ _ _ _ _ _ _ _ _ _ _ _ s180
    (k4 (by decide) (by decide) (by decide) (by decide)) (k4 (by decide) (by decide) (by decide) (by decide)) (k4 (by decide) (by decide) (by decide) (by decide)) (k4 (by decide) (by decide) (by decide) (by decide))

theorem after_v185 (V : Valuation τ sig (Elt F)) :
    after ValueP.ops V (Proc.devRef .tc main_v185) = Read.val_main_v185 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := (after_out V).1
theorem after_v189 (V : Valuation τ sig (Elt F)) :
    after ValueP.ops V (Proc.devRef .tc main_v189) = Read.val_main_v189 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) := (after_out V).2

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v185) = Read.val_main_v185 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v189) = Read.val_main_v189 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c).1.trans (after_v185 _), (h c).2.1.trans (after_v189 _), (h c).2.2⟩)
    (ValueP.run m ρ)

end Cert.ReferenceIdeal.RefRun

end
-- ==== Proof.RefImports.lean ====
import proofs.«412769_j28716151341139_3_alg».proof.Proof.RefReadP
-- ==== Proof.Ref.Stage1.lean ====
import proofs.«412769_j28716151341139_3_alg».proof.Proof.RefImports
import proofs.«412769_j28716151341139_3_alg».proof.Proof.SpecArrays
import Idealize.ShloMosaic.Lib.ValueIdx
import Idealize.ShloMosaic.Lib.ValueIdxRank1
import Idealize.ShloMosaic.Lib.IdealHost
import Idealize.ShloMosaic.Lib.Pipeline.Value
import Idealize.ShloMosaic.PureOps.Ideal.Laws

noncomputable section

open scoped BigOperators

namespace Cert.ReferenceIdeal.RefVal

open Cert.ReferenceIdeal Cert.ReferenceIdeal.Read Idealize.ShloMosaic Idealize.ShloMosaic.ValueIdx

theorem eye_word (a b : ℕ) (ha : a < 2048) (hb : b < 2048) :
    (FloatOps.uitofp (F := Ideal) .f32 (IntOp.cmpi .eq (IntOp.addi (BitVec.ofNat 32 a) 0#32) (BitVec.ofNat 32 b)) : EReal)
      = if a = b then 1 else 0 := by
  have hadd : IntOp.addi (BitVec.ofNat 32 a) 0#32 = BitVec.ofNat 32 a := by
    unfold IntOp.addi; exact BitVec.add_zero _
  rw [hadd]
  by_cases h : a = b
  · subst h
    rw [if_pos rfl, IntOp.cmpi_eq.mpr rfl]
    show (((1#1 : BitVec 1).toNat : ℝ) : EReal) = 1
    norm_num
  · have hne : ¬ IntOp.cmpi .eq (BitVec.ofNat 32 a) (BitVec.ofNat 32 b) = 1#1 := by
      rw [IntOp.cmpi_eq]
      intro hw
      have := congrArg BitVec.toNat hw
      simp only [BitVec.toNat_ofNat] at this
      rw [Nat.mod_eq_of_lt (by omega), Nat.mod_eq_of_lt (by omega)] at this
      exact h this
    rw [if_neg h, eq_zero_of_ne_one hne]
    show (((0#1 : BitVec 1).toNat : ℝ) : EReal) = 0
    norm_num

theorem sum_idx1 {n : ℕ} (f : (⟨1, ![n]⟩ : Shape).Idx → EReal) : ∑ i, f i = ∑ a : Fin n, f (ix1 a) :=
  (Equiv.sum_comp (idxEquiv1 (n := n)).symm f).symm

variable (x0 : (⟨S1x2048x1024, .f32⟩ : BufTy).Contents (Elt Ideal)) (x1 : (⟨S2048, .f32⟩ : BufTy).Contents (Elt Ideal))
  (x2 : (⟨S2048x1024, .f32⟩ : BufTy).Contents (Elt Ideal)) (x3 : (⟨S2048, .f32⟩ : BufTy).Contents (Elt Ideal))
  (x4 : (⟨S2048x2048, .f32⟩ : BufTy).Contents (Elt Ideal)) (x5 : (⟨S2048, .f32⟩ : BufTy).Contents (Elt Ideal))
  (x6 x7 : (⟨S8192x2048, .f32⟩ : BufTy).Contents (Elt Ideal)) (x8 x9 : (⟨S8192, .f32⟩ : BufTy).Contents (Elt Ideal))
  (x10 : (⟨S64x2048, .f32⟩ : BufTy).Contents (Elt Ideal)) (x11 : (⟨S64, .f32⟩ : BufTy).Contents (Elt Ideal))
  (x12 : (⟨S1x2048, .f32⟩ : BufTy).Contents (Elt Ideal)) (x13 : (⟨S1, .f32⟩ : BufTy).Contents (Elt Ideal))

local notation "A" => Cert.Spec.argsOf x0 x1 x2 x3 x4 x5 x6 x7 x8 x9 x10 x11 x12 x13

theorem lidx_v0 (n u : Fin 2048) (k : Fin 1024) :
    lidx_main_v0 (ix3 (0 : Fin 1) n u) k = ix3 (0 : Fin 1) n k :=
  funext fun a => Fin.ext (by match a with | ⟨0, _⟩ => rfl | ⟨1, _⟩ => rfl | ⟨2, _⟩ => rfl)

theorem ridx_v0 (n u : Fin 2048) (k : Fin 1024) :
    ridx_main_v0 (ix3 (0 : Fin 1) n u) k = ix2 u k :=
  funext fun a => Fin.ext (by match a with | ⟨0, _⟩ => rfl | ⟨1, _⟩ => rfl)

theorem idx_v2 (n u : Fin 2048) : idx_main_v1 (idx_main_v2 (ix3 (0 : Fin 1) n u)) = ix1 u :=
  funext fun a => Fin.ext (by match a with | ⟨0, _⟩ => rfl)

theorem ref_E (n u : Fin 2048) :
    val_main_v4 (F := Ideal) x0 x2 x3 (ix3 (0 : Fin 1) n u) = Cert.Spec.enc (A).obs (A).encw (A).encb n u := by
  rw [val_main_v4_apply, val_main_v3_apply, val_main_v0_apply, val_main_v2_apply, val_main_v1_apply]
  simp only [lidx_v0, ridx_v0, idx_v2, Ideal.hostUnary_tanh_def, Ideal.addf_def]
  rfl

theorem ref_eye (j k : Fin 2048) :
    val_main_v12 (F := Ideal) (ix2 j k) = if j.val = k.val then 1 else 0 := by
  rw [val_main_v12_apply, val_main_v11_apply, val_main_v10_apply, val_main_v7_apply, val_main_v9_apply,
    val_main_c_apply, val_main_v8_apply]
  exact eye_word j.val k.val j.isLt k.isLt

theorem idx_v18 (j k : Fin 2048) : idx_main_v16 (idx_main_v18 (ix2 j k)) = ix1 j :=
  funext fun a => Fin.ext (by match a with | ⟨0, _⟩ => rfl)

theorem idx_v19 (j k : Fin 2048) : idx_main_v17 (idx_main_v19 (ix2 j k)) = ix1 k :=
  funext fun a => Fin.ext (by match a with | ⟨0, _⟩ => rfl)

theorem ref_S (j k : Fin 2048) :
    val_main_v24 (F := Ideal) x1 (ix2 j k) = Cert.Spec.sw (A).alive j k := by
  rw [val_main_v24_apply, val_main_v21_apply, val_main_v14_apply, val_main_v13_apply, val_main_cst_1_apply, ref_eye,
    val_main_v20_apply, val_main_v18_apply, val_main_v16_apply, val_main_v19_apply, val_main_v17_apply,
    val_main_v23_apply, val_main_v22_apply, val_main_v15_apply, val_main_cst_2_apply, val_main_cst_3_apply]
  simp only [idx_v18, idx_v19, sum_idx1, Ideal.hostDivf_def, Ideal.mulf_def, Ideal.subf_def, Ideal.ofBits_def,
    Ideal.ofBits_one_f32, Ideal.ofBits_zero_f32, zero_add]
  rfl

theorem lidx_v40 (n : Fin 2048) (r : Fin 8192) (k : Fin 2048) :
    lidx_main_v40 (ix3 (0 : Fin 1) n r) k = ix3 (0 : Fin 1) n k :=
  funext fun a => Fin.ext (by match a with | ⟨0, _⟩ => rfl | ⟨1, _⟩ => rfl | ⟨2, _⟩ => rfl)

theorem ridx_v40 (n : Fin 2048) (r : Fin 8192) (k : Fin 2048) :
    ridx_main_v40 (ix3 (0 : Fin 1) n r) k = ix2 r k :=
  funext fun a => Fin.ext (by match a with | ⟨0, _⟩ => rfl | ⟨1, _⟩ => rfl)

theorem lidx_v41 (n : Fin 2048) (r : Fin 8192) (k : Fin 2048) :
    lidx_main_v40 (ix3 (0 : Fin 1) n r) k = ix3 (0 : Fin 1) n k :=
  funext fun a => Fin.ext (by match a with | ⟨0, _⟩ => rfl | ⟨1, _⟩ => rfl | ⟨2, _⟩ => rfl)

theorem ridx_v41 (n : Fin 2048) (r : Fin 8192) (k : Fin 2048) :
    ridx_main_v40 (ix3 (0 : Fin 1) n r) k = ix2 r k :=
  funext fun a => Fin.ext (by match a with | ⟨0, _⟩ => rfl | ⟨1, _⟩ => rfl)

theorem idx_v44 (n : Fin 2048) (r : Fin 8192) : idx_main_v43 (idx_main_v44 (ix3 (0 : Fin 1) n r)) = ix1 r :=
  funext fun a => Fin.ext (by match a with | ⟨0, _⟩ => rfl)

theorem idx_v47 (n : Fin 2048) (r : Fin 8192) : idx_main_v43 (idx_main_v44 (ix3 (0 : Fin 1) n r)) = ix1 r :=
  funext fun a => Fin.ext (by match a with | ⟨0, _⟩ => rfl)

theorem ref_Z (n : Fin 2048) (r : Fin 8192) :
    val_main_v48 (F := Ideal) x0 x2 x3 x6 x7 x8 x9 (ix3 (0 : Fin 1) n r)
      = ((Cert.Spec.mmT (Cert.Spec.E A) (A).wih n r + Cert.Spec.mmT Cert.Spec.zero2 (A).whh n r) + (A).bih r) + (A).bhh r := by
  rw [val_main_v48_apply, val_main_v45_apply, val_main_v42_apply, val_main_v40_apply, val_main_v41_apply,
    val_main_v44_apply, val_main_v43_apply, val_main_v47_apply, val_main_v46_apply]
  simp only [lidx_v40, ridx_v40, lidx_v41, ridx_v41, idx_v44, idx_v47, val_main_v39_apply, val_main_v38_apply,
    val_main_cst_6_apply, val_main_v5_apply, val_main_cst_apply, ref_E x0 x1 x2 x3 x4 x5 x6 x7 x8 x9 x10 x11 x12 x13, Ideal.addf_def,
    Ideal.ofBits_def, Ideal.ofBits_zero_f32, add_zero]
  rfl

theorem idx_v49 (n u : Fin 2048) :
    idx_main_v49 (ix3 (0 : Fin 1) n u) = ix3 (0 : Fin 1) n (Cert.Spec.gateRow 0 u) :=
  funext fun a => Fin.ext (by
    match a with
    | ⟨0, _⟩ => rfl
    | ⟨1, _⟩ => rfl
    | ⟨2, _⟩ => show u.val = 0 * 2048 + u.val; omega)

theorem idx_v50 (n u : Fin 2048) :
    idx_main_v50 (ix3 (0 : Fin 1) n u) = ix3 (0 : Fin 1) n (Cert.Spec.gateRow 1 u) :=
  funext fun a => Fin.ext (by
    match a with
    | ⟨0, _⟩ => rfl
    | ⟨1, _⟩ => rfl
    | ⟨2, _⟩ => show 2048 + u.val = 1 * 2048 + u.val; omega)

theorem idx_v51 (n u : Fin 2048) :
    idx_main_v51 (ix3 (0 : Fin 1) n u) = ix3 (0 : Fin 1) n (Cert.Spec.gateRow 2 u) :=
  funext fun a => Fin.ext (by
    match a with
    | ⟨0, _⟩ => rfl
    | ⟨1, _⟩ => rfl
    | ⟨2, _⟩ => show 4096 + u.val = 2 * 2048 + u.val; omega)

theorem idx_v52 (n u : Fin 2048) :
    idx_main_v52 (ix3 (0 : Fin 1) n u) = ix3 (0 : Fin 1) n (Cert.Spec.gateRow 3 u) :=
  funext fun a => Fin.ext (by
    match a with
    | ⟨0, _⟩ => rfl
    | ⟨1, _⟩ => rfl
    | ⟨2, _⟩ => show 6144 + u.val = 3 * 2048 + u.val; omega)

theorem ref_zi (n u : Fin 2048) :
    val_main_v49 (F := Ideal) x0 x2 x3 x6 x7 x8 x9 (ix3 (0 : Fin 1) n u)
      = Cert.Spec.preact (Cert.Spec.E A) Cert.Spec.zero2 (A).wih (A).whh (A).bih (A).bhh 0 n u := by
  rw [val_main_v49_apply, idx_v49, ref_Z x0 x1 x2 x3 x4 x5 x6 x7 x8 x9 x10 x11 x12 x13]
  rfl

theorem ref_zf (n u : Fin 2048) :
    val_main_v50 (F := Ideal) x0 x2 x3 x6 x7 x8 x9 (ix3 (0 : Fin 1) n u)
      = Cert.Spec.preact (Cert.Spec.E A) Cert.Spec.zero2 (A).wih (A).whh (A).bih (A).bhh 1 n u := by
  rw [val_main_v50_apply, idx_v50, ref_Z x0 x1 x2 x3 x4 x5 x6 x7 x8 x9 x10 x11 x12 x13]
  rfl

theorem ref_zg (n u : Fin 2048) :
    val_main_v51 (F := Ideal) x0 x2 x3 x6 x7 x8 x9 (ix3 (0 : Fin 1) n u)
      = Cert.Spec.preact (Cert.Spec.E A) Cert.Spec.zero2 (A).wih (A).whh (A).bih (A).bhh 2 n u := by
  rw [val_main_v51_apply, idx_v51, ref_Z x0 x1 x2 x3 x4 x5 x6 x7 x8 x9 x10 x11 x12 x13]
  rfl

theorem ref_zo (n u : Fin 2048) :
    val_main_v52 (F := Ideal) x0 x2 x3 x6 x7 x8 x9 (ix3 (0 : Fin 1) n u)
      = Cert.Spec.preact (Cert.Spec.E A) Cert.Spec.zero2 (A).wih (A).whh (A).bih (A).bhh 3 n u := by
  rw [val_main_v52_apply, idx_v52, ref_Z x0 x1 x2 x3 x4 x5 x6 x7 x8 x9 x10 x11 x12 x13]
  rfl

theorem ref_C1 (n u : Fin 2048) :
    val_main_v68 (F := Ideal) x0 x2 x3 x6 x7 x8 x9 (ix3 (0 : Fin 1) n u)
      = Cert.Spec.cellNew (Cert.Spec.E A) Cert.Spec.zero2 Cert.Spec.zero2 (A).wih (A).whh (A).bih (A).bhh n u := by
  rw [val_main_v68_apply, val_main_v59_apply, val_main_v58_apply, val_main_v57_apply, val_main_cst_8_apply,
    val_main_v56_apply, val_main_v55_apply, val_main_cst_7_apply, val_main_v54_apply, val_main_v53_apply,
    ref_zf x0 x1 x2 x3 x4 x5 x6 x7 x8 x9 x10 x11 x12 x13 n u, val_main_v6_apply, val_main_cst_0_apply,
    val_main_v67_apply, val_main_v65_apply, val_main_v64_apply, val_main_cst_10_apply, val_main_v63_apply,
    val_main_v62_apply, val_main_cst_9_apply, val_main_v61_apply, val_main_v60_apply,
    ref_zi x0 x1 x2 x3 x4 x5 x6 x7 x8 x9 x10 x11 x12 x13 n u, val_main_v66_apply, ref_zg x0 x1 x2 x3 x4 x5 x6 x7 x8 x9 x10 x11 x12 x13 n u]
  simp only [Ideal.addf_def, Ideal.mulf_def, Ideal.hostDivf_def, Ideal.hostUnary_exp_def, Ideal.hostUnary_tanh_def,
    Ideal.hostNegf_def, Ideal.negf_def, Ideal.ofBits_def, Ideal.ofBits_one_f32, Ideal.ofBits_zero_f32]
  rfl

theorem ref_H1 (n u : Fin 2048) :
    val_main_v76 (F := Ideal) x0 x2 x3 x6 x7 x8 x9 (ix3 (0 : Fin 1) n u)
      = Cert.Spec.hNew (Cert.Spec.E A) Cert.Spec.zero2 Cert.Spec.zero2 (A).wih (A).whh (A).bih (A).bhh n u := by
  rw [val_main_v76_apply, val_main_v74_apply, val_main_v73_apply, val_main_cst_12_apply, val_main_v72_apply,
    val_main_v71_apply, val_main_cst_11_apply, val_main_v70_apply, val_main_v69_apply,
    ref_zo x0 x1 x2 x3 x4 x5 x6 x7 x8 x9 x10 x11 x12 x13 n u, val_main_v75_apply, ref_C1 x0 x1 x2 x3 x4 x5 x6 x7 x8 x9 x10 x11 x12 x13 n u]
  simp only [Ideal.addf_def, Ideal.mulf_def, Ideal.hostDivf_def, Ideal.hostUnary_exp_def, Ideal.hostUnary_tanh_def,
    Ideal.hostNegf_def, Ideal.negf_def, Ideal.ofBits_def, Ideal.ofBits_one_f32]
  rfl

end Cert.ReferenceIdeal.RefVal

end
-- ==== Proof.Ref.Iter2.lean ====
import proofs.«412769_j28716151341139_3_alg».proof.Proof.RefImports
import proofs.«412769_j28716151341139_3_alg».proof.Proof.SpecArrays
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.ReferenceIdeal.RefVal

open Cert.ReferenceIdeal Cert.ReferenceIdeal.Read Idealize.ShloMosaic Idealize.ShloMosaic.ValueIdx

variable (x0 : (⟨S1x2048x1024, .f32⟩ : BufTy).Contents (Elt Ideal)) (x1 : (⟨S2048, .f32⟩ : BufTy).Contents (Elt Ideal))
  (x2 : (⟨S2048x1024, .f32⟩ : BufTy).Contents (Elt Ideal)) (x3 : (⟨S2048, .f32⟩ : BufTy).Contents (Elt Ideal))
  (x4 : (⟨S2048x2048, .f32⟩ : BufTy).Contents (Elt Ideal)) (x5 : (⟨S2048, .f32⟩ : BufTy).Contents (Elt Ideal))
  (x6 x7 : (⟨S8192x2048, .f32⟩ : BufTy).Contents (Elt Ideal)) (x8 x9 : (⟨S8192, .f32⟩ : BufTy).Contents (Elt Ideal))
  (x10 : (⟨S64x2048, .f32⟩ : BufTy).Contents (Elt Ideal)) (x11 : (⟨S64, .f32⟩ : BufTy).Contents (Elt Ideal))
  (x12 : (⟨S1x2048, .f32⟩ : BufTy).Contents (Elt Ideal)) (x13 : (⟨S1, .f32⟩ : BufTy).Contents (Elt Ideal))

local notation "A" => Cert.Spec.argsOf x0 x1 x2 x3 x4 x5 x6 x7 x8 x9 x10 x11 x12 x13

theorem iter2_gate_pre (H : Fin 2048 → Fin 2048 → EReal)
    (hH : ∀ n u, val_main_v76 (F := Ideal) x0 x2 x3 x6 x7 x8 x9 (ix3 0 n u) = H n u) :
    ∀ j k, val_main_v80 (F := Ideal) x0 x2 x3 x4 x5 x6 x7 x8 x9 (ix3 0 j k) = Cert.Spec.mmT H (A).gw j k + (A).gb k := by
  intro j k
  have hl : ∀ q, lidx_main_v25 (ix3 0 j k) q = ix3 0 j q := fun q => funext fun a => by
    match a with
    | ⟨0, _⟩ => rfl
    | ⟨1, _⟩ => rfl
    | ⟨2, _⟩ => rfl
  have hr : ∀ q, ridx_main_v25 (ix3 0 j k) q = ix2 k q := fun q => funext fun a => by
    match a with
    | ⟨0, _⟩ => rfl
    | ⟨1, _⟩ => rfl
  have hb : idx_main_v1 (idx_main_v2 (ix3 0 j k)) = ix1 k := funext fun a => by
    match a with
    | ⟨0, _⟩ => rfl
  simp only [val_main_v80_apply, val_main_v77_apply, val_main_v79_apply, val_main_v78_apply, hl, hr, hb, hH,
    Ideal.addf_def]
  rfl

theorem iter2_gate (S H : Fin 2048 → Fin 2048 → EReal)
    (hS : ∀ j k, val_main_v24 (F := Ideal) x1 (ix2 j k) = S j k)
    (hH : ∀ n u, val_main_v76 (F := Ideal) x0 x2 x3 x6 x7 x8 x9 (ix3 0 n u) = H n u) :
    ∀ j k, val_main_v89 (F := Ideal) x0 x1 x2 x3 x4 x5 x6 x7 x8 x9 (ix3 0 j k) = Cert.Spec.gate H (A).gw (A).gb S j k := by
  intro j k
  have hp := iter2_gate_pre x0 x1 x2 x3 x4 x5 x6 x7 x8 x9 x10 x11 x12 x13 H hH
  have hs : idx_main_v36 (ix3 0 j k) = ix2 j k := funext fun a => by
    match a with
    | ⟨0, _⟩ => rfl
    | ⟨1, _⟩ => rfl
  simp only [val_main_v89_apply, val_main_v87_apply, val_main_v86_apply, val_main_v85_apply, val_main_cst_14_apply,
    val_main_v84_apply, val_main_v83_apply, val_main_cst_13_apply, val_main_v82_apply, val_main_v81_apply, hp,
    val_main_v88_apply, hs, hS, Ideal.mulf_def, Ideal.hostUnary_ceil_def, Ideal.hostDivf_def, Ideal.ofBits_def,
    Ideal.ofBits_one_f32, Ideal.addf_def, Ideal.hostUnary_exp_def, Ideal.hostNegf_def, Ideal.negf_def]
  rfl

theorem iter2_inp (E S H : Fin 2048 → Fin 2048 → EReal)
    (hE : ∀ n u, val_main_v4 (F := Ideal) x0 x2 x3 (ix3 0 n u) = E n u)
    (hS : ∀ j k, val_main_v24 (F := Ideal) x1 (ix2 j k) = S j k)
    (hH : ∀ n u, val_main_v76 (F := Ideal) x0 x2 x3 x6 x7 x8 x9 (ix3 0 n u) = H n u) :
    ∀ n u, val_main_v91 (F := Ideal) x0 x1 x2 x3 x4 x5 x6 x7 x8 x9 (ix3 0 n u)
      = Cert.Spec.bsum (Cert.Spec.gate H (A).gw (A).gb S) H E n u := by
  intro n u
  have hg := iter2_gate x0 x1 x2 x3 x4 x5 x6 x7 x8 x9 x10 x11 x12 x13 S H hS hH
  have hl : ∀ q, lidx_main_v90 (ix3 0 n u) q = ix3 0 q n := fun q => funext fun a => by
    match a with
    | ⟨0, _⟩ => rfl
    | ⟨1, _⟩ => rfl
    | ⟨2, _⟩ => rfl
  have hr : ∀ q, ridx_main_v90 (ix3 0 n u) q = ix3 0 q u := fun q => funext fun a => by
    match a with
    | ⟨0, _⟩ => rfl
    | ⟨1, _⟩ => rfl
    | ⟨2, _⟩ => rfl
  simp only [val_main_v91_apply, val_main_v90_apply, hl, hr, hE, hH, hg, Ideal.addf_def]
  rfl

theorem iter2_z (inp H : Fin 2048 → Fin 2048 → EReal)
    (hI : ∀ n u, val_main_v91 (F := Ideal) x0 x1 x2 x3 x4 x5 x6 x7 x8 x9 (ix3 0 n u) = inp n u)
    (hH : ∀ n u, val_main_v76 (F := Ideal) x0 x2 x3 x6 x7 x8 x9 (ix3 0 n u) = H n u) :
    ∀ (n : Fin 2048) (r : Fin 8192), val_main_v100 (F := Ideal) x0 x1 x2 x3 x4 x5 x6 x7 x8 x9 (ix3 0 n r)
      = ((Cert.Spec.mmT inp (A).wih n r + Cert.Spec.mmT H (A).whh n r) + (A).bih r) + (A).bhh r := by
  intro n r
  have hl92 : ∀ q, lidx_main_v40 (ix3 0 n r) q = ix3 0 n q := fun q => funext fun a => by
    match a with
    | ⟨0, _⟩ => rfl
    | ⟨1, _⟩ => rfl
    | ⟨2, _⟩ => rfl
  have hr92 : ∀ q, ridx_main_v40 (ix3 0 n r) q = ix2 r q := fun q => funext fun a => by
    match a with
    | ⟨0, _⟩ => rfl
    | ⟨1, _⟩ => rfl
  have hl93 : ∀ q, lidx_main_v40 (ix3 0 n r) q = ix3 0 n q := fun q => funext fun a => by
    match a with
    | ⟨0, _⟩ => rfl
    | ⟨1, _⟩ => rfl
    | ⟨2, _⟩ => rfl
  have hr93 : ∀ q, ridx_main_v40 (ix3 0 n r) q = ix2 r q := fun q => funext fun a => by
    match a with
    | ⟨0, _⟩ => rfl
    | ⟨1, _⟩ => rfl
  have hb8 : idx_main_v43 (idx_main_v44 (ix3 0 n r)) = ix1 r := funext fun a => by
    match a with
    | ⟨0, _⟩ => rfl
  have hb9 : idx_main_v43 (idx_main_v44 (ix3 0 n r)) = ix1 r := funext fun a => by
    match a with
    | ⟨0, _⟩ => rfl
  simp only [val_main_v100_apply, val_main_v97_apply, val_main_v94_apply, val_main_v92_apply, val_main_v93_apply,
    val_main_v96_apply, val_main_v95_apply, val_main_v99_apply, val_main_v98_apply, hl92, hr92, hl93, hr93, hb8, hb9,
    hI, hH, Ideal.addf_def]
  rfl

theorem iter2_preact (inp H : Fin 2048 → Fin 2048 → EReal)
    (hI : ∀ n u, val_main_v91 (F := Ideal) x0 x1 x2 x3 x4 x5 x6 x7 x8 x9 (ix3 0 n u) = inp n u)
    (hH : ∀ n u, val_main_v76 (F := Ideal) x0 x2 x3 x6 x7 x8 x9 (ix3 0 n u) = H n u) :
    ∀ (g : Fin 4) (n u : Fin 2048),
      val_main_v100 (F := Ideal) x0 x1 x2 x3 x4 x5 x6 x7 x8 x9 (ix3 0 n (Cert.Spec.gateRow g u))
        = Cert.Spec.preact inp H (A).wih (A).whh (A).bih (A).bhh g n u :=
  fun g n u => iter2_z x0 x1 x2 x3 x4 x5 x6 x7 x8 x9 x10 x11 x12 x13 inp H hI hH n (Cert.Spec.gateRow g u)

theorem slice0 (n u : Fin 2048) : idx_main_v49 (ix3 0 n u) = ix3 0 n (Cert.Spec.gateRow 0 u) := funext fun a => by
  match a with
  | ⟨0, _⟩ => rfl
  | ⟨1, _⟩ => rfl
  | ⟨2, _⟩ => exact Fin.ext (show u.val = 0 * 2048 + u.val by omega)

theorem slice1 (n u : Fin 2048) : idx_main_v50 (ix3 0 n u) = ix3 0 n (Cert.Spec.gateRow 1 u) := funext fun a => by
  match a with
  | ⟨0, _⟩ => rfl
  | ⟨1, _⟩ => rfl
  | ⟨2, _⟩ => exact Fin.ext (show 2048 + u.val = 1 * 2048 + u.val by omega)

theorem slice2 (n u : Fin 2048) : idx_main_v51 (ix3 0 n u) = ix3 0 n (Cert.Spec.gateRow 2 u) := funext fun a => by
  match a with
  | ⟨0, _⟩ => rfl
  | ⟨1, _⟩ => rfl
  | ⟨2, _⟩ => exact Fin.ext (show 4096 + u.val = 2 * 2048 + u.val by omega)

theorem slice3 (n u : Fin 2048) : idx_main_v52 (ix3 0 n u) = ix3 0 n (Cert.Spec.gateRow 3 u) := funext fun a => by
  match a with
  | ⟨0, _⟩ => rfl
  | ⟨1, _⟩ => rfl
  | ⟨2, _⟩ => exact Fin.ext (show 6144 + u.val = 3 * 2048 + u.val by omega)

theorem iter2_cell (inp H C : Fin 2048 → Fin 2048 → EReal)
    (hI : ∀ n u, val_main_v91 (F := Ideal) x0 x1 x2 x3 x4 x5 x6 x7 x8 x9 (ix3 0 n u) = inp n u)
    (hH : ∀ n u, val_main_v76 (F := Ideal) x0 x2 x3 x6 x7 x8 x9 (ix3 0 n u) = H n u)
    (hC : ∀ n u, val_main_v68 (F := Ideal) x0 x2 x3 x6 x7 x8 x9 (ix3 0 n u) = C n u) :
    ∀ n u, val_main_v120 (F := Ideal) x0 x1 x2 x3 x4 x5 x6 x7 x8 x9 (ix3 0 n u)
      = Cert.Spec.cellNew inp H C (A).wih (A).whh (A).bih (A).bhh n u := by
  intro n u
  have hz := iter2_preact x0 x1 x2 x3 x4 x5 x6 x7 x8 x9 x10 x11 x12 x13 inp H hI hH
  simp only [val_main_v120_apply, val_main_v111_apply, val_main_v110_apply, val_main_v109_apply, val_main_cst_16_apply,
    val_main_v108_apply, val_main_v107_apply, val_main_cst_15_apply, val_main_v106_apply, val_main_v105_apply,
    val_main_v102_apply, val_main_v119_apply, val_main_v117_apply, val_main_v116_apply, val_main_cst_18_apply,
    val_main_v115_apply, val_main_v114_apply, val_main_cst_17_apply, val_main_v113_apply, val_main_v112_apply,
    val_main_v101_apply, val_main_v118_apply, val_main_v103_apply, slice0, slice1, slice2, hz, hC,
    Ideal.mulf_def, Ideal.addf_def, Ideal.hostDivf_def, Ideal.ofBits_def, Ideal.ofBits_one_f32, Ideal.hostUnary_exp_def,
    Ideal.hostUnary_tanh_def, Ideal.hostNegf_def, Ideal.negf_def]
  rfl

theorem iter2_h (inp H C : Fin 2048 → Fin 2048 → EReal)
    (hI : ∀ n u, val_main_v91 (F := Ideal) x0 x1 x2 x3 x4 x5 x6 x7 x8 x9 (ix3 0 n u) = inp n u)
    (hH : ∀ n u, val_main_v76 (F := Ideal) x0 x2 x3 x6 x7 x8 x9 (ix3 0 n u) = H n u)
    (hC : ∀ n u, val_main_v68 (F := Ideal) x0 x2 x3 x6 x7 x8 x9 (ix3 0 n u) = C n u) :
    ∀ n u, val_main_v128 (F := Ideal) x0 x1 x2 x3 x4 x5 x6 x7 x8 x9 (ix3 0 n u)
      = Cert.Spec.hNew inp H C (A).wih (A).whh (A).bih (A).bhh n u := by
  intro n u
  have hz := iter2_preact x0 x1 x2 x3 x4 x5 x6 x7 x8 x9 x10 x11 x12 x13 inp H hI hH
  have hc := iter2_cell x0 x1 x2 x3 x4 x5 x6 x7 x8 x9 x10 x11 x12 x13 inp H C hI hH hC
  simp only [val_main_v128_apply, val_main_v126_apply, val_main_v125_apply, val_main_cst_20_apply, val_main_v124_apply,
    val_main_v123_apply, val_main_cst_19_apply, val_main_v122_apply, val_main_v121_apply, val_main_v104_apply,
    val_main_v127_apply, slice3, hz, hc,
    Ideal.mulf_def, Ideal.addf_def, Ideal.hostDivf_def, Ideal.ofBits_def, Ideal.ofBits_one_f32, Ideal.hostUnary_exp_def,
    Ideal.hostUnary_tanh_def, Ideal.hostNegf_def, Ideal.negf_def]
  rfl

theorem ref_iter2 (E S H C : Fin 2048 → Fin 2048 → EReal)
    (hE : ∀ n u, val_main_v4 (F := Ideal) x0 x2 x3 (ix3 0 n u) = E n u)
    (hS : ∀ j k, val_main_v24 (F := Ideal) x1 (ix2 j k) = S j k)
    (hH : ∀ n u, val_main_v76 (F := Ideal) x0 x2 x3 x6 x7 x8 x9 (ix3 0 n u) = H n u)
    (hC : ∀ n u, val_main_v68 (F := Ideal) x0 x2 x3 x6 x7 x8 x9 (ix3 0 n u) = C n u) :
    (∀ n u, val_main_v128 (F := Ideal) x0 x1 x2 x3 x4 x5 x6 x7 x8 x9 (ix3 0 n u)
      = Cert.Spec.hNew (Cert.Spec.bsum (Cert.Spec.gate H (A).gw (A).gb S) H E) H C (A).wih (A).whh (A).bih (A).bhh n u)
    ∧ (∀ n u, val_main_v120 (F := Ideal) x0 x1 x2 x3 x4 x5 x6 x7 x8 x9 (ix3 0 n u)
      = Cert.Spec.cellNew (Cert.Spec.bsum (Cert.Spec.gate H (A).gw (A).gb S) H E) H C (A).wih (A).whh (A).bih (A).bhh n u) :=
  have hI := iter2_inp x0 x1 x2 x3 x4 x5 x6 x7 x8 x9 x10 x11 x12 x13 E S H hE hS hH
  ⟨iter2_h x0 x1 x2 x3 x4 x5 x6 x7 x8 x9 x10 x11 x12 x13 _ H C hI hH hC,
   iter2_cell x0 x1 x2 x3 x4 x5 x6 x7 x8 x9 x10 x11 x12 x13 _ H C hI hH hC⟩

end Cert.ReferenceIdeal.RefVal

end
-- ==== Proof.Ref.Iter3.lean ====
import proofs.«412769_j28716151341139_3_alg».proof.Proof.RefImports
import proofs.«412769_j28716151341139_3_alg».proof.Proof.SpecArrays
import Idealize.ShloMosaic.Lib.ValueIdx
import Idealize.ShloMosaic.Lib.Pipeline.Value
import Idealize.ShloMosaic.PureOps.Ideal.Laws

noncomputable section

namespace Cert.ReferenceIdeal.RefVal

open Cert.ReferenceIdeal Cert.ReferenceIdeal.Read Idealize.ShloMosaic Idealize.ShloMosaic.ValueIdx
open scoped BigOperators

variable (x0 : (⟨S1x2048x1024, .f32⟩ : BufTy).Contents (Elt Ideal)) (x1 : (⟨S2048, .f32⟩ : BufTy).Contents (Elt Ideal))
  (x2 : (⟨S2048x1024, .f32⟩ : BufTy).Contents (Elt Ideal)) (x3 : (⟨S2048, .f32⟩ : BufTy).Contents (Elt Ideal))
  (x4 : (⟨S2048x2048, .f32⟩ : BufTy).Contents (Elt Ideal)) (x5 : (⟨S2048, .f32⟩ : BufTy).Contents (Elt Ideal))
  (x6 x7 : (⟨S8192x2048, .f32⟩ : BufTy).Contents (Elt Ideal)) (x8 x9 : (⟨S8192, .f32⟩ : BufTy).Contents (Elt Ideal))
  (x10 : (⟨S64x2048, .f32⟩ : BufTy).Contents (Elt Ideal)) (x11 : (⟨S64, .f32⟩ : BufTy).Contents (Elt Ideal))
  (x12 : (⟨S1x2048, .f32⟩ : BufTy).Contents (Elt Ideal)) (x13 : (⟨S1, .f32⟩ : BufTy).Contents (Elt Ideal))

local notation "A" => Cert.Spec.argsOf x0 x1 x2 x3 x4 x5 x6 x7 x8 x9 x10 x11 x12 x13

private theorem one_f32 : Ideal.ofBits .f32 0x3F800000#32 = 1 := by
  simp [Ideal.ofBits, Ideal.ieee, -EReal.coe_mul]; norm_num

private theorem l129 (j k h : Fin 2048) : lidx_main_v25 (ix3 0 j k) h = ix3 0 j h := by
  funext a; match a with | ⟨0, _⟩ => rfl | ⟨1, _⟩ => rfl | ⟨2, _⟩ => rfl

private theorem r129 (j k h : Fin 2048) : ridx_main_v25 (ix3 0 j k) h = ix2 k h := by
  funext a; match a with | ⟨0, _⟩ => rfl | ⟨1, _⟩ => rfl

private theorem i130 (j k : Fin 2048) : idx_main_v1 (idx_main_v2 (ix3 0 j k)) = ix1 k := by
  funext a; match a with | ⟨0, _⟩ => rfl

private theorem i140 (j k : Fin 2048) : idx_main_v36 (ix3 0 j k) = ix2 j k := by
  funext a; match a with | ⟨0, _⟩ => rfl | ⟨1, _⟩ => rfl

private theorem l142 (n u j : Fin 2048) : lidx_main_v90 (ix3 0 n u) j = ix3 0 j n := by
  funext a; match a with | ⟨0, _⟩ => rfl | ⟨1, _⟩ => rfl | ⟨2, _⟩ => rfl

private theorem r142 (n u j : Fin 2048) : ridx_main_v90 (ix3 0 n u) j = ix3 0 j u := by
  funext a; match a with | ⟨0, _⟩ => rfl | ⟨1, _⟩ => rfl | ⟨2, _⟩ => rfl

private theorem l144 (n : Fin 2048) (r : Fin 8192) (k : Fin 2048) : lidx_main_v40 (ix3 0 n r) k = ix3 0 n k := by
  funext a; match a with | ⟨0, _⟩ => rfl | ⟨1, _⟩ => rfl | ⟨2, _⟩ => rfl

private theorem r144 (n : Fin 2048) (r : Fin 8192) (k : Fin 2048) : ridx_main_v40 (ix3 0 n r) k = ix2 r k := by
  funext a; match a with | ⟨0, _⟩ => rfl | ⟨1, _⟩ => rfl

private theorem l145 (n : Fin 2048) (r : Fin 8192) (k : Fin 2048) : lidx_main_v40 (ix3 0 n r) k = ix3 0 n k := by
  funext a; match a with | ⟨0, _⟩ => rfl | ⟨1, _⟩ => rfl | ⟨2, _⟩ => rfl

private theorem r145 (n : Fin 2048) (r : Fin 8192) (k : Fin 2048) : ridx_main_v40 (ix3 0 n r) k = ix2 r k := by
  funext a; match a with | ⟨0, _⟩ => rfl | ⟨1, _⟩ => rfl

private theorem i147 (n : Fin 2048) (r : Fin 8192) : idx_main_v43 (idx_main_v44 (ix3 0 n r)) = ix1 r := by
  funext a; match a with | ⟨0, _⟩ => rfl

private theorem i150 (n : Fin 2048) (r : Fin 8192) : idx_main_v43 (idx_main_v44 (ix3 0 n r)) = ix1 r := by
  funext a; match a with | ⟨0, _⟩ => rfl

private theorem i153 (n u : Fin 2048) : idx_main_v49 (ix3 0 n u) = ix3 0 n (Cert.Spec.gateRow 0 u) := by
  funext a; match a with
  | ⟨0, _⟩ => rfl
  | ⟨1, _⟩ => rfl
  | ⟨2, _⟩ => exact Fin.ext (by show u.val = 0 * 2048 + u.val; omega)

private theorem i154 (n u : Fin 2048) : idx_main_v50 (ix3 0 n u) = ix3 0 n (Cert.Spec.gateRow 1 u) := by
  funext a; match a with
  | ⟨0, _⟩ => rfl
  | ⟨1, _⟩ => rfl
  | ⟨2, _⟩ => exact Fin.ext (by show 2048 + u.val = 1 * 2048 + u.val; omega)

private theorem i155 (n u : Fin 2048) : idx_main_v51 (ix3 0 n u) = ix3 0 n (Cert.Spec.gateRow 2 u) := by
  funext a; match a with
  | ⟨0, _⟩ => rfl
  | ⟨1, _⟩ => rfl
  | ⟨2, _⟩ => exact Fin.ext (by show 4096 + u.val = 2 * 2048 + u.val; omega)

private theorem i156 (n u : Fin 2048) : idx_main_v52 (ix3 0 n u) = ix3 0 n (Cert.Spec.gateRow 3 u) := by
  funext a; match a with
  | ⟨0, _⟩ => rfl
  | ⟨1, _⟩ => rfl
  | ⟨2, _⟩ => exact Fin.ext (by show 6144 + u.val = 3 * 2048 + u.val; omega)

theorem iter3_gate (S H : Fin 2048 → Fin 2048 → EReal)
    (hS : ∀ j k, val_main_v24 (F := Ideal) x1 (ix2 j k) = S j k)
    (hH : ∀ n u, val_main_v128 (F := Ideal) x0 x1 x2 x3 x4 x5 x6 x7 x8 x9 (ix3 0 n u) = H n u) :
    ∀ j k, val_main_v141 (F := Ideal) x0 x1 x2 x3 x4 x5 x6 x7 x8 x9 (ix3 0 j k) = Cert.Spec.gate H (A).gw (A).gb S j k := by
  intro j k
  rw [val_main_v141_apply, val_main_v139_apply, val_main_v138_apply, val_main_v137_apply, val_main_cst_22_apply,
    val_main_v136_apply, val_main_v135_apply, val_main_cst_21_apply, val_main_v134_apply, val_main_v133_apply,
    val_main_v132_apply, val_main_v129_apply, val_main_v131_apply, val_main_v130_apply, val_main_v140_apply]
  simp only [l129, r129, i130, i140, hS, hH, Ideal.mulf_def, Ideal.addf_def, Ideal.hostDivf_def, Ideal.hostNegf_def,
    Ideal.negf_def, Ideal.hostUnary_exp_def, Ideal.hostUnary_ceil_def, Ideal.ofBits_def, one_f32]
  rfl

theorem iter3_inp (G H E : Fin 2048 → Fin 2048 → EReal)
    (hG : ∀ j k, val_main_v141 (F := Ideal) x0 x1 x2 x3 x4 x5 x6 x7 x8 x9 (ix3 0 j k) = G j k)
    (hH : ∀ n u, val_main_v128 (F := Ideal) x0 x1 x2 x3 x4 x5 x6 x7 x8 x9 (ix3 0 n u) = H n u)
    (hE : ∀ n u, val_main_v4 (F := Ideal) x0 x2 x3 (ix3 0 n u) = E n u) :
    ∀ n u, val_main_v143 (F := Ideal) x0 x1 x2 x3 x4 x5 x6 x7 x8 x9 (ix3 0 n u) = Cert.Spec.bsum G H E n u := by
  intro n u
  rw [val_main_v143_apply, val_main_v142_apply]
  simp only [l142, r142, hG, hH, hE, Ideal.addf_def]
  rfl

theorem iter3_pre (I H : Fin 2048 → Fin 2048 → EReal)
    (hI : ∀ n u, val_main_v143 (F := Ideal) x0 x1 x2 x3 x4 x5 x6 x7 x8 x9 (ix3 0 n u) = I n u)
    (hH : ∀ n u, val_main_v128 (F := Ideal) x0 x1 x2 x3 x4 x5 x6 x7 x8 x9 (ix3 0 n u) = H n u) :
    ∀ (n : Fin 2048) (r : Fin 8192), val_main_v152 (F := Ideal) x0 x1 x2 x3 x4 x5 x6 x7 x8 x9 (ix3 0 n r)
      = ((Cert.Spec.mmT I (A).wih n r + Cert.Spec.mmT H (A).whh n r) + (A).bih r) + (A).bhh r := by
  intro n r
  rw [val_main_v152_apply, val_main_v149_apply, val_main_v146_apply, val_main_v144_apply, val_main_v145_apply,
    val_main_v148_apply, val_main_v147_apply, val_main_v151_apply, val_main_v150_apply]
  simp only [l144, r144, l145, r145, i147, i150, hI, hH, Ideal.addf_def]
  rfl

theorem iter3_cell (P : Fin 2048 → Fin 8192 → EReal) (C : Fin 2048 → Fin 2048 → EReal)
    (hP : ∀ (n : Fin 2048) (r : Fin 8192), val_main_v152 (F := Ideal) x0 x1 x2 x3 x4 x5 x6 x7 x8 x9 (ix3 0 n r) = P n r)
    (hC : ∀ n u, val_main_v120 (F := Ideal) x0 x1 x2 x3 x4 x5 x6 x7 x8 x9 (ix3 0 n u) = C n u) :
    ∀ n u, val_main_v172 (F := Ideal) x0 x1 x2 x3 x4 x5 x6 x7 x8 x9 (ix3 0 n u)
      = Ideal.logistic (P n (Cert.Spec.gateRow 1 u)) * C n u
        + Ideal.logistic (P n (Cert.Spec.gateRow 0 u)) * Ideal.tanh (P n (Cert.Spec.gateRow 2 u)) := by
  intro n u
  rw [val_main_v172_apply, val_main_v163_apply, val_main_v162_apply, val_main_v161_apply, val_main_cst_24_apply,
    val_main_v160_apply, val_main_v159_apply, val_main_cst_23_apply, val_main_v158_apply, val_main_v157_apply,
    val_main_v154_apply, val_main_v171_apply, val_main_v169_apply, val_main_v168_apply, val_main_cst_26_apply,
    val_main_v167_apply, val_main_v166_apply, val_main_cst_25_apply, val_main_v165_apply, val_main_v164_apply,
    val_main_v153_apply, val_main_v170_apply, val_main_v155_apply]
  simp only [i153, i154, i155, hP, hC, Ideal.mulf_def, Ideal.addf_def, Ideal.hostDivf_def, Ideal.hostNegf_def,
    Ideal.negf_def, Ideal.hostUnary_exp_def, Ideal.hostUnary_tanh_def, Ideal.ofBits_def, one_f32]
  rfl

theorem iter3_hid (P : Fin 2048 → Fin 8192 → EReal) (Cn : Fin 2048 → Fin 2048 → EReal)
    (hP : ∀ (n : Fin 2048) (r : Fin 8192), val_main_v152 (F := Ideal) x0 x1 x2 x3 x4 x5 x6 x7 x8 x9 (ix3 0 n r) = P n r)
    (hCn : ∀ n u, val_main_v172 (F := Ideal) x0 x1 x2 x3 x4 x5 x6 x7 x8 x9 (ix3 0 n u) = Cn n u) :
    ∀ n u, val_main_v180 (F := Ideal) x0 x1 x2 x3 x4 x5 x6 x7 x8 x9 (ix3 0 n u) = Ideal.logistic (P n (Cert.Spec.gateRow 3 u)) * Ideal.tanh (Cn n u) := by
  intro n u
  rw [val_main_v180_apply, val_main_v178_apply, val_main_v177_apply, val_main_cst_28_apply, val_main_v176_apply,
    val_main_v175_apply, val_main_cst_27_apply, val_main_v174_apply, val_main_v173_apply, val_main_v156_apply,
    val_main_v179_apply]
  simp only [i156, hP, hCn, Ideal.mulf_def, Ideal.addf_def, Ideal.hostDivf_def, Ideal.hostNegf_def,
    Ideal.negf_def, Ideal.hostUnary_exp_def, Ideal.hostUnary_tanh_def, Ideal.ofBits_def, one_f32]
  rfl

theorem ref_iter3 (E S H C : Fin 2048 → Fin 2048 → EReal)
    (hE : ∀ n u, val_main_v4 (F := Ideal) x0 x2 x3 (ix3 0 n u) = E n u)
    (hS : ∀ j k, val_main_v24 (F := Ideal) x1 (ix2 j k) = S j k)
    (hH : ∀ n u, val_main_v128 (F := Ideal) x0 x1 x2 x3 x4 x5 x6 x7 x8 x9 (ix3 0 n u) = H n u)
    (hC : ∀ n u, val_main_v120 (F := Ideal) x0 x1 x2 x3 x4 x5 x6 x7 x8 x9 (ix3 0 n u) = C n u) :
    (∀ n u, val_main_v180 (F := Ideal) x0 x1 x2 x3 x4 x5 x6 x7 x8 x9 (ix3 0 n u)
        = Cert.Spec.hNew (Cert.Spec.bsum (Cert.Spec.gate H (A).gw (A).gb S) H E) H C (A).wih (A).whh (A).bih (A).bhh n u)
    ∧ (∀ n u, val_main_v172 (F := Ideal) x0 x1 x2 x3 x4 x5 x6 x7 x8 x9 (ix3 0 n u)
        = Cert.Spec.cellNew (Cert.Spec.bsum (Cert.Spec.gate H (A).gw (A).gb S) H E) H C (A).wih (A).whh (A).bih (A).bhh n u) := by
  have hG := iter3_gate x0 x1 x2 x3 x4 x5 x6 x7 x8 x9 x10 x11 x12 x13 S H hS hH
  have hI := iter3_inp x0 x1 x2 x3 x4 x5 x6 x7 x8 x9 _ H E hG hH hE
  have hP := iter3_pre x0 x1 x2 x3 x4 x5 x6 x7 x8 x9 x10 x11 x12 x13 _ H hI hH
  have hCn := iter3_cell x0 x1 x2 x3 x4 x5 x6 x7 x8 x9 _ C hP hC
  have hHn := iter3_hid x0 x1 x2 x3 x4 x5 x6 x7 x8 x9 _ _ hP hCn
  exact ⟨fun n u => (hHn n u).trans rfl, fun n u => (hCn n u).trans rfl⟩

end Cert.ReferenceIdeal.RefVal

end
-- ==== Proof.Ref.Heads.lean ====
import proofs.«412769_j28716151341139_3_alg».proof.Proof.RefImports
import proofs.«412769_j28716151341139_3_alg».proof.Proof.SpecArrays
import Idealize.ShloMosaic.Lib.ValueIdx
import Idealize.ShloMosaic.Lib.Pipeline.Value
import Idealize.ShloMosaic.PureOps.Ideal.Laws

noncomputable section

open scoped BigOperators

namespace Cert.ReferenceIdeal.RefVal

open Cert.ReferenceIdeal Cert.ReferenceIdeal.Read Idealize.ShloMosaic Idealize.ShloMosaic.ValueIdx

variable (x0 : (⟨S1x2048x1024, .f32⟩ : BufTy).Contents (Elt Ideal)) (x1 : (⟨S2048, .f32⟩ : BufTy).Contents (Elt Ideal))
  (x2 : (⟨S2048x1024, .f32⟩ : BufTy).Contents (Elt Ideal)) (x3 : (⟨S2048, .f32⟩ : BufTy).Contents (Elt Ideal))
  (x4 : (⟨S2048x2048, .f32⟩ : BufTy).Contents (Elt Ideal)) (x5 : (⟨S2048, .f32⟩ : BufTy).Contents (Elt Ideal))
  (x6 x7 : (⟨S8192x2048, .f32⟩ : BufTy).Contents (Elt Ideal)) (x8 x9 : (⟨S8192, .f32⟩ : BufTy).Contents (Elt Ideal))
  (x10 : (⟨S64x2048, .f32⟩ : BufTy).Contents (Elt Ideal)) (x11 : (⟨S64, .f32⟩ : BufTy).Contents (Elt Ideal))
  (x12 : (⟨S1x2048, .f32⟩ : BufTy).Contents (Elt Ideal)) (x13 : (⟨S1, .f32⟩ : BufTy).Contents (Elt Ideal))

local notation "A" => Cert.Spec.argsOf x0 x1 x2 x3 x4 x5 x6 x7 x8 x9 x10 x11 x12 x13

theorem ref_logits (H : Fin 2048 → Fin 2048 → EReal)
    (hH : ∀ n u, val_main_v180 (F := Ideal) x0 x1 x2 x3 x4 x5 x6 x7 x8 x9 (ix3 0 n u) = H n u) (n : Fin 2048) (a : Fin 64) :
    val_main_v184 (F := Ideal) x0 x1 x2 x3 x4 x5 x6 x7 x8 x9 x10 x11 (ix3 0 n a) = Cert.Spec.logits H (A).actw (A).actb n a := by
  have el : ∀ k : Fin 2048, lidx_main_v181 (ix3 (0 : Fin 1) n a) k = ix3 0 n k := fun k => funext fun c => Fin.ext (by
    match c with | ⟨0, _⟩ => rfl | ⟨1, _⟩ => rfl | ⟨2, _⟩ => rfl)
  have er : ∀ k : Fin 2048, ridx_main_v181 (ix3 (0 : Fin 1) n a) k = ix2 a k := fun k => funext fun c => Fin.ext (by
    match c with | ⟨0, _⟩ => rfl | ⟨1, _⟩ => rfl)
  have eb : idx_main_v182 (idx_main_v183 (ix3 (0 : Fin 1) n a)) = ix1 a := funext fun c => Fin.ext (by
    match c with | ⟨0, _⟩ => rfl)
  rw [val_main_v184_apply, val_main_v181_apply, val_main_v183_apply, val_main_v182_apply, eb]
  simp only [el, er, hH, Ideal.addf_def]
  rfl

theorem ref_rowMax (H : Fin 2048 → Fin 2048 → EReal)
    (hH : ∀ n u, val_main_v180 (F := Ideal) x0 x1 x2 x3 x4 x5 x6 x7 x8 x9 (ix3 0 n u) = H n u) (n : Fin 2048) :
    val_main_call0_v2 (F := Ideal) x0 x1 x2 x3 x4 x5 x6 x7 x8 x9 x10 x11 (ix2 0 n) = Cert.Spec.rowMax (Cert.Spec.logits H (A).actw (A).actb n) := by
  have hR : S1x2048x64.Reduces [2] S1x2048 := by decide
  have hl : ∀ k : Fin (S1x2048x64.size 2), hR.lift (ix2 (0 : Fin 1) n) k = ix3 0 n (⟨k.val, k.isLt⟩ : Fin 64) :=
    fun k => funext fun c => Fin.ext (by fin_cases c <;> rfl)
  have hf : (val_main_v184 (F := Ideal) x0 x1 x2 x3 x4 x5 x6 x7 x8 x9 x10 x11 ∘ hR.lift (ix2 (0 : Fin 1) n))
      = fun k : Fin 64 => Cert.Spec.logits H (A).actw (A).actb n k := funext fun k => by
    show val_main_v184 (F := Ideal) x0 x1 x2 x3 x4 x5 x6 x7 x8 x9 x10 x11 (hR.lift (ix2 (0 : Fin 1) n) k) = _
    rw [hl k]
    exact ref_logits x0 x1 x2 x3 x4 x5 x6 x7 x8 x9 x10 x11 x12 x13 H hH n _
  rw [val_main_call0_v2_apply, val_main_call0_v1_apply, val_main_call0_cst_0_apply]
  unfold val_main_call0_v0
  rw [Host.reduce_eq_fold_single FloatOps.maximumf _ _ _ hR]
  exact congrArg (fun f => max Cert.Spec.negInf (Finset.fold max Cert.Spec.negInf f (Finset.univ : Finset (Fin 64)))) hf

theorem ref_shift (H : Fin 2048 → Fin 2048 → EReal)
    (hH : ∀ n u, val_main_v180 (F := Ideal) x0 x1 x2 x3 x4 x5 x6 x7 x8 x9 (ix3 0 n u) = H n u) (n : Fin 2048) (a : Fin 64) :
    val_main_call0_v5 (F := Ideal) x0 x1 x2 x3 x4 x5 x6 x7 x8 x9 x10 x11 (ix3 0 n a)
      = Cert.Spec.logits H (A).actw (A).actb n a - Cert.Spec.rowMax (Cert.Spec.logits H (A).actw (A).actb n) := by
  have e4 : idx_main_call0_v3 (idx_main_call0_v4 (ix3 (0 : Fin 1) n a)) = ix2 0 n := funext fun c => Fin.ext (by
    match c with | ⟨0, _⟩ => rfl | ⟨1, _⟩ => rfl)
  rw [val_main_call0_v5_apply, val_main_call0_v4_apply, val_main_call0_v3_apply, e4, ref_logits x0 x1 x2 x3 x4 x5 x6 x7 x8 x9 x10 x11 x12 x13 H hH n a,
    ref_rowMax x0 x1 x2 x3 x4 x5 x6 x7 x8 x9 x10 x11 x12 x13 H hH n]
  rfl

theorem ref_sumExp (H : Fin 2048 → Fin 2048 → EReal)
    (hH : ∀ n u, val_main_v180 (F := Ideal) x0 x1 x2 x3 x4 x5 x6 x7 x8 x9 (ix3 0 n u) = H n u) (n : Fin 2048) :
    val_main_call0_v7 (F := Ideal) x0 x1 x2 x3 x4 x5 x6 x7 x8 x9 x10 x11 (ix2 0 n)
      = ∑ a' : Fin 64, Ideal.exp (Cert.Spec.logits H (A).actw (A).actb n a' - Cert.Spec.rowMax (Cert.Spec.logits H (A).actw (A).actb n)) := by
  have e7 : ∀ k : Fin 64, idx_main_call0_v7 (ix2 (0 : Fin 1) n) k = ix3 0 n k := fun k => funext fun c => Fin.ext (by
    match c with | ⟨0, _⟩ => rfl | ⟨1, _⟩ => rfl | ⟨2, _⟩ => rfl)
  rw [val_main_call0_v7_apply, val_main_call0_cst_1_apply]
  simp only [e7, val_main_call0_v6_apply, ref_shift x0 x1 x2 x3 x4 x5 x6 x7 x8 x9 x10 x11 x12 x13 H hH, Ideal.hostUnary_exp_def, Ideal.ofBits_def,
    Ideal.ofBits_zero_f32, zero_add]

theorem ref_logp (H : Fin 2048 → Fin 2048 → EReal)
    (hH : ∀ n u, val_main_v180 (F := Ideal) x0 x1 x2 x3 x4 x5 x6 x7 x8 x9 (ix3 0 n u) = H n u) (n : Fin 2048) (a : Fin 64) :
    val_main_v185 (F := Ideal) x0 x1 x2 x3 x4 x5 x6 x7 x8 x9 x10 x11 (ix3 0 n a) = Cert.Spec.logp H (A).actw (A).actb n a := by
  have e10 : idx_main_call0_v3 (idx_main_call0_v4 (ix3 (0 : Fin 1) n a)) = ix2 0 n := funext fun c => Fin.ext (by
    match c with | ⟨0, _⟩ => rfl | ⟨1, _⟩ => rfl)
  rw [val_main_v185_apply, val_main_call0_v10_apply, val_main_call0_v9_apply, val_main_call0_v8_apply, e10,
    ref_shift x0 x1 x2 x3 x4 x5 x6 x7 x8 x9 x10 x11 x12 x13 H hH n a, ref_sumExp x0 x1 x2 x3 x4 x5 x6 x7 x8 x9 x10 x11 x12 x13 H hH n]
  rfl

theorem ref_value (H : Fin 2048 → Fin 2048 → EReal)
    (hH : ∀ n u, val_main_v180 (F := Ideal) x0 x1 x2 x3 x4 x5 x6 x7 x8 x9 (ix3 0 n u) = H n u) (n : Fin 2048) :
    val_main_v189 (F := Ideal) x0 x1 x2 x3 x4 x5 x6 x7 x8 x9 x12 x13 (ix3 0 n 0) = Cert.Spec.value H (A).valw (A).valb n := by
  have el : ∀ k : Fin 2048, lidx_main_v186 (ix3 (0 : Fin 1) n (0 : Fin 1)) k = ix3 0 n k := fun k => funext fun c => Fin.ext (by
    match c with | ⟨0, _⟩ => rfl | ⟨1, _⟩ => rfl | ⟨2, _⟩ => rfl)
  have er : ∀ k : Fin 2048, ridx_main_v186 (ix3 (0 : Fin 1) n (0 : Fin 1)) k = ix2 0 k := fun k => funext fun c => Fin.ext (by
    match c with | ⟨0, _⟩ => rfl | ⟨1, _⟩ => rfl)
  have eb : idx_main_v187 (idx_main_v188 (ix3 (0 : Fin 1) n (0 : Fin 1))) = ix1 0 := funext fun c => Fin.ext (by
    match c with | ⟨0, _⟩ => rfl)
  rw [val_main_v189_apply, val_main_v186_apply, val_main_v188_apply, val_main_v187_apply, eb]
  simp only [el, er, hH, Ideal.addf_def]
  rfl

end Cert.ReferenceIdeal.RefVal

end
-- ==== Proof.Ref.RefValue.lean ====
import proofs.«412769_j28716151341139_3_alg».proof.Proof.Ref.Stage1
import proofs.«412769_j28716151341139_3_alg».proof.Proof.Ref.Iter2
import proofs.«412769_j28716151341139_3_alg».proof.Proof.Ref.Iter3
import proofs.«412769_j28716151341139_3_alg».proof.Proof.Ref.Heads

noncomputable section

namespace Cert.ReferenceIdeal.RefVal

open Cert.ReferenceIdeal Cert.ReferenceIdeal.Read Idealize.ShloMosaic Idealize.ShloMosaic.ValueIdx

variable (x0 : (⟨S1x2048x1024, .f32⟩ : BufTy).Contents (Elt Ideal)) (x1 : (⟨S2048, .f32⟩ : BufTy).Contents (Elt Ideal)) (x2 : (⟨S2048x1024, .f32⟩ : BufTy).Contents (Elt Ideal)) (x3 : (⟨S2048, .f32⟩ : BufTy).Contents (Elt Ideal)) (x4 : (⟨S2048x2048, .f32⟩ : BufTy).Contents (Elt Ideal)) (x5 : (⟨S2048, .f32⟩ : BufTy).Contents (Elt Ideal)) (x6 : (⟨S8192x2048, .f32⟩ : BufTy).Contents (Elt Ideal)) (x7 : (⟨S8192x2048, .f32⟩ : BufTy).Contents (Elt Ideal)) (x8 : (⟨S8192, .f32⟩ : BufTy).Contents (Elt Ideal)) (x9 : (⟨S8192, .f32⟩ : BufTy).Contents (Elt Ideal)) (x10 : (⟨S64x2048, .f32⟩ : BufTy).Contents (Elt Ideal)) (x11 : (⟨S64, .f32⟩ : BufTy).Contents (Elt Ideal)) (x12 : (⟨S1x2048, .f32⟩ : BufTy).Contents (Elt Ideal)) (x13 : (⟨S1, .f32⟩ : BufTy).Contents (Elt Ideal))

local notation "A" => Cert.Spec.argsOf x0 x1 x2 x3 x4 x5 x6 x7 x8 x9 x10 x11 x12 x13

theorem ref_H3 (n u : Fin 2048) :
    val_main_v180 (F := Ideal) x0 x1 x2 x3 x4 x5 x6 x7 x8 x9 (ix3 0 n u) = Cert.Spec.H3 (A) n u := by
  have hE : ∀ n u, val_main_v4 (F := Ideal) x0 x2 x3 (ix3 0 n u) = Cert.Spec.E (A) n u := ref_E x0 x1 x2 x3 x4 x5 x6 x7 x8 x9 x10 x11 x12 x13
  have hS : ∀ j k, val_main_v24 (F := Ideal) x1 (ix2 j k) = Cert.Spec.S (A) j k := ref_S x0 x1 x2 x3 x4 x5 x6 x7 x8 x9 x10 x11 x12 x13
  have hH1 : ∀ n u, val_main_v76 (F := Ideal) x0 x2 x3 x6 x7 x8 x9 (ix3 0 n u) = Cert.Spec.H1 (A) n u := ref_H1 x0 x1 x2 x3 x4 x5 x6 x7 x8 x9 x10 x11 x12 x13
  have hC1 : ∀ n u, val_main_v68 (F := Ideal) x0 x2 x3 x6 x7 x8 x9 (ix3 0 n u) = Cert.Spec.C1 (A) n u := ref_C1 x0 x1 x2 x3 x4 x5 x6 x7 x8 x9 x10 x11 x12 x13
  have h2 := ref_iter2 x0 x1 x2 x3 x4 x5 x6 x7 x8 x9 x10 x11 x12 x13 (Cert.Spec.E (A)) (Cert.Spec.S (A)) (Cert.Spec.H1 (A)) (Cert.Spec.C1 (A)) hE hS hH1 hC1
  have hH2 : ∀ n u, val_main_v128 (F := Ideal) x0 x1 x2 x3 x4 x5 x6 x7 x8 x9 (ix3 0 n u) = Cert.Spec.H2 (A) n u := h2.1
  have hC2 : ∀ n u, val_main_v120 (F := Ideal) x0 x1 x2 x3 x4 x5 x6 x7 x8 x9 (ix3 0 n u) = Cert.Spec.C2 (A) n u := h2.2
  exact (ref_iter3 x0 x1 x2 x3 x4 x5 x6 x7 x8 x9 x10 x11 x12 x13 (Cert.Spec.E (A)) (Cert.Spec.S (A)) (Cert.Spec.H2 (A)) (Cert.Spec.C2 (A)) hE hS hH2 hC2).1 n u

theorem ref_outLogp (n : Fin 2048) (a : Fin 64) :
    val_main_v185 (F := Ideal) x0 x1 x2 x3 x4 x5 x6 x7 x8 x9 x10 x11 (ix3 0 n a) = Cert.Spec.outLogp (A) n a :=
  ref_logp x0 x1 x2 x3 x4 x5 x6 x7 x8 x9 x10 x11 x12 x13 (Cert.Spec.H3 (A)) (ref_H3 x0 x1 x2 x3 x4 x5 x6 x7 x8 x9 x10 x11 x12 x13) n a

theorem ref_outValue (n : Fin 2048) :
    val_main_v189 (F := Ideal) x0 x1 x2 x3 x4 x5 x6 x7 x8 x9 x12 x13 (ix3 0 n 0) = Cert.Spec.outValue (A) n :=
  ref_value x0 x1 x2 x3 x4 x5 x6 x7 x8 x9 x10 x11 x12 x13 (Cert.Spec.H3 (A)) (ref_H3 x0 x1 x2 x3 x4 x5 x6 x7 x8 x9 x10 x11 x12 x13) n

end Cert.ReferenceIdeal.RefVal

end
-- ==== Proof.Algebraic.lean ====
import proofs.«412769_j28716151341139_3_alg».proof.Defs
import proofs.«412769_j28716151341139_3_alg».proof.Proof.Gen.KernelIdeal
import proofs.«412769_j28716151341139_3_alg».proof.Proof.Gen.KernelIdeal.Regions
import proofs.«412769_j28716151341139_3_alg».proof.Proof.Gen.ReferenceIdeal
import proofs.«412769_j28716151341139_3_alg».proof.Proof.Gen.Pre_finite_inputs
import proofs.«412769_j28716151341139_3_alg».proof.Proof.KI.Run
import proofs.«412769_j28716151341139_3_alg».proof.Proof.KI.Chain
import proofs.«412769_j28716151341139_3_alg».proof.Proof.RefStages
import proofs.«412769_j28716151341139_3_alg».proof.Proof.Ref.RefValue
import proofs.«412769_j28716151341139_3_alg».proof.Proof.SpecArrays
import Idealize.ShloMosaic.Lib.ValueIdx
import Idealize.ShloMosaic.Lib.StableHlo.Run

noncomputable section

namespace Cert.Proof

open Idealize.ShloMosaic Idealize.ShloMosaic.TcCoe Idealize.ShloMosaic.ValueIdx Idealize.SL.Sem

-- the reference's run, with its two results dropped
theorem frame_r : Cert.frame_ReferenceIdeal :=
  fun m ρ _ => (θ_run Cert.ReferenceIdeal.defs _ _).mono (fun _ h c => (h c).2.2) (Cert.ReferenceIdeal.RefRun.run (F := Ideal) m ρ)

-- both sides are the network's log-probabilities at the same arguments, index by index
open Cert.KernelIdeal in
theorem logp_eq (m : (ℓ : Loc nD τ sig) → Buf (Elt Ideal) ℓ) (c : Dev nD)
    (y0 : (⟨Cert.ReferenceIdeal.S1x2048x1024, .f32⟩ : BufTy).Contents (Elt Ideal)) (y1 : (⟨Cert.ReferenceIdeal.S2048, .f32⟩ : BufTy).Contents (Elt Ideal)) (y2 : (⟨Cert.ReferenceIdeal.S2048x1024, .f32⟩ : BufTy).Contents (Elt Ideal)) (y3 : (⟨Cert.ReferenceIdeal.S2048, .f32⟩ : BufTy).Contents (Elt Ideal)) (y4 : (⟨Cert.ReferenceIdeal.S2048x2048, .f32⟩ : BufTy).Contents (Elt Ideal)) (y5 : (⟨Cert.ReferenceIdeal.S2048, .f32⟩ : BufTy).Contents (Elt Ideal)) (y6 : (⟨Cert.ReferenceIdeal.S8192x2048, .f32⟩ : BufTy).Contents (Elt Ideal)) (y7 : (⟨Cert.ReferenceIdeal.S8192x2048, .f32⟩ : BufTy).Contents (Elt Ideal)) (y8 : (⟨Cert.ReferenceIdeal.S8192, .f32⟩ : BufTy).Contents (Elt Ideal)) (y9 : (⟨Cert.ReferenceIdeal.S8192, .f32⟩ : BufTy).Contents (Elt Ideal)) (y10 : (⟨Cert.ReferenceIdeal.S64x2048, .f32⟩ : BufTy).Contents (Elt Ideal)) (y11 : (⟨Cert.ReferenceIdeal.S64, .f32⟩ : BufTy).Contents (Elt Ideal))
    (h0 : y0 = m ((c.tc : Thread nD τ).loc main_arg0)) (h1 : y1 = m ((c.tc : Thread nD τ).loc main_arg1)) (h2 : y2 = m ((c.tc : Thread nD τ).loc main_arg2)) (h3 : y3 = m ((c.tc : Thread nD τ).loc main_arg3)) (h4 : y4 = m ((c.tc : Thread nD τ).loc main_arg4)) (h5 : y5 = m ((c.tc : Thread nD τ).loc main_arg5)) (h6 : y6 = m ((c.tc : Thread nD τ).loc main_arg6)) (h7 : y7 = m ((c.tc : Thread nD τ).loc main_arg7)) (h8 : y8 = m ((c.tc : Thread nD τ).loc main_arg8)) (h9 : y9 = m ((c.tc : Thread nD τ).loc main_arg9)) (h10 : y10 = m ((c.tc : Thread nD τ).loc main_arg10)) (h11 : y11 = m ((c.tc : Thread nD τ).loc main_arg11)) :
    (Cert.ReferenceIdeal.Read.val_main_v185 (F := Ideal) y0 y1 y2 y3 y4 y5 y6 y7 y8 y9 y10 y11 : Cert.ReferenceIdeal.S1x2048x64.Idx → EReal)
      = (Hand.U14 m c main_v50 : Cert.ReferenceIdeal.S1x2048x64.Idx → EReal) := by
  subst h0 h1 h2 h3 h4 h5 h6 h7 h8 h9 h10 h11
  funext i
  obtain ⟨b, n, a, rfl⟩ : ∃ (b : Fin 1) (n : Fin 2048) (a : Fin 64), i = ix3 b n a := ⟨i 0, i 1, i 2, eq_ix3 i⟩
  obtain rfl : b = 0 := Subsingleton.elim _ _
  exact (Cert.ReferenceIdeal.RefVal.ref_outLogp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) n a).trans
    (HandVal.kernel_logp m c n a).symm

-- both sides are the network's value at the same arguments
open Cert.KernelIdeal in
theorem value_eq (m : (ℓ : Loc nD τ sig) → Buf (Elt Ideal) ℓ) (c : Dev nD)
    (y0 : (⟨Cert.ReferenceIdeal.S1x2048x1024, .f32⟩ : BufTy).Contents (Elt Ideal)) (y1 : (⟨Cert.ReferenceIdeal.S2048, .f32⟩ : BufTy).Contents (Elt Ideal)) (y2 : (⟨Cert.ReferenceIdeal.S2048x1024, .f32⟩ : BufTy).Contents (Elt Ideal)) (y3 : (⟨Cert.ReferenceIdeal.S2048, .f32⟩ : BufTy).Contents (Elt Ideal)) (y4 : (⟨Cert.ReferenceIdeal.S2048x2048, .f32⟩ : BufTy).Contents (Elt Ideal)) (y5 : (⟨Cert.ReferenceIdeal.S2048, .f32⟩ : BufTy).Contents (Elt Ideal)) (y6 : (⟨Cert.ReferenceIdeal.S8192x2048, .f32⟩ : BufTy).Contents (Elt Ideal)) (y7 : (⟨Cert.ReferenceIdeal.S8192x2048, .f32⟩ : BufTy).Contents (Elt Ideal)) (y8 : (⟨Cert.ReferenceIdeal.S8192, .f32⟩ : BufTy).Contents (Elt Ideal)) (y9 : (⟨Cert.ReferenceIdeal.S8192, .f32⟩ : BufTy).Contents (Elt Ideal)) (y12 : (⟨Cert.ReferenceIdeal.S1x2048, .f32⟩ : BufTy).Contents (Elt Ideal)) (y13 : (⟨Cert.ReferenceIdeal.S1, .f32⟩ : BufTy).Contents (Elt Ideal))
    (h0 : y0 = m ((c.tc : Thread nD τ).loc main_arg0)) (h1 : y1 = m ((c.tc : Thread nD τ).loc main_arg1)) (h2 : y2 = m ((c.tc : Thread nD τ).loc main_arg2)) (h3 : y3 = m ((c.tc : Thread nD τ).loc main_arg3)) (h4 : y4 = m ((c.tc : Thread nD τ).loc main_arg4)) (h5 : y5 = m ((c.tc : Thread nD τ).loc main_arg5)) (h6 : y6 = m ((c.tc : Thread nD τ).loc main_arg6)) (h7 : y7 = m ((c.tc : Thread nD τ).loc main_arg7)) (h8 : y8 = m ((c.tc : Thread nD τ).loc main_arg8)) (h9 : y9 = m ((c.tc : Thread nD τ).loc main_arg9)) (h12 : y12 = m ((c.tc : Thread nD τ).loc main_arg12)) (h13 : y13 = m ((c.tc : Thread nD τ).loc main_arg13)) :
    (Cert.ReferenceIdeal.Read.val_main_v189 (F := Ideal) y0 y1 y2 y3 y4 y5 y6 y7 y8 y9 y12 y13 : Cert.ReferenceIdeal.S1x2048x1.Idx → EReal)
      = (Hand.U14 m c main_v51 : Cert.ReferenceIdeal.S1x2048x1.Idx → EReal) := by
  subst h0 h1 h2 h3 h4 h5 h6 h7 h8 h9 h12 h13
  funext i
  obtain ⟨b, n, z, rfl⟩ : ∃ (b : Fin 1) (n : Fin 2048) (z : Fin 1), i = ix3 b n z := ⟨i 0, i 1, i 2, eq_ix3 i⟩
  obtain rfl : b = 0 := Subsingleton.elim _ _
  obtain rfl : z = 0 := Subsingleton.elim _ _
  exact (Cert.ReferenceIdeal.RefVal.ref_outValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) n).trans
    (HandVal.kernel_value m c n).symm

-- the kernel program ends at its last boundary's contents, the reference at its operations' value of equal arguments
open Cert.KernelIdeal in
theorem algebraic : Cert.algebraic_KernelIdeal_ReferenceIdeal := by
  intro m ρ m' ρ' _ hagree
  refine ⟨fun c => Hand.U14 m c main_v50, fun c => Hand.U14 m c main_v51, ?_, ?_⟩
  · refine (θ_run Cert.KernelIdeal.defs _ _).mono (fun r h c => ?_) (Hand.run_main m ρ)
    exact ⟨h c _ (Hand.mem_uc main_v50 (by decide)), h c _ (Hand.mem_uc main_v51 (by decide)),
      Hand.args_kept m c r.2.mem fun b hb => (h c b hb).trans (congrFun (Hand.V_eq14 m c) b).symm⟩
  · refine (θ_run Cert.ReferenceIdeal.defs _ _).mono (fun r h c => ?_) (Cert.ReferenceIdeal.RefRun.run (F := Ideal) m' ρ')
    obtain ⟨h0, h1, h2, h3, h4, h5, h6, h7, h8, h9, h10, h11, h12, h13⟩ := hagree c
    exact ⟨(h c).1.trans (logp_eq m c _ _ _ _ _ _ _ _ _ _ _ _ h0 h1 h2 h3 h4 h5 h6 h7 h8 h9 h10 h11),
      (h c).2.1.trans (value_eq m c _ _ _ _ _ _ _ _ _ _ _ _ h0 h1 h2 h3 h4 h5 h6 h7 h8 h9 h12 h13), (h c).2.2⟩

end Cert.Proof

end
-- ==== Proof.lean ====
/-
  A recurrent communication network over 2048 agents: an encoder tanh (obs · enc_wᵀ + enc_b), an LSTM step from zero
  states, two rounds of hard gate, gated sum over the other agents and LSTM step, then a log-softmax head and a value
  head. Both kernel programs run and keep their arguments; the reference runs; and over the extended reals the kernel
  program and the reference end with the same two arrays, each being the network of `Cert.Spec` at the arguments.
  The precondition (finite inputs) is not used by any of the five conjuncts.
-/
import proofs.«412769_j28716151341139_3_alg».proof.Defs
import proofs.«412769_j28716151341139_3_alg».proof.Proof.Gen.Kernel
import proofs.«412769_j28716151341139_3_alg».proof.Proof.Gen.KernelIdeal
import proofs.«412769_j28716151341139_3_alg».proof.Proof.Gen.ReferenceIdeal
import proofs.«412769_j28716151341139_3_alg».proof.Proof.Gen.Pre_finite_inputs
import proofs.«412769_j28716151341139_3_alg».proof.Proof.K.Run
import proofs.«412769_j28716151341139_3_alg».proof.Proof.KI.Run
import proofs.«412769_j28716151341139_3_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_r, preserves, algebraic⟩

end Cert.Proof

end
